-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v620)) (v1 : (c : Dev Cert.KernelIdeal.nD) → Buf (Elt Ideal) ((c.tc : Thread Cert.KernelIdeal.nD Cert.KernelIdeal.τ).loc Cert.KernelIdeal.main_v625)) (v2 : (c : Dev Cert.KernelIdeal.nD) → Buf (Elt Ideal) ((c.tc : Thread Cert.KernelIdeal.nD Cert.KernelIdeal.τ).loc Cert.KernelIdeal.main_v628)) (v3 : (c : Dev Cert.KernelIdeal.nD) → Buf (Elt Ideal) ((c.tc : Thread Cert.KernelIdeal.nD Cert.KernelIdeal.τ).loc Cert.KernelIdeal.main_v616)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v620) = v0 c
          ∧ r.2.mem ((c.tc : Thread Cert.KernelIdeal.nD Cert.KernelIdeal.τ).loc Cert.KernelIdeal.main_v625) = v1 c
          ∧ r.2.mem ((c.tc : Thread Cert.KernelIdeal.nD Cert.KernelIdeal.τ).loc Cert.KernelIdeal.main_v628) = v2 c
          ∧ r.2.mem ((c.tc : Thread Cert.KernelIdeal.nD Cert.KernelIdeal.τ).loc Cert.KernelIdeal.main_v616) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v642) = v1 c
          ∧ r.2.mem ((c.tc : Thread Cert.ReferenceIdeal.nD Cert.ReferenceIdeal.τ).loc Cert.ReferenceIdeal.main_v652) = v2 c
          ∧ r.2.mem ((c.tc : Thread Cert.ReferenceIdeal.nD Cert.ReferenceIdeal.τ).loc Cert.ReferenceIdeal.main_v626) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4 : Shape := ⟨2, ![16384, 4]⟩
abbrev S10x10x10x4 : Shape := ⟨4, ![10, 10, 10, 4]⟩
abbrev S4x2048 : Shape := ⟨2, ![4, 2048]⟩
abbrev S2048 : Shape := ⟨1, ![2048]⟩
abbrev S2048x4096 : Shape := ⟨2, ![2048, 4096]⟩
abbrev S4096 : Shape := ⟨1, ![4096]⟩
abbrev S4096x2048 : Shape := ⟨2, ![4096, 2048]⟩
abbrev S2048x1024 : Shape := ⟨2, ![2048, 1024]⟩
abbrev S1024 : Shape := ⟨1, ![1024]⟩
abbrev S1024x1 : Shape := ⟨2, ![1024, 1]⟩
abbrev S1 : Shape := ⟨1, ![1]⟩
abbrev S2048x1 : Shape := ⟨2, ![2048, 1]⟩
abbrev S_ : Shape := ⟨0, ![]⟩

class Facts : Prop where
  bcast_S_S16384x4 : S_.BroadcastsInDim S16384x4 (![] : Fin 0 → Fin S16384x4.rank)
  reducesTo_S16384x4_S_d0_1 : S16384x4.ReducesTo [0, 1] S_
  h_S_ : 0 < S_.numel
  bcast_S_S10x10x10x4 : S_.BroadcastsInDim S10x10x10x4 (![] : Fin 0 → Fin S10x10x10x4.rank)
  reducesTo_S10x10x10x4_S_d0_1_2_3 : S10x10x10x4.ReducesTo [0, 1, 2, 3] S_
  bcast_S_S4x2048 : S_.BroadcastsInDim S4x2048 (![] : Fin 0 → Fin S4x2048.rank)
  reducesTo_S4x2048_S_d0_1 : S4x2048.ReducesTo [0, 1] S_
  bcast_S_S2048 : S_.BroadcastsInDim S2048 (![] : Fin 0 → Fin S2048.rank)
  reducesTo_S2048_S_d0 : S2048.ReducesTo [0] S_
  bcast_S_S2048x4096 : S_.BroadcastsInDim S2048x4096 (![] : Fin 0 → Fin S2048x4096.rank)
  reducesTo_S2048x4096_S_d0_1 : S2048x4096.ReducesTo [0, 1] S_
  bcast_S_S4096 : S_.BroadcastsInDim S4096 (![] : Fin 0 → Fin S4096.rank)
  reducesTo_S4096_S_d0 : S4096.ReducesTo [0] S_
  bcast_S_S4096x2048 : S_.BroadcastsInDim S4096x2048 (![] : Fin 0 → Fin S4096x2048.rank)
  reducesTo_S4096x2048_S_d0_1 : S4096x2048.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_
  bcast_S_S2048x1 : S_.BroadcastsInDim S2048x1 (![] : Fin 0 → Fin S2048x1.rank)
  reducesTo_S2048x1_S_d0_1 : S2048x1.ReducesTo [0, 1] S_

variable [Facts]

def fn_part4 {F : FTy → Type} [FloatOps F] (main_arg14 : FVec F S2048x1 .f32) (main_arg15 : FVec F S1 .f32) (main_v63 : IVec S_ 1) (main_v67 : IVec S_ 1) : IVec S_ 1 :=
  let main_v68 : IVec S_ 1 := andi main_v63 main_v67
  let main_v69 : FVec F S2048x1 .f32 := Host.absf main_arg14
  let main_cst_26 : FVec F S_ .f32 := constant S_ .f32 0x7F800000#32
  let main_v70 : FVec F S2048x1 .f32 := broadcastInDim S2048x1 ![] bcast_S_S2048x1 main_cst_26
  let main_v71 : IVec S2048x1 1 := cmpf .olt main_v69 main_v70
  let main_c_27 : IVec S_ 1 := constantI S_ 1 1#1
  let main_v72 : IVec S_ 1 := (fun x v => Host.reduce IntOp.andi x v reducesTo_S2048x1_S_d0_1 h_S_) main_v71 main_c_27
  let main_v73 : IVec S_ 1 := andi main_v68 main_v72
  let main_v74 : FVec F S1 .f32 := Host.absf main_arg15
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg11 : FVec F S1 .f32) (main_arg12 : FVec F S4096x2048 .f32) (main_arg13 : FVec F S2048 .f32) (main_arg14 : FVec F S2048x1 .f32) (main_arg15 : FVec F S1 .f32) (main_v48 : IVec S_ 1) (main_v49 : FVec F S1024x1 .f32) (main_v50 : FVec F S1024x1 .f32) : IVec S_ 1 :=
  let main_v51 : IVec S1024x1 1 := cmpf .olt main_v49 main_v50
  let main_c_19 : IVec S_ 1 := constantI S_ 1 1#1
  let main_v52 : IVec S_ 1 := (fun x v => Host.reduce IntOp.andi x v reducesTo_S1024x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_v59 : FVec F S4096x2048 .f32 := Host.absf main_arg12
  let main_cst_22 : FVec F S_ .f32 := constant S_ .f32 0x7F800000#32
  let main_v60 : FVec F S4096x2048 .f32 := broadcastInDim S4096x2048 ![] bcast_S_S4096x2048 main_cst_22
  let main_v61 : IVec S4096x2048 1 := cmpf .olt main_v59 main_v60
  let main_c_23 : IVec S_ 1 := constantI S_ 1 1#1
  let main_v62 : IVec S_ 1 := (fun x v => Host.reduce IntOp.andi x v reducesTo_S4096x2048_S_d0_1 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_arg14 main_arg15 main_v63 main_v67

def fn_part2 {F : FTy → Type} [FloatOps F] (main_arg7 : FVec F S2048 .f32) (main_arg8 : FVec F S2048x1024 .f32) (main_arg9 : FVec F S1024 .f32) (main_arg10 : FVec F S1024x1 .f32) (main_arg11 : FVec F S1 .f32) (main_arg12 : FVec F S4096x2048 .f32) (main_arg13 : FVec F S2048 .f32) (main_arg14 : FVec F S2048x1 .f32) (main_arg15 : FVec F S1 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x1024 .f32 := Host.absf main_arg8
  let main_cst_14 : FVec F S_ .f32 := constant S_ .f32 0x7F800000#32
  let main_v40 : FVec F S2048x1024 .f32 := broadcastInDim S2048x1024 ![] bcast_S_S2048x1024 main_cst_14
  let main_v41 : IVec S2048x1024 1 := cmpf .olt main_v39 main_v40
  let main_c_15 : IVec S_ 1 := constantI S_ 1 1#1
  let main_v42 : IVec S_ 1 := (fun x v => Host.reduce IntOp.andi x v reducesTo_S2048x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1 .f32 := Host.absf main_arg10
  let main_cst_18 : FVec F S_ .f32 := constant S_ .f32 0x7F800000#32
  let main_v50 : FVec F S1024x1 .f32 := broadcastInDim S1024x1 ![] bcast_S_S1024x1 main_cst_18
  fn_part3 (F := F) main_arg11 main_arg12 main_arg13 main_arg14 main_arg15 main_v48 main_v49 main_v50

def fn_part1 {F : FTy → Type} [FloatOps F] (main_arg4 : FVec F S2048x4096 .f32) (main_arg5 : FVec F S4096 .f32) (main_arg6 : FVec F S4096x2048 .f32) (main_arg7 : FVec F S2048 .f32) (main_arg8 : FVec F S2048x1024 .f32) (main_arg9 : FVec F S1024 .f32) (main_arg10 : FVec F S1024x1 .f32) (main_arg11 : FVec F S1 .f32) (main_arg12 : FVec F S4096x2048 .f32) (main_arg13 : FVec F S2048 .f32) (main_arg14 : FVec F S2048x1 .f32) (main_arg15 : FVec F S1 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x4096 .f32 := Host.absf main_arg4
  let main_cst_6 : FVec F S_ .f32 := constant S_ .f32 0x7F800000#32
  let main_v20 : FVec F S2048x4096 .f32 := broadcastInDim S2048x4096 ![] bcast_S_S2048x4096 main_cst_6
  let main_v21 : IVec S2048x4096 1 := cmpf .olt main_v19 main_v20
  let main_c_7 : IVec S_ 1 := constantI S_ 1 1#1
  let main_v22 : IVec S_ 1 := (fun x v => Host.reduce IntOp.andi x v reducesTo_S2048x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096x2048 .f32 := Host.absf main_arg6
  let main_cst_10 : FVec F S_ .f32 := constant S_ .f32 0x7F800000#32
  let main_v30 : FVec F S4096x2048 .f32 := broadcastInDim S4096x2048 ![] bcast_S_S4096x2048 main_cst_10
  let main_v31 : IVec S4096x2048 1 := cmpf .olt main_v29 main_v30
  let main_c_11 : IVec S_ 1 := constantI S_ 1 1#1
  let main_v32 : IVec S_ 1 := (fun x v => Host.reduce IntOp.andi x v reducesTo_S4096x2048_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S16384x4 .f32) (main_arg1 : FVec F S10x10x10x4 .f32) (main_arg2 : FVec F S4x2048 .f32) (main_arg3 : FVec F S2048 .f32) (main_arg4 : FVec F S2048x4096 .f32) (main_arg5 : FVec F S4096 .f32) (main_arg6 : FVec F S4096x2048 .f32) (main_arg7 : FVec F S2048 .f32) (main_arg8 : FVec F S2048x1024 .f32) (main_arg9 : FVec F S1024 .f32) (main_arg10 : FVec F S1024x1 .f32) (main_arg11 : FVec F S1 .f32) (main_arg12 : FVec F S4096x2048 .f32) (main_arg13 : FVec F S2048 .f32) (main_arg14 : FVec F S2048x1 .f32) (main_arg15 : FVec F S1 .f32) : IVec S_ 1 :=
  let main_v0 : FVec F S16384x4 .f32 := Host.absf main_arg0
  let main_cst : FVec F S_ .f32 := constant S_ .f32 0x7F800000#32
  let main_v1 : FVec F S16384x4 .f32 := broadcastInDim S16384x4 ![] bcast_S_S16384x4 main_cst
  let main_v2 : IVec S16384x4 1 := cmpf .olt main_v0 main_v1
  let main_c : IVec S_ 1 := constantI S_ 1 1#1
  let main_v3 : IVec S_ 1 := (fun x v => Host.reduce IntOp.andi x v reducesTo_S16384x4_S_d0_1 h_S_) main_v2 main_c
  let main_v4 : FVec F S10x10x10x4 .f32 := Host.absf main_arg1
  let main_cst_0 : FVec F S_ .f32 := constant S_ .f32 0x7F800000#32
  let main_v5 : FVec F S10x10x10x4 .f32 := broadcastInDim S10x10x10x4 ![] bcast_S_S10x10x10x4 main_cst_0
  let main_v6 : IVec S10x10x10x4 1 := cmpf .olt main_v4 main_v5
  let main_c_1 : IVec S_ 1 := constantI S_ 1 1#1
  let main_v7 : IVec S_ 1 := (fun x v => Host.reduce IntOp.andi x v reducesTo_S10x10x10x4_S_d0_1_2_3 h_S_) main_v6 main_c_1
  let main_v8 : IVec S_ 1 := andi main_v3 main_v7
  let main_v9 : FVec F S4x2048 .f32 := Host.absf main_arg2
  let main_cst_2 : FVec F S_ .f32 := constant S_ .f32 0x7F800000#32
  let main_v10 : FVec F S4x2048 .f32 := broadcastInDim S4x2048 ![] bcast_S_S4x2048 main_cst_2
  let main_v11 : IVec S4x2048 1 := cmpf .olt main_v9 main_v10
  let main_c_3 : IVec S_ 1 := constantI S_ 1 1#1
  let main_v12 : IVec S_ 1 := (fun x v => Host.reduce IntOp.andi x v reducesTo_S4x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S16384x4 : Shape := ⟨2, ![16384, 4]⟩
abbrev S10x10x10x4 : Shape := ⟨4, ![10, 10, 10, 4]⟩
abbrev S4x2048 : Shape := ⟨2, ![4, 2048]⟩
abbrev S2048 : Shape := ⟨1, ![2048]⟩
abbrev S2048x4096 : Shape := ⟨2, ![2048, 4096]⟩
abbrev S4096 : Shape := ⟨1, ![4096]⟩
abbrev S4096x2048 : Shape := ⟨2, ![4096, 2048]⟩
abbrev S2048x1024 : Shape := ⟨2, ![2048, 1024]⟩
abbrev S1024 : Shape := ⟨1, ![1024]⟩
abbrev S1024x1 : Shape := ⟨2, ![1024, 1]⟩
abbrev S1 : Shape := ⟨1, ![1]⟩
abbrev S2048x1 : Shape := ⟨2, ![2048, 1]⟩
abbrev S1x4 : Shape := ⟨2, ![1, 4]⟩
abbrev S4 : Shape := ⟨1, ![4]⟩
abbrev S_ : Shape := ⟨0, ![]⟩
abbrev S1x1x1x1 : Shape := ⟨4, ![1, 1, 1, 1]⟩
abbrev S16384x4096 : Shape := ⟨2, ![16384, 4096]⟩
abbrev S1024x4 : Shape := ⟨2, ![1024, 4]⟩
abbrev S1024x1024 : Shape := ⟨2, ![1024, 1024]⟩
abbrev S1024x2048 : Shape := ⟨2, ![1024, 2048]⟩
abbrev S1x2048 : Shape := ⟨2, ![1, 2048]⟩
abbrev S1x1024 : Shape := ⟨2, ![1, 1024]⟩
abbrev S16384x1 : Shape := ⟨2, ![16384, 1]⟩
abbrev S512x4096 : Shape := ⟨2, ![512, 4096]⟩
abbrev S512x1 : Shape := ⟨2, ![512, 1]⟩
abbrev S512x2048 : Shape := ⟨2, ![512, 2048]⟩
abbrev S512x1024 : Shape := ⟨2, ![512, 1024]⟩
abbrev S1x1 : Shape := ⟨2, ![1, 1]⟩

abbrev nBuf : Space → Nat
  | .hbm => 1159
  | .vmem => 28
  | .smem => 0
  | _ => 0

abbrev hbmTy0_0 (i : Nat) : BufTy := match i % 128 with
  | 0 => ⟨S16384x4, .f32⟩
  | 1 => ⟨S10x10x10x4, .f32⟩
  | 2 => ⟨S4x2048, .f32⟩
  | 3 => ⟨S2048, .f32⟩
  | 4 => ⟨S2048x4096, .f32⟩
  | 5 => ⟨S4096, .f32⟩
  | 6 => ⟨S4096x2048, .f32⟩
  | 7 => ⟨S2048, .f32⟩
  | 8 => ⟨S2048x1024, .f32⟩
  | 9 => ⟨S1024, .f32⟩
  | 10 => ⟨S1024x1, .f32⟩
  | 11 => ⟨S1, .f32⟩
  | 12 => ⟨S4096x2048, .f32⟩
  | 13 => ⟨S2048, .f32⟩
  | 14 => ⟨S2048x1, .f32⟩
  | 15 => ⟨S1, .f32⟩
  | 16 => ⟨S1x4, .f32⟩
  | 17 => ⟨S4, .f32⟩
  | 18 => ⟨S4, .i32⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S4, .i32⟩
  | 26 => ⟨S4, .i32⟩
  | 27 => ⟨S_, .i32⟩
  | 28 => ⟨S4, .i32⟩
  | 29 => ⟨S4, .i1⟩
  | 30 => ⟨S_, .i32⟩
  | 31 => ⟨S4, .i32⟩
  | 32 => ⟨S4, .i1⟩
  | 33 => ⟨S_, .i32⟩
  | 34 => ⟨S_, .i1⟩
  | 35 => ⟨S4, .i1⟩
  | 36 => ⟨S4, .i1⟩
  | 37 => ⟨S4, .i1⟩
  | 38 => ⟨S4, .i32⟩
  | 39 => ⟨S4, .i32⟩
  | 40 => ⟨S4, .i32⟩
  | 41 => ⟨S_, .f32⟩
  | 42 => ⟨S1, .f32⟩
  | 43 => ⟨S1, .i32⟩
  | 44 => ⟨S_, .i32⟩
  | 45 => ⟨S1, .i32⟩
  | 46 => ⟨S_, .i32⟩
  | 47 => ⟨S1, .i32⟩
  | 48 => ⟨S_, .i32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S_, .i32⟩
  | 70 => ⟨S_, .i32⟩
  | 71 => ⟨S_, .i32⟩
  | 72 => ⟨S1x1x1x1, .f32⟩
  | 73 => ⟨S_, .f32⟩
  | 74 => ⟨S1, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i1⟩
  | 82 => ⟨S_, .i32⟩
  | 83 => ⟨S_, .i32⟩
  | 84 => ⟨S_, .i32⟩
  | 85 => ⟨S_, .i32⟩
  | 86 => ⟨S_, .i1⟩
  | 87 => ⟨S_, .i32⟩
  | 88 => ⟨S_, .i1⟩
  | 89 => ⟨S_, .i32⟩
  | 90 => ⟨S_, .i1⟩
  | 91 => ⟨S_, .i1⟩
  | 92 => ⟨S_, .i1⟩
  | 93 => ⟨S_, .i32⟩
  | 94 => ⟨S_, .i32⟩
  | 95 => ⟨S_, .i32⟩
  | 96 => ⟨S1, .i32⟩
  | 97 => ⟨S4, .i32⟩
  | 98 => ⟨S1, .i32⟩
  | 99 => ⟨S_, .i32⟩
  | 100 => ⟨S1, .i32⟩
  | 101 => ⟨S_, .i32⟩
  | 102 => ⟨S1, .i32⟩
  | 103 => ⟨S_, .i32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S_, .i1⟩
  | 111 => ⟨S_, .i32⟩
  | 112 => ⟨S_, .i32⟩
  | 113 => ⟨S_, .i32⟩
  | 114 => ⟨S_, .i32⟩
  | 115 => ⟨S_, .i1⟩
  | 116 => ⟨S_, .i32⟩
  | 117 => ⟨S_, .i32⟩
  | 118 => ⟨S_, .i32⟩
  | 119 => ⟨S_, .i32⟩
  | 120 => ⟨S_, .i32⟩
  | 121 => ⟨S_, .i1⟩
  | 122 => ⟨S_, .i32⟩
  | 123 => ⟨S_, .i32⟩
  | 124 => ⟨S_, .i32⟩
  | 125 => ⟨S_, .i32⟩
  | 126 => ⟨S_, .i32⟩
  | 127 => ⟨S1x1x1x1, .f32⟩
  | _ => ⟨S16384x4, .f32⟩

abbrev hbmTy0_1 (i : Nat) : BufTy := match i % 128 with
  | 0 => ⟨S_, .f32⟩
  | 1 => ⟨S1, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i1⟩
  | 9 => ⟨S_, .i32⟩
  | 10 => ⟨S_, .i32⟩
  | 11 => ⟨S_, .i32⟩
  | 12 => ⟨S_, .i32⟩
  | 13 => ⟨S_, .i1⟩
  | 14 => ⟨S_, .i32⟩
  | 15 => ⟨S_, .i1⟩
  | 16 => ⟨S_, .i32⟩
  | 17 => ⟨S_, .i1⟩
  | 18 => ⟨S_, .i1⟩
  | 19 => ⟨S_, .i1⟩
  | 20 => ⟨S_, .i32⟩
  | 21 => ⟨S_, .i32⟩
  | 22 => ⟨S_, .i32⟩
  | 23 => ⟨S1, .i32⟩
  | 24 => ⟨S4, .i32⟩
  | 25 => ⟨S1, .i32⟩
  | 26 => ⟨S_, .i32⟩
  | 27 => ⟨S1, .i32⟩
  | 28 => ⟨S_, .i32⟩
  | 29 => ⟨S1, .i32⟩
  | 30 => ⟨S_, .i32⟩
  | 31 => ⟨S_, .i32⟩
  | 32 => ⟨S_, .i1⟩
  | 33 => ⟨S_, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i32⟩
  | 54 => ⟨S1x1x1x1, .f32⟩
  | 55 => ⟨S_, .f32⟩
  | 56 => ⟨S_, .f32⟩
  | 57 => ⟨S_, .i32⟩
  | 58 => ⟨S1, .i32⟩
  | 59 => ⟨S_, .i32⟩
  | 60 => ⟨S4, .i32⟩
  | 61 => ⟨S1, .i32⟩
  | 62 => ⟨S_, .i32⟩
  | 63 => ⟨S1, .i32⟩
  | 64 => ⟨S_, .i32⟩
  | 65 => ⟨S1, .i32⟩
  | 66 => ⟨S_, .i32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S_, .i32⟩
  | 88 => ⟨S_, .i32⟩
  | 89 => ⟨S_, .i32⟩
  | 90 => ⟨S1x1x1x1, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S1, .f32⟩
  | 98 => ⟨S1, .f32⟩
  | 99 => ⟨S1, .i32⟩
  | 100 => ⟨S_, .i32⟩
  | 101 => ⟨S1, .i32⟩
  | 102 => ⟨S_, .i32⟩
  | 103 => ⟨S1, .i32⟩
  | 104 => ⟨S_, .i32⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S_, .i32⟩
  | 122 => ⟨S_, .i1⟩
  | 123 => ⟨S_, .i32⟩
  | 124 => ⟨S_, .i32⟩
  | 125 => ⟨S_, .i32⟩
  | 126 => ⟨S_, .i32⟩
  | 127 => ⟨S_, .i32⟩
  | _ => ⟨S16384x4, .f32⟩

abbrev hbmTy0_2 (i : Nat) : BufTy := match i % 128 with
  | 0 => ⟨S1x1x1x1, .f32⟩
  | 1 => ⟨S_, .f32⟩
  | 2 => ⟨S1, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S_, .i32⟩
  | 13 => ⟨S_, .i32⟩
  | 14 => ⟨S_, .i1⟩
  | 15 => ⟨S_, .i32⟩
  | 16 => ⟨S_, .i1⟩
  | 17 => ⟨S_, .i32⟩
  | 18 => ⟨S_, .i1⟩
  | 19 => ⟨S_, .i1⟩
  | 20 => ⟨S_, .i1⟩
  | 21 => ⟨S_, .i32⟩
  | 22 => ⟨S_, .i32⟩
  | 23 => ⟨S_, .i32⟩
  | 24 => ⟨S1, .i32⟩
  | 25 => ⟨S4, .i32⟩
  | 26 => ⟨S1, .i32⟩
  | 27 => ⟨S_, .i32⟩
  | 28 => ⟨S1, .i32⟩
  | 29 => ⟨S_, .i32⟩
  | 30 => ⟨S1, .i32⟩
  | 31 => ⟨S_, .i32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i32⟩
  | 55 => ⟨S1x1x1x1, .f32⟩
  | 56 => ⟨S_, .f32⟩
  | 57 => ⟨S1, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S_, .i1⟩
  | 70 => ⟨S_, .i32⟩
  | 71 => ⟨S_, .i1⟩
  | 72 => ⟨S_, .i32⟩
  | 73 => ⟨S_, .i1⟩
  | 74 => ⟨S_, .i1⟩
  | 75 => ⟨S_, .i1⟩
  | 76 => ⟨S_, .i32⟩
  | 77 => ⟨S_, .i32⟩
  | 78 => ⟨S_, .i32⟩
  | 79 => ⟨S1, .i32⟩
  | 80 => ⟨S4, .i32⟩
  | 81 => ⟨S1, .i32⟩
  | 82 => ⟨S_, .i32⟩
  | 83 => ⟨S1, .i32⟩
  | 84 => ⟨S_, .i32⟩
  | 85 => ⟨S1, .i32⟩
  | 86 => ⟨S_, .i32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S_, .i32⟩
  | 110 => ⟨S1x1x1x1, .f32⟩
  | 111 => ⟨S_, .f32⟩
  | 112 => ⟨S_, .f32⟩
  | 113 => ⟨S_, .i32⟩
  | 114 => ⟨S1, .i32⟩
  | 115 => ⟨S_, .i32⟩
  | 116 => ⟨S4, .i32⟩
  | 117 => ⟨S1, .i32⟩
  | 118 => ⟨S_, .i32⟩
  | 119 => ⟨S1, .i32⟩
  | 120 => ⟨S_, .i32⟩
  | 121 => ⟨S1, .i32⟩
  | 122 => ⟨S_, .i32⟩
  | 123 => ⟨S_, .i32⟩
  | 124 => ⟨S_, .i1⟩
  | 125 => ⟨S_, .i32⟩
  | 126 => ⟨S_, .i32⟩
  | 127 => ⟨S_, .i32⟩
  | _ => ⟨S16384x4, .f32⟩

abbrev hbmTy0_3 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S_, .i32⟩
  | 6 => ⟨S_, .i1⟩
  | 7 => ⟨S_, .i32⟩
  | 8 => ⟨S_, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S_, .i32⟩
  | 16 => ⟨S_, .i32⟩
  | 17 => ⟨S_, .i32⟩
  | 18 => ⟨S1x1x1x1, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S1, .f32⟩
  | 26 => ⟨S1, .f32⟩
  | 27 => ⟨S1, .i32⟩
  | 28 => ⟨S_, .i32⟩
  | 29 => ⟨S1, .i32⟩
  | 30 => ⟨S_, .i32⟩
  | 31 => ⟨S1, .i32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S_, .i32⟩
  | 56 => ⟨S1x1x1x1, .f32⟩
  | 57 => ⟨S_, .f32⟩
  | 58 => ⟨S1, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S_, .i32⟩
  | 69 => ⟨S_, .i32⟩
  | 70 => ⟨S_, .i1⟩
  | 71 => ⟨S_, .i32⟩
  | 72 => ⟨S_, .i1⟩
  | 73 => ⟨S_, .i32⟩
  | 74 => ⟨S_, .i1⟩
  | 75 => ⟨S_, .i1⟩
  | 76 => ⟨S_, .i1⟩
  | 77 => ⟨S_, .i32⟩
  | 78 => ⟨S_, .i32⟩
  | 79 => ⟨S_, .i32⟩
  | 80 => ⟨S1, .i32⟩
  | 81 => ⟨S4, .i32⟩
  | 82 => ⟨S1, .i32⟩
  | 83 => ⟨S_, .i32⟩
  | 84 => ⟨S1, .i32⟩
  | 85 => ⟨S_, .i32⟩
  | 86 => ⟨S1, .i32⟩
  | 87 => ⟨S_, .i32⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S_, .i32⟩
  | 111 => ⟨S1x1x1x1, .f32⟩
  | 112 => ⟨S_, .f32⟩
  | 113 => ⟨S1, .i32⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i1⟩
  | 121 => ⟨S_, .i32⟩
  | 122 => ⟨S_, .i32⟩
  | 123 => ⟨S_, .i32⟩
  | 124 => ⟨S_, .i32⟩
  | 125 => ⟨S_, .i1⟩
  | 126 => ⟨S_, .i32⟩
  | 127 => ⟨S_, .i1⟩
  | _ => ⟨S16384x4, .f32⟩

abbrev hbmTy0_4 (i : Nat) : BufTy := match i % 128 with
  | 0 => ⟨S_, .i32⟩
  | 1 => ⟨S_, .i1⟩
  | 2 => ⟨S_, .i1⟩
  | 3 => ⟨S_, .i1⟩
  | 4 => ⟨S_, .i32⟩
  | 5 => ⟨S_, .i32⟩
  | 6 => ⟨S_, .i32⟩
  | 7 => ⟨S1, .i32⟩
  | 8 => ⟨S4, .i32⟩
  | 9 => ⟨S1, .i32⟩
  | 10 => ⟨S_, .i32⟩
  | 11 => ⟨S1, .i32⟩
  | 12 => ⟨S_, .i32⟩
  | 13 => ⟨S1, .i32⟩
  | 14 => ⟨S_, .i32⟩
  | 15 => ⟨S_, .i32⟩
  | 16 => ⟨S_, .i1⟩
  | 17 => ⟨S_, .i32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S_, .i32⟩
  | 36 => ⟨S_, .i32⟩
  | 37 => ⟨S_, .i32⟩
  | 38 => ⟨S1x1x1x1, .f32⟩
  | 39 => ⟨S_, .f32⟩
  | 40 => ⟨S_, .f32⟩
  | 41 => ⟨S_, .i32⟩
  | 42 => ⟨S1, .i32⟩
  | 43 => ⟨S_, .i32⟩
  | 44 => ⟨S4, .i32⟩
  | 45 => ⟨S1, .i32⟩
  | 46 => ⟨S_, .i32⟩
  | 47 => ⟨S1, .i32⟩
  | 48 => ⟨S_, .i32⟩
  | 49 => ⟨S1, .i32⟩
  | 50 => ⟨S_, .i32⟩
  | 51 => ⟨S_, .i32⟩
  | 52 => ⟨S_, .i1⟩
  | 53 => ⟨S_, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S_, .i32⟩
  | 74 => ⟨S1x1x1x1, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S1, .f32⟩
  | 82 => ⟨S1, .f32⟩
  | 83 => ⟨S1, .i32⟩
  | 84 => ⟨S_, .i32⟩
  | 85 => ⟨S1, .i32⟩
  | 86 => ⟨S_, .i32⟩
  | 87 => ⟨S1, .i32⟩
  | 88 => ⟨S_, .i32⟩
  | 89 => ⟨S_, .i32⟩
  | 90 => ⟨S_, .i1⟩
  | 91 => ⟨S_, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S_, .i32⟩
  | 112 => ⟨S1x1x1x1, .f32⟩
  | 113 => ⟨S_, .f32⟩
  | 114 => ⟨S1, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .i1⟩
  | 122 => ⟨S_, .i32⟩
  | 123 => ⟨S_, .i32⟩
  | 124 => ⟨S_, .i32⟩
  | 125 => ⟨S_, .i32⟩
  | 126 => ⟨S_, .i1⟩
  | 127 => ⟨S_, .i32⟩
  | _ => ⟨S16384x4, .f32⟩

abbrev hbmTy0_5 (i : Nat) : BufTy := match i % 128 with
  | 0 => ⟨S_, .i1⟩
  | 1 => ⟨S_, .i32⟩
  | 2 => ⟨S_, .i1⟩
  | 3 => ⟨S_, .i1⟩
  | 4 => ⟨S_, .i1⟩
  | 5 => ⟨S_, .i32⟩
  | 6 => ⟨S_, .i32⟩
  | 7 => ⟨S_, .i32⟩
  | 8 => ⟨S1, .i32⟩
  | 9 => ⟨S4, .i32⟩
  | 10 => ⟨S1, .i32⟩
  | 11 => ⟨S_, .i32⟩
  | 12 => ⟨S1, .i32⟩
  | 13 => ⟨S_, .i32⟩
  | 14 => ⟨S1, .i32⟩
  | 15 => ⟨S_, .i32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S_, .i32⟩
  | 39 => ⟨S1x1x1x1, .f32⟩
  | 40 => ⟨S_, .f32⟩
  | 41 => ⟨S1, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i1⟩
  | 54 => ⟨S_, .i32⟩
  | 55 => ⟨S_, .i1⟩
  | 56 => ⟨S_, .i32⟩
  | 57 => ⟨S_, .i1⟩
  | 58 => ⟨S_, .i1⟩
  | 59 => ⟨S_, .i1⟩
  | 60 => ⟨S_, .i32⟩
  | 61 => ⟨S_, .i32⟩
  | 62 => ⟨S_, .i32⟩
  | 63 => ⟨S1, .i32⟩
  | 64 => ⟨S4, .i32⟩
  | 65 => ⟨S1, .i32⟩
  | 66 => ⟨S_, .i32⟩
  | 67 => ⟨S1, .i32⟩
  | 68 => ⟨S_, .i32⟩
  | 69 => ⟨S1, .i32⟩
  | 70 => ⟨S_, .i32⟩
  | 71 => ⟨S_, .i32⟩
  | 72 => ⟨S_, .i1⟩
  | 73 => ⟨S_, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S_, .i32⟩
  | 94 => ⟨S1x1x1x1, .f32⟩
  | 95 => ⟨S_, .f32⟩
  | 96 => ⟨S_, .f32⟩
  | 97 => ⟨S_, .i32⟩
  | 98 => ⟨S1, .i32⟩
  | 99 => ⟨S_, .i32⟩
  | 100 => ⟨S4, .i32⟩
  | 101 => ⟨S1, .i32⟩
  | 102 => ⟨S_, .i32⟩
  | 103 => ⟨S1, .i32⟩
  | 104 => ⟨S_, .i32⟩
  | 105 => ⟨S1, .i32⟩
  | 106 => ⟨S_, .i32⟩
  | 107 => ⟨S_, .i32⟩
  | 108 => ⟨S_, .i1⟩
  | 109 => ⟨S_, .i32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S_, .i1⟩
  | 119 => ⟨S_, .i32⟩
  | 120 => ⟨S_, .i32⟩
  | 121 => ⟨S_, .i32⟩
  | 122 => ⟨S_, .i32⟩
  | 123 => ⟨S_, .i32⟩
  | 124 => ⟨S_, .i1⟩
  | 125 => ⟨S_, .i32⟩
  | 126 => ⟨S_, .i32⟩
  | 127 => ⟨S_, .i32⟩
  | _ => ⟨S16384x4, .f32⟩

abbrev hbmTy0_6 (i : Nat) : BufTy := match i % 128 with
  | 0 => ⟨S_, .i32⟩
  | 1 => ⟨S_, .i32⟩
  | 2 => ⟨S1x1x1x1, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S1, .f32⟩
  | 10 => ⟨S1, .f32⟩
  | 11 => ⟨S1, .i32⟩
  | 12 => ⟨S_, .i32⟩
  | 13 => ⟨S1, .i32⟩
  | 14 => ⟨S_, .i32⟩
  | 15 => ⟨S1, .i32⟩
  | 16 => ⟨S_, .i32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S1x1x1x1, .f32⟩
  | 41 => ⟨S_, .f32⟩
  | 42 => ⟨S1, .i32⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i1⟩
  | 55 => ⟨S_, .i32⟩
  | 56 => ⟨S_, .i1⟩
  | 57 => ⟨S_, .i32⟩
  | 58 => ⟨S_, .i1⟩
  | 59 => ⟨S_, .i1⟩
  | 60 => ⟨S_, .i1⟩
  | 61 => ⟨S_, .i32⟩
  | 62 => ⟨S_, .i32⟩
  | 63 => ⟨S_, .i32⟩
  | 64 => ⟨S1, .i32⟩
  | 65 => ⟨S4, .i32⟩
  | 66 => ⟨S1, .i32⟩
  | 67 => ⟨S_, .i32⟩
  | 68 => ⟨S1, .i32⟩
  | 69 => ⟨S_, .i32⟩
  | 70 => ⟨S1, .i32⟩
  | 71 => ⟨S_, .i32⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S_, .i32⟩
  | 95 => ⟨S1x1x1x1, .f32⟩
  | 96 => ⟨S_, .f32⟩
  | 97 => ⟨S1, .i32⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S_, .i1⟩
  | 110 => ⟨S_, .i32⟩
  | 111 => ⟨S_, .i1⟩
  | 112 => ⟨S_, .i32⟩
  | 113 => ⟨S_, .i1⟩
  | 114 => ⟨S_, .i1⟩
  | 115 => ⟨S_, .i1⟩
  | 116 => ⟨S_, .i32⟩
  | 117 => ⟨S_, .i32⟩
  | 118 => ⟨S_, .i32⟩
  | 119 => ⟨S1, .i32⟩
  | 120 => ⟨S4, .i32⟩
  | 121 => ⟨S1, .i32⟩
  | 122 => ⟨S_, .i32⟩
  | 123 => ⟨S1, .i32⟩
  | 124 => ⟨S_, .i32⟩
  | 125 => ⟨S1, .i32⟩
  | 126 => ⟨S_, .i32⟩
  | 127 => ⟨S_, .i32⟩
  | _ => ⟨S16384x4, .f32⟩

abbrev hbmTy0_7 (i : Nat) : BufTy := match i % 128 with
  | 0 => ⟨S_, .i1⟩
  | 1 => ⟨S_, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S_, .i32⟩
  | 20 => ⟨S_, .i32⟩
  | 21 => ⟨S_, .i32⟩
  | 22 => ⟨S1x1x1x1, .f32⟩
  | 23 => ⟨S_, .f32⟩
  | 24 => ⟨S_, .f32⟩
  | 25 => ⟨S_, .i32⟩
  | 26 => ⟨S1, .i32⟩
  | 27 => ⟨S_, .i32⟩
  | 28 => ⟨S4, .i32⟩
  | 29 => ⟨S1, .i32⟩
  | 30 => ⟨S_, .i32⟩
  | 31 => ⟨S1, .i32⟩
  | 32 => ⟨S_, .i32⟩
  | 33 => ⟨S1, .i32⟩
  | 34 => ⟨S_, .i32⟩
  | 35 => ⟨S_, .i32⟩
  | 36 => ⟨S_, .i1⟩
  | 37 => ⟨S_, .i32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S_, .i32⟩
  | 56 => ⟨S_, .i32⟩
  | 57 => ⟨S_, .i32⟩
  | 58 => ⟨S1x1x1x1, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S1, .f32⟩
  | 66 => ⟨S1, .f32⟩
  | 67 => ⟨S1, .i32⟩
  | 68 => ⟨S_, .i32⟩
  | 69 => ⟨S1, .i32⟩
  | 70 => ⟨S_, .i32⟩
  | 71 => ⟨S1, .i32⟩
  | 72 => ⟨S_, .i32⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S_, .i32⟩
  | 94 => ⟨S_, .i32⟩
  | 95 => ⟨S_, .i32⟩
  | 96 => ⟨S1x1x1x1, .f32⟩
  | 97 => ⟨S_, .f32⟩
  | 98 => ⟨S1, .i32⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S_, .i1⟩
  | 111 => ⟨S_, .i32⟩
  | 112 => ⟨S_, .i1⟩
  | 113 => ⟨S_, .i32⟩
  | 114 => ⟨S_, .i1⟩
  | 115 => ⟨S_, .i1⟩
  | 116 => ⟨S_, .i1⟩
  | 117 => ⟨S_, .i32⟩
  | 118 => ⟨S_, .i32⟩
  | 119 => ⟨S_, .i32⟩
  | 120 => ⟨S1, .i32⟩
  | 121 => ⟨S4, .i32⟩
  | 122 => ⟨S1, .i32⟩
  | 123 => ⟨S_, .i32⟩
  | 124 => ⟨S1, .i32⟩
  | 125 => ⟨S_, .i32⟩
  | 126 => ⟨S1, .i32⟩
  | 127 => ⟨S_, .i32⟩
  | _ => ⟨S16384x4, .f32⟩

abbrev hbmTy0_8 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S_, .i32⟩
  | 6 => ⟨S_, .i1⟩
  | 7 => ⟨S_, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S_, .i32⟩
  | 23 => ⟨S1x1x1x1, .f32⟩
  | 24 => ⟨S_, .f32⟩
  | 25 => ⟨S1, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S_, .i32⟩
  | 36 => ⟨S_, .i32⟩
  | 37 => ⟨S_, .i1⟩
  | 38 => ⟨S_, .i32⟩
  | 39 => ⟨S_, .i1⟩
  | 40 => ⟨S_, .i32⟩
  | 41 => ⟨S_, .i1⟩
  | 42 => ⟨S_, .i1⟩
  | 43 => ⟨S_, .i1⟩
  | 44 => ⟨S_, .i32⟩
  | 45 => ⟨S_, .i32⟩
  | 46 => ⟨S_, .i32⟩
  | 47 => ⟨S1, .i32⟩
  | 48 => ⟨S4, .i32⟩
  | 49 => ⟨S1, .i32⟩
  | 50 => ⟨S_, .i32⟩
  | 51 => ⟨S1, .i32⟩
  | 52 => ⟨S_, .i32⟩
  | 53 => ⟨S1, .i32⟩
  | 54 => ⟨S_, .i32⟩
  | 55 => ⟨S_, .i32⟩
  | 56 => ⟨S_, .i1⟩
  | 57 => ⟨S_, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S_, .i32⟩
  | 76 => ⟨S_, .i32⟩
  | 77 => ⟨S_, .i32⟩
  | 78 => ⟨S1x1x1x1, .f32⟩
  | 79 => ⟨S_, .f32⟩
  | 80 => ⟨S_, .f32⟩
  | 81 => ⟨S_, .i32⟩
  | 82 => ⟨S1, .i32⟩
  | 83 => ⟨S_, .i32⟩
  | 84 => ⟨S4, .i32⟩
  | 85 => ⟨S1, .i32⟩
  | 86 => ⟨S_, .i32⟩
  | 87 => ⟨S1, .i32⟩
  | 88 => ⟨S_, .i32⟩
  | 89 => ⟨S1, .i32⟩
  | 90 => ⟨S_, .i32⟩
  | 91 => ⟨S_, .i32⟩
  | 92 => ⟨S_, .i1⟩
  | 93 => ⟨S_, .i32⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S_, .i1⟩
  | 103 => ⟨S_, .i32⟩
  | 104 => ⟨S_, .i32⟩
  | 105 => ⟨S_, .i32⟩
  | 106 => ⟨S_, .i32⟩
  | 107 => ⟨S_, .i32⟩
  | 108 => ⟨S_, .i1⟩
  | 109 => ⟨S_, .i32⟩
  | 110 => ⟨S_, .i32⟩
  | 111 => ⟨S_, .i32⟩
  | 112 => ⟨S_, .i32⟩
  | 113 => ⟨S_, .i32⟩
  | 114 => ⟨S1x1x1x1, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S1, .f32⟩
  | 122 => ⟨S1, .f32⟩
  | 123 => ⟨S16384x4, .bf16⟩
  | 124 => ⟨S4x2048, .bf16⟩
  | 125 => ⟨S2048x4096, .bf16⟩
  | 126 => ⟨S16384x4096, .f32⟩
  | 127 => ⟨S16384x4096, .bf16⟩
  | _ => ⟨S16384x4, .f32⟩

abbrev hbmTy0_9 (i : Nat) : BufTy := match i % 128 with
  | 0 => ⟨S4096x2048, .bf16⟩
  | 1 => ⟨S2048x1024, .bf16⟩
  | 2 => ⟨S1024x1, .bf16⟩
  | 3 => ⟨S16384x1, .f32⟩
  | 4 => ⟨S4096x2048, .bf16⟩
  | 5 => ⟨S2048x1, .bf16⟩
  | 6 => ⟨S16384x1, .f32⟩
  | _ => ⟨S16384x4, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S16384x4, .f32⟩

abbrev bufTy : (tb : Table) → Fin (tcTables nBuf tb) → BufTy
  | .hbm, ⟨i, _⟩ => hbmTy i
  | .local _ .vmem, ⟨0, _⟩ => ⟨S1024x4, .bf16⟩
  | .local _ .vmem, ⟨1, _⟩ => ⟨S1024x4, .bf16⟩
  | .local _ .vmem, ⟨2, _⟩ => ⟨S4x2048, .bf16⟩
  | .local _ .vmem, ⟨3, _⟩ => ⟨S2048, .f32⟩
  | .local _ .vmem, ⟨4, _⟩ => ⟨S2048x1024, .bf16⟩
  | .local _ .vmem, ⟨5, _⟩ => ⟨S2048x1024, .bf16⟩
  | .local _ .vmem, ⟨6, _⟩ => ⟨S1024, .f32⟩
  | .local _ .vmem, ⟨7, _⟩ => ⟨S1024, .f32⟩
  | .local _ .vmem, ⟨8, _⟩ => ⟨S1024x1024, .f32⟩
  | .local _ .vmem, ⟨9, _⟩ => ⟨S1024x1024, .f32⟩
  | .local _ .vmem, ⟨10, _⟩ => ⟨S512x4096, .bf16⟩
  | .local _ .vmem, ⟨11, _⟩ => ⟨S512x4096, .bf16⟩
  | .local _ .vmem, ⟨12, _⟩ => ⟨S4096x2048, .bf16⟩
  | .local _ .vmem, ⟨13, _⟩ => ⟨S2048, .f32⟩
  | .local _ .vmem, ⟨14, _⟩ => ⟨S2048x1024, .bf16⟩
  | .local _ .vmem, ⟨15, _⟩ => ⟨S1024, .f32⟩
  | .local _ .vmem, ⟨16, _⟩ => ⟨S1024x1, .bf16⟩
  | .local _ .vmem, ⟨17, _⟩ => ⟨S1, .f32⟩
  | .local _ .vmem, ⟨18, _⟩ => ⟨S512x1, .f32⟩
  | .local _ .vmem, ⟨19, _⟩ => ⟨S512x1, .f32⟩
  | .local _ .vmem, ⟨20, _⟩ => ⟨S512x4096, .bf16⟩
  | .local _ .vmem, ⟨21, _⟩ => ⟨S512x4096, .bf16⟩
  | .local _ .vmem, ⟨22, _⟩ => ⟨S4096x2048, .bf16⟩
  | .local _ .vmem, ⟨23, _⟩ => ⟨S2048, .f32⟩
  | .local _ .vmem, ⟨24, _⟩ => ⟨S2048x1, .bf16⟩
  | .local _ .vmem, ⟨25, _⟩ => ⟨S1, .f32⟩
  | .local _ .vmem, ⟨26, _⟩ => ⟨S512x1, .f32⟩
  | .local _ .vmem, ⟨27, _⟩ => ⟨S512x1, .f32⟩
  | _, _ => ⟨S16384x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_c : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_1 : Ref sig .tc := ⟨.hbm, 27, rfl⟩
abbrev main_call0_v5 : Ref sig .tc := ⟨.hbm, 28, rfl⟩
abbrev main_call0_v6 : Ref sig .tc := ⟨.hbm, 29, rfl⟩
abbrev main_call0_c_2 : Ref sig .tc := ⟨.hbm, 30, rfl⟩
abbrev main_call0_v7 : Ref sig .tc := ⟨.hbm, 31, rfl⟩
abbrev main_call0_v8 : Ref sig .tc := ⟨.hbm, 32, rfl⟩
abbrev main_call0_c_3 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_v3 : Ref sig .tc := ⟨.hbm, 40, rfl⟩
abbrev main_cst : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_c_0 : Ref sig .tc := ⟨.hbm, 49, rfl⟩
abbrev main_v11 : Ref sig .tc := ⟨.hbm, 50, rfl⟩
abbrev main_c_1 : Ref sig .tc := ⟨.hbm, 51, rfl⟩
abbrev main_v12 : Ref sig .tc := ⟨.hbm, 52, rfl⟩
abbrev main_v13 : Ref sig .tc := ⟨.hbm, 53, rfl⟩
abbrev main_c_2 : Ref sig .tc := ⟨.hbm, 54, rfl⟩
abbrev main_v14 : Ref sig .tc := ⟨.hbm, 55, rfl⟩
abbrev main_c_3 : Ref sig .tc := ⟨.hbm, 56, rfl⟩
abbrev main_v15 : Ref sig .tc := ⟨.hbm, 57, rfl⟩
abbrev main_v16 : Ref sig .tc := ⟨.hbm, 58, rfl⟩
abbrev main_c_4 : Ref sig .tc := ⟨.hbm, 59, rfl⟩
abbrev main_v17 : Ref sig .tc := ⟨.hbm, 60, rfl⟩
abbrev main_c_5 : Ref sig .tc := ⟨.hbm, 61, rfl⟩
abbrev main_v18 : Ref sig .tc := ⟨.hbm, 62, rfl⟩
abbrev main_v19 : Ref sig .tc := ⟨.hbm, 63, rfl⟩
abbrev main_c_6 : Ref sig .tc := ⟨.hbm, 64, rfl⟩
abbrev main_c_7 : Ref sig .tc := ⟨.hbm, 65, rfl⟩
abbrev main_v20 : Ref sig .tc := ⟨.hbm, 66, rfl⟩
abbrev main_c_8 : Ref sig .tc := ⟨.hbm, 67, rfl⟩
abbrev main_c_9 : Ref sig .tc := ⟨.hbm, 68, rfl⟩
abbrev main_v21 : Ref sig .tc := ⟨.hbm, 69, rfl⟩
abbrev main_c_10 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_c_11 : Ref sig .tc := ⟨.hbm, 76, rfl⟩
abbrev main_v27 : Ref sig .tc := ⟨.hbm, 77, rfl⟩
abbrev main_c_12 : Ref sig .tc := ⟨.hbm, 78, rfl⟩
abbrev main_call1_v0 : Ref sig .tc := ⟨.hbm, 79, rfl⟩
abbrev main_call1_c : Ref sig .tc := ⟨.hbm, 80, rfl⟩
abbrev main_call1_v1 : Ref sig .tc := ⟨.hbm, 81, rfl⟩
abbrev main_call1_c_0 : Ref sig .tc := ⟨.hbm, 82, rfl⟩
abbrev main_call1_v2 : Ref sig .tc := ⟨.hbm, 83, rfl⟩
abbrev main_call1_v3 : Ref sig .tc := ⟨.hbm, 84, rfl⟩
abbrev main_call1_c_1 : Ref sig .tc := ⟨.hbm, 85, rfl⟩
abbrev main_call1_v4 : Ref sig .tc := ⟨.hbm, 86, rfl⟩
abbrev main_call1_c_2 : Ref sig .tc := ⟨.hbm, 87, rfl⟩
abbrev main_call1_v5 : Ref sig .tc := ⟨.hbm, 88, rfl⟩
abbrev main_call1_c_3 : Ref sig .tc := ⟨.hbm, 89, rfl⟩
abbrev main_call1_v6 : Ref sig .tc := ⟨.hbm, 90, rfl⟩
abbrev main_call1_v7 : Ref sig .tc := ⟨.hbm, 91, rfl⟩
abbrev main_call1_v8 : Ref sig .tc := ⟨.hbm, 92, rfl⟩
abbrev main_call1_v9 : Ref sig .tc := ⟨.hbm, 93, rfl⟩
abbrev main_v28 : Ref sig .tc := ⟨.hbm, 94, rfl⟩
abbrev main_c_13 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩
abbrev main_v36 : Ref sig .tc := ⟨.hbm, 103, rfl⟩
abbrev main_c_14 : Ref sig .tc := ⟨.hbm, 104, rfl⟩
abbrev main_v37 : Ref sig .tc := ⟨.hbm, 105, rfl⟩
abbrev main_c_15 : Ref sig .tc := ⟨.hbm, 106, rfl⟩
abbrev main_v38 : Ref sig .tc := ⟨.hbm, 107, rfl⟩
abbrev main_v39 : Ref sig .tc := ⟨.hbm, 108, rfl⟩
abbrev main_c_16 : Ref sig .tc := ⟨.hbm, 109, rfl⟩
abbrev main_v40 : Ref sig .tc := ⟨.hbm, 110, rfl⟩
abbrev main_c_17 : Ref sig .tc := ⟨.hbm, 111, rfl⟩
abbrev main_v41 : Ref sig .tc := ⟨.hbm, 112, rfl⟩
abbrev main_v42 : Ref sig .tc := ⟨.hbm, 113, rfl⟩
abbrev main_c_18 : Ref sig .tc := ⟨.hbm, 114, rfl⟩
abbrev main_v43 : Ref sig .tc := ⟨.hbm, 115, rfl⟩
abbrev main_c_19 : Ref sig .tc := ⟨.hbm, 116, rfl⟩
abbrev main_v44 : Ref sig .tc := ⟨.hbm, 117, rfl⟩
abbrev main_v45 : Ref sig .tc := ⟨.hbm, 118, rfl⟩
abbrev main_c_20 : Ref sig .tc := ⟨.hbm, 119, rfl⟩
abbrev main_c_21 : Ref sig .tc := ⟨.hbm, 120, rfl⟩
abbrev main_v46 : Ref sig .tc := ⟨.hbm, 121, rfl⟩
abbrev main_c_22 : Ref sig .tc := ⟨.hbm, 122, rfl⟩
abbrev main_c_23 : Ref sig .tc := ⟨.hbm, 123, rfl⟩
abbrev main_v47 : Ref sig .tc := ⟨.hbm, 124, rfl⟩
abbrev main_c_24 : Ref sig .tc := ⟨.hbm, 125, rfl⟩
abbrev main_v48 : Ref sig .tc := ⟨.hbm, 126, rfl⟩
abbrev main_v49 : Ref sig .tc := ⟨.hbm, 127, rfl⟩
abbrev main_v50 : Ref sig .tc := ⟨.hbm, 128, rfl⟩
abbrev main_v51 : Ref sig .tc := ⟨.hbm, 129, rfl⟩
abbrev main_v52 : Ref sig .tc := ⟨.hbm, 130, rfl⟩
abbrev main_c_25 : Ref sig .tc := ⟨.hbm, 131, rfl⟩
abbrev main_v53 : Ref sig .tc := ⟨.hbm, 132, rfl⟩
abbrev main_c_26 : Ref sig .tc := ⟨.hbm, 133, rfl⟩
abbrev main_call2_v0 : Ref sig .tc := ⟨.hbm, 134, rfl⟩
abbrev main_call2_c : Ref sig .tc := ⟨.hbm, 135, rfl⟩
abbrev main_call2_v1 : Ref sig .tc := ⟨.hbm, 136, rfl⟩
abbrev main_call2_c_0 : Ref sig .tc := ⟨.hbm, 137, rfl⟩
abbrev main_call2_v2 : Ref sig .tc := ⟨.hbm, 138, rfl⟩
abbrev main_call2_v3 : Ref sig .tc := ⟨.hbm, 139, rfl⟩
abbrev main_call2_c_1 : Ref sig .tc := ⟨.hbm, 140, rfl⟩
abbrev main_call2_v4 : Ref sig .tc := ⟨.hbm, 141, rfl⟩
abbrev main_call2_c_2 : Ref sig .tc := ⟨.hbm, 142, rfl⟩
abbrev main_call2_v5 : Ref sig .tc := ⟨.hbm, 143, rfl⟩
abbrev main_call2_c_3 : Ref sig .tc := ⟨.hbm, 144, rfl⟩
abbrev main_call2_v6 : Ref sig .tc := ⟨.hbm, 145, rfl⟩
abbrev main_call2_v7 : Ref sig .tc := ⟨.hbm, 146, rfl⟩
abbrev main_call2_v8 : Ref sig .tc := ⟨.hbm, 147, rfl⟩
abbrev main_call2_v9 : Ref sig .tc := ⟨.hbm, 148, rfl⟩
abbrev main_v54 : Ref sig .tc := ⟨.hbm, 149, rfl⟩
abbrev main_c_27 : Ref sig .tc := ⟨.hbm, 150, rfl⟩
abbrev main_v55 : Ref sig .tc := ⟨.hbm, 151, rfl⟩
abbrev main_v56 : Ref sig .tc := ⟨.hbm, 152, rfl⟩
abbrev main_v57 : Ref sig .tc := ⟨.hbm, 153, rfl⟩
abbrev main_v58 : Ref sig .tc := ⟨.hbm, 154, rfl⟩
abbrev main_v59 : Ref sig .tc := ⟨.hbm, 155, rfl⟩
abbrev main_v60 : Ref sig .tc := ⟨.hbm, 156, rfl⟩
abbrev main_v61 : Ref sig .tc := ⟨.hbm, 157, rfl⟩
abbrev main_v62 : Ref sig .tc := ⟨.hbm, 158, rfl⟩
abbrev main_c_28 : Ref sig .tc := ⟨.hbm, 159, rfl⟩
abbrev main_v63 : Ref sig .tc := ⟨.hbm, 160, rfl⟩
abbrev main_c_29 : Ref sig .tc := ⟨.hbm, 161, rfl⟩
abbrev main_v64 : Ref sig .tc := ⟨.hbm, 162, rfl⟩
abbrev main_v65 : Ref sig .tc := ⟨.hbm, 163, rfl⟩
abbrev main_c_30 : Ref sig .tc := ⟨.hbm, 164, rfl⟩
abbrev main_v66 : Ref sig .tc := ⟨.hbm, 165, rfl⟩
abbrev main_c_31 : Ref sig .tc := ⟨.hbm, 166, rfl⟩
abbrev main_v67 : Ref sig .tc := ⟨.hbm, 167, rfl⟩
abbrev main_v68 : Ref sig .tc := ⟨.hbm, 168, rfl⟩
abbrev main_c_32 : Ref sig .tc := ⟨.hbm, 169, rfl⟩
abbrev main_v69 : Ref sig .tc := ⟨.hbm, 170, rfl⟩
abbrev main_c_33 : Ref sig .tc := ⟨.hbm, 171, rfl⟩
abbrev main_v70 : Ref sig .tc := ⟨.hbm, 172, rfl⟩
abbrev main_v71 : Ref sig .tc := ⟨.hbm, 173, rfl⟩
abbrev main_c_34 : Ref sig .tc := ⟨.hbm, 174, rfl⟩
abbrev main_c_35 : Ref sig .tc := ⟨.hbm, 175, rfl⟩
abbrev main_v72 : Ref sig .tc := ⟨.hbm, 176, rfl⟩
abbrev main_c_36 : Ref sig .tc := ⟨.hbm, 177, rfl⟩
abbrev main_c_37 : Ref sig .tc := ⟨.hbm, 178, rfl⟩
abbrev main_v73 : Ref sig .tc := ⟨.hbm, 179, rfl⟩
abbrev main_c_38 : Ref sig .tc := ⟨.hbm, 180, rfl⟩
abbrev main_v74 : Ref sig .tc := ⟨.hbm, 181, rfl⟩
abbrev main_v75 : Ref sig .tc := ⟨.hbm, 182, rfl⟩
abbrev main_v76 : Ref sig .tc := ⟨.hbm, 183, rfl⟩
abbrev main_v77 : Ref sig .tc := ⟨.hbm, 184, rfl⟩
abbrev main_c_39 : Ref sig .tc := ⟨.hbm, 185, rfl⟩
abbrev main_v78 : Ref sig .tc := ⟨.hbm, 186, rfl⟩
abbrev main_c_40 : Ref sig .tc := ⟨.hbm, 187, rfl⟩
abbrev main_v79 : Ref sig .tc := ⟨.hbm, 188, rfl⟩
abbrev main_v80 : Ref sig .tc := ⟨.hbm, 189, rfl⟩
abbrev main_v81 : Ref sig .tc := ⟨.hbm, 190, rfl⟩
abbrev main_v82 : Ref sig .tc := ⟨.hbm, 191, rfl⟩
abbrev main_v83 : Ref sig .tc := ⟨.hbm, 192, rfl⟩
abbrev main_v84 : Ref sig .tc := ⟨.hbm, 193, rfl⟩
abbrev main_v85 : Ref sig .tc := ⟨.hbm, 194, rfl⟩
abbrev main_c_41 : Ref sig .tc := ⟨.hbm, 195, rfl⟩
abbrev main_v86 : Ref sig .tc := ⟨.hbm, 196, rfl⟩
abbrev main_c_42 : Ref sig .tc := ⟨.hbm, 197, rfl⟩
abbrev main_v87 : Ref sig .tc := ⟨.hbm, 198, rfl⟩
abbrev main_v88 : Ref sig .tc := ⟨.hbm, 199, rfl⟩
abbrev main_c_43 : Ref sig .tc := ⟨.hbm, 200, rfl⟩
abbrev main_v89 : Ref sig .tc := ⟨.hbm, 201, rfl⟩
abbrev main_c_44 : Ref sig .tc := ⟨.hbm, 202, rfl⟩
abbrev main_v90 : Ref sig .tc := ⟨.hbm, 203, rfl⟩
abbrev main_v91 : Ref sig .tc := ⟨.hbm, 204, rfl⟩
abbrev main_c_45 : Ref sig .tc := ⟨.hbm, 205, rfl⟩
abbrev main_v92 : Ref sig .tc := ⟨.hbm, 206, rfl⟩
abbrev main_c_46 : Ref sig .tc := ⟨.hbm, 207, rfl⟩
abbrev main_v93 : Ref sig .tc := ⟨.hbm, 208, rfl⟩
abbrev main_v94 : Ref sig .tc := ⟨.hbm, 209, rfl⟩
abbrev main_c_47 : Ref sig .tc := ⟨.hbm, 210, rfl⟩
abbrev main_c_48 : Ref sig .tc := ⟨.hbm, 211, rfl⟩
abbrev main_v95 : Ref sig .tc := ⟨.hbm, 212, rfl⟩
abbrev main_c_49 : Ref sig .tc := ⟨.hbm, 213, rfl⟩
abbrev main_c_50 : Ref sig .tc := ⟨.hbm, 214, rfl⟩
abbrev main_v96 : Ref sig .tc := ⟨.hbm, 215, rfl⟩
abbrev main_c_51 : Ref sig .tc := ⟨.hbm, 216, rfl⟩
abbrev main_v97 : Ref sig .tc := ⟨.hbm, 217, rfl⟩
abbrev main_v98 : Ref sig .tc := ⟨.hbm, 218, rfl⟩
abbrev main_v99 : Ref sig .tc := ⟨.hbm, 219, rfl⟩
abbrev main_v100 : Ref sig .tc := ⟨.hbm, 220, rfl⟩
abbrev main_v101 : Ref sig .tc := ⟨.hbm, 221, rfl⟩
abbrev main_v102 : Ref sig .tc := ⟨.hbm, 222, rfl⟩
abbrev main_v103 : Ref sig .tc := ⟨.hbm, 223, rfl⟩
abbrev main_v104 : Ref sig .tc := ⟨.hbm, 224, rfl⟩
abbrev main_v105 : Ref sig .tc := ⟨.hbm, 225, rfl⟩
abbrev main_v106 : Ref sig .tc := ⟨.hbm, 226, rfl⟩
abbrev main_v107 : Ref sig .tc := ⟨.hbm, 227, rfl⟩
abbrev main_v108 : Ref sig .tc := ⟨.hbm, 228, rfl⟩
abbrev main_v109 : Ref sig .tc := ⟨.hbm, 229, rfl⟩
abbrev main_v110 : Ref sig .tc := ⟨.hbm, 230, rfl⟩
abbrev main_v111 : Ref sig .tc := ⟨.hbm, 231, rfl⟩
abbrev main_v112 : Ref sig .tc := ⟨.hbm, 232, rfl⟩
abbrev main_c_52 : Ref sig .tc := ⟨.hbm, 233, rfl⟩
abbrev main_v113 : Ref sig .tc := ⟨.hbm, 234, rfl⟩
abbrev main_c_53 : Ref sig .tc := ⟨.hbm, 235, rfl⟩
abbrev main_v114 : Ref sig .tc := ⟨.hbm, 236, rfl⟩
abbrev main_v115 : Ref sig .tc := ⟨.hbm, 237, rfl⟩
abbrev main_c_54 : Ref sig .tc := ⟨.hbm, 238, rfl⟩
abbrev main_v116 : Ref sig .tc := ⟨.hbm, 239, rfl⟩
abbrev main_c_55 : Ref sig .tc := ⟨.hbm, 240, rfl⟩
abbrev main_v117 : Ref sig .tc := ⟨.hbm, 241, rfl⟩
abbrev main_v118 : Ref sig .tc := ⟨.hbm, 242, rfl⟩
abbrev main_c_56 : Ref sig .tc := ⟨.hbm, 243, rfl⟩
abbrev main_v119 : Ref sig .tc := ⟨.hbm, 244, rfl⟩
abbrev main_c_57 : Ref sig .tc := ⟨.hbm, 245, rfl⟩
abbrev main_v120 : Ref sig .tc := ⟨.hbm, 246, rfl⟩
abbrev main_v121 : Ref sig .tc := ⟨.hbm, 247, rfl⟩
abbrev main_c_58 : Ref sig .tc := ⟨.hbm, 248, rfl⟩
abbrev main_c_59 : Ref sig .tc := ⟨.hbm, 249, rfl⟩
abbrev main_v122 : Ref sig .tc := ⟨.hbm, 250, rfl⟩
abbrev main_c_60 : Ref sig .tc := ⟨.hbm, 251, rfl⟩
abbrev main_c_61 : Ref sig .tc := ⟨.hbm, 252, rfl⟩
abbrev main_v123 : Ref sig .tc := ⟨.hbm, 253, rfl⟩
abbrev main_c_62 : Ref sig .tc := ⟨.hbm, 254, rfl⟩
abbrev main_v124 : Ref sig .tc := ⟨.hbm, 255, rfl⟩
abbrev main_v125 : Ref sig .tc := ⟨.hbm, 256, rfl⟩
abbrev main_v126 : Ref sig .tc := ⟨.hbm, 257, rfl⟩
abbrev main_v127 : Ref sig .tc := ⟨.hbm, 258, rfl⟩
abbrev main_v128 : Ref sig .tc := ⟨.hbm, 259, rfl⟩
abbrev main_c_63 : Ref sig .tc := ⟨.hbm, 260, rfl⟩
abbrev main_v129 : Ref sig .tc := ⟨.hbm, 261, rfl⟩
abbrev main_c_64 : Ref sig .tc := ⟨.hbm, 262, rfl⟩
abbrev main_call3_v0 : Ref sig .tc := ⟨.hbm, 263, rfl⟩
abbrev main_call3_c : Ref sig .tc := ⟨.hbm, 264, rfl⟩
abbrev main_call3_v1 : Ref sig .tc := ⟨.hbm, 265, rfl⟩
abbrev main_call3_c_0 : Ref sig .tc := ⟨.hbm, 266, rfl⟩
abbrev main_call3_v2 : Ref sig .tc := ⟨.hbm, 267, rfl⟩
abbrev main_call3_v3 : Ref sig .tc := ⟨.hbm, 268, rfl⟩
abbrev main_call3_c_1 : Ref sig .tc := ⟨.hbm, 269, rfl⟩
abbrev main_call3_v4 : Ref sig .tc := ⟨.hbm, 270, rfl⟩
abbrev main_call3_c_2 : Ref sig .tc := ⟨.hbm, 271, rfl⟩
abbrev main_call3_v5 : Ref sig .tc := ⟨.hbm, 272, rfl⟩
abbrev main_call3_c_3 : Ref sig .tc := ⟨.hbm, 273, rfl⟩
abbrev main_call3_v6 : Ref sig .tc := ⟨.hbm, 274, rfl⟩
abbrev main_call3_v7 : Ref sig .tc := ⟨.hbm, 275, rfl⟩
abbrev main_call3_v8 : Ref sig .tc := ⟨.hbm, 276, rfl⟩
abbrev main_call3_v9 : Ref sig .tc := ⟨.hbm, 277, rfl⟩
abbrev main_v130 : Ref sig .tc := ⟨.hbm, 278, rfl⟩
abbrev main_c_65 : Ref sig .tc := ⟨.hbm, 279, rfl⟩
abbrev main_v131 : Ref sig .tc := ⟨.hbm, 280, rfl⟩
abbrev main_v132 : Ref sig .tc := ⟨.hbm, 281, rfl⟩
abbrev main_v133 : Ref sig .tc := ⟨.hbm, 282, rfl⟩
abbrev main_v134 : Ref sig .tc := ⟨.hbm, 283, rfl⟩
abbrev main_v135 : Ref sig .tc := ⟨.hbm, 284, rfl⟩
abbrev main_v136 : Ref sig .tc := ⟨.hbm, 285, rfl⟩
abbrev main_v137 : Ref sig .tc := ⟨.hbm, 286, rfl⟩
abbrev main_v138 : Ref sig .tc := ⟨.hbm, 287, rfl⟩
abbrev main_c_66 : Ref sig .tc := ⟨.hbm, 288, rfl⟩
abbrev main_v139 : Ref sig .tc := ⟨.hbm, 289, rfl⟩
abbrev main_c_67 : Ref sig .tc := ⟨.hbm, 290, rfl⟩
abbrev main_v140 : Ref sig .tc := ⟨.hbm, 291, rfl⟩
abbrev main_v141 : Ref sig .tc := ⟨.hbm, 292, rfl⟩
abbrev main_c_68 : Ref sig .tc := ⟨.hbm, 293, rfl⟩
abbrev main_v142 : Ref sig .tc := ⟨.hbm, 294, rfl⟩
abbrev main_c_69 : Ref sig .tc := ⟨.hbm, 295, rfl⟩
abbrev main_v143 : Ref sig .tc := ⟨.hbm, 296, rfl⟩
abbrev main_v144 : Ref sig .tc := ⟨.hbm, 297, rfl⟩
abbrev main_c_70 : Ref sig .tc := ⟨.hbm, 298, rfl⟩
abbrev main_v145 : Ref sig .tc := ⟨.hbm, 299, rfl⟩
abbrev main_c_71 : Ref sig .tc := ⟨.hbm, 300, rfl⟩
abbrev main_v146 : Ref sig .tc := ⟨.hbm, 301, rfl⟩
abbrev main_v147 : Ref sig .tc := ⟨.hbm, 302, rfl⟩
abbrev main_c_72 : Ref sig .tc := ⟨.hbm, 303, rfl⟩
abbrev main_c_73 : Ref sig .tc := ⟨.hbm, 304, rfl⟩
abbrev main_v148 : Ref sig .tc := ⟨.hbm, 305, rfl⟩
abbrev main_c_74 : Ref sig .tc := ⟨.hbm, 306, rfl⟩
abbrev main_c_75 : Ref sig .tc := ⟨.hbm, 307, rfl⟩
abbrev main_v149 : Ref sig .tc := ⟨.hbm, 308, rfl⟩
abbrev main_c_76 : Ref sig .tc := ⟨.hbm, 309, rfl⟩
abbrev main_v150 : Ref sig .tc := ⟨.hbm, 310, rfl⟩
abbrev main_v151 : Ref sig .tc := ⟨.hbm, 311, rfl⟩
abbrev main_v152 : Ref sig .tc := ⟨.hbm, 312, rfl⟩
abbrev main_v153 : Ref sig .tc := ⟨.hbm, 313, rfl⟩
abbrev main_v154 : Ref sig .tc := ⟨.hbm, 314, rfl⟩
abbrev main_c_77 : Ref sig .tc := ⟨.hbm, 315, rfl⟩
abbrev main_v155 : Ref sig .tc := ⟨.hbm, 316, rfl⟩
abbrev main_c_78 : Ref sig .tc := ⟨.hbm, 317, rfl⟩
abbrev main_call4_v0 : Ref sig .tc := ⟨.hbm, 318, rfl⟩
abbrev main_call4_c : Ref sig .tc := ⟨.hbm, 319, rfl⟩
abbrev main_call4_v1 : Ref sig .tc := ⟨.hbm, 320, rfl⟩
abbrev main_call4_c_0 : Ref sig .tc := ⟨.hbm, 321, rfl⟩
abbrev main_call4_v2 : Ref sig .tc := ⟨.hbm, 322, rfl⟩
abbrev main_call4_v3 : Ref sig .tc := ⟨.hbm, 323, rfl⟩
abbrev main_call4_c_1 : Ref sig .tc := ⟨.hbm, 324, rfl⟩
abbrev main_call4_v4 : Ref sig .tc := ⟨.hbm, 325, rfl⟩
abbrev main_call4_c_2 : Ref sig .tc := ⟨.hbm, 326, rfl⟩
abbrev main_call4_v5 : Ref sig .tc := ⟨.hbm, 327, rfl⟩
abbrev main_call4_c_3 : Ref sig .tc := ⟨.hbm, 328, rfl⟩
abbrev main_call4_v6 : Ref sig .tc := ⟨.hbm, 329, rfl⟩
abbrev main_call4_v7 : Ref sig .tc := ⟨.hbm, 330, rfl⟩
abbrev main_call4_v8 : Ref sig .tc := ⟨.hbm, 331, rfl⟩
abbrev main_call4_v9 : Ref sig .tc := ⟨.hbm, 332, rfl⟩
abbrev main_v156 : Ref sig .tc := ⟨.hbm, 333, rfl⟩
abbrev main_c_79 : Ref sig .tc := ⟨.hbm, 334, rfl⟩
abbrev main_v157 : Ref sig .tc := ⟨.hbm, 335, rfl⟩
abbrev main_v158 : Ref sig .tc := ⟨.hbm, 336, rfl⟩
abbrev main_v159 : Ref sig .tc := ⟨.hbm, 337, rfl⟩
abbrev main_v160 : Ref sig .tc := ⟨.hbm, 338, rfl⟩
abbrev main_v161 : Ref sig .tc := ⟨.hbm, 339, rfl⟩
abbrev main_v162 : Ref sig .tc := ⟨.hbm, 340, rfl⟩
abbrev main_v163 : Ref sig .tc := ⟨.hbm, 341, rfl⟩
abbrev main_v164 : Ref sig .tc := ⟨.hbm, 342, rfl⟩
abbrev main_c_80 : Ref sig .tc := ⟨.hbm, 343, rfl⟩
abbrev main_v165 : Ref sig .tc := ⟨.hbm, 344, rfl⟩
abbrev main_c_81 : Ref sig .tc := ⟨.hbm, 345, rfl⟩
abbrev main_v166 : Ref sig .tc := ⟨.hbm, 346, rfl⟩
abbrev main_v167 : Ref sig .tc := ⟨.hbm, 347, rfl⟩
abbrev main_c_82 : Ref sig .tc := ⟨.hbm, 348, rfl⟩
abbrev main_v168 : Ref sig .tc := ⟨.hbm, 349, rfl⟩
abbrev main_c_83 : Ref sig .tc := ⟨.hbm, 350, rfl⟩
abbrev main_v169 : Ref sig .tc := ⟨.hbm, 351, rfl⟩
abbrev main_v170 : Ref sig .tc := ⟨.hbm, 352, rfl⟩
abbrev main_c_84 : Ref sig .tc := ⟨.hbm, 353, rfl⟩
abbrev main_v171 : Ref sig .tc := ⟨.hbm, 354, rfl⟩
abbrev main_c_85 : Ref sig .tc := ⟨.hbm, 355, rfl⟩
abbrev main_v172 : Ref sig .tc := ⟨.hbm, 356, rfl⟩
abbrev main_v173 : Ref sig .tc := ⟨.hbm, 357, rfl⟩
abbrev main_c_86 : Ref sig .tc := ⟨.hbm, 358, rfl⟩
abbrev main_c_87 : Ref sig .tc := ⟨.hbm, 359, rfl⟩
abbrev main_v174 : Ref sig .tc := ⟨.hbm, 360, rfl⟩
abbrev main_c_88 : Ref sig .tc := ⟨.hbm, 361, rfl⟩
abbrev main_c_89 : Ref sig .tc := ⟨.hbm, 362, rfl⟩
abbrev main_v175 : Ref sig .tc := ⟨.hbm, 363, rfl⟩
abbrev main_c_90 : Ref sig .tc := ⟨.hbm, 364, rfl⟩
abbrev main_v176 : Ref sig .tc := ⟨.hbm, 365, rfl⟩
abbrev main_v177 : Ref sig .tc := ⟨.hbm, 366, rfl⟩
abbrev main_v178 : Ref sig .tc := ⟨.hbm, 367, rfl⟩
abbrev main_v179 : Ref sig .tc := ⟨.hbm, 368, rfl⟩
abbrev main_c_91 : Ref sig .tc := ⟨.hbm, 369, rfl⟩
abbrev main_v180 : Ref sig .tc := ⟨.hbm, 370, rfl⟩
abbrev main_c_92 : Ref sig .tc := ⟨.hbm, 371, rfl⟩
abbrev main_v181 : Ref sig .tc := ⟨.hbm, 372, rfl⟩
abbrev main_v182 : Ref sig .tc := ⟨.hbm, 373, rfl⟩
abbrev main_v183 : Ref sig .tc := ⟨.hbm, 374, rfl⟩
abbrev main_v184 : Ref sig .tc := ⟨.hbm, 375, rfl⟩
abbrev main_v185 : Ref sig .tc := ⟨.hbm, 376, rfl⟩
abbrev main_v186 : Ref sig .tc := ⟨.hbm, 377, rfl⟩
abbrev main_v187 : Ref sig .tc := ⟨.hbm, 378, rfl⟩
abbrev main_c_93 : Ref sig .tc := ⟨.hbm, 379, rfl⟩
abbrev main_v188 : Ref sig .tc := ⟨.hbm, 380, rfl⟩
abbrev main_c_94 : Ref sig .tc := ⟨.hbm, 381, rfl⟩
abbrev main_v189 : Ref sig .tc := ⟨.hbm, 382, rfl⟩
abbrev main_v190 : Ref sig .tc := ⟨.hbm, 383, rfl⟩
abbrev main_c_95 : Ref sig .tc := ⟨.hbm, 384, rfl⟩
abbrev main_v191 : Ref sig .tc := ⟨.hbm, 385, rfl⟩
abbrev main_c_96 : Ref sig .tc := ⟨.hbm, 386, rfl⟩
abbrev main_v192 : Ref sig .tc := ⟨.hbm, 387, rfl⟩
abbrev main_v193 : Ref sig .tc := ⟨.hbm, 388, rfl⟩
abbrev main_c_97 : Ref sig .tc := ⟨.hbm, 389, rfl⟩
abbrev main_v194 : Ref sig .tc := ⟨.hbm, 390, rfl⟩
abbrev main_c_98 : Ref sig .tc := ⟨.hbm, 391, rfl⟩
abbrev main_v195 : Ref sig .tc := ⟨.hbm, 392, rfl⟩
abbrev main_v196 : Ref sig .tc := ⟨.hbm, 393, rfl⟩
abbrev main_c_99 : Ref sig .tc := ⟨.hbm, 394, rfl⟩
abbrev main_c_100 : Ref sig .tc := ⟨.hbm, 395, rfl⟩
abbrev main_v197 : Ref sig .tc := ⟨.hbm, 396, rfl⟩
abbrev main_c_101 : Ref sig .tc := ⟨.hbm, 397, rfl⟩
abbrev main_c_102 : Ref sig .tc := ⟨.hbm, 398, rfl⟩
abbrev main_v198 : Ref sig .tc := ⟨.hbm, 399, rfl⟩
abbrev main_c_103 : Ref sig .tc := ⟨.hbm, 400, rfl⟩
abbrev main_v199 : Ref sig .tc := ⟨.hbm, 401, rfl⟩
abbrev main_v200 : Ref sig .tc := ⟨.hbm, 402, rfl⟩
abbrev main_v201 : Ref sig .tc := ⟨.hbm, 403, rfl⟩
abbrev main_v202 : Ref sig .tc := ⟨.hbm, 404, rfl⟩
abbrev main_v203 : Ref sig .tc := ⟨.hbm, 405, rfl⟩
abbrev main_v204 : Ref sig .tc := ⟨.hbm, 406, rfl⟩
abbrev main_v205 : Ref sig .tc := ⟨.hbm, 407, rfl⟩
abbrev main_v206 : Ref sig .tc := ⟨.hbm, 408, rfl⟩
abbrev main_v207 : Ref sig .tc := ⟨.hbm, 409, rfl⟩
abbrev main_v208 : Ref sig .tc := ⟨.hbm, 410, rfl⟩
abbrev main_v209 : Ref sig .tc := ⟨.hbm, 411, rfl⟩
abbrev main_v210 : Ref sig .tc := ⟨.hbm, 412, rfl⟩
abbrev main_v211 : Ref sig .tc := ⟨.hbm, 413, rfl⟩
abbrev main_v212 : Ref sig .tc := ⟨.hbm, 414, rfl⟩
abbrev main_v213 : Ref sig .tc := ⟨.hbm, 415, rfl⟩
abbrev main_v214 : Ref sig .tc := ⟨.hbm, 416, rfl⟩
abbrev main_c_104 : Ref sig .tc := ⟨.hbm, 417, rfl⟩
abbrev main_v215 : Ref sig .tc := ⟨.hbm, 418, rfl⟩
abbrev main_c_105 : Ref sig .tc := ⟨.hbm, 419, rfl⟩
abbrev main_v216 : Ref sig .tc := ⟨.hbm, 420, rfl⟩
abbrev main_v217 : Ref sig .tc := ⟨.hbm, 421, rfl⟩
abbrev main_c_106 : Ref sig .tc := ⟨.hbm, 422, rfl⟩
abbrev main_v218 : Ref sig .tc := ⟨.hbm, 423, rfl⟩
abbrev main_c_107 : Ref sig .tc := ⟨.hbm, 424, rfl⟩
abbrev main_v219 : Ref sig .tc := ⟨.hbm, 425, rfl⟩
abbrev main_v220 : Ref sig .tc := ⟨.hbm, 426, rfl⟩
abbrev main_c_108 : Ref sig .tc := ⟨.hbm, 427, rfl⟩
abbrev main_v221 : Ref sig .tc := ⟨.hbm, 428, rfl⟩
abbrev main_c_109 : Ref sig .tc := ⟨.hbm, 429, rfl⟩
abbrev main_v222 : Ref sig .tc := ⟨.hbm, 430, rfl⟩
abbrev main_v223 : Ref sig .tc := ⟨.hbm, 431, rfl⟩
abbrev main_c_110 : Ref sig .tc := ⟨.hbm, 432, rfl⟩
abbrev main_c_111 : Ref sig .tc := ⟨.hbm, 433, rfl⟩
abbrev main_v224 : Ref sig .tc := ⟨.hbm, 434, rfl⟩
abbrev main_c_112 : Ref sig .tc := ⟨.hbm, 435, rfl⟩
abbrev main_c_113 : Ref sig .tc := ⟨.hbm, 436, rfl⟩
abbrev main_v225 : Ref sig .tc := ⟨.hbm, 437, rfl⟩
abbrev main_c_114 : Ref sig .tc := ⟨.hbm, 438, rfl⟩
abbrev main_v226 : Ref sig .tc := ⟨.hbm, 439, rfl⟩
abbrev main_v227 : Ref sig .tc := ⟨.hbm, 440, rfl⟩
abbrev main_v228 : Ref sig .tc := ⟨.hbm, 441, rfl⟩
abbrev main_v229 : Ref sig .tc := ⟨.hbm, 442, rfl⟩
abbrev main_v230 : Ref sig .tc := ⟨.hbm, 443, rfl⟩
abbrev main_c_115 : Ref sig .tc := ⟨.hbm, 444, rfl⟩
abbrev main_v231 : Ref sig .tc := ⟨.hbm, 445, rfl⟩
abbrev main_c_116 : Ref sig .tc := ⟨.hbm, 446, rfl⟩
abbrev main_call5_v0 : Ref sig .tc := ⟨.hbm, 447, rfl⟩
abbrev main_call5_c : Ref sig .tc := ⟨.hbm, 448, rfl⟩
abbrev main_call5_v1 : Ref sig .tc := ⟨.hbm, 449, rfl⟩
abbrev main_call5_c_0 : Ref sig .tc := ⟨.hbm, 450, rfl⟩
abbrev main_call5_v2 : Ref sig .tc := ⟨.hbm, 451, rfl⟩
abbrev main_call5_v3 : Ref sig .tc := ⟨.hbm, 452, rfl⟩
abbrev main_call5_c_1 : Ref sig .tc := ⟨.hbm, 453, rfl⟩
abbrev main_call5_v4 : Ref sig .tc := ⟨.hbm, 454, rfl⟩
abbrev main_call5_c_2 : Ref sig .tc := ⟨.hbm, 455, rfl⟩
abbrev main_call5_v5 : Ref sig .tc := ⟨.hbm, 456, rfl⟩
abbrev main_call5_c_3 : Ref sig .tc := ⟨.hbm, 457, rfl⟩
abbrev main_call5_v6 : Ref sig .tc := ⟨.hbm, 458, rfl⟩
abbrev main_call5_v7 : Ref sig .tc := ⟨.hbm, 459, rfl⟩
abbrev main_call5_v8 : Ref sig .tc := ⟨.hbm, 460, rfl⟩
abbrev main_call5_v9 : Ref sig .tc := ⟨.hbm, 461, rfl⟩
abbrev main_v232 : Ref sig .tc := ⟨.hbm, 462, rfl⟩
abbrev main_c_117 : Ref sig .tc := ⟨.hbm, 463, rfl⟩
abbrev main_v233 : Ref sig .tc := ⟨.hbm, 464, rfl⟩
abbrev main_v234 : Ref sig .tc := ⟨.hbm, 465, rfl⟩
abbrev main_v235 : Ref sig .tc := ⟨.hbm, 466, rfl⟩
abbrev main_v236 : Ref sig .tc := ⟨.hbm, 467, rfl⟩
abbrev main_v237 : Ref sig .tc := ⟨.hbm, 468, rfl⟩
abbrev main_v238 : Ref sig .tc := ⟨.hbm, 469, rfl⟩
abbrev main_v239 : Ref sig .tc := ⟨.hbm, 470, rfl⟩
abbrev main_v240 : Ref sig .tc := ⟨.hbm, 471, rfl⟩
abbrev main_c_118 : Ref sig .tc := ⟨.hbm, 472, rfl⟩
abbrev main_v241 : Ref sig .tc := ⟨.hbm, 473, rfl⟩
abbrev main_c_119 : Ref sig .tc := ⟨.hbm, 474, rfl⟩
abbrev main_v242 : Ref sig .tc := ⟨.hbm, 475, rfl⟩
abbrev main_v243 : Ref sig .tc := ⟨.hbm, 476, rfl⟩
abbrev main_c_120 : Ref sig .tc := ⟨.hbm, 477, rfl⟩
abbrev main_v244 : Ref sig .tc := ⟨.hbm, 478, rfl⟩
abbrev main_c_121 : Ref sig .tc := ⟨.hbm, 479, rfl⟩
abbrev main_v245 : Ref sig .tc := ⟨.hbm, 480, rfl⟩
abbrev main_v246 : Ref sig .tc := ⟨.hbm, 481, rfl⟩
abbrev main_c_122 : Ref sig .tc := ⟨.hbm, 482, rfl⟩
abbrev main_v247 : Ref sig .tc := ⟨.hbm, 483, rfl⟩
abbrev main_c_123 : Ref sig .tc := ⟨.hbm, 484, rfl⟩
abbrev main_v248 : Ref sig .tc := ⟨.hbm, 485, rfl⟩
abbrev main_v249 : Ref sig .tc := ⟨.hbm, 486, rfl⟩
abbrev main_c_124 : Ref sig .tc := ⟨.hbm, 487, rfl⟩
abbrev main_c_125 : Ref sig .tc := ⟨.hbm, 488, rfl⟩
abbrev main_v250 : Ref sig .tc := ⟨.hbm, 489, rfl⟩
abbrev main_c_126 : Ref sig .tc := ⟨.hbm, 490, rfl⟩
abbrev main_c_127 : Ref sig .tc := ⟨.hbm, 491, rfl⟩
abbrev main_v251 : Ref sig .tc := ⟨.hbm, 492, rfl⟩
abbrev main_c_128 : Ref sig .tc := ⟨.hbm, 493, rfl⟩
abbrev main_v252 : Ref sig .tc := ⟨.hbm, 494, rfl⟩
abbrev main_v253 : Ref sig .tc := ⟨.hbm, 495, rfl⟩
abbrev main_v254 : Ref sig .tc := ⟨.hbm, 496, rfl⟩
abbrev main_v255 : Ref sig .tc := ⟨.hbm, 497, rfl⟩
abbrev main_v256 : Ref sig .tc := ⟨.hbm, 498, rfl⟩
abbrev main_c_129 : Ref sig .tc := ⟨.hbm, 499, rfl⟩
abbrev main_v257 : Ref sig .tc := ⟨.hbm, 500, rfl⟩
abbrev main_c_130 : Ref sig .tc := ⟨.hbm, 501, rfl⟩
abbrev main_call6_v0 : Ref sig .tc := ⟨.hbm, 502, rfl⟩
abbrev main_call6_c : Ref sig .tc := ⟨.hbm, 503, rfl⟩
abbrev main_call6_v1 : Ref sig .tc := ⟨.hbm, 504, rfl⟩
abbrev main_call6_c_0 : Ref sig .tc := ⟨.hbm, 505, rfl⟩
abbrev main_call6_v2 : Ref sig .tc := ⟨.hbm, 506, rfl⟩
abbrev main_call6_v3 : Ref sig .tc := ⟨.hbm, 507, rfl⟩
abbrev main_call6_c_1 : Ref sig .tc := ⟨.hbm, 508, rfl⟩
abbrev main_call6_v4 : Ref sig .tc := ⟨.hbm, 509, rfl⟩
abbrev main_call6_c_2 : Ref sig .tc := ⟨.hbm, 510, rfl⟩
abbrev main_call6_v5 : Ref sig .tc := ⟨.hbm, 511, rfl⟩
abbrev main_call6_c_3 : Ref sig .tc := ⟨.hbm, 512, rfl⟩
abbrev main_call6_v6 : Ref sig .tc := ⟨.hbm, 513, rfl⟩
abbrev main_call6_v7 : Ref sig .tc := ⟨.hbm, 514, rfl⟩
abbrev main_call6_v8 : Ref sig .tc := ⟨.hbm, 515, rfl⟩
abbrev main_call6_v9 : Ref sig .tc := ⟨.hbm, 516, rfl⟩
abbrev main_v258 : Ref sig .tc := ⟨.hbm, 517, rfl⟩
abbrev main_c_131 : Ref sig .tc := ⟨.hbm, 518, rfl⟩
abbrev main_v259 : Ref sig .tc := ⟨.hbm, 519, rfl⟩
abbrev main_v260 : Ref sig .tc := ⟨.hbm, 520, rfl⟩
abbrev main_v261 : Ref sig .tc := ⟨.hbm, 521, rfl⟩
abbrev main_v262 : Ref sig .tc := ⟨.hbm, 522, rfl⟩
abbrev main_v263 : Ref sig .tc := ⟨.hbm, 523, rfl⟩
abbrev main_v264 : Ref sig .tc := ⟨.hbm, 524, rfl⟩
abbrev main_v265 : Ref sig .tc := ⟨.hbm, 525, rfl⟩
abbrev main_v266 : Ref sig .tc := ⟨.hbm, 526, rfl⟩
abbrev main_c_132 : Ref sig .tc := ⟨.hbm, 527, rfl⟩
abbrev main_v267 : Ref sig .tc := ⟨.hbm, 528, rfl⟩
abbrev main_c_133 : Ref sig .tc := ⟨.hbm, 529, rfl⟩
abbrev main_v268 : Ref sig .tc := ⟨.hbm, 530, rfl⟩
abbrev main_v269 : Ref sig .tc := ⟨.hbm, 531, rfl⟩
abbrev main_c_134 : Ref sig .tc := ⟨.hbm, 532, rfl⟩
abbrev main_v270 : Ref sig .tc := ⟨.hbm, 533, rfl⟩
abbrev main_c_135 : Ref sig .tc := ⟨.hbm, 534, rfl⟩
abbrev main_v271 : Ref sig .tc := ⟨.hbm, 535, rfl⟩
abbrev main_v272 : Ref sig .tc := ⟨.hbm, 536, rfl⟩
abbrev main_c_136 : Ref sig .tc := ⟨.hbm, 537, rfl⟩
abbrev main_v273 : Ref sig .tc := ⟨.hbm, 538, rfl⟩
abbrev main_c_137 : Ref sig .tc := ⟨.hbm, 539, rfl⟩
abbrev main_v274 : Ref sig .tc := ⟨.hbm, 540, rfl⟩
abbrev main_v275 : Ref sig .tc := ⟨.hbm, 541, rfl⟩
abbrev main_c_138 : Ref sig .tc := ⟨.hbm, 542, rfl⟩
abbrev main_c_139 : Ref sig .tc := ⟨.hbm, 543, rfl⟩
abbrev main_v276 : Ref sig .tc := ⟨.hbm, 544, rfl⟩
abbrev main_c_140 : Ref sig .tc := ⟨.hbm, 545, rfl⟩
abbrev main_c_141 : Ref sig .tc := ⟨.hbm, 546, rfl⟩
abbrev main_v277 : Ref sig .tc := ⟨.hbm, 547, rfl⟩
abbrev main_c_142 : Ref sig .tc := ⟨.hbm, 548, rfl⟩
abbrev main_v278 : Ref sig .tc := ⟨.hbm, 549, rfl⟩
abbrev main_v279 : Ref sig .tc := ⟨.hbm, 550, rfl⟩
abbrev main_v280 : Ref sig .tc := ⟨.hbm, 551, rfl⟩
abbrev main_v281 : Ref sig .tc := ⟨.hbm, 552, rfl⟩
abbrev main_c_143 : Ref sig .tc := ⟨.hbm, 553, rfl⟩
abbrev main_v282 : Ref sig .tc := ⟨.hbm, 554, rfl⟩
abbrev main_c_144 : Ref sig .tc := ⟨.hbm, 555, rfl⟩
abbrev main_v283 : Ref sig .tc := ⟨.hbm, 556, rfl⟩
abbrev main_v284 : Ref sig .tc := ⟨.hbm, 557, rfl⟩
abbrev main_v285 : Ref sig .tc := ⟨.hbm, 558, rfl⟩
abbrev main_v286 : Ref sig .tc := ⟨.hbm, 559, rfl⟩
abbrev main_v287 : Ref sig .tc := ⟨.hbm, 560, rfl⟩
abbrev main_v288 : Ref sig .tc := ⟨.hbm, 561, rfl⟩
abbrev main_v289 : Ref sig .tc := ⟨.hbm, 562, rfl⟩
abbrev main_c_145 : Ref sig .tc := ⟨.hbm, 563, rfl⟩
abbrev main_v290 : Ref sig .tc := ⟨.hbm, 564, rfl⟩
abbrev main_c_146 : Ref sig .tc := ⟨.hbm, 565, rfl⟩
abbrev main_v291 : Ref sig .tc := ⟨.hbm, 566, rfl⟩
abbrev main_v292 : Ref sig .tc := ⟨.hbm, 567, rfl⟩
abbrev main_c_147 : Ref sig .tc := ⟨.hbm, 568, rfl⟩
abbrev main_v293 : Ref sig .tc := ⟨.hbm, 569, rfl⟩
abbrev main_c_148 : Ref sig .tc := ⟨.hbm, 570, rfl⟩
abbrev main_v294 : Ref sig .tc := ⟨.hbm, 571, rfl⟩
abbrev main_v295 : Ref sig .tc := ⟨.hbm, 572, rfl⟩
abbrev main_c_149 : Ref sig .tc := ⟨.hbm, 573, rfl⟩
abbrev main_v296 : Ref sig .tc := ⟨.hbm, 574, rfl⟩
abbrev main_c_150 : Ref sig .tc := ⟨.hbm, 575, rfl⟩
abbrev main_v297 : Ref sig .tc := ⟨.hbm, 576, rfl⟩
abbrev main_v298 : Ref sig .tc := ⟨.hbm, 577, rfl⟩
abbrev main_c_151 : Ref sig .tc := ⟨.hbm, 578, rfl⟩
abbrev main_c_152 : Ref sig .tc := ⟨.hbm, 579, rfl⟩
abbrev main_v299 : Ref sig .tc := ⟨.hbm, 580, rfl⟩
abbrev main_c_153 : Ref sig .tc := ⟨.hbm, 581, rfl⟩
abbrev main_c_154 : Ref sig .tc := ⟨.hbm, 582, rfl⟩
abbrev main_v300 : Ref sig .tc := ⟨.hbm, 583, rfl⟩
abbrev main_c_155 : Ref sig .tc := ⟨.hbm, 584, rfl⟩
abbrev main_v301 : Ref sig .tc := ⟨.hbm, 585, rfl⟩
abbrev main_v302 : Ref sig .tc := ⟨.hbm, 586, rfl⟩
abbrev main_v303 : Ref sig .tc := ⟨.hbm, 587, rfl⟩
abbrev main_v304 : Ref sig .tc := ⟨.hbm, 588, rfl⟩
abbrev main_v305 : Ref sig .tc := ⟨.hbm, 589, rfl⟩
abbrev main_v306 : Ref sig .tc := ⟨.hbm, 590, rfl⟩
abbrev main_v307 : Ref sig .tc := ⟨.hbm, 591, rfl⟩
abbrev main_v308 : Ref sig .tc := ⟨.hbm, 592, rfl⟩
abbrev main_v309 : Ref sig .tc := ⟨.hbm, 593, rfl⟩
abbrev main_v310 : Ref sig .tc := ⟨.hbm, 594, rfl⟩
abbrev main_v311 : Ref sig .tc := ⟨.hbm, 595, rfl⟩
abbrev main_v312 : Ref sig .tc := ⟨.hbm, 596, rfl⟩
abbrev main_v313 : Ref sig .tc := ⟨.hbm, 597, rfl⟩
abbrev main_v314 : Ref sig .tc := ⟨.hbm, 598, rfl⟩
abbrev main_v315 : Ref sig .tc := ⟨.hbm, 599, rfl⟩
abbrev main_v316 : Ref sig .tc := ⟨.hbm, 600, rfl⟩
abbrev main_c_156 : Ref sig .tc := ⟨.hbm, 601, rfl⟩
abbrev main_v317 : Ref sig .tc := ⟨.hbm, 602, rfl⟩
abbrev main_c_157 : Ref sig .tc := ⟨.hbm, 603, rfl⟩
abbrev main_v318 : Ref sig .tc := ⟨.hbm, 604, rfl⟩
abbrev main_v319 : Ref sig .tc := ⟨.hbm, 605, rfl⟩
abbrev main_c_158 : Ref sig .tc := ⟨.hbm, 606, rfl⟩
abbrev main_v320 : Ref sig .tc := ⟨.hbm, 607, rfl⟩
abbrev main_c_159 : Ref sig .tc := ⟨.hbm, 608, rfl⟩
abbrev main_v321 : Ref sig .tc := ⟨.hbm, 609, rfl⟩
abbrev main_v322 : Ref sig .tc := ⟨.hbm, 610, rfl⟩
abbrev main_c_160 : Ref sig .tc := ⟨.hbm, 611, rfl⟩
abbrev main_v323 : Ref sig .tc := ⟨.hbm, 612, rfl⟩
abbrev main_c_161 : Ref sig .tc := ⟨.hbm, 613, rfl⟩
abbrev main_v324 : Ref sig .tc := ⟨.hbm, 614, rfl⟩
abbrev main_v325 : Ref sig .tc := ⟨.hbm, 615, rfl⟩
abbrev main_c_162 : Ref sig .tc := ⟨.hbm, 616, rfl⟩
abbrev main_c_163 : Ref sig .tc := ⟨.hbm, 617, rfl⟩
abbrev main_v326 : Ref sig .tc := ⟨.hbm, 618, rfl⟩
abbrev main_c_164 : Ref sig .tc := ⟨.hbm, 619, rfl⟩
abbrev main_c_165 : Ref sig .tc := ⟨.hbm, 620, rfl⟩
abbrev main_v327 : Ref sig .tc := ⟨.hbm, 621, rfl⟩
abbrev main_c_166 : Ref sig .tc := ⟨.hbm, 622, rfl⟩
abbrev main_v328 : Ref sig .tc := ⟨.hbm, 623, rfl⟩
abbrev main_v329 : Ref sig .tc := ⟨.hbm, 624, rfl⟩
abbrev main_v330 : Ref sig .tc := ⟨.hbm, 625, rfl⟩
abbrev main_v331 : Ref sig .tc := ⟨.hbm, 626, rfl⟩
abbrev main_v332 : Ref sig .tc := ⟨.hbm, 627, rfl⟩
abbrev main_c_167 : Ref sig .tc := ⟨.hbm, 628, rfl⟩
abbrev main_v333 : Ref sig .tc := ⟨.hbm, 629, rfl⟩
abbrev main_c_168 : Ref sig .tc := ⟨.hbm, 630, rfl⟩
abbrev main_call7_v0 : Ref sig .tc := ⟨.hbm, 631, rfl⟩
abbrev main_call7_c : Ref sig .tc := ⟨.hbm, 632, rfl⟩
abbrev main_call7_v1 : Ref sig .tc := ⟨.hbm, 633, rfl⟩
abbrev main_call7_c_0 : Ref sig .tc := ⟨.hbm, 634, rfl⟩
abbrev main_call7_v2 : Ref sig .tc := ⟨.hbm, 635, rfl⟩
abbrev main_call7_v3 : Ref sig .tc := ⟨.hbm, 636, rfl⟩
abbrev main_call7_c_1 : Ref sig .tc := ⟨.hbm, 637, rfl⟩
abbrev main_call7_v4 : Ref sig .tc := ⟨.hbm, 638, rfl⟩
abbrev main_call7_c_2 : Ref sig .tc := ⟨.hbm, 639, rfl⟩
abbrev main_call7_v5 : Ref sig .tc := ⟨.hbm, 640, rfl⟩
abbrev main_call7_c_3 : Ref sig .tc := ⟨.hbm, 641, rfl⟩
abbrev main_call7_v6 : Ref sig .tc := ⟨.hbm, 642, rfl⟩
abbrev main_call7_v7 : Ref sig .tc := ⟨.hbm, 643, rfl⟩
abbrev main_call7_v8 : Ref sig .tc := ⟨.hbm, 644, rfl⟩
abbrev main_call7_v9 : Ref sig .tc := ⟨.hbm, 645, rfl⟩
abbrev main_v334 : Ref sig .tc := ⟨.hbm, 646, rfl⟩
abbrev main_c_169 : Ref sig .tc := ⟨.hbm, 647, rfl⟩
abbrev main_v335 : Ref sig .tc := ⟨.hbm, 648, rfl⟩
abbrev main_v336 : Ref sig .tc := ⟨.hbm, 649, rfl⟩
abbrev main_v337 : Ref sig .tc := ⟨.hbm, 650, rfl⟩
abbrev main_v338 : Ref sig .tc := ⟨.hbm, 651, rfl⟩
abbrev main_v339 : Ref sig .tc := ⟨.hbm, 652, rfl⟩
abbrev main_v340 : Ref sig .tc := ⟨.hbm, 653, rfl⟩
abbrev main_v341 : Ref sig .tc := ⟨.hbm, 654, rfl⟩
abbrev main_v342 : Ref sig .tc := ⟨.hbm, 655, rfl⟩
abbrev main_c_170 : Ref sig .tc := ⟨.hbm, 656, rfl⟩
abbrev main_v343 : Ref sig .tc := ⟨.hbm, 657, rfl⟩
abbrev main_c_171 : Ref sig .tc := ⟨.hbm, 658, rfl⟩
abbrev main_v344 : Ref sig .tc := ⟨.hbm, 659, rfl⟩
abbrev main_v345 : Ref sig .tc := ⟨.hbm, 660, rfl⟩
abbrev main_c_172 : Ref sig .tc := ⟨.hbm, 661, rfl⟩
abbrev main_v346 : Ref sig .tc := ⟨.hbm, 662, rfl⟩
abbrev main_c_173 : Ref sig .tc := ⟨.hbm, 663, rfl⟩
abbrev main_v347 : Ref sig .tc := ⟨.hbm, 664, rfl⟩
abbrev main_v348 : Ref sig .tc := ⟨.hbm, 665, rfl⟩
abbrev main_c_174 : Ref sig .tc := ⟨.hbm, 666, rfl⟩
abbrev main_v349 : Ref sig .tc := ⟨.hbm, 667, rfl⟩
abbrev main_c_175 : Ref sig .tc := ⟨.hbm, 668, rfl⟩
abbrev main_v350 : Ref sig .tc := ⟨.hbm, 669, rfl⟩
abbrev main_v351 : Ref sig .tc := ⟨.hbm, 670, rfl⟩
abbrev main_c_176 : Ref sig .tc := ⟨.hbm, 671, rfl⟩
abbrev main_c_177 : Ref sig .tc := ⟨.hbm, 672, rfl⟩
abbrev main_v352 : Ref sig .tc := ⟨.hbm, 673, rfl⟩
abbrev main_c_178 : Ref sig .tc := ⟨.hbm, 674, rfl⟩
abbrev main_c_179 : Ref sig .tc := ⟨.hbm, 675, rfl⟩
abbrev main_v353 : Ref sig .tc := ⟨.hbm, 676, rfl⟩
abbrev main_c_180 : Ref sig .tc := ⟨.hbm, 677, rfl⟩
abbrev main_v354 : Ref sig .tc := ⟨.hbm, 678, rfl⟩
abbrev main_v355 : Ref sig .tc := ⟨.hbm, 679, rfl⟩
abbrev main_v356 : Ref sig .tc := ⟨.hbm, 680, rfl⟩
abbrev main_v357 : Ref sig .tc := ⟨.hbm, 681, rfl⟩
abbrev main_v358 : Ref sig .tc := ⟨.hbm, 682, rfl⟩
abbrev main_c_181 : Ref sig .tc := ⟨.hbm, 683, rfl⟩
abbrev main_v359 : Ref sig .tc := ⟨.hbm, 684, rfl⟩
abbrev main_c_182 : Ref sig .tc := ⟨.hbm, 685, rfl⟩
abbrev main_call8_v0 : Ref sig .tc := ⟨.hbm, 686, rfl⟩
abbrev main_call8_c : Ref sig .tc := ⟨.hbm, 687, rfl⟩
abbrev main_call8_v1 : Ref sig .tc := ⟨.hbm, 688, rfl⟩
abbrev main_call8_c_0 : Ref sig .tc := ⟨.hbm, 689, rfl⟩
abbrev main_call8_v2 : Ref sig .tc := ⟨.hbm, 690, rfl⟩
abbrev main_call8_v3 : Ref sig .tc := ⟨.hbm, 691, rfl⟩
abbrev main_call8_c_1 : Ref sig .tc := ⟨.hbm, 692, rfl⟩
abbrev main_call8_v4 : Ref sig .tc := ⟨.hbm, 693, rfl⟩
abbrev main_call8_c_2 : Ref sig .tc := ⟨.hbm, 694, rfl⟩
abbrev main_call8_v5 : Ref sig .tc := ⟨.hbm, 695, rfl⟩
abbrev main_call8_c_3 : Ref sig .tc := ⟨.hbm, 696, rfl⟩
abbrev main_call8_v6 : Ref sig .tc := ⟨.hbm, 697, rfl⟩
abbrev main_call8_v7 : Ref sig .tc := ⟨.hbm, 698, rfl⟩
abbrev main_call8_v8 : Ref sig .tc := ⟨.hbm, 699, rfl⟩
abbrev main_call8_v9 : Ref sig .tc := ⟨.hbm, 700, rfl⟩
abbrev main_v360 : Ref sig .tc := ⟨.hbm, 701, rfl⟩
abbrev main_c_183 : Ref sig .tc := ⟨.hbm, 702, rfl⟩
abbrev main_v361 : Ref sig .tc := ⟨.hbm, 703, rfl⟩
abbrev main_v362 : Ref sig .tc := ⟨.hbm, 704, rfl⟩
abbrev main_v363 : Ref sig .tc := ⟨.hbm, 705, rfl⟩
abbrev main_v364 : Ref sig .tc := ⟨.hbm, 706, rfl⟩
abbrev main_v365 : Ref sig .tc := ⟨.hbm, 707, rfl⟩
abbrev main_v366 : Ref sig .tc := ⟨.hbm, 708, rfl⟩
abbrev main_v367 : Ref sig .tc := ⟨.hbm, 709, rfl⟩
abbrev main_v368 : Ref sig .tc := ⟨.hbm, 710, rfl⟩
abbrev main_c_184 : Ref sig .tc := ⟨.hbm, 711, rfl⟩
abbrev main_v369 : Ref sig .tc := ⟨.hbm, 712, rfl⟩
abbrev main_c_185 : Ref sig .tc := ⟨.hbm, 713, rfl⟩
abbrev main_v370 : Ref sig .tc := ⟨.hbm, 714, rfl⟩
abbrev main_v371 : Ref sig .tc := ⟨.hbm, 715, rfl⟩
abbrev main_c_186 : Ref sig .tc := ⟨.hbm, 716, rfl⟩
abbrev main_v372 : Ref sig .tc := ⟨.hbm, 717, rfl⟩
abbrev main_c_187 : Ref sig .tc := ⟨.hbm, 718, rfl⟩
abbrev main_v373 : Ref sig .tc := ⟨.hbm, 719, rfl⟩
abbrev main_v374 : Ref sig .tc := ⟨.hbm, 720, rfl⟩
abbrev main_c_188 : Ref sig .tc := ⟨.hbm, 721, rfl⟩
abbrev main_v375 : Ref sig .tc := ⟨.hbm, 722, rfl⟩
abbrev main_c_189 : Ref sig .tc := ⟨.hbm, 723, rfl⟩
abbrev main_v376 : Ref sig .tc := ⟨.hbm, 724, rfl⟩
abbrev main_v377 : Ref sig .tc := ⟨.hbm, 725, rfl⟩
abbrev main_c_190 : Ref sig .tc := ⟨.hbm, 726, rfl⟩
abbrev main_c_191 : Ref sig .tc := ⟨.hbm, 727, rfl⟩
abbrev main_v378 : Ref sig .tc := ⟨.hbm, 728, rfl⟩
abbrev main_c_192 : Ref sig .tc := ⟨.hbm, 729, rfl⟩
abbrev main_c_193 : Ref sig .tc := ⟨.hbm, 730, rfl⟩
abbrev main_v379 : Ref sig .tc := ⟨.hbm, 731, rfl⟩
abbrev main_c_194 : Ref sig .tc := ⟨.hbm, 732, rfl⟩
abbrev main_v380 : Ref sig .tc := ⟨.hbm, 733, rfl⟩
abbrev main_v381 : Ref sig .tc := ⟨.hbm, 734, rfl⟩
abbrev main_v382 : Ref sig .tc := ⟨.hbm, 735, rfl⟩
abbrev main_v383 : Ref sig .tc := ⟨.hbm, 736, rfl⟩
abbrev main_c_195 : Ref sig .tc := ⟨.hbm, 737, rfl⟩
abbrev main_v384 : Ref sig .tc := ⟨.hbm, 738, rfl⟩
abbrev main_c_196 : Ref sig .tc := ⟨.hbm, 739, rfl⟩
abbrev main_v385 : Ref sig .tc := ⟨.hbm, 740, rfl⟩
abbrev main_v386 : Ref sig .tc := ⟨.hbm, 741, rfl⟩
abbrev main_v387 : Ref sig .tc := ⟨.hbm, 742, rfl⟩
abbrev main_v388 : Ref sig .tc := ⟨.hbm, 743, rfl⟩
abbrev main_v389 : Ref sig .tc := ⟨.hbm, 744, rfl⟩
abbrev main_v390 : Ref sig .tc := ⟨.hbm, 745, rfl⟩
abbrev main_v391 : Ref sig .tc := ⟨.hbm, 746, rfl⟩
abbrev main_c_197 : Ref sig .tc := ⟨.hbm, 747, rfl⟩
abbrev main_v392 : Ref sig .tc := ⟨.hbm, 748, rfl⟩
abbrev main_c_198 : Ref sig .tc := ⟨.hbm, 749, rfl⟩
abbrev main_v393 : Ref sig .tc := ⟨.hbm, 750, rfl⟩
abbrev main_v394 : Ref sig .tc := ⟨.hbm, 751, rfl⟩
abbrev main_c_199 : Ref sig .tc := ⟨.hbm, 752, rfl⟩
abbrev main_v395 : Ref sig .tc := ⟨.hbm, 753, rfl⟩
abbrev main_c_200 : Ref sig .tc := ⟨.hbm, 754, rfl⟩
abbrev main_v396 : Ref sig .tc := ⟨.hbm, 755, rfl⟩
abbrev main_v397 : Ref sig .tc := ⟨.hbm, 756, rfl⟩
abbrev main_c_201 : Ref sig .tc := ⟨.hbm, 757, rfl⟩
abbrev main_v398 : Ref sig .tc := ⟨.hbm, 758, rfl⟩
abbrev main_c_202 : Ref sig .tc := ⟨.hbm, 759, rfl⟩
abbrev main_v399 : Ref sig .tc := ⟨.hbm, 760, rfl⟩
abbrev main_v400 : Ref sig .tc := ⟨.hbm, 761, rfl⟩
abbrev main_c_203 : Ref sig .tc := ⟨.hbm, 762, rfl⟩
abbrev main_c_204 : Ref sig .tc := ⟨.hbm, 763, rfl⟩
abbrev main_v401 : Ref sig .tc := ⟨.hbm, 764, rfl⟩
abbrev main_c_205 : Ref sig .tc := ⟨.hbm, 765, rfl⟩
abbrev main_c_206 : Ref sig .tc := ⟨.hbm, 766, rfl⟩
abbrev main_v402 : Ref sig .tc := ⟨.hbm, 767, rfl⟩
abbrev main_c_207 : Ref sig .tc := ⟨.hbm, 768, rfl⟩
abbrev main_v403 : Ref sig .tc := ⟨.hbm, 769, rfl⟩
abbrev main_v404 : Ref sig .tc := ⟨.hbm, 770, rfl⟩
abbrev main_v405 : Ref sig .tc := ⟨.hbm, 771, rfl⟩
abbrev main_v406 : Ref sig .tc := ⟨.hbm, 772, rfl⟩
abbrev main_v407 : Ref sig .tc := ⟨.hbm, 773, rfl⟩
abbrev main_v408 : Ref sig .tc := ⟨.hbm, 774, rfl⟩
abbrev main_v409 : Ref sig .tc := ⟨.hbm, 775, rfl⟩
abbrev main_v410 : Ref sig .tc := ⟨.hbm, 776, rfl⟩
abbrev main_v411 : Ref sig .tc := ⟨.hbm, 777, rfl⟩
abbrev main_v412 : Ref sig .tc := ⟨.hbm, 778, rfl⟩
abbrev main_v413 : Ref sig .tc := ⟨.hbm, 779, rfl⟩
abbrev main_v414 : Ref sig .tc := ⟨.hbm, 780, rfl⟩
abbrev main_v415 : Ref sig .tc := ⟨.hbm, 781, rfl⟩
abbrev main_v416 : Ref sig .tc := ⟨.hbm, 782, rfl⟩
abbrev main_v417 : Ref sig .tc := ⟨.hbm, 783, rfl⟩
abbrev main_v418 : Ref sig .tc := ⟨.hbm, 784, rfl⟩
abbrev main_c_208 : Ref sig .tc := ⟨.hbm, 785, rfl⟩
abbrev main_v419 : Ref sig .tc := ⟨.hbm, 786, rfl⟩
abbrev main_c_209 : Ref sig .tc := ⟨.hbm, 787, rfl⟩
abbrev main_v420 : Ref sig .tc := ⟨.hbm, 788, rfl⟩
abbrev main_v421 : Ref sig .tc := ⟨.hbm, 789, rfl⟩
abbrev main_c_210 : Ref sig .tc := ⟨.hbm, 790, rfl⟩
abbrev main_v422 : Ref sig .tc := ⟨.hbm, 791, rfl⟩
abbrev main_c_211 : Ref sig .tc := ⟨.hbm, 792, rfl⟩
abbrev main_v423 : Ref sig .tc := ⟨.hbm, 793, rfl⟩
abbrev main_v424 : Ref sig .tc := ⟨.hbm, 794, rfl⟩
abbrev main_c_212 : Ref sig .tc := ⟨.hbm, 795, rfl⟩
abbrev main_v425 : Ref sig .tc := ⟨.hbm, 796, rfl⟩
abbrev main_c_213 : Ref sig .tc := ⟨.hbm, 797, rfl⟩
abbrev main_v426 : Ref sig .tc := ⟨.hbm, 798, rfl⟩
abbrev main_v427 : Ref sig .tc := ⟨.hbm, 799, rfl⟩
abbrev main_c_214 : Ref sig .tc := ⟨.hbm, 800, rfl⟩
abbrev main_c_215 : Ref sig .tc := ⟨.hbm, 801, rfl⟩
abbrev main_v428 : Ref sig .tc := ⟨.hbm, 802, rfl⟩
abbrev main_c_216 : Ref sig .tc := ⟨.hbm, 803, rfl⟩
abbrev main_c_217 : Ref sig .tc := ⟨.hbm, 804, rfl⟩
abbrev main_v429 : Ref sig .tc := ⟨.hbm, 805, rfl⟩
abbrev main_c_218 : Ref sig .tc := ⟨.hbm, 806, rfl⟩
abbrev main_v430 : Ref sig .tc := ⟨.hbm, 807, rfl⟩
abbrev main_v431 : Ref sig .tc := ⟨.hbm, 808, rfl⟩
abbrev main_v432 : Ref sig .tc := ⟨.hbm, 809, rfl⟩
abbrev main_v433 : Ref sig .tc := ⟨.hbm, 810, rfl⟩
abbrev main_v434 : Ref sig .tc := ⟨.hbm, 811, rfl⟩
abbrev main_c_219 : Ref sig .tc := ⟨.hbm, 812, rfl⟩
abbrev main_v435 : Ref sig .tc := ⟨.hbm, 813, rfl⟩
abbrev main_c_220 : Ref sig .tc := ⟨.hbm, 814, rfl⟩
abbrev main_call9_v0 : Ref sig .tc := ⟨.hbm, 815, rfl⟩
abbrev main_call9_c : Ref sig .tc := ⟨.hbm, 816, rfl⟩
abbrev main_call9_v1 : Ref sig .tc := ⟨.hbm, 817, rfl⟩
abbrev main_call9_c_0 : Ref sig .tc := ⟨.hbm, 818, rfl⟩
abbrev main_call9_v2 : Ref sig .tc := ⟨.hbm, 819, rfl⟩
abbrev main_call9_v3 : Ref sig .tc := ⟨.hbm, 820, rfl⟩
abbrev main_call9_c_1 : Ref sig .tc := ⟨.hbm, 821, rfl⟩
abbrev main_call9_v4 : Ref sig .tc := ⟨.hbm, 822, rfl⟩
abbrev main_call9_c_2 : Ref sig .tc := ⟨.hbm, 823, rfl⟩
abbrev main_call9_v5 : Ref sig .tc := ⟨.hbm, 824, rfl⟩
abbrev main_call9_c_3 : Ref sig .tc := ⟨.hbm, 825, rfl⟩
abbrev main_call9_v6 : Ref sig .tc := ⟨.hbm, 826, rfl⟩
abbrev main_call9_v7 : Ref sig .tc := ⟨.hbm, 827, rfl⟩
abbrev main_call9_v8 : Ref sig .tc := ⟨.hbm, 828, rfl⟩
abbrev main_call9_v9 : Ref sig .tc := ⟨.hbm, 829, rfl⟩
abbrev main_v436 : Ref sig .tc := ⟨.hbm, 830, rfl⟩
abbrev main_c_221 : Ref sig .tc := ⟨.hbm, 831, rfl⟩
abbrev main_v437 : Ref sig .tc := ⟨.hbm, 832, rfl⟩
abbrev main_v438 : Ref sig .tc := ⟨.hbm, 833, rfl⟩
abbrev main_v439 : Ref sig .tc := ⟨.hbm, 834, rfl⟩
abbrev main_v440 : Ref sig .tc := ⟨.hbm, 835, rfl⟩
abbrev main_v441 : Ref sig .tc := ⟨.hbm, 836, rfl⟩
abbrev main_v442 : Ref sig .tc := ⟨.hbm, 837, rfl⟩
abbrev main_v443 : Ref sig .tc := ⟨.hbm, 838, rfl⟩
abbrev main_v444 : Ref sig .tc := ⟨.hbm, 839, rfl⟩
abbrev main_c_222 : Ref sig .tc := ⟨.hbm, 840, rfl⟩
abbrev main_v445 : Ref sig .tc := ⟨.hbm, 841, rfl⟩
abbrev main_c_223 : Ref sig .tc := ⟨.hbm, 842, rfl⟩
abbrev main_v446 : Ref sig .tc := ⟨.hbm, 843, rfl⟩
abbrev main_v447 : Ref sig .tc := ⟨.hbm, 844, rfl⟩
abbrev main_c_224 : Ref sig .tc := ⟨.hbm, 845, rfl⟩
abbrev main_v448 : Ref sig .tc := ⟨.hbm, 846, rfl⟩
abbrev main_c_225 : Ref sig .tc := ⟨.hbm, 847, rfl⟩
abbrev main_v449 : Ref sig .tc := ⟨.hbm, 848, rfl⟩
abbrev main_v450 : Ref sig .tc := ⟨.hbm, 849, rfl⟩
abbrev main_c_226 : Ref sig .tc := ⟨.hbm, 850, rfl⟩
abbrev main_v451 : Ref sig .tc := ⟨.hbm, 851, rfl⟩
abbrev main_c_227 : Ref sig .tc := ⟨.hbm, 852, rfl⟩
abbrev main_v452 : Ref sig .tc := ⟨.hbm, 853, rfl⟩
abbrev main_v453 : Ref sig .tc := ⟨.hbm, 854, rfl⟩
abbrev main_c_228 : Ref sig .tc := ⟨.hbm, 855, rfl⟩
abbrev main_c_229 : Ref sig .tc := ⟨.hbm, 856, rfl⟩
abbrev main_v454 : Ref sig .tc := ⟨.hbm, 857, rfl⟩
abbrev main_c_230 : Ref sig .tc := ⟨.hbm, 858, rfl⟩
abbrev main_c_231 : Ref sig .tc := ⟨.hbm, 859, rfl⟩
abbrev main_v455 : Ref sig .tc := ⟨.hbm, 860, rfl⟩
abbrev main_c_232 : Ref sig .tc := ⟨.hbm, 861, rfl⟩
abbrev main_v456 : Ref sig .tc := ⟨.hbm, 862, rfl⟩
abbrev main_v457 : Ref sig .tc := ⟨.hbm, 863, rfl⟩
abbrev main_v458 : Ref sig .tc := ⟨.hbm, 864, rfl⟩
abbrev main_v459 : Ref sig .tc := ⟨.hbm, 865, rfl⟩
abbrev main_v460 : Ref sig .tc := ⟨.hbm, 866, rfl⟩
abbrev main_c_233 : Ref sig .tc := ⟨.hbm, 867, rfl⟩
abbrev main_v461 : Ref sig .tc := ⟨.hbm, 868, rfl⟩
abbrev main_c_234 : Ref sig .tc := ⟨.hbm, 869, rfl⟩
abbrev main_call10_v0 : Ref sig .tc := ⟨.hbm, 870, rfl⟩
abbrev main_call10_c : Ref sig .tc := ⟨.hbm, 871, rfl⟩
abbrev main_call10_v1 : Ref sig .tc := ⟨.hbm, 872, rfl⟩
abbrev main_call10_c_0 : Ref sig .tc := ⟨.hbm, 873, rfl⟩
abbrev main_call10_v2 : Ref sig .tc := ⟨.hbm, 874, rfl⟩
abbrev main_call10_v3 : Ref sig .tc := ⟨.hbm, 875, rfl⟩
abbrev main_call10_c_1 : Ref sig .tc := ⟨.hbm, 876, rfl⟩
abbrev main_call10_v4 : Ref sig .tc := ⟨.hbm, 877, rfl⟩
abbrev main_call10_c_2 : Ref sig .tc := ⟨.hbm, 878, rfl⟩
abbrev main_call10_v5 : Ref sig .tc := ⟨.hbm, 879, rfl⟩
abbrev main_call10_c_3 : Ref sig .tc := ⟨.hbm, 880, rfl⟩
abbrev main_call10_v6 : Ref sig .tc := ⟨.hbm, 881, rfl⟩
abbrev main_call10_v7 : Ref sig .tc := ⟨.hbm, 882, rfl⟩
abbrev main_call10_v8 : Ref sig .tc := ⟨.hbm, 883, rfl⟩
abbrev main_call10_v9 : Ref sig .tc := ⟨.hbm, 884, rfl⟩
abbrev main_v462 : Ref sig .tc := ⟨.hbm, 885, rfl⟩
abbrev main_c_235 : Ref sig .tc := ⟨.hbm, 886, rfl⟩
abbrev main_v463 : Ref sig .tc := ⟨.hbm, 887, rfl⟩
abbrev main_v464 : Ref sig .tc := ⟨.hbm, 888, rfl⟩
abbrev main_v465 : Ref sig .tc := ⟨.hbm, 889, rfl⟩
abbrev main_v466 : Ref sig .tc := ⟨.hbm, 890, rfl⟩
abbrev main_v467 : Ref sig .tc := ⟨.hbm, 891, rfl⟩
abbrev main_v468 : Ref sig .tc := ⟨.hbm, 892, rfl⟩
abbrev main_v469 : Ref sig .tc := ⟨.hbm, 893, rfl⟩
abbrev main_v470 : Ref sig .tc := ⟨.hbm, 894, rfl⟩
abbrev main_c_236 : Ref sig .tc := ⟨.hbm, 895, rfl⟩
abbrev main_v471 : Ref sig .tc := ⟨.hbm, 896, rfl⟩
abbrev main_c_237 : Ref sig .tc := ⟨.hbm, 897, rfl⟩
abbrev main_v472 : Ref sig .tc := ⟨.hbm, 898, rfl⟩
abbrev main_v473 : Ref sig .tc := ⟨.hbm, 899, rfl⟩
abbrev main_c_238 : Ref sig .tc := ⟨.hbm, 900, rfl⟩
abbrev main_v474 : Ref sig .tc := ⟨.hbm, 901, rfl⟩
abbrev main_c_239 : Ref sig .tc := ⟨.hbm, 902, rfl⟩
abbrev main_v475 : Ref sig .tc := ⟨.hbm, 903, rfl⟩
abbrev main_v476 : Ref sig .tc := ⟨.hbm, 904, rfl⟩
abbrev main_c_240 : Ref sig .tc := ⟨.hbm, 905, rfl⟩
abbrev main_v477 : Ref sig .tc := ⟨.hbm, 906, rfl⟩
abbrev main_c_241 : Ref sig .tc := ⟨.hbm, 907, rfl⟩
abbrev main_v478 : Ref sig .tc := ⟨.hbm, 908, rfl⟩
abbrev main_v479 : Ref sig .tc := ⟨.hbm, 909, rfl⟩
abbrev main_c_242 : Ref sig .tc := ⟨.hbm, 910, rfl⟩
abbrev main_c_243 : Ref sig .tc := ⟨.hbm, 911, rfl⟩
abbrev main_v480 : Ref sig .tc := ⟨.hbm, 912, rfl⟩
abbrev main_c_244 : Ref sig .tc := ⟨.hbm, 913, rfl⟩
abbrev main_c_245 : Ref sig .tc := ⟨.hbm, 914, rfl⟩
abbrev main_v481 : Ref sig .tc := ⟨.hbm, 915, rfl⟩
abbrev main_c_246 : Ref sig .tc := ⟨.hbm, 916, rfl⟩
abbrev main_v482 : Ref sig .tc := ⟨.hbm, 917, rfl⟩
abbrev main_v483 : Ref sig .tc := ⟨.hbm, 918, rfl⟩
abbrev main_v484 : Ref sig .tc := ⟨.hbm, 919, rfl⟩
abbrev main_v485 : Ref sig .tc := ⟨.hbm, 920, rfl⟩
abbrev main_c_247 : Ref sig .tc := ⟨.hbm, 921, rfl⟩
abbrev main_v486 : Ref sig .tc := ⟨.hbm, 922, rfl⟩
abbrev main_c_248 : Ref sig .tc := ⟨.hbm, 923, rfl⟩
abbrev main_v487 : Ref sig .tc := ⟨.hbm, 924, rfl⟩
abbrev main_v488 : Ref sig .tc := ⟨.hbm, 925, rfl⟩
abbrev main_v489 : Ref sig .tc := ⟨.hbm, 926, rfl⟩
abbrev main_v490 : Ref sig .tc := ⟨.hbm, 927, rfl⟩
abbrev main_v491 : Ref sig .tc := ⟨.hbm, 928, rfl⟩
abbrev main_v492 : Ref sig .tc := ⟨.hbm, 929, rfl⟩
abbrev main_v493 : Ref sig .tc := ⟨.hbm, 930, rfl⟩
abbrev main_c_249 : Ref sig .tc := ⟨.hbm, 931, rfl⟩
abbrev main_v494 : Ref sig .tc := ⟨.hbm, 932, rfl⟩
abbrev main_c_250 : Ref sig .tc := ⟨.hbm, 933, rfl⟩
abbrev main_v495 : Ref sig .tc := ⟨.hbm, 934, rfl⟩
abbrev main_v496 : Ref sig .tc := ⟨.hbm, 935, rfl⟩
abbrev main_c_251 : Ref sig .tc := ⟨.hbm, 936, rfl⟩
abbrev main_v497 : Ref sig .tc := ⟨.hbm, 937, rfl⟩
abbrev main_c_252 : Ref sig .tc := ⟨.hbm, 938, rfl⟩
abbrev main_v498 : Ref sig .tc := ⟨.hbm, 939, rfl⟩
abbrev main_v499 : Ref sig .tc := ⟨.hbm, 940, rfl⟩
abbrev main_c_253 : Ref sig .tc := ⟨.hbm, 941, rfl⟩
abbrev main_v500 : Ref sig .tc := ⟨.hbm, 942, rfl⟩
abbrev main_c_254 : Ref sig .tc := ⟨.hbm, 943, rfl⟩
abbrev main_v501 : Ref sig .tc := ⟨.hbm, 944, rfl⟩
abbrev main_v502 : Ref sig .tc := ⟨.hbm, 945, rfl⟩
abbrev main_c_255 : Ref sig .tc := ⟨.hbm, 946, rfl⟩
abbrev main_c_256 : Ref sig .tc := ⟨.hbm, 947, rfl⟩
abbrev main_v503 : Ref sig .tc := ⟨.hbm, 948, rfl⟩
abbrev main_c_257 : Ref sig .tc := ⟨.hbm, 949, rfl⟩
abbrev main_c_258 : Ref sig .tc := ⟨.hbm, 950, rfl⟩
abbrev main_v504 : Ref sig .tc := ⟨.hbm, 951, rfl⟩
abbrev main_c_259 : Ref sig .tc := ⟨.hbm, 952, rfl⟩
abbrev main_v505 : Ref sig .tc := ⟨.hbm, 953, rfl⟩
abbrev main_v506 : Ref sig .tc := ⟨.hbm, 954, rfl⟩
abbrev main_v507 : Ref sig .tc := ⟨.hbm, 955, rfl⟩
abbrev main_v508 : Ref sig .tc := ⟨.hbm, 956, rfl⟩
abbrev main_v509 : Ref sig .tc := ⟨.hbm, 957, rfl⟩
abbrev main_v510 : Ref sig .tc := ⟨.hbm, 958, rfl⟩
abbrev main_v511 : Ref sig .tc := ⟨.hbm, 959, rfl⟩
abbrev main_v512 : Ref sig .tc := ⟨.hbm, 960, rfl⟩
abbrev main_v513 : Ref sig .tc := ⟨.hbm, 961, rfl⟩
abbrev main_v514 : Ref sig .tc := ⟨.hbm, 962, rfl⟩
abbrev main_v515 : Ref sig .tc := ⟨.hbm, 963, rfl⟩
abbrev main_v516 : Ref sig .tc := ⟨.hbm, 964, rfl⟩
abbrev main_v517 : Ref sig .tc := ⟨.hbm, 965, rfl⟩
abbrev main_v518 : Ref sig .tc := ⟨.hbm, 966, rfl⟩
abbrev main_v519 : Ref sig .tc := ⟨.hbm, 967, rfl⟩
abbrev main_v520 : Ref sig .tc := ⟨.hbm, 968, rfl⟩
abbrev main_c_260 : Ref sig .tc := ⟨.hbm, 969, rfl⟩
abbrev main_v521 : Ref sig .tc := ⟨.hbm, 970, rfl⟩
abbrev main_c_261 : Ref sig .tc := ⟨.hbm, 971, rfl⟩
abbrev main_v522 : Ref sig .tc := ⟨.hbm, 972, rfl⟩
abbrev main_v523 : Ref sig .tc := ⟨.hbm, 973, rfl⟩
abbrev main_c_262 : Ref sig .tc := ⟨.hbm, 974, rfl⟩
abbrev main_v524 : Ref sig .tc := ⟨.hbm, 975, rfl⟩
abbrev main_c_263 : Ref sig .tc := ⟨.hbm, 976, rfl⟩
abbrev main_v525 : Ref sig .tc := ⟨.hbm, 977, rfl⟩
abbrev main_v526 : Ref sig .tc := ⟨.hbm, 978, rfl⟩
abbrev main_c_264 : Ref sig .tc := ⟨.hbm, 979, rfl⟩
abbrev main_v527 : Ref sig .tc := ⟨.hbm, 980, rfl⟩
abbrev main_c_265 : Ref sig .tc := ⟨.hbm, 981, rfl⟩
abbrev main_v528 : Ref sig .tc := ⟨.hbm, 982, rfl⟩
abbrev main_v529 : Ref sig .tc := ⟨.hbm, 983, rfl⟩
abbrev main_c_266 : Ref sig .tc := ⟨.hbm, 984, rfl⟩
abbrev main_c_267 : Ref sig .tc := ⟨.hbm, 985, rfl⟩
abbrev main_v530 : Ref sig .tc := ⟨.hbm, 986, rfl⟩
abbrev main_c_268 : Ref sig .tc := ⟨.hbm, 987, rfl⟩
abbrev main_c_269 : Ref sig .tc := ⟨.hbm, 988, rfl⟩
abbrev main_v531 : Ref sig .tc := ⟨.hbm, 989, rfl⟩
abbrev main_c_270 : Ref sig .tc := ⟨.hbm, 990, rfl⟩
abbrev main_v532 : Ref sig .tc := ⟨.hbm, 991, rfl⟩
abbrev main_v533 : Ref sig .tc := ⟨.hbm, 992, rfl⟩
abbrev main_v534 : Ref sig .tc := ⟨.hbm, 993, rfl⟩
abbrev main_v535 : Ref sig .tc := ⟨.hbm, 994, rfl⟩
abbrev main_v536 : Ref sig .tc := ⟨.hbm, 995, rfl⟩
abbrev main_c_271 : Ref sig .tc := ⟨.hbm, 996, rfl⟩
abbrev main_v537 : Ref sig .tc := ⟨.hbm, 997, rfl⟩
abbrev main_c_272 : Ref sig .tc := ⟨.hbm, 998, rfl⟩
abbrev main_call11_v0 : Ref sig .tc := ⟨.hbm, 999, rfl⟩
abbrev main_call11_c : Ref sig .tc := ⟨.hbm, 1000, rfl⟩
abbrev main_call11_v1 : Ref sig .tc := ⟨.hbm, 1001, rfl⟩
abbrev main_call11_c_0 : Ref sig .tc := ⟨.hbm, 1002, rfl⟩
abbrev main_call11_v2 : Ref sig .tc := ⟨.hbm, 1003, rfl⟩
abbrev main_call11_v3 : Ref sig .tc := ⟨.hbm, 1004, rfl⟩
abbrev main_call11_c_1 : Ref sig .tc := ⟨.hbm, 1005, rfl⟩
abbrev main_call11_v4 : Ref sig .tc := ⟨.hbm, 1006, rfl⟩
abbrev main_call11_c_2 : Ref sig .tc := ⟨.hbm, 1007, rfl⟩
abbrev main_call11_v5 : Ref sig .tc := ⟨.hbm, 1008, rfl⟩
abbrev main_call11_c_3 : Ref sig .tc := ⟨.hbm, 1009, rfl⟩
abbrev main_call11_v6 : Ref sig .tc := ⟨.hbm, 1010, rfl⟩
abbrev main_call11_v7 : Ref sig .tc := ⟨.hbm, 1011, rfl⟩
abbrev main_call11_v8 : Ref sig .tc := ⟨.hbm, 1012, rfl⟩
abbrev main_call11_v9 : Ref sig .tc := ⟨.hbm, 1013, rfl⟩
abbrev main_v538 : Ref sig .tc := ⟨.hbm, 1014, rfl⟩
abbrev main_c_273 : Ref sig .tc := ⟨.hbm, 1015, rfl⟩
abbrev main_v539 : Ref sig .tc := ⟨.hbm, 1016, rfl⟩
abbrev main_v540 : Ref sig .tc := ⟨.hbm, 1017, rfl⟩
abbrev main_v541 : Ref sig .tc := ⟨.hbm, 1018, rfl⟩
abbrev main_v542 : Ref sig .tc := ⟨.hbm, 1019, rfl⟩
abbrev main_v543 : Ref sig .tc := ⟨.hbm, 1020, rfl⟩
abbrev main_v544 : Ref sig .tc := ⟨.hbm, 1021, rfl⟩
abbrev main_v545 : Ref sig .tc := ⟨.hbm, 1022, rfl⟩
abbrev main_v546 : Ref sig .tc := ⟨.hbm, 1023, rfl⟩
abbrev main_c_274 : Ref sig .tc := ⟨.hbm, 1024, rfl⟩
abbrev main_v547 : Ref sig .tc := ⟨.hbm, 1025, rfl⟩
abbrev main_c_275 : Ref sig .tc := ⟨.hbm, 1026, rfl⟩
abbrev main_v548 : Ref sig .tc := ⟨.hbm, 1027, rfl⟩
abbrev main_v549 : Ref sig .tc := ⟨.hbm, 1028, rfl⟩
abbrev main_c_276 : Ref sig .tc := ⟨.hbm, 1029, rfl⟩
abbrev main_v550 : Ref sig .tc := ⟨.hbm, 1030, rfl⟩
abbrev main_c_277 : Ref sig .tc := ⟨.hbm, 1031, rfl⟩
abbrev main_v551 : Ref sig .tc := ⟨.hbm, 1032, rfl⟩
abbrev main_v552 : Ref sig .tc := ⟨.hbm, 1033, rfl⟩
abbrev main_c_278 : Ref sig .tc := ⟨.hbm, 1034, rfl⟩
abbrev main_v553 : Ref sig .tc := ⟨.hbm, 1035, rfl⟩
abbrev main_c_279 : Ref sig .tc := ⟨.hbm, 1036, rfl⟩
abbrev main_v554 : Ref sig .tc := ⟨.hbm, 1037, rfl⟩
abbrev main_v555 : Ref sig .tc := ⟨.hbm, 1038, rfl⟩
abbrev main_c_280 : Ref sig .tc := ⟨.hbm, 1039, rfl⟩
abbrev main_c_281 : Ref sig .tc := ⟨.hbm, 1040, rfl⟩
abbrev main_v556 : Ref sig .tc := ⟨.hbm, 1041, rfl⟩
abbrev main_c_282 : Ref sig .tc := ⟨.hbm, 1042, rfl⟩
abbrev main_c_283 : Ref sig .tc := ⟨.hbm, 1043, rfl⟩
abbrev main_v557 : Ref sig .tc := ⟨.hbm, 1044, rfl⟩
abbrev main_c_284 : Ref sig .tc := ⟨.hbm, 1045, rfl⟩
abbrev main_v558 : Ref sig .tc := ⟨.hbm, 1046, rfl⟩
abbrev main_v559 : Ref sig .tc := ⟨.hbm, 1047, rfl⟩
abbrev main_v560 : Ref sig .tc := ⟨.hbm, 1048, rfl⟩
abbrev main_v561 : Ref sig .tc := ⟨.hbm, 1049, rfl⟩
abbrev main_v562 : Ref sig .tc := ⟨.hbm, 1050, rfl⟩
abbrev main_c_285 : Ref sig .tc := ⟨.hbm, 1051, rfl⟩
abbrev main_v563 : Ref sig .tc := ⟨.hbm, 1052, rfl⟩
abbrev main_c_286 : Ref sig .tc := ⟨.hbm, 1053, rfl⟩
abbrev main_call12_v0 : Ref sig .tc := ⟨.hbm, 1054, rfl⟩
abbrev main_call12_c : Ref sig .tc := ⟨.hbm, 1055, rfl⟩
abbrev main_call12_v1 : Ref sig .tc := ⟨.hbm, 1056, rfl⟩
abbrev main_call12_c_0 : Ref sig .tc := ⟨.hbm, 1057, rfl⟩
abbrev main_call12_v2 : Ref sig .tc := ⟨.hbm, 1058, rfl⟩
abbrev main_call12_v3 : Ref sig .tc := ⟨.hbm, 1059, rfl⟩
abbrev main_call12_c_1 : Ref sig .tc := ⟨.hbm, 1060, rfl⟩
abbrev main_call12_v4 : Ref sig .tc := ⟨.hbm, 1061, rfl⟩
abbrev main_call12_c_2 : Ref sig .tc := ⟨.hbm, 1062, rfl⟩
abbrev main_call12_v5 : Ref sig .tc := ⟨.hbm, 1063, rfl⟩
abbrev main_call12_c_3 : Ref sig .tc := ⟨.hbm, 1064, rfl⟩
abbrev main_call12_v6 : Ref sig .tc := ⟨.hbm, 1065, rfl⟩
abbrev main_call12_v7 : Ref sig .tc := ⟨.hbm, 1066, rfl⟩
abbrev main_call12_v8 : Ref sig .tc := ⟨.hbm, 1067, rfl⟩
abbrev main_call12_v9 : Ref sig .tc := ⟨.hbm, 1068, rfl⟩
abbrev main_v564 : Ref sig .tc := ⟨.hbm, 1069, rfl⟩
abbrev main_c_287 : Ref sig .tc := ⟨.hbm, 1070, rfl⟩
abbrev main_v565 : Ref sig .tc := ⟨.hbm, 1071, rfl⟩
abbrev main_v566 : Ref sig .tc := ⟨.hbm, 1072, rfl⟩
abbrev main_v567 : Ref sig .tc := ⟨.hbm, 1073, rfl⟩
abbrev main_v568 : Ref sig .tc := ⟨.hbm, 1074, rfl⟩
abbrev main_v569 : Ref sig .tc := ⟨.hbm, 1075, rfl⟩
abbrev main_v570 : Ref sig .tc := ⟨.hbm, 1076, rfl⟩
abbrev main_v571 : Ref sig .tc := ⟨.hbm, 1077, rfl⟩
abbrev main_v572 : Ref sig .tc := ⟨.hbm, 1078, rfl⟩
abbrev main_c_288 : Ref sig .tc := ⟨.hbm, 1079, rfl⟩
abbrev main_v573 : Ref sig .tc := ⟨.hbm, 1080, rfl⟩
abbrev main_c_289 : Ref sig .tc := ⟨.hbm, 1081, rfl⟩
abbrev main_v574 : Ref sig .tc := ⟨.hbm, 1082, rfl⟩
abbrev main_v575 : Ref sig .tc := ⟨.hbm, 1083, rfl⟩
abbrev main_c_290 : Ref sig .tc := ⟨.hbm, 1084, rfl⟩
abbrev main_v576 : Ref sig .tc := ⟨.hbm, 1085, rfl⟩
abbrev main_c_291 : Ref sig .tc := ⟨.hbm, 1086, rfl⟩
abbrev main_v577 : Ref sig .tc := ⟨.hbm, 1087, rfl⟩
abbrev main_v578 : Ref sig .tc := ⟨.hbm, 1088, rfl⟩
abbrev main_c_292 : Ref sig .tc := ⟨.hbm, 1089, rfl⟩
abbrev main_v579 : Ref sig .tc := ⟨.hbm, 1090, rfl⟩
abbrev main_c_293 : Ref sig .tc := ⟨.hbm, 1091, rfl⟩
abbrev main_v580 : Ref sig .tc := ⟨.hbm, 1092, rfl⟩
abbrev main_v581 : Ref sig .tc := ⟨.hbm, 1093, rfl⟩
abbrev main_c_294 : Ref sig .tc := ⟨.hbm, 1094, rfl⟩
abbrev main_c_295 : Ref sig .tc := ⟨.hbm, 1095, rfl⟩
abbrev main_v582 : Ref sig .tc := ⟨.hbm, 1096, rfl⟩
abbrev main_c_296 : Ref sig .tc := ⟨.hbm, 1097, rfl⟩
abbrev main_c_297 : Ref sig .tc := ⟨.hbm, 1098, rfl⟩
abbrev main_v583 : Ref sig .tc := ⟨.hbm, 1099, rfl⟩
abbrev main_c_298 : Ref sig .tc := ⟨.hbm, 1100, rfl⟩
abbrev main_v584 : Ref sig .tc := ⟨.hbm, 1101, rfl⟩
abbrev main_v585 : Ref sig .tc := ⟨.hbm, 1102, rfl⟩
abbrev main_v586 : Ref sig .tc := ⟨.hbm, 1103, rfl⟩
abbrev main_v587 : Ref sig .tc := ⟨.hbm, 1104, rfl⟩
abbrev main_c_299 : Ref sig .tc := ⟨.hbm, 1105, rfl⟩
abbrev main_v588 : Ref sig .tc := ⟨.hbm, 1106, rfl⟩
abbrev main_c_300 : Ref sig .tc := ⟨.hbm, 1107, rfl⟩
abbrev main_v589 : Ref sig .tc := ⟨.hbm, 1108, rfl⟩
abbrev main_v590 : Ref sig .tc := ⟨.hbm, 1109, rfl⟩
abbrev main_v591 : Ref sig .tc := ⟨.hbm, 1110, rfl⟩
abbrev main_v592 : Ref sig .tc := ⟨.hbm, 1111, rfl⟩
abbrev main_v593 : Ref sig .tc := ⟨.hbm, 1112, rfl⟩
abbrev main_v594 : Ref sig .tc := ⟨.hbm, 1113, rfl⟩
abbrev main_v595 : Ref sig .tc := ⟨.hbm, 1114, rfl⟩
abbrev main_c_301 : Ref sig .tc := ⟨.hbm, 1115, rfl⟩
abbrev main_v596 : Ref sig .tc := ⟨.hbm, 1116, rfl⟩
abbrev main_c_302 : Ref sig .tc := ⟨.hbm, 1117, rfl⟩
abbrev main_v597 : Ref sig .tc := ⟨.hbm, 1118, rfl⟩
abbrev main_v598 : Ref sig .tc := ⟨.hbm, 1119, rfl⟩
abbrev main_c_303 : Ref sig .tc := ⟨.hbm, 1120, rfl⟩
abbrev main_v599 : Ref sig .tc := ⟨.hbm, 1121, rfl⟩
abbrev main_c_304 : Ref sig .tc := ⟨.hbm, 1122, rfl⟩
abbrev main_v600 : Ref sig .tc := ⟨.hbm, 1123, rfl⟩
abbrev main_v601 : Ref sig .tc := ⟨.hbm, 1124, rfl⟩
abbrev main_c_305 : Ref sig .tc := ⟨.hbm, 1125, rfl⟩
abbrev main_v602 : Ref sig .tc := ⟨.hbm, 1126, rfl⟩
abbrev main_c_306 : Ref sig .tc := ⟨.hbm, 1127, rfl⟩
abbrev main_v603 : Ref sig .tc := ⟨.hbm, 1128, rfl⟩
abbrev main_v604 : Ref sig .tc := ⟨.hbm, 1129, rfl⟩
abbrev main_c_307 : Ref sig .tc := ⟨.hbm, 1130, rfl⟩
abbrev main_c_308 : Ref sig .tc := ⟨.hbm, 1131, rfl⟩
abbrev main_v605 : Ref sig .tc := ⟨.hbm, 1132, rfl⟩
abbrev main_c_309 : Ref sig .tc := ⟨.hbm, 1133, rfl⟩
abbrev main_c_310 : Ref sig .tc := ⟨.hbm, 1134, rfl⟩
abbrev main_v606 : Ref sig .tc := ⟨.hbm, 1135, rfl⟩
abbrev main_c_311 : Ref sig .tc := ⟨.hbm, 1136, rfl⟩
abbrev main_v607 : Ref sig .tc := ⟨.hbm, 1137, rfl⟩
abbrev main_v608 : Ref sig .tc := ⟨.hbm, 1138, rfl⟩
abbrev main_v609 : Ref sig .tc := ⟨.hbm, 1139, rfl⟩
abbrev main_v610 : Ref sig .tc := ⟨.hbm, 1140, rfl⟩
abbrev main_v611 : Ref sig .tc := ⟨.hbm, 1141, rfl⟩
abbrev main_v612 : Ref sig .tc := ⟨.hbm, 1142, rfl⟩
abbrev main_v613 : Ref sig .tc := ⟨.hbm, 1143, rfl⟩
abbrev main_v614 : Ref sig .tc := ⟨.hbm, 1144, rfl⟩
abbrev main_v615 : Ref sig .tc := ⟨.hbm, 1145, rfl⟩
abbrev main_v616 : Ref sig .tc := ⟨.hbm, 1146, rfl⟩
abbrev main_v617 : Ref sig .tc := ⟨.hbm, 1147, rfl⟩
abbrev main_v618 : Ref sig .tc := ⟨.hbm, 1148, rfl⟩
abbrev main_v619 : Ref sig .tc := ⟨.hbm, 1149, rfl⟩
abbrev main_v620 : Ref sig .tc := ⟨.hbm, 1150, rfl⟩
abbrev main_v621 : Ref sig .tc := ⟨.hbm, 1151, rfl⟩
abbrev main_v622 : Ref sig .tc := ⟨.hbm, 1152, rfl⟩
abbrev main_v623 : Ref sig .tc := ⟨.hbm, 1153, rfl⟩
abbrev main_v624 : Ref sig .tc := ⟨.hbm, 1154, rfl⟩
abbrev main_v625 : Ref sig .tc := ⟨.hbm, 1155, rfl⟩
abbrev main_v626 : Ref sig .tc := ⟨.hbm, 1156, rfl⟩
abbrev main_v627 : Ref sig .tc := ⟨.hbm, 1157, rfl⟩
abbrev main_v628 : Ref sig .tc := ⟨.hbm, 1158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2048x1 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S16384x4_S1x4_0_0 : S16384x4.Slices ![0, 0] S1x4
  shapeCasts_S1x4_S4 : S1x4.ShapeCasts S4
  bcast_S_S4 : S_.BroadcastsInDim S4 (![] : Fin 0 → Fin S4.rank)
  bcast_S_S1 : S_.BroadcastsInDim S1 (![] : Fin 0 → Fin S1.rank)
  slices_S4_S1_0 : S4.Slices ![0] S1
  shapeCasts_S1_S_ : S1.ShapeCasts S_
  slices_S4_S1_1 : S4.Slices ![1] S1
  slices_S4_S1_2 : S4.Slices ![2] S1
  sliceFits_S10x10x10x4_S1x1x1x1 : S10x10x10x4.Slices (fun _ => 0) S1x1x1x1
  h_S_ : 0 < S_.numel
  shapeCasts_S1x1x1x1_S_ : S1x1x1x1.ShapeCasts S_
  slices_S4_S1_3 : S4.Slices ![3] S1
  bitsLt_bf16_f32 : FTy.bits .bf16 < FTy.bits .f32
  inb_S1024x4_S1024x4_0_0 : ∀ a, (![0, 0] : Fin 2 → Nat) a + S1024x4.size a ≤ S1024x4.size a
  h_S1024x4 : 0 < S1024x4.numel
  shapeCasts_S1024x4_S1024x4 : S1024x4.ShapeCasts S1024x4
  inb_S4x2048_S4x2048_0_0 : ∀ a, (![0, 0] : Fin 2 → Nat) a + S4x2048.size a ≤ S4x2048.size a
  h_S4x2048 : 0 < S4x2048.numel
  shapeCasts_S4x2048_S4x2048 : S4x2048.ShapeCasts S4x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S1024x2048 : S1x2048.Broadcasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x2048_S4096x2048_0_0 : ∀ a, (![0, 0] : Fin 2 → Nat) a + S4096x2048.size a ≤ S4096x2048.size a
  h_S4096x2048 : 0 < S4096x2048.numel
  shapeCasts_S4096x2048_S4096x2048 : S4096x2048.ShapeCasts S4096x2048
  broadcasts_S1x2048_S512x2048 : S1x2048.Broadcasts S512x2048
  broadcasts_S1x1024_S512x1024 : S1x1024.Broadcasts S512x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  scatter_S4_S1_S__n_0_0_0_wf : ScatterDims.WF S4 S1 S_ [] [0] [0] 0
  dot_S1024x4_S4x2048_S1024x2048_1_0_0_1_n_n_wf : DotDims.WF S1024x4 S4x2048 S1024x2048 [1] [0] [0] [1] [] []
  dot_S1024x2048_S2048x1024_S1024x1024_1_0_0_1_n_n_wf : DotDims.WF S1024x2048 S2048x1024 S1024x1024 [1] [0] [0] [1] [] []
  dot_S512x4096_S4096x2048_S512x2048_1_0_0_1_n_n_wf : DotDims.WF S512x4096 S4096x2048 S512x2048 [1] [0] [0] [1] [] []
  dot_S512x2048_S2048x1024_S512x1024_1_0_0_1_n_n_wf : DotDims.WF S512x2048 S2048x1024 S512x1024 [1] [0] [0] [1] [] []
  dot_S512x1024_S1024x1_S512x1_1_0_0_1_n_n_wf : DotDims.WF S512x1024 S1024x1 S512x1 [1] [0] [0] [1] [] []
  dot_S512x2048_S2048x1_S512x1_1_0_0_1_n_n_wf : DotDims.WF S512x2048 S2048x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4.size a ≤ S16384x4.size a
  hwx0_0 : ∀ i : grid0.Coords, EltTy.bits .bf16 = 32 ∨ (Rect.block (s := S16384x4) S1024x4.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x2048.size a ≤ S4x2048.size a
  hwx0_1 : ∀ i : grid0.Coords, EltTy.bits .bf16 = 32 ∨ (Rect.block (s := S4x2048) S4x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S2048.size a
  hwx0_2 : ∀ i : grid0.Coords, EltTy.bits .f32 = 32 ∨ (Rect.block (s := S2048) S2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S2048x4096.size a
  hwx0_3 : ∀ i : grid0.Coords, EltTy.bits .bf16 = 32 ∨ (Rect.block (s := S2048x4096) S2048x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S4096.size a
  hwx0_4 : ∀ i : grid0.Coords, EltTy.bits .f32 = 32 ∨ (Rect.block (s := S4096) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S16384x4096.size a
  hwx0_5 : ∀ i : grid0.Coords, EltTy.bits .f32 = 32 ∨ (Rect.block (s := S16384x4096) S1024x1024.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S16384x4096.size a
  hwx1_0 : ∀ i : grid1.Coords, EltTy.bits .bf16 = 32 ∨ (Rect.block (s := S16384x4096) S512x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x2048.size a ≤ S4096x2048.size a
  hwx1_1 : ∀ i : grid1.Coords, EltTy.bits .bf16 = 32 ∨ (Rect.block (s := S4096x2048) S4096x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048.size a ≤ S2048.size a
  hwx1_2 : ∀ i : grid1.Coords, EltTy.bits .f32 = 32 ∨ (Rect.block (s := S2048) S2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x1024.size a ≤ S2048x1024.size a
  hwx1_3 : ∀ i : grid1.Coords, EltTy.bits .bf16 = 32 ∨ (Rect.block (s := S2048x1024) S2048x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S1024.size a
  hwx1_4 : ∀ i : grid1.Coords, EltTy.bits .f32 = 32 ∨ (Rect.block (s := S1024) S1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x1.size a ≤ S1024x1.size a
  hwx1_5 : ∀ i : grid1.Coords, EltTy.bits .bf16 = 32 ∨ (Rect.block (s := S1024x1) S1024x1.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1.size a ≤ S1.size a
  hwx1_6 : ∀ i : grid1.Coords, EltTy.bits .f32 = 32 ∨ (Rect.block (s := S1) S1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x1.size a ≤ S16384x1.size a
  hwx1_7 : ∀ i : grid1.Coords, EltTy.bits .f32 = 32 ∨ (Rect.block (s := S16384x1) S512x1.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S16384x4096.size a
  hwx2_0 : ∀ i : grid2.Coords, EltTy.bits .bf16 = 32 ∨ (Rect.block (s := S16384x4096) S512x4096.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x2048.size a ≤ S4096x2048.size a
  hwx2_1 : ∀ i : grid2.Coords, EltTy.bits .bf16 = 32 ∨ (Rect.block (s := S4096x2048) S4096x2048.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2048.size a ≤ S2048.size a
  hwx2_2 : ∀ i : grid2.Coords, EltTy.bits .f32 = 32 ∨ (Rect.block (s := S2048) S2048.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2048x1.size a ≤ S2048x1.size a
  hwx2_3 : ∀ i : grid2.Coords, EltTy.bits .bf16 = 32 ∨ (Rect.block (s := S2048x1) S2048x1.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1.size a ≤ S1.size a
  hwx2_4 : ∀ i : grid2.Coords, EltTy.bits .f32 = 32 ∨ (Rect.block (s := S1) S1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x1.size a ≤ S16384x1.size a
  hwx2_5 : ∀ i : grid2.Coords, EltTy.bits .f32 = 32 ∨ (Rect.block (s := S16384x1) S512x1.size (cc2_transform_5 i) (hinb2_5 i)).WholeWords (EltTy.packing .f32)

variable [Facts₀]

def scatter_S4_S1_S__n_0_0_0 : ScatterDims S4 S1 S_ where
  updateWindowDims := []
  insertedWindowDims := [0]
  scatterDimsToOperandDims := [0]
  indexVectorDim := 0
  wf := scatter_S4_S1_S__n_0_0_0_wf
def dot_S1024x4_S4x2048_S1024x2048_1_0_0_1_n_n : DotDims S1024x4 S4x2048 S1024x2048 where
  lhsContracting := [1]
  rhsContracting := [0]
  lhsNonContracting := [0]
  rhsNonContracting := [1]
  lhsBatch := []
  rhsBatch := []
  wf := dot_S1024x4_S4x2048_S1024x2048_1_0_0_1_n_n_wf
def dot_S1024x2048_S2048x1024_S1024x1024_1_0_0_1_n_n : DotDims S1024x2048 S2048x1024 S1024x1024 where
  lhsContracting := [1]
  rhsContracting := [0]
  lhsNonContracting := [0]
  rhsNonContracting := [1]
  lhsBatch := []
  rhsBatch := []
  wf := dot_S1024x2048_S2048x1024_S1024x1024_1_0_0_1_n_n_wf
def dot_S512x4096_S4096x2048_S512x2048_1_0_0_1_n_n : DotDims S512x4096 S4096x2048 S512x2048 where
  lhsContracting := [1]
  rhsContracting := [0]
  lhsNonContracting := [0]
  rhsNonContracting := [1]
  lhsBatch := []
  rhsBatch := []
  wf := dot_S512x4096_S4096x2048_S512x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x1_S512x1_1_0_0_1_n_n : DotDims S512x1024 S1024x1 S512x1 where
  lhsContracting := [1]
  rhsContracting := [0]
  lhsNonContracting := [0]
  rhsNonContracting := [1]
  lhsBatch := []
  rhsBatch := []
  wf := dot_S512x1024_S1024x1_S512x1_1_0_0_1_n_n_wf
def dot_S512x2048_S2048x1_S512x1_1_0_0_1_n_n : DotDims S512x2048 S2048x1 S512x1 where
  lhsContracting := [1]
  rhsContracting := [0]
  lhsNonContracting := [0]
  rhsNonContracting := [1]
  lhsBatch := []
  rhsBatch := []
  wf := dot_S512x2048_S2048x1_S512x1_1_0_0_1_n_n_wf

abbrev win0_0 : Pipeline.Window sig grid0 :=
  Pipeline.Window.ofSpec (Memref.whole main_v617) S1024x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v618) S4x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v619) S2048x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v620) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v621) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v622) S4096x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v623) S2048x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v624) S1024x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v625) S512x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v621) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v626) S4096x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v627) S2048x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg15) S1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v628) S512x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S16384x4 : Shape := ⟨2, ![16384, 4]⟩
abbrev S10x10x10x4 : Shape := ⟨4, ![10, 10, 10, 4]⟩
abbrev S4x2048 : Shape := ⟨2, ![4, 2048]⟩
abbrev S2048 : Shape := ⟨1, ![2048]⟩
abbrev S2048x4096 : Shape := ⟨2, ![2048, 4096]⟩
abbrev S4096 : Shape := ⟨1, ![4096]⟩
abbrev S4096x2048 : Shape := ⟨2, ![4096, 2048]⟩
abbrev S2048x1024 : Shape := ⟨2, ![2048, 1024]⟩
abbrev S1024 : Shape := ⟨1, ![1024]⟩
abbrev S1024x1 : Shape := ⟨2, ![1024, 1]⟩
abbrev S1 : Shape := ⟨1, ![1]⟩
abbrev S2048x1 : Shape := ⟨2, ![2048, 1]⟩
abbrev S16384x2048 : Shape := ⟨2, ![16384, 2048]⟩
abbrev S1x2048 : Shape := ⟨2, ![1, 2048]⟩
abbrev S_ : Shape := ⟨0, ![]⟩
abbrev S16384x4096 : Shape := ⟨2, ![16384, 4096]⟩
abbrev S1x4096 : Shape := ⟨2, ![1, 4096]⟩
abbrev S1x4 : Shape := ⟨2, ![1, 4]⟩
abbrev S4 : Shape := ⟨1, ![4]⟩
abbrev S1x1x1x1 : Shape := ⟨4, ![1, 1, 1, 1]⟩
abbrev S16384x1024 : Shape := ⟨2, ![16384, 1024]⟩
abbrev S1x1024 : Shape := ⟨2, ![1, 1024]⟩
abbrev S16384x1 : Shape := ⟨2, ![16384, 1]⟩
abbrev S1x1 : Shape := ⟨2, ![1, 1]⟩

abbrev nBuf : Space → Nat
  | .hbm => 1187
  | .vmem => 0
  | .smem => 0
  | _ => 0

abbrev hbmTy0_0 (i : Nat) : BufTy := match i % 128 with
  | 0 => ⟨S16384x4, .f32⟩
  | 1 => ⟨S10x10x10x4, .f32⟩
  | 2 => ⟨S4x2048, .f32⟩
  | 3 => ⟨S2048, .f32⟩
  | 4 => ⟨S2048x4096, .f32⟩
  | 5 => ⟨S4096, .f32⟩
  | 6 => ⟨S4096x2048, .f32⟩
  | 7 => ⟨S2048, .f32⟩
  | 8 => ⟨S2048x1024, .f32⟩
  | 9 => ⟨S1024, .f32⟩
  | 10 => ⟨S1024x1, .f32⟩
  | 11 => ⟨S1, .f32⟩
  | 12 => ⟨S4096x2048, .f32⟩
  | 13 => ⟨S2048, .f32⟩
  | 14 => ⟨S2048x1, .f32⟩
  | 15 => ⟨S1, .f32⟩
  | 16 => ⟨S16384x2048, .f32⟩
  | 17 => ⟨S1x2048, .f32⟩
  | 18 => ⟨S16384x2048, .f32⟩
  | 19 => ⟨S16384x2048, .f32⟩
  | 20 => ⟨S_, .f32⟩
  | 21 => ⟨S16384x2048, .f32⟩
  | 22 => ⟨S16384x2048, .f32⟩
  | 23 => ⟨S16384x4096, .f32⟩
  | 24 => ⟨S1x4096, .f32⟩
  | 25 => ⟨S16384x4096, .f32⟩
  | 26 => ⟨S16384x4096, .f32⟩
  | 27 => ⟨S1x4, .f32⟩
  | 28 => ⟨S4, .f32⟩
  | 29 => ⟨S4, .i32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S4, .i32⟩
  | 37 => ⟨S4, .i32⟩
  | 38 => ⟨S_, .i32⟩
  | 39 => ⟨S4, .i32⟩
  | 40 => ⟨S4, .i1⟩
  | 41 => ⟨S_, .i32⟩
  | 42 => ⟨S4, .i32⟩
  | 43 => ⟨S4, .i1⟩
  | 44 => ⟨S_, .i32⟩
  | 45 => ⟨S_, .i1⟩
  | 46 => ⟨S4, .i1⟩
  | 47 => ⟨S4, .i1⟩
  | 48 => ⟨S4, .i1⟩
  | 49 => ⟨S4, .i32⟩
  | 50 => ⟨S4, .i32⟩
  | 51 => ⟨S4, .i32⟩
  | 52 => ⟨S_, .f32⟩
  | 53 => ⟨S1, .f32⟩
  | 54 => ⟨S1, .i32⟩
  | 55 => ⟨S_, .i32⟩
  | 56 => ⟨S1, .i32⟩
  | 57 => ⟨S_, .i32⟩
  | 58 => ⟨S1, .i32⟩
  | 59 => ⟨S_, .i32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S_, .i32⟩
  | 81 => ⟨S_, .i32⟩
  | 82 => ⟨S_, .i32⟩
  | 83 => ⟨S1x1x1x1, .f32⟩
  | 84 => ⟨S_, .f32⟩
  | 85 => ⟨S1, .i32⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S_, .i1⟩
  | 93 => ⟨S_, .i32⟩
  | 94 => ⟨S_, .i32⟩
  | 95 => ⟨S_, .i32⟩
  | 96 => ⟨S_, .i32⟩
  | 97 => ⟨S_, .i1⟩
  | 98 => ⟨S_, .i32⟩
  | 99 => ⟨S_, .i1⟩
  | 100 => ⟨S_, .i32⟩
  | 101 => ⟨S_, .i1⟩
  | 102 => ⟨S_, .i1⟩
  | 103 => ⟨S_, .i1⟩
  | 104 => ⟨S_, .i32⟩
  | 105 => ⟨S_, .i32⟩
  | 106 => ⟨S_, .i32⟩
  | 107 => ⟨S1, .i32⟩
  | 108 => ⟨S4, .i32⟩
  | 109 => ⟨S1, .i32⟩
  | 110 => ⟨S_, .i32⟩
  | 111 => ⟨S1, .i32⟩
  | 112 => ⟨S_, .i32⟩
  | 113 => ⟨S1, .i32⟩
  | 114 => ⟨S_, .i32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S_, .i1⟩
  | 122 => ⟨S_, .i32⟩
  | 123 => ⟨S_, .i32⟩
  | 124 => ⟨S_, .i32⟩
  | 125 => ⟨S_, .i32⟩
  | 126 => ⟨S_, .i1⟩
  | 127 => ⟨S_, .i32⟩
  | _ => ⟨S16384x4, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i1⟩
  | 5 => ⟨S_, .i32⟩
  | 6 => ⟨S_, .i32⟩
  | 7 => ⟨S_, .i32⟩
  | 8 => ⟨S_, .i32⟩
  | 9 => ⟨S_, .i32⟩
  | 10 => ⟨S1x1x1x1, .f32⟩
  | 11 => ⟨S_, .f32⟩
  | 12 => ⟨S1, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S_, .i32⟩
  | 23 => ⟨S_, .i32⟩
  | 24 => ⟨S_, .i1⟩
  | 25 => ⟨S_, .i32⟩
  | 26 => ⟨S_, .i1⟩
  | 27 => ⟨S_, .i32⟩
  | 28 => ⟨S_, .i1⟩
  | 29 => ⟨S_, .i1⟩
  | 30 => ⟨S_, .i1⟩
  | 31 => ⟨S_, .i32⟩
  | 32 => ⟨S_, .i32⟩
  | 33 => ⟨S_, .i32⟩
  | 34 => ⟨S1, .i32⟩
  | 35 => ⟨S4, .i32⟩
  | 36 => ⟨S1, .i32⟩
  | 37 => ⟨S_, .i32⟩
  | 38 => ⟨S1, .i32⟩
  | 39 => ⟨S_, .i32⟩
  | 40 => ⟨S1, .i32⟩
  | 41 => ⟨S_, .i32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S_, .i32⟩
  | 63 => ⟨S_, .i32⟩
  | 64 => ⟨S_, .i32⟩
  | 65 => ⟨S1x1x1x1, .f32⟩
  | 66 => ⟨S_, .f32⟩
  | 67 => ⟨S_, .f32⟩
  | 68 => ⟨S_, .i32⟩
  | 69 => ⟨S1, .i32⟩
  | 70 => ⟨S_, .i32⟩
  | 71 => ⟨S4, .i32⟩
  | 72 => ⟨S1, .i32⟩
  | 73 => ⟨S_, .i32⟩
  | 74 => ⟨S1, .i32⟩
  | 75 => ⟨S_, .i32⟩
  | 76 => ⟨S1, .i32⟩
  | 77 => ⟨S_, .i32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S_, .i32⟩
  | 101 => ⟨S1x1x1x1, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S1, .f32⟩
  | 109 => ⟨S1, .f32⟩
  | 110 => ⟨S1, .i32⟩
  | 111 => ⟨S_, .i32⟩
  | 112 => ⟨S1, .i32⟩
  | 113 => ⟨S_, .i32⟩
  | 114 => ⟨S1, .i32⟩
  | 115 => ⟨S_, .i32⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S_, .i1⟩
  | 123 => ⟨S_, .i32⟩
  | 124 => ⟨S_, .i32⟩
  | 125 => ⟨S_, .i32⟩
  | 126 => ⟨S_, .i32⟩
  | 127 => ⟨S_, .i1⟩
  | _ => ⟨S16384x4, .f32⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S_, .i32⟩
  | 9 => ⟨S_, .i32⟩
  | 10 => ⟨S_, .i32⟩
  | 11 => ⟨S1x1x1x1, .f32⟩
  | 12 => ⟨S_, .f32⟩
  | 13 => ⟨S1, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S_, .i32⟩
  | 24 => ⟨S_, .i32⟩
  | 25 => ⟨S_, .i1⟩
  | 26 => ⟨S_, .i32⟩
  | 27 => ⟨S_, .i1⟩
  | 28 => ⟨S_, .i32⟩
  | 29 => ⟨S_, .i1⟩
  | 30 => ⟨S_, .i1⟩
  | 31 => ⟨S_, .i1⟩
  | 32 => ⟨S_, .i32⟩
  | 33 => ⟨S_, .i32⟩
  | 34 => ⟨S_, .i32⟩
  | 35 => ⟨S1, .i32⟩
  | 36 => ⟨S4, .i32⟩
  | 37 => ⟨S1, .i32⟩
  | 38 => ⟨S_, .i32⟩
  | 39 => ⟨S1, .i32⟩
  | 40 => ⟨S_, .i32⟩
  | 41 => ⟨S1, .i32⟩
  | 42 => ⟨S_, .i32⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S_, .i32⟩
  | 66 => ⟨S1x1x1x1, .f32⟩
  | 67 => ⟨S_, .f32⟩
  | 68 => ⟨S1, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S_, .i1⟩
  | 81 => ⟨S_, .i32⟩
  | 82 => ⟨S_, .i1⟩
  | 83 => ⟨S_, .i32⟩
  | 84 => ⟨S_, .i1⟩
  | 85 => ⟨S_, .i1⟩
  | 86 => ⟨S_, .i1⟩
  | 87 => ⟨S_, .i32⟩
  | 88 => ⟨S_, .i32⟩
  | 89 => ⟨S_, .i32⟩
  | 90 => ⟨S1, .i32⟩
  | 91 => ⟨S4, .i32⟩
  | 92 => ⟨S1, .i32⟩
  | 93 => ⟨S_, .i32⟩
  | 94 => ⟨S1, .i32⟩
  | 95 => ⟨S_, .i32⟩
  | 96 => ⟨S1, .i32⟩
  | 97 => ⟨S_, .i32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S_, .i32⟩
  | 115 => ⟨S_, .i1⟩
  | 116 => ⟨S_, .i32⟩
  | 117 => ⟨S_, .i32⟩
  | 118 => ⟨S_, .i32⟩
  | 119 => ⟨S_, .i32⟩
  | 120 => ⟨S_, .i32⟩
  | 121 => ⟨S1x1x1x1, .f32⟩
  | 122 => ⟨S_, .f32⟩
  | 123 => ⟨S_, .f32⟩
  | 124 => ⟨S_, .i32⟩
  | 125 => ⟨S1, .i32⟩
  | 126 => ⟨S_, .i32⟩
  | 127 => ⟨S4, .i32⟩
  | _ => ⟨S16384x4, .f32⟩

abbrev hbmTy0_3 (i : Nat) : BufTy := match i % 128 with
  | 0 => ⟨S1, .i32⟩
  | 1 => ⟨S_, .i32⟩
  | 2 => ⟨S1, .i32⟩
  | 3 => ⟨S_, .i32⟩
  | 4 => ⟨S1, .i32⟩
  | 5 => ⟨S_, .i32⟩
  | 6 => ⟨S_, .i32⟩
  | 7 => ⟨S_, .i1⟩
  | 8 => ⟨S_, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S_, .i32⟩
  | 27 => ⟨S_, .i32⟩
  | 28 => ⟨S_, .i32⟩
  | 29 => ⟨S1x1x1x1, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S1, .f32⟩
  | 37 => ⟨S1, .f32⟩
  | 38 => ⟨S1, .i32⟩
  | 39 => ⟨S_, .i32⟩
  | 40 => ⟨S1, .i32⟩
  | 41 => ⟨S_, .i32⟩
  | 42 => ⟨S1, .i32⟩
  | 43 => ⟨S_, .i32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S_, .i32⟩
  | 67 => ⟨S1x1x1x1, .f32⟩
  | 68 => ⟨S_, .f32⟩
  | 69 => ⟨S1, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S_, .i1⟩
  | 82 => ⟨S_, .i32⟩
  | 83 => ⟨S_, .i1⟩
  | 84 => ⟨S_, .i32⟩
  | 85 => ⟨S_, .i1⟩
  | 86 => ⟨S_, .i1⟩
  | 87 => ⟨S_, .i1⟩
  | 88 => ⟨S_, .i32⟩
  | 89 => ⟨S_, .i32⟩
  | 90 => ⟨S_, .i32⟩
  | 91 => ⟨S1, .i32⟩
  | 92 => ⟨S4, .i32⟩
  | 93 => ⟨S1, .i32⟩
  | 94 => ⟨S_, .i32⟩
  | 95 => ⟨S1, .i32⟩
  | 96 => ⟨S_, .i32⟩
  | 97 => ⟨S1, .i32⟩
  | 98 => ⟨S_, .i32⟩
  | 99 => ⟨S_, .i32⟩
  | 100 => ⟨S_, .i1⟩
  | 101 => ⟨S_, .i32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S_, .i1⟩
  | 111 => ⟨S_, .i32⟩
  | 112 => ⟨S_, .i32⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S_, .i32⟩
  | 122 => ⟨S1x1x1x1, .f32⟩
  | 123 => ⟨S_, .f32⟩
  | 124 => ⟨S1, .i32⟩
  | 125 => ⟨S_, .i32⟩
  | 126 => ⟨S_, .i32⟩
  | 127 => ⟨S_, .i32⟩
  | _ => ⟨S16384x4, .f32⟩

abbrev hbmTy0_4 (i : Nat) : BufTy := match i % 128 with
  | 0 => ⟨S_, .i32⟩
  | 1 => ⟨S_, .i32⟩
  | 2 => ⟨S_, .i32⟩
  | 3 => ⟨S_, .i1⟩
  | 4 => ⟨S_, .i32⟩
  | 5 => ⟨S_, .i32⟩
  | 6 => ⟨S_, .i32⟩
  | 7 => ⟨S_, .i32⟩
  | 8 => ⟨S_, .i1⟩
  | 9 => ⟨S_, .i32⟩
  | 10 => ⟨S_, .i1⟩
  | 11 => ⟨S_, .i32⟩
  | 12 => ⟨S_, .i1⟩
  | 13 => ⟨S_, .i1⟩
  | 14 => ⟨S_, .i1⟩
  | 15 => ⟨S_, .i32⟩
  | 16 => ⟨S_, .i32⟩
  | 17 => ⟨S_, .i32⟩
  | 18 => ⟨S1, .i32⟩
  | 19 => ⟨S4, .i32⟩
  | 20 => ⟨S1, .i32⟩
  | 21 => ⟨S_, .i32⟩
  | 22 => ⟨S1, .i32⟩
  | 23 => ⟨S_, .i32⟩
  | 24 => ⟨S1, .i32⟩
  | 25 => ⟨S_, .i32⟩
  | 26 => ⟨S_, .i32⟩
  | 27 => ⟨S_, .i1⟩
  | 28 => ⟨S_, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S_, .i32⟩
  | 49 => ⟨S1x1x1x1, .f32⟩
  | 50 => ⟨S_, .f32⟩
  | 51 => ⟨S_, .f32⟩
  | 52 => ⟨S_, .i32⟩
  | 53 => ⟨S1, .i32⟩
  | 54 => ⟨S_, .i32⟩
  | 55 => ⟨S4, .i32⟩
  | 56 => ⟨S1, .i32⟩
  | 57 => ⟨S_, .i32⟩
  | 58 => ⟨S1, .i32⟩
  | 59 => ⟨S_, .i32⟩
  | 60 => ⟨S1, .i32⟩
  | 61 => ⟨S_, .i32⟩
  | 62 => ⟨S_, .i32⟩
  | 63 => ⟨S_, .i1⟩
  | 64 => ⟨S_, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S_, .i32⟩
  | 85 => ⟨S1x1x1x1, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S1, .f32⟩
  | 93 => ⟨S1, .f32⟩
  | 94 => ⟨S1, .i32⟩
  | 95 => ⟨S_, .i32⟩
  | 96 => ⟨S1, .i32⟩
  | 97 => ⟨S_, .i32⟩
  | 98 => ⟨S1, .i32⟩
  | 99 => ⟨S_, .i32⟩
  | 100 => ⟨S_, .i32⟩
  | 101 => ⟨S_, .i1⟩
  | 102 => ⟨S_, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S_, .i32⟩
  | 123 => ⟨S1x1x1x1, .f32⟩
  | 124 => ⟨S_, .f32⟩
  | 125 => ⟨S1, .i32⟩
  | 126 => ⟨S_, .i32⟩
  | 127 => ⟨S_, .i32⟩
  | _ => ⟨S16384x4, .f32⟩

abbrev hbmTy0_5 (i : Nat) : BufTy := match i % 128 with
  | 0 => ⟨S_, .i32⟩
  | 1 => ⟨S_, .i32⟩
  | 2 => ⟨S_, .i32⟩
  | 3 => ⟨S_, .i32⟩
  | 4 => ⟨S_, .i1⟩
  | 5 => ⟨S_, .i32⟩
  | 6 => ⟨S_, .i32⟩
  | 7 => ⟨S_, .i32⟩
  | 8 => ⟨S_, .i32⟩
  | 9 => ⟨S_, .i1⟩
  | 10 => ⟨S_, .i32⟩
  | 11 => ⟨S_, .i1⟩
  | 12 => ⟨S_, .i32⟩
  | 13 => ⟨S_, .i1⟩
  | 14 => ⟨S_, .i1⟩
  | 15 => ⟨S_, .i1⟩
  | 16 => ⟨S_, .i32⟩
  | 17 => ⟨S_, .i32⟩
  | 18 => ⟨S_, .i32⟩
  | 19 => ⟨S1, .i32⟩
  | 20 => ⟨S4, .i32⟩
  | 21 => ⟨S1, .i32⟩
  | 22 => ⟨S_, .i32⟩
  | 23 => ⟨S1, .i32⟩
  | 24 => ⟨S_, .i32⟩
  | 25 => ⟨S1, .i32⟩
  | 26 => ⟨S_, .i32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S_, .i32⟩
  | 50 => ⟨S1x1x1x1, .f32⟩
  | 51 => ⟨S_, .f32⟩
  | 52 => ⟨S1, .i32⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S_, .i32⟩
  | 63 => ⟨S_, .i32⟩
  | 64 => ⟨S_, .i1⟩
  | 65 => ⟨S_, .i32⟩
  | 66 => ⟨S_, .i1⟩
  | 67 => ⟨S_, .i32⟩
  | 68 => ⟨S_, .i1⟩
  | 69 => ⟨S_, .i1⟩
  | 70 => ⟨S_, .i1⟩
  | 71 => ⟨S_, .i32⟩
  | 72 => ⟨S_, .i32⟩
  | 73 => ⟨S_, .i32⟩
  | 74 => ⟨S1, .i32⟩
  | 75 => ⟨S4, .i32⟩
  | 76 => ⟨S1, .i32⟩
  | 77 => ⟨S_, .i32⟩
  | 78 => ⟨S1, .i32⟩
  | 79 => ⟨S_, .i32⟩
  | 80 => ⟨S1, .i32⟩
  | 81 => ⟨S_, .i32⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S_, .i32⟩
  | 105 => ⟨S1x1x1x1, .f32⟩
  | 106 => ⟨S_, .f32⟩
  | 107 => ⟨S_, .f32⟩
  | 108 => ⟨S_, .i32⟩
  | 109 => ⟨S1, .i32⟩
  | 110 => ⟨S_, .i32⟩
  | 111 => ⟨S4, .i32⟩
  | 112 => ⟨S1, .i32⟩
  | 113 => ⟨S_, .i32⟩
  | 114 => ⟨S1, .i32⟩
  | 115 => ⟨S_, .i32⟩
  | 116 => ⟨S1, .i32⟩
  | 117 => ⟨S_, .i32⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S_, .i1⟩
  | 125 => ⟨S_, .i32⟩
  | 126 => ⟨S_, .i32⟩
  | 127 => ⟨S_, .i32⟩
  | _ => ⟨S16384x4, .f32⟩

abbrev hbmTy0_6 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S_, .i32⟩
  | 6 => ⟨S_, .i32⟩
  | 7 => ⟨S_, .i1⟩
  | 8 => ⟨S_, .i32⟩
  | 9 => ⟨S_, .i32⟩
  | 10 => ⟨S_, .i32⟩
  | 11 => ⟨S_, .i32⟩
  | 12 => ⟨S_, .i32⟩
  | 13 => ⟨S1x1x1x1, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S1, .f32⟩
  | 21 => ⟨S1, .f32⟩
  | 22 => ⟨S1, .i32⟩
  | 23 => ⟨S_, .i32⟩
  | 24 => ⟨S1, .i32⟩
  | 25 => ⟨S_, .i32⟩
  | 26 => ⟨S1, .i32⟩
  | 27 => ⟨S_, .i32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S_, .i32⟩
  | 51 => ⟨S1x1x1x1, .f32⟩
  | 52 => ⟨S_, .f32⟩
  | 53 => ⟨S1, .i32⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S_, .i1⟩
  | 66 => ⟨S_, .i32⟩
  | 67 => ⟨S_, .i1⟩
  | 68 => ⟨S_, .i32⟩
  | 69 => ⟨S_, .i1⟩
  | 70 => ⟨S_, .i1⟩
  | 71 => ⟨S_, .i1⟩
  | 72 => ⟨S_, .i32⟩
  | 73 => ⟨S_, .i32⟩
  | 74 => ⟨S_, .i32⟩
  | 75 => ⟨S1, .i32⟩
  | 76 => ⟨S4, .i32⟩
  | 77 => ⟨S1, .i32⟩
  | 78 => ⟨S_, .i32⟩
  | 79 => ⟨S1, .i32⟩
  | 80 => ⟨S_, .i32⟩
  | 81 => ⟨S1, .i32⟩
  | 82 => ⟨S_, .i32⟩
  | 83 => ⟨S_, .i32⟩
  | 84 => ⟨S_, .i1⟩
  | 85 => ⟨S_, .i32⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S_, .i32⟩
  | 104 => ⟨S_, .i32⟩
  | 105 => ⟨S_, .i32⟩
  | 106 => ⟨S1x1x1x1, .f32⟩
  | 107 => ⟨S_, .f32⟩
  | 108 => ⟨S1, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i1⟩
  | 116 => ⟨S_, .i32⟩
  | 117 => ⟨S_, .i32⟩
  | 118 => ⟨S_, .i32⟩
  | 119 => ⟨S_, .i32⟩
  | 120 => ⟨S_, .i1⟩
  | 121 => ⟨S_, .i32⟩
  | 122 => ⟨S_, .i1⟩
  | 123 => ⟨S_, .i32⟩
  | 124 => ⟨S_, .i1⟩
  | 125 => ⟨S_, .i1⟩
  | 126 => ⟨S_, .i1⟩
  | 127 => ⟨S_, .i32⟩
  | _ => ⟨S16384x4, .f32⟩

abbrev hbmTy0_7 (i : Nat) : BufTy := match i % 128 with
  | 0 => ⟨S_, .i32⟩
  | 1 => ⟨S_, .i32⟩
  | 2 => ⟨S1, .i32⟩
  | 3 => ⟨S4, .i32⟩
  | 4 => ⟨S1, .i32⟩
  | 5 => ⟨S_, .i32⟩
  | 6 => ⟨S1, .i32⟩
  | 7 => ⟨S_, .i32⟩
  | 8 => ⟨S1, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S_, .i32⟩
  | 31 => ⟨S_, .i32⟩
  | 32 => ⟨S_, .i32⟩
  | 33 => ⟨S1x1x1x1, .f32⟩
  | 34 => ⟨S_, .f32⟩
  | 35 => ⟨S_, .f32⟩
  | 36 => ⟨S_, .i32⟩
  | 37 => ⟨S1, .i32⟩
  | 38 => ⟨S_, .i32⟩
  | 39 => ⟨S4, .i32⟩
  | 40 => ⟨S1, .i32⟩
  | 41 => ⟨S_, .i32⟩
  | 42 => ⟨S1, .i32⟩
  | 43 => ⟨S_, .i32⟩
  | 44 => ⟨S1, .i32⟩
  | 45 => ⟨S_, .i32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S_, .i32⟩
  | 67 => ⟨S_, .i32⟩
  | 68 => ⟨S_, .i32⟩
  | 69 => ⟨S1x1x1x1, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S1, .f32⟩
  | 77 => ⟨S1, .f32⟩
  | 78 => ⟨S1, .i32⟩
  | 79 => ⟨S_, .i32⟩
  | 80 => ⟨S1, .i32⟩
  | 81 => ⟨S_, .i32⟩
  | 82 => ⟨S1, .i32⟩
  | 83 => ⟨S_, .i32⟩
  | 84 => ⟨S_, .i32⟩
  | 85 => ⟨S_, .i1⟩
  | 86 => ⟨S_, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S_, .i32⟩
  | 105 => ⟨S_, .i32⟩
  | 106 => ⟨S_, .i32⟩
  | 107 => ⟨S1x1x1x1, .f32⟩
  | 108 => ⟨S_, .f32⟩
  | 109 => ⟨S1, .i32⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S_, .i1⟩
  | 122 => ⟨S_, .i32⟩
  | 123 => ⟨S_, .i1⟩
  | 124 => ⟨S_, .i32⟩
  | 125 => ⟨S_, .i1⟩
  | 126 => ⟨S_, .i1⟩
  | 127 => ⟨S_, .i1⟩
  | _ => ⟨S16384x4, .f32⟩

abbrev hbmTy0_8 (i : Nat) : BufTy := match i % 128 with
  | 0 => ⟨S_, .i32⟩
  | 1 => ⟨S_, .i32⟩
  | 2 => ⟨S_, .i32⟩
  | 3 => ⟨S1, .i32⟩
  | 4 => ⟨S4, .i32⟩
  | 5 => ⟨S1, .i32⟩
  | 6 => ⟨S_, .i32⟩
  | 7 => ⟨S1, .i32⟩
  | 8 => ⟨S_, .i32⟩
  | 9 => ⟨S1, .i32⟩
  | 10 => ⟨S_, .i32⟩
  | 11 => ⟨S_, .i32⟩
  | 12 => ⟨S_, .i1⟩
  | 13 => ⟨S_, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S_, .i32⟩
  | 34 => ⟨S1x1x1x1, .f32⟩
  | 35 => ⟨S_, .f32⟩
  | 36 => ⟨S1, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S_, .i1⟩
  | 49 => ⟨S_, .i32⟩
  | 50 => ⟨S_, .i1⟩
  | 51 => ⟨S_, .i32⟩
  | 52 => ⟨S_, .i1⟩
  | 53 => ⟨S_, .i1⟩
  | 54 => ⟨S_, .i1⟩
  | 55 => ⟨S_, .i32⟩
  | 56 => ⟨S_, .i32⟩
  | 57 => ⟨S_, .i32⟩
  | 58 => ⟨S1, .i32⟩
  | 59 => ⟨S4, .i32⟩
  | 60 => ⟨S1, .i32⟩
  | 61 => ⟨S_, .i32⟩
  | 62 => ⟨S1, .i32⟩
  | 63 => ⟨S_, .i32⟩
  | 64 => ⟨S1, .i32⟩
  | 65 => ⟨S_, .i32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S_, .i32⟩
  | 89 => ⟨S1x1x1x1, .f32⟩
  | 90 => ⟨S_, .f32⟩
  | 91 => ⟨S_, .f32⟩
  | 92 => ⟨S_, .i32⟩
  | 93 => ⟨S1, .i32⟩
  | 94 => ⟨S_, .i32⟩
  | 95 => ⟨S4, .i32⟩
  | 96 => ⟨S1, .i32⟩
  | 97 => ⟨S_, .i32⟩
  | 98 => ⟨S1, .i32⟩
  | 99 => ⟨S_, .i32⟩
  | 100 => ⟨S1, .i32⟩
  | 101 => ⟨S_, .i32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S_, .i1⟩
  | 109 => ⟨S_, .i32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S_, .i32⟩
  | 125 => ⟨S1x1x1x1, .f32⟩
  | 126 => ⟨S_, .f32⟩
  | 127 => ⟨S_, .f32⟩
  | _ => ⟨S16384x4, .f32⟩

abbrev hbmTy0_9 (i : Nat) : BufTy := match i % 128 with
  | 0 => ⟨S_, .f32⟩
  | 1 => ⟨S_, .f32⟩
  | 2 => ⟨S_, .f32⟩
  | 3 => ⟨S_, .f32⟩
  | 4 => ⟨S1, .f32⟩
  | 5 => ⟨S1, .f32⟩
  | 6 => ⟨S16384x2048, .f32⟩
  | 7 => ⟨S1x2048, .f32⟩
  | 8 => ⟨S16384x2048, .f32⟩
  | 9 => ⟨S16384x2048, .f32⟩
  | 10 => ⟨S_, .f32⟩
  | 11 => ⟨S16384x2048, .f32⟩
  | 12 => ⟨S16384x2048, .f32⟩
  | 13 => ⟨S16384x1024, .f32⟩
  | 14 => ⟨S1x1024, .f32⟩
  | 15 => ⟨S16384x1024, .f32⟩
  | 16 => ⟨S16384x1024, .f32⟩
  | 17 => ⟨S_, .f32⟩
  | 18 => ⟨S16384x1024, .f32⟩
  | 19 => ⟨S16384x1024, .f32⟩
  | 20 => ⟨S16384x1, .f32⟩
  | 21 => ⟨S1x1, .f32⟩
  | 22 => ⟨S16384x1, .f32⟩
  | 23 => ⟨S16384x1, .f32⟩
  | 24 => ⟨S16384x2048, .f32⟩
  | 25 => ⟨S1x2048, .f32⟩
  | 26 => ⟨S16384x2048, .f32⟩
  | 27 => ⟨S16384x2048, .f32⟩
  | 28 => ⟨S_, .f32⟩
  | 29 => ⟨S16384x2048, .f32⟩
  | 30 => ⟨S16384x2048, .f32⟩
  | 31 => ⟨S16384x1, .f32⟩
  | 32 => ⟨S1x1, .f32⟩
  | 33 => ⟨S16384x1, .f32⟩
  | 34 => ⟨S16384x1, .f32⟩
  | _ => ⟨S16384x4, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S16384x4, .f32⟩

abbrev bufTy : (tb : Table) → Fin (tcTables nBuf tb) → BufTy
  | .hbm, ⟨i, _⟩ => hbmTy i
  | _, _ => ⟨S16384x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_call0_v0 : Ref sig .tc := ⟨.hbm, 31, rfl⟩
abbrev main_call0_c : Ref sig .tc := ⟨.hbm, 32, rfl⟩
abbrev main_call0_v1 : Ref sig .tc := ⟨.hbm, 33, rfl⟩
abbrev main_call0_c_0 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_c_1 : Ref sig .tc := ⟨.hbm, 38, rfl⟩
abbrev main_call0_v5 : Ref sig .tc := ⟨.hbm, 39, rfl⟩
abbrev main_call0_v6 : Ref sig .tc := ⟨.hbm, 40, rfl⟩
abbrev main_call0_c_2 : Ref sig .tc := ⟨.hbm, 41, rfl⟩
abbrev main_call0_v7 : Ref sig .tc := ⟨.hbm, 42, rfl⟩
abbrev main_call0_v8 : Ref sig .tc := ⟨.hbm, 43, rfl⟩
abbrev main_call0_c_3 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_v12 : Ref sig .tc := ⟨.hbm, 48, rfl⟩
abbrev main_call0_v13 : Ref sig .tc := ⟨.hbm, 49, rfl⟩
abbrev main_call0_v14 : Ref sig .tc := ⟨.hbm, 50, rfl⟩
abbrev main_v13 : Ref sig .tc := ⟨.hbm, 51, rfl⟩
abbrev main_cst_0 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_c_1 : Ref sig .tc := ⟨.hbm, 60, rfl⟩
abbrev main_v21 : Ref sig .tc := ⟨.hbm, 61, rfl⟩
abbrev main_c_2 : Ref sig .tc := ⟨.hbm, 62, rfl⟩
abbrev main_v22 : Ref sig .tc := ⟨.hbm, 63, rfl⟩
abbrev main_v23 : Ref sig .tc := ⟨.hbm, 64, rfl⟩
abbrev main_c_3 : Ref sig .tc := ⟨.hbm, 65, rfl⟩
abbrev main_v24 : Ref sig .tc := ⟨.hbm, 66, rfl⟩
abbrev main_c_4 : Ref sig .tc := ⟨.hbm, 67, rfl⟩
abbrev main_v25 : Ref sig .tc := ⟨.hbm, 68, rfl⟩
abbrev main_v26 : Ref sig .tc := ⟨.hbm, 69, rfl⟩
abbrev main_c_5 : Ref sig .tc := ⟨.hbm, 70, rfl⟩
abbrev main_v27 : Ref sig .tc := ⟨.hbm, 71, rfl⟩
abbrev main_c_6 : Ref sig .tc := ⟨.hbm, 72, rfl⟩
abbrev main_v28 : Ref sig .tc := ⟨.hbm, 73, rfl⟩
abbrev main_v29 : Ref sig .tc := ⟨.hbm, 74, rfl⟩
abbrev main_c_7 : Ref sig .tc := ⟨.hbm, 75, rfl⟩
abbrev main_c_8 : Ref sig .tc := ⟨.hbm, 76, rfl⟩
abbrev main_v30 : Ref sig .tc := ⟨.hbm, 77, rfl⟩
abbrev main_c_9 : Ref sig .tc := ⟨.hbm, 78, rfl⟩
abbrev main_c_10 : Ref sig .tc := ⟨.hbm, 79, rfl⟩
abbrev main_v31 : Ref sig .tc := ⟨.hbm, 80, rfl⟩
abbrev main_c_11 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_c_12 : Ref sig .tc := ⟨.hbm, 87, rfl⟩
abbrev main_v37 : Ref sig .tc := ⟨.hbm, 88, rfl⟩
abbrev main_c_13 : Ref sig .tc := ⟨.hbm, 89, rfl⟩
abbrev main_call1_v0 : Ref sig .tc := ⟨.hbm, 90, rfl⟩
abbrev main_call1_c : Ref sig .tc := ⟨.hbm, 91, rfl⟩
abbrev main_call1_v1 : Ref sig .tc := ⟨.hbm, 92, rfl⟩
abbrev main_call1_c_0 : Ref sig .tc := ⟨.hbm, 93, rfl⟩
abbrev main_call1_v2 : Ref sig .tc := ⟨.hbm, 94, rfl⟩
abbrev main_call1_v3 : Ref sig .tc := ⟨.hbm, 95, rfl⟩
abbrev main_call1_c_1 : Ref sig .tc := ⟨.hbm, 96, rfl⟩
abbrev main_call1_v4 : Ref sig .tc := ⟨.hbm, 97, rfl⟩
abbrev main_call1_c_2 : Ref sig .tc := ⟨.hbm, 98, rfl⟩
abbrev main_call1_v5 : Ref sig .tc := ⟨.hbm, 99, rfl⟩
abbrev main_call1_c_3 : Ref sig .tc := ⟨.hbm, 100, rfl⟩
abbrev main_call1_v6 : Ref sig .tc := ⟨.hbm, 101, rfl⟩
abbrev main_call1_v7 : Ref sig .tc := ⟨.hbm, 102, rfl⟩
abbrev main_call1_v8 : Ref sig .tc := ⟨.hbm, 103, rfl⟩
abbrev main_call1_v9 : Ref sig .tc := ⟨.hbm, 104, rfl⟩
abbrev main_v38 : Ref sig .tc := ⟨.hbm, 105, rfl⟩
abbrev main_c_14 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_c_15 : Ref sig .tc := ⟨.hbm, 115, rfl⟩
abbrev main_v47 : Ref sig .tc := ⟨.hbm, 116, rfl⟩
abbrev main_c_16 : Ref sig .tc := ⟨.hbm, 117, rfl⟩
abbrev main_v48 : Ref sig .tc := ⟨.hbm, 118, rfl⟩
abbrev main_v49 : Ref sig .tc := ⟨.hbm, 119, rfl⟩
abbrev main_c_17 : Ref sig .tc := ⟨.hbm, 120, rfl⟩
abbrev main_v50 : Ref sig .tc := ⟨.hbm, 121, rfl⟩
abbrev main_c_18 : Ref sig .tc := ⟨.hbm, 122, rfl⟩
abbrev main_v51 : Ref sig .tc := ⟨.hbm, 123, rfl⟩
abbrev main_v52 : Ref sig .tc := ⟨.hbm, 124, rfl⟩
abbrev main_c_19 : Ref sig .tc := ⟨.hbm, 125, rfl⟩
abbrev main_v53 : Ref sig .tc := ⟨.hbm, 126, rfl⟩
abbrev main_c_20 : Ref sig .tc := ⟨.hbm, 127, rfl⟩
abbrev main_v54 : Ref sig .tc := ⟨.hbm, 128, rfl⟩
abbrev main_v55 : Ref sig .tc := ⟨.hbm, 129, rfl⟩
abbrev main_c_21 : Ref sig .tc := ⟨.hbm, 130, rfl⟩
abbrev main_c_22 : Ref sig .tc := ⟨.hbm, 131, rfl⟩
abbrev main_v56 : Ref sig .tc := ⟨.hbm, 132, rfl⟩
abbrev main_c_23 : Ref sig .tc := ⟨.hbm, 133, rfl⟩
abbrev main_c_24 : Ref sig .tc := ⟨.hbm, 134, rfl⟩
abbrev main_v57 : Ref sig .tc := ⟨.hbm, 135, rfl⟩
abbrev main_c_25 : Ref sig .tc := ⟨.hbm, 136, rfl⟩
abbrev main_v58 : Ref sig .tc := ⟨.hbm, 137, rfl⟩
abbrev main_v59 : Ref sig .tc := ⟨.hbm, 138, rfl⟩
abbrev main_v60 : Ref sig .tc := ⟨.hbm, 139, rfl⟩
abbrev main_v61 : Ref sig .tc := ⟨.hbm, 140, rfl⟩
abbrev main_v62 : Ref sig .tc := ⟨.hbm, 141, rfl⟩
abbrev main_c_26 : Ref sig .tc := ⟨.hbm, 142, rfl⟩
abbrev main_v63 : Ref sig .tc := ⟨.hbm, 143, rfl⟩
abbrev main_c_27 : Ref sig .tc := ⟨.hbm, 144, rfl⟩
abbrev main_call2_v0 : Ref sig .tc := ⟨.hbm, 145, rfl⟩
abbrev main_call2_c : Ref sig .tc := ⟨.hbm, 146, rfl⟩
abbrev main_call2_v1 : Ref sig .tc := ⟨.hbm, 147, rfl⟩
abbrev main_call2_c_0 : Ref sig .tc := ⟨.hbm, 148, rfl⟩
abbrev main_call2_v2 : Ref sig .tc := ⟨.hbm, 149, rfl⟩
abbrev main_call2_v3 : Ref sig .tc := ⟨.hbm, 150, rfl⟩
abbrev main_call2_c_1 : Ref sig .tc := ⟨.hbm, 151, rfl⟩
abbrev main_call2_v4 : Ref sig .tc := ⟨.hbm, 152, rfl⟩
abbrev main_call2_c_2 : Ref sig .tc := ⟨.hbm, 153, rfl⟩
abbrev main_call2_v5 : Ref sig .tc := ⟨.hbm, 154, rfl⟩
abbrev main_call2_c_3 : Ref sig .tc := ⟨.hbm, 155, rfl⟩
abbrev main_call2_v6 : Ref sig .tc := ⟨.hbm, 156, rfl⟩
abbrev main_call2_v7 : Ref sig .tc := ⟨.hbm, 157, rfl⟩
abbrev main_call2_v8 : Ref sig .tc := ⟨.hbm, 158, rfl⟩
abbrev main_call2_v9 : Ref sig .tc := ⟨.hbm, 159, rfl⟩
abbrev main_v64 : Ref sig .tc := ⟨.hbm, 160, rfl⟩
abbrev main_c_28 : Ref sig .tc := ⟨.hbm, 161, rfl⟩
abbrev main_v65 : Ref sig .tc := ⟨.hbm, 162, rfl⟩
abbrev main_v66 : Ref sig .tc := ⟨.hbm, 163, rfl⟩
abbrev main_v67 : Ref sig .tc := ⟨.hbm, 164, rfl⟩
abbrev main_v68 : Ref sig .tc := ⟨.hbm, 165, rfl⟩
abbrev main_v69 : Ref sig .tc := ⟨.hbm, 166, rfl⟩
abbrev main_v70 : Ref sig .tc := ⟨.hbm, 167, rfl⟩
abbrev main_v71 : Ref sig .tc := ⟨.hbm, 168, rfl⟩
abbrev main_v72 : Ref sig .tc := ⟨.hbm, 169, rfl⟩
abbrev main_c_29 : Ref sig .tc := ⟨.hbm, 170, rfl⟩
abbrev main_v73 : Ref sig .tc := ⟨.hbm, 171, rfl⟩
abbrev main_c_30 : Ref sig .tc := ⟨.hbm, 172, rfl⟩
abbrev main_v74 : Ref sig .tc := ⟨.hbm, 173, rfl⟩
abbrev main_v75 : Ref sig .tc := ⟨.hbm, 174, rfl⟩
abbrev main_c_31 : Ref sig .tc := ⟨.hbm, 175, rfl⟩
abbrev main_v76 : Ref sig .tc := ⟨.hbm, 176, rfl⟩
abbrev main_c_32 : Ref sig .tc := ⟨.hbm, 177, rfl⟩
abbrev main_v77 : Ref sig .tc := ⟨.hbm, 178, rfl⟩
abbrev main_v78 : Ref sig .tc := ⟨.hbm, 179, rfl⟩
abbrev main_c_33 : Ref sig .tc := ⟨.hbm, 180, rfl⟩
abbrev main_v79 : Ref sig .tc := ⟨.hbm, 181, rfl⟩
abbrev main_c_34 : Ref sig .tc := ⟨.hbm, 182, rfl⟩
abbrev main_v80 : Ref sig .tc := ⟨.hbm, 183, rfl⟩
abbrev main_v81 : Ref sig .tc := ⟨.hbm, 184, rfl⟩
abbrev main_c_35 : Ref sig .tc := ⟨.hbm, 185, rfl⟩
abbrev main_c_36 : Ref sig .tc := ⟨.hbm, 186, rfl⟩
abbrev main_v82 : Ref sig .tc := ⟨.hbm, 187, rfl⟩
abbrev main_c_37 : Ref sig .tc := ⟨.hbm, 188, rfl⟩
abbrev main_c_38 : Ref sig .tc := ⟨.hbm, 189, rfl⟩
abbrev main_v83 : Ref sig .tc := ⟨.hbm, 190, rfl⟩
abbrev main_c_39 : Ref sig .tc := ⟨.hbm, 191, rfl⟩
abbrev main_v84 : Ref sig .tc := ⟨.hbm, 192, rfl⟩
abbrev main_v85 : Ref sig .tc := ⟨.hbm, 193, rfl⟩
abbrev main_v86 : Ref sig .tc := ⟨.hbm, 194, rfl⟩
abbrev main_v87 : Ref sig .tc := ⟨.hbm, 195, rfl⟩
abbrev main_c_40 : Ref sig .tc := ⟨.hbm, 196, rfl⟩
abbrev main_v88 : Ref sig .tc := ⟨.hbm, 197, rfl⟩
abbrev main_c_41 : Ref sig .tc := ⟨.hbm, 198, rfl⟩
abbrev main_v89 : Ref sig .tc := ⟨.hbm, 199, rfl⟩
abbrev main_v90 : Ref sig .tc := ⟨.hbm, 200, rfl⟩
abbrev main_v91 : Ref sig .tc := ⟨.hbm, 201, rfl⟩
abbrev main_v92 : Ref sig .tc := ⟨.hbm, 202, rfl⟩
abbrev main_v93 : Ref sig .tc := ⟨.hbm, 203, rfl⟩
abbrev main_v94 : Ref sig .tc := ⟨.hbm, 204, rfl⟩
abbrev main_v95 : Ref sig .tc := ⟨.hbm, 205, rfl⟩
abbrev main_c_42 : Ref sig .tc := ⟨.hbm, 206, rfl⟩
abbrev main_v96 : Ref sig .tc := ⟨.hbm, 207, rfl⟩
abbrev main_c_43 : Ref sig .tc := ⟨.hbm, 208, rfl⟩
abbrev main_v97 : Ref sig .tc := ⟨.hbm, 209, rfl⟩
abbrev main_v98 : Ref sig .tc := ⟨.hbm, 210, rfl⟩
abbrev main_c_44 : Ref sig .tc := ⟨.hbm, 211, rfl⟩
abbrev main_v99 : Ref sig .tc := ⟨.hbm, 212, rfl⟩
abbrev main_c_45 : Ref sig .tc := ⟨.hbm, 213, rfl⟩
abbrev main_v100 : Ref sig .tc := ⟨.hbm, 214, rfl⟩
abbrev main_v101 : Ref sig .tc := ⟨.hbm, 215, rfl⟩
abbrev main_c_46 : Ref sig .tc := ⟨.hbm, 216, rfl⟩
abbrev main_v102 : Ref sig .tc := ⟨.hbm, 217, rfl⟩
abbrev main_c_47 : Ref sig .tc := ⟨.hbm, 218, rfl⟩
abbrev main_v103 : Ref sig .tc := ⟨.hbm, 219, rfl⟩
abbrev main_v104 : Ref sig .tc := ⟨.hbm, 220, rfl⟩
abbrev main_c_48 : Ref sig .tc := ⟨.hbm, 221, rfl⟩
abbrev main_c_49 : Ref sig .tc := ⟨.hbm, 222, rfl⟩
abbrev main_v105 : Ref sig .tc := ⟨.hbm, 223, rfl⟩
abbrev main_c_50 : Ref sig .tc := ⟨.hbm, 224, rfl⟩
abbrev main_c_51 : Ref sig .tc := ⟨.hbm, 225, rfl⟩
abbrev main_v106 : Ref sig .tc := ⟨.hbm, 226, rfl⟩
abbrev main_c_52 : Ref sig .tc := ⟨.hbm, 227, rfl⟩
abbrev main_v107 : Ref sig .tc := ⟨.hbm, 228, rfl⟩
abbrev main_v108 : Ref sig .tc := ⟨.hbm, 229, rfl⟩
abbrev main_v109 : Ref sig .tc := ⟨.hbm, 230, rfl⟩
abbrev main_v110 : Ref sig .tc := ⟨.hbm, 231, rfl⟩
abbrev main_v111 : Ref sig .tc := ⟨.hbm, 232, rfl⟩
abbrev main_v112 : Ref sig .tc := ⟨.hbm, 233, rfl⟩
abbrev main_v113 : Ref sig .tc := ⟨.hbm, 234, rfl⟩
abbrev main_v114 : Ref sig .tc := ⟨.hbm, 235, rfl⟩
abbrev main_v115 : Ref sig .tc := ⟨.hbm, 236, rfl⟩
abbrev main_v116 : Ref sig .tc := ⟨.hbm, 237, rfl⟩
abbrev main_v117 : Ref sig .tc := ⟨.hbm, 238, rfl⟩
abbrev main_v118 : Ref sig .tc := ⟨.hbm, 239, rfl⟩
abbrev main_v119 : Ref sig .tc := ⟨.hbm, 240, rfl⟩
abbrev main_v120 : Ref sig .tc := ⟨.hbm, 241, rfl⟩
abbrev main_v121 : Ref sig .tc := ⟨.hbm, 242, rfl⟩
abbrev main_v122 : Ref sig .tc := ⟨.hbm, 243, rfl⟩
abbrev main_c_53 : Ref sig .tc := ⟨.hbm, 244, rfl⟩
abbrev main_v123 : Ref sig .tc := ⟨.hbm, 245, rfl⟩
abbrev main_c_54 : Ref sig .tc := ⟨.hbm, 246, rfl⟩
abbrev main_v124 : Ref sig .tc := ⟨.hbm, 247, rfl⟩
abbrev main_v125 : Ref sig .tc := ⟨.hbm, 248, rfl⟩
abbrev main_c_55 : Ref sig .tc := ⟨.hbm, 249, rfl⟩
abbrev main_v126 : Ref sig .tc := ⟨.hbm, 250, rfl⟩
abbrev main_c_56 : Ref sig .tc := ⟨.hbm, 251, rfl⟩
abbrev main_v127 : Ref sig .tc := ⟨.hbm, 252, rfl⟩
abbrev main_v128 : Ref sig .tc := ⟨.hbm, 253, rfl⟩
abbrev main_c_57 : Ref sig .tc := ⟨.hbm, 254, rfl⟩
abbrev main_v129 : Ref sig .tc := ⟨.hbm, 255, rfl⟩
abbrev main_c_58 : Ref sig .tc := ⟨.hbm, 256, rfl⟩
abbrev main_v130 : Ref sig .tc := ⟨.hbm, 257, rfl⟩
abbrev main_v131 : Ref sig .tc := ⟨.hbm, 258, rfl⟩
abbrev main_c_59 : Ref sig .tc := ⟨.hbm, 259, rfl⟩
abbrev main_c_60 : Ref sig .tc := ⟨.hbm, 260, rfl⟩
abbrev main_v132 : Ref sig .tc := ⟨.hbm, 261, rfl⟩
abbrev main_c_61 : Ref sig .tc := ⟨.hbm, 262, rfl⟩
abbrev main_c_62 : Ref sig .tc := ⟨.hbm, 263, rfl⟩
abbrev main_v133 : Ref sig .tc := ⟨.hbm, 264, rfl⟩
abbrev main_c_63 : Ref sig .tc := ⟨.hbm, 265, rfl⟩
abbrev main_v134 : Ref sig .tc := ⟨.hbm, 266, rfl⟩
abbrev main_v135 : Ref sig .tc := ⟨.hbm, 267, rfl⟩
abbrev main_v136 : Ref sig .tc := ⟨.hbm, 268, rfl⟩
abbrev main_v137 : Ref sig .tc := ⟨.hbm, 269, rfl⟩
abbrev main_v138 : Ref sig .tc := ⟨.hbm, 270, rfl⟩
abbrev main_c_64 : Ref sig .tc := ⟨.hbm, 271, rfl⟩
abbrev main_v139 : Ref sig .tc := ⟨.hbm, 272, rfl⟩
abbrev main_c_65 : Ref sig .tc := ⟨.hbm, 273, rfl⟩
abbrev main_call3_v0 : Ref sig .tc := ⟨.hbm, 274, rfl⟩
abbrev main_call3_c : Ref sig .tc := ⟨.hbm, 275, rfl⟩
abbrev main_call3_v1 : Ref sig .tc := ⟨.hbm, 276, rfl⟩
abbrev main_call3_c_0 : Ref sig .tc := ⟨.hbm, 277, rfl⟩
abbrev main_call3_v2 : Ref sig .tc := ⟨.hbm, 278, rfl⟩
abbrev main_call3_v3 : Ref sig .tc := ⟨.hbm, 279, rfl⟩
abbrev main_call3_c_1 : Ref sig .tc := ⟨.hbm, 280, rfl⟩
abbrev main_call3_v4 : Ref sig .tc := ⟨.hbm, 281, rfl⟩
abbrev main_call3_c_2 : Ref sig .tc := ⟨.hbm, 282, rfl⟩
abbrev main_call3_v5 : Ref sig .tc := ⟨.hbm, 283, rfl⟩
abbrev main_call3_c_3 : Ref sig .tc := ⟨.hbm, 284, rfl⟩
abbrev main_call3_v6 : Ref sig .tc := ⟨.hbm, 285, rfl⟩
abbrev main_call3_v7 : Ref sig .tc := ⟨.hbm, 286, rfl⟩
abbrev main_call3_v8 : Ref sig .tc := ⟨.hbm, 287, rfl⟩
abbrev main_call3_v9 : Ref sig .tc := ⟨.hbm, 288, rfl⟩
abbrev main_v140 : Ref sig .tc := ⟨.hbm, 289, rfl⟩
abbrev main_c_66 : Ref sig .tc := ⟨.hbm, 290, rfl⟩
abbrev main_v141 : Ref sig .tc := ⟨.hbm, 291, rfl⟩
abbrev main_v142 : Ref sig .tc := ⟨.hbm, 292, rfl⟩
abbrev main_v143 : Ref sig .tc := ⟨.hbm, 293, rfl⟩
abbrev main_v144 : Ref sig .tc := ⟨.hbm, 294, rfl⟩
abbrev main_v145 : Ref sig .tc := ⟨.hbm, 295, rfl⟩
abbrev main_v146 : Ref sig .tc := ⟨.hbm, 296, rfl⟩
abbrev main_v147 : Ref sig .tc := ⟨.hbm, 297, rfl⟩
abbrev main_v148 : Ref sig .tc := ⟨.hbm, 298, rfl⟩
abbrev main_c_67 : Ref sig .tc := ⟨.hbm, 299, rfl⟩
abbrev main_v149 : Ref sig .tc := ⟨.hbm, 300, rfl⟩
abbrev main_c_68 : Ref sig .tc := ⟨.hbm, 301, rfl⟩
abbrev main_v150 : Ref sig .tc := ⟨.hbm, 302, rfl⟩
abbrev main_v151 : Ref sig .tc := ⟨.hbm, 303, rfl⟩
abbrev main_c_69 : Ref sig .tc := ⟨.hbm, 304, rfl⟩
abbrev main_v152 : Ref sig .tc := ⟨.hbm, 305, rfl⟩
abbrev main_c_70 : Ref sig .tc := ⟨.hbm, 306, rfl⟩
abbrev main_v153 : Ref sig .tc := ⟨.hbm, 307, rfl⟩
abbrev main_v154 : Ref sig .tc := ⟨.hbm, 308, rfl⟩
abbrev main_c_71 : Ref sig .tc := ⟨.hbm, 309, rfl⟩
abbrev main_v155 : Ref sig .tc := ⟨.hbm, 310, rfl⟩
abbrev main_c_72 : Ref sig .tc := ⟨.hbm, 311, rfl⟩
abbrev main_v156 : Ref sig .tc := ⟨.hbm, 312, rfl⟩
abbrev main_v157 : Ref sig .tc := ⟨.hbm, 313, rfl⟩
abbrev main_c_73 : Ref sig .tc := ⟨.hbm, 314, rfl⟩
abbrev main_c_74 : Ref sig .tc := ⟨.hbm, 315, rfl⟩
abbrev main_v158 : Ref sig .tc := ⟨.hbm, 316, rfl⟩
abbrev main_c_75 : Ref sig .tc := ⟨.hbm, 317, rfl⟩
abbrev main_c_76 : Ref sig .tc := ⟨.hbm, 318, rfl⟩
abbrev main_v159 : Ref sig .tc := ⟨.hbm, 319, rfl⟩
abbrev main_c_77 : Ref sig .tc := ⟨.hbm, 320, rfl⟩
abbrev main_v160 : Ref sig .tc := ⟨.hbm, 321, rfl⟩
abbrev main_v161 : Ref sig .tc := ⟨.hbm, 322, rfl⟩
abbrev main_v162 : Ref sig .tc := ⟨.hbm, 323, rfl⟩
abbrev main_v163 : Ref sig .tc := ⟨.hbm, 324, rfl⟩
abbrev main_v164 : Ref sig .tc := ⟨.hbm, 325, rfl⟩
abbrev main_c_78 : Ref sig .tc := ⟨.hbm, 326, rfl⟩
abbrev main_v165 : Ref sig .tc := ⟨.hbm, 327, rfl⟩
abbrev main_c_79 : Ref sig .tc := ⟨.hbm, 328, rfl⟩
abbrev main_call4_v0 : Ref sig .tc := ⟨.hbm, 329, rfl⟩
abbrev main_call4_c : Ref sig .tc := ⟨.hbm, 330, rfl⟩
abbrev main_call4_v1 : Ref sig .tc := ⟨.hbm, 331, rfl⟩
abbrev main_call4_c_0 : Ref sig .tc := ⟨.hbm, 332, rfl⟩
abbrev main_call4_v2 : Ref sig .tc := ⟨.hbm, 333, rfl⟩
abbrev main_call4_v3 : Ref sig .tc := ⟨.hbm, 334, rfl⟩
abbrev main_call4_c_1 : Ref sig .tc := ⟨.hbm, 335, rfl⟩
abbrev main_call4_v4 : Ref sig .tc := ⟨.hbm, 336, rfl⟩
abbrev main_call4_c_2 : Ref sig .tc := ⟨.hbm, 337, rfl⟩
abbrev main_call4_v5 : Ref sig .tc := ⟨.hbm, 338, rfl⟩
abbrev main_call4_c_3 : Ref sig .tc := ⟨.hbm, 339, rfl⟩
abbrev main_call4_v6 : Ref sig .tc := ⟨.hbm, 340, rfl⟩
abbrev main_call4_v7 : Ref sig .tc := ⟨.hbm, 341, rfl⟩
abbrev main_call4_v8 : Ref sig .tc := ⟨.hbm, 342, rfl⟩
abbrev main_call4_v9 : Ref sig .tc := ⟨.hbm, 343, rfl⟩
abbrev main_v166 : Ref sig .tc := ⟨.hbm, 344, rfl⟩
abbrev main_c_80 : Ref sig .tc := ⟨.hbm, 345, rfl⟩
abbrev main_v167 : Ref sig .tc := ⟨.hbm, 346, rfl⟩
abbrev main_v168 : Ref sig .tc := ⟨.hbm, 347, rfl⟩
abbrev main_v169 : Ref sig .tc := ⟨.hbm, 348, rfl⟩
abbrev main_v170 : Ref sig .tc := ⟨.hbm, 349, rfl⟩
abbrev main_v171 : Ref sig .tc := ⟨.hbm, 350, rfl⟩
abbrev main_v172 : Ref sig .tc := ⟨.hbm, 351, rfl⟩
abbrev main_v173 : Ref sig .tc := ⟨.hbm, 352, rfl⟩
abbrev main_v174 : Ref sig .tc := ⟨.hbm, 353, rfl⟩
abbrev main_c_81 : Ref sig .tc := ⟨.hbm, 354, rfl⟩
abbrev main_v175 : Ref sig .tc := ⟨.hbm, 355, rfl⟩
abbrev main_c_82 : Ref sig .tc := ⟨.hbm, 356, rfl⟩
abbrev main_v176 : Ref sig .tc := ⟨.hbm, 357, rfl⟩
abbrev main_v177 : Ref sig .tc := ⟨.hbm, 358, rfl⟩
abbrev main_c_83 : Ref sig .tc := ⟨.hbm, 359, rfl⟩
abbrev main_v178 : Ref sig .tc := ⟨.hbm, 360, rfl⟩
abbrev main_c_84 : Ref sig .tc := ⟨.hbm, 361, rfl⟩
abbrev main_v179 : Ref sig .tc := ⟨.hbm, 362, rfl⟩
abbrev main_v180 : Ref sig .tc := ⟨.hbm, 363, rfl⟩
abbrev main_c_85 : Ref sig .tc := ⟨.hbm, 364, rfl⟩
abbrev main_v181 : Ref sig .tc := ⟨.hbm, 365, rfl⟩
abbrev main_c_86 : Ref sig .tc := ⟨.hbm, 366, rfl⟩
abbrev main_v182 : Ref sig .tc := ⟨.hbm, 367, rfl⟩
abbrev main_v183 : Ref sig .tc := ⟨.hbm, 368, rfl⟩
abbrev main_c_87 : Ref sig .tc := ⟨.hbm, 369, rfl⟩
abbrev main_c_88 : Ref sig .tc := ⟨.hbm, 370, rfl⟩
abbrev main_v184 : Ref sig .tc := ⟨.hbm, 371, rfl⟩
abbrev main_c_89 : Ref sig .tc := ⟨.hbm, 372, rfl⟩
abbrev main_c_90 : Ref sig .tc := ⟨.hbm, 373, rfl⟩
abbrev main_v185 : Ref sig .tc := ⟨.hbm, 374, rfl⟩
abbrev main_c_91 : Ref sig .tc := ⟨.hbm, 375, rfl⟩
abbrev main_v186 : Ref sig .tc := ⟨.hbm, 376, rfl⟩
abbrev main_v187 : Ref sig .tc := ⟨.hbm, 377, rfl⟩
abbrev main_v188 : Ref sig .tc := ⟨.hbm, 378, rfl⟩
abbrev main_v189 : Ref sig .tc := ⟨.hbm, 379, rfl⟩
abbrev main_c_92 : Ref sig .tc := ⟨.hbm, 380, rfl⟩
abbrev main_v190 : Ref sig .tc := ⟨.hbm, 381, rfl⟩
abbrev main_c_93 : Ref sig .tc := ⟨.hbm, 382, rfl⟩
abbrev main_v191 : Ref sig .tc := ⟨.hbm, 383, rfl⟩
abbrev main_v192 : Ref sig .tc := ⟨.hbm, 384, rfl⟩
abbrev main_v193 : Ref sig .tc := ⟨.hbm, 385, rfl⟩
abbrev main_v194 : Ref sig .tc := ⟨.hbm, 386, rfl⟩
abbrev main_v195 : Ref sig .tc := ⟨.hbm, 387, rfl⟩
abbrev main_v196 : Ref sig .tc := ⟨.hbm, 388, rfl⟩
abbrev main_v197 : Ref sig .tc := ⟨.hbm, 389, rfl⟩
abbrev main_c_94 : Ref sig .tc := ⟨.hbm, 390, rfl⟩
abbrev main_v198 : Ref sig .tc := ⟨.hbm, 391, rfl⟩
abbrev main_c_95 : Ref sig .tc := ⟨.hbm, 392, rfl⟩
abbrev main_v199 : Ref sig .tc := ⟨.hbm, 393, rfl⟩
abbrev main_v200 : Ref sig .tc := ⟨.hbm, 394, rfl⟩
abbrev main_c_96 : Ref sig .tc := ⟨.hbm, 395, rfl⟩
abbrev main_v201 : Ref sig .tc := ⟨.hbm, 396, rfl⟩
abbrev main_c_97 : Ref sig .tc := ⟨.hbm, 397, rfl⟩
abbrev main_v202 : Ref sig .tc := ⟨.hbm, 398, rfl⟩
abbrev main_v203 : Ref sig .tc := ⟨.hbm, 399, rfl⟩
abbrev main_c_98 : Ref sig .tc := ⟨.hbm, 400, rfl⟩
abbrev main_v204 : Ref sig .tc := ⟨.hbm, 401, rfl⟩
abbrev main_c_99 : Ref sig .tc := ⟨.hbm, 402, rfl⟩
abbrev main_v205 : Ref sig .tc := ⟨.hbm, 403, rfl⟩
abbrev main_v206 : Ref sig .tc := ⟨.hbm, 404, rfl⟩
abbrev main_c_100 : Ref sig .tc := ⟨.hbm, 405, rfl⟩
abbrev main_c_101 : Ref sig .tc := ⟨.hbm, 406, rfl⟩
abbrev main_v207 : Ref sig .tc := ⟨.hbm, 407, rfl⟩
abbrev main_c_102 : Ref sig .tc := ⟨.hbm, 408, rfl⟩
abbrev main_c_103 : Ref sig .tc := ⟨.hbm, 409, rfl⟩
abbrev main_v208 : Ref sig .tc := ⟨.hbm, 410, rfl⟩
abbrev main_c_104 : Ref sig .tc := ⟨.hbm, 411, rfl⟩
abbrev main_v209 : Ref sig .tc := ⟨.hbm, 412, rfl⟩
abbrev main_v210 : Ref sig .tc := ⟨.hbm, 413, rfl⟩
abbrev main_v211 : Ref sig .tc := ⟨.hbm, 414, rfl⟩
abbrev main_v212 : Ref sig .tc := ⟨.hbm, 415, rfl⟩
abbrev main_v213 : Ref sig .tc := ⟨.hbm, 416, rfl⟩
abbrev main_v214 : Ref sig .tc := ⟨.hbm, 417, rfl⟩
abbrev main_v215 : Ref sig .tc := ⟨.hbm, 418, rfl⟩
abbrev main_v216 : Ref sig .tc := ⟨.hbm, 419, rfl⟩
abbrev main_v217 : Ref sig .tc := ⟨.hbm, 420, rfl⟩
abbrev main_v218 : Ref sig .tc := ⟨.hbm, 421, rfl⟩
abbrev main_v219 : Ref sig .tc := ⟨.hbm, 422, rfl⟩
abbrev main_v220 : Ref sig .tc := ⟨.hbm, 423, rfl⟩
abbrev main_v221 : Ref sig .tc := ⟨.hbm, 424, rfl⟩
abbrev main_v222 : Ref sig .tc := ⟨.hbm, 425, rfl⟩
abbrev main_v223 : Ref sig .tc := ⟨.hbm, 426, rfl⟩
abbrev main_v224 : Ref sig .tc := ⟨.hbm, 427, rfl⟩
abbrev main_c_105 : Ref sig .tc := ⟨.hbm, 428, rfl⟩
abbrev main_v225 : Ref sig .tc := ⟨.hbm, 429, rfl⟩
abbrev main_c_106 : Ref sig .tc := ⟨.hbm, 430, rfl⟩
abbrev main_v226 : Ref sig .tc := ⟨.hbm, 431, rfl⟩
abbrev main_v227 : Ref sig .tc := ⟨.hbm, 432, rfl⟩
abbrev main_c_107 : Ref sig .tc := ⟨.hbm, 433, rfl⟩
abbrev main_v228 : Ref sig .tc := ⟨.hbm, 434, rfl⟩
abbrev main_c_108 : Ref sig .tc := ⟨.hbm, 435, rfl⟩
abbrev main_v229 : Ref sig .tc := ⟨.hbm, 436, rfl⟩
abbrev main_v230 : Ref sig .tc := ⟨.hbm, 437, rfl⟩
abbrev main_c_109 : Ref sig .tc := ⟨.hbm, 438, rfl⟩
abbrev main_v231 : Ref sig .tc := ⟨.hbm, 439, rfl⟩
abbrev main_c_110 : Ref sig .tc := ⟨.hbm, 440, rfl⟩
abbrev main_v232 : Ref sig .tc := ⟨.hbm, 441, rfl⟩
abbrev main_v233 : Ref sig .tc := ⟨.hbm, 442, rfl⟩
abbrev main_c_111 : Ref sig .tc := ⟨.hbm, 443, rfl⟩
abbrev main_c_112 : Ref sig .tc := ⟨.hbm, 444, rfl⟩
abbrev main_v234 : Ref sig .tc := ⟨.hbm, 445, rfl⟩
abbrev main_c_113 : Ref sig .tc := ⟨.hbm, 446, rfl⟩
abbrev main_c_114 : Ref sig .tc := ⟨.hbm, 447, rfl⟩
abbrev main_v235 : Ref sig .tc := ⟨.hbm, 448, rfl⟩
abbrev main_c_115 : Ref sig .tc := ⟨.hbm, 449, rfl⟩
abbrev main_v236 : Ref sig .tc := ⟨.hbm, 450, rfl⟩
abbrev main_v237 : Ref sig .tc := ⟨.hbm, 451, rfl⟩
abbrev main_v238 : Ref sig .tc := ⟨.hbm, 452, rfl⟩
abbrev main_v239 : Ref sig .tc := ⟨.hbm, 453, rfl⟩
abbrev main_v240 : Ref sig .tc := ⟨.hbm, 454, rfl⟩
abbrev main_c_116 : Ref sig .tc := ⟨.hbm, 455, rfl⟩
abbrev main_v241 : Ref sig .tc := ⟨.hbm, 456, rfl⟩
abbrev main_c_117 : Ref sig .tc := ⟨.hbm, 457, rfl⟩
abbrev main_call5_v0 : Ref sig .tc := ⟨.hbm, 458, rfl⟩
abbrev main_call5_c : Ref sig .tc := ⟨.hbm, 459, rfl⟩
abbrev main_call5_v1 : Ref sig .tc := ⟨.hbm, 460, rfl⟩
abbrev main_call5_c_0 : Ref sig .tc := ⟨.hbm, 461, rfl⟩
abbrev main_call5_v2 : Ref sig .tc := ⟨.hbm, 462, rfl⟩
abbrev main_call5_v3 : Ref sig .tc := ⟨.hbm, 463, rfl⟩
abbrev main_call5_c_1 : Ref sig .tc := ⟨.hbm, 464, rfl⟩
abbrev main_call5_v4 : Ref sig .tc := ⟨.hbm, 465, rfl⟩
abbrev main_call5_c_2 : Ref sig .tc := ⟨.hbm, 466, rfl⟩
abbrev main_call5_v5 : Ref sig .tc := ⟨.hbm, 467, rfl⟩
abbrev main_call5_c_3 : Ref sig .tc := ⟨.hbm, 468, rfl⟩
abbrev main_call5_v6 : Ref sig .tc := ⟨.hbm, 469, rfl⟩
abbrev main_call5_v7 : Ref sig .tc := ⟨.hbm, 470, rfl⟩
abbrev main_call5_v8 : Ref sig .tc := ⟨.hbm, 471, rfl⟩
abbrev main_call5_v9 : Ref sig .tc := ⟨.hbm, 472, rfl⟩
abbrev main_v242 : Ref sig .tc := ⟨.hbm, 473, rfl⟩
abbrev main_c_118 : Ref sig .tc := ⟨.hbm, 474, rfl⟩
abbrev main_v243 : Ref sig .tc := ⟨.hbm, 475, rfl⟩
abbrev main_v244 : Ref sig .tc := ⟨.hbm, 476, rfl⟩
abbrev main_v245 : Ref sig .tc := ⟨.hbm, 477, rfl⟩
abbrev main_v246 : Ref sig .tc := ⟨.hbm, 478, rfl⟩
abbrev main_v247 : Ref sig .tc := ⟨.hbm, 479, rfl⟩
abbrev main_v248 : Ref sig .tc := ⟨.hbm, 480, rfl⟩
abbrev main_v249 : Ref sig .tc := ⟨.hbm, 481, rfl⟩
abbrev main_v250 : Ref sig .tc := ⟨.hbm, 482, rfl⟩
abbrev main_c_119 : Ref sig .tc := ⟨.hbm, 483, rfl⟩
abbrev main_v251 : Ref sig .tc := ⟨.hbm, 484, rfl⟩
abbrev main_c_120 : Ref sig .tc := ⟨.hbm, 485, rfl⟩
abbrev main_v252 : Ref sig .tc := ⟨.hbm, 486, rfl⟩
abbrev main_v253 : Ref sig .tc := ⟨.hbm, 487, rfl⟩
abbrev main_c_121 : Ref sig .tc := ⟨.hbm, 488, rfl⟩
abbrev main_v254 : Ref sig .tc := ⟨.hbm, 489, rfl⟩
abbrev main_c_122 : Ref sig .tc := ⟨.hbm, 490, rfl⟩
abbrev main_v255 : Ref sig .tc := ⟨.hbm, 491, rfl⟩
abbrev main_v256 : Ref sig .tc := ⟨.hbm, 492, rfl⟩
abbrev main_c_123 : Ref sig .tc := ⟨.hbm, 493, rfl⟩
abbrev main_v257 : Ref sig .tc := ⟨.hbm, 494, rfl⟩
abbrev main_c_124 : Ref sig .tc := ⟨.hbm, 495, rfl⟩
abbrev main_v258 : Ref sig .tc := ⟨.hbm, 496, rfl⟩
abbrev main_v259 : Ref sig .tc := ⟨.hbm, 497, rfl⟩
abbrev main_c_125 : Ref sig .tc := ⟨.hbm, 498, rfl⟩
abbrev main_c_126 : Ref sig .tc := ⟨.hbm, 499, rfl⟩
abbrev main_v260 : Ref sig .tc := ⟨.hbm, 500, rfl⟩
abbrev main_c_127 : Ref sig .tc := ⟨.hbm, 501, rfl⟩
abbrev main_c_128 : Ref sig .tc := ⟨.hbm, 502, rfl⟩
abbrev main_v261 : Ref sig .tc := ⟨.hbm, 503, rfl⟩
abbrev main_c_129 : Ref sig .tc := ⟨.hbm, 504, rfl⟩
abbrev main_v262 : Ref sig .tc := ⟨.hbm, 505, rfl⟩
abbrev main_v263 : Ref sig .tc := ⟨.hbm, 506, rfl⟩
abbrev main_v264 : Ref sig .tc := ⟨.hbm, 507, rfl⟩
abbrev main_v265 : Ref sig .tc := ⟨.hbm, 508, rfl⟩
abbrev main_v266 : Ref sig .tc := ⟨.hbm, 509, rfl⟩
abbrev main_c_130 : Ref sig .tc := ⟨.hbm, 510, rfl⟩
abbrev main_v267 : Ref sig .tc := ⟨.hbm, 511, rfl⟩
abbrev main_c_131 : Ref sig .tc := ⟨.hbm, 512, rfl⟩
abbrev main_call6_v0 : Ref sig .tc := ⟨.hbm, 513, rfl⟩
abbrev main_call6_c : Ref sig .tc := ⟨.hbm, 514, rfl⟩
abbrev main_call6_v1 : Ref sig .tc := ⟨.hbm, 515, rfl⟩
abbrev main_call6_c_0 : Ref sig .tc := ⟨.hbm, 516, rfl⟩
abbrev main_call6_v2 : Ref sig .tc := ⟨.hbm, 517, rfl⟩
abbrev main_call6_v3 : Ref sig .tc := ⟨.hbm, 518, rfl⟩
abbrev main_call6_c_1 : Ref sig .tc := ⟨.hbm, 519, rfl⟩
abbrev main_call6_v4 : Ref sig .tc := ⟨.hbm, 520, rfl⟩
abbrev main_call6_c_2 : Ref sig .tc := ⟨.hbm, 521, rfl⟩
abbrev main_call6_v5 : Ref sig .tc := ⟨.hbm, 522, rfl⟩
abbrev main_call6_c_3 : Ref sig .tc := ⟨.hbm, 523, rfl⟩
abbrev main_call6_v6 : Ref sig .tc := ⟨.hbm, 524, rfl⟩
abbrev main_call6_v7 : Ref sig .tc := ⟨.hbm, 525, rfl⟩
abbrev main_call6_v8 : Ref sig .tc := ⟨.hbm, 526, rfl⟩
abbrev main_call6_v9 : Ref sig .tc := ⟨.hbm, 527, rfl⟩
abbrev main_v268 : Ref sig .tc := ⟨.hbm, 528, rfl⟩
abbrev main_c_132 : Ref sig .tc := ⟨.hbm, 529, rfl⟩
abbrev main_v269 : Ref sig .tc := ⟨.hbm, 530, rfl⟩
abbrev main_v270 : Ref sig .tc := ⟨.hbm, 531, rfl⟩
abbrev main_v271 : Ref sig .tc := ⟨.hbm, 532, rfl⟩
abbrev main_v272 : Ref sig .tc := ⟨.hbm, 533, rfl⟩
abbrev main_v273 : Ref sig .tc := ⟨.hbm, 534, rfl⟩
abbrev main_v274 : Ref sig .tc := ⟨.hbm, 535, rfl⟩
abbrev main_v275 : Ref sig .tc := ⟨.hbm, 536, rfl⟩
abbrev main_v276 : Ref sig .tc := ⟨.hbm, 537, rfl⟩
abbrev main_c_133 : Ref sig .tc := ⟨.hbm, 538, rfl⟩
abbrev main_v277 : Ref sig .tc := ⟨.hbm, 539, rfl⟩
abbrev main_c_134 : Ref sig .tc := ⟨.hbm, 540, rfl⟩
abbrev main_v278 : Ref sig .tc := ⟨.hbm, 541, rfl⟩
abbrev main_v279 : Ref sig .tc := ⟨.hbm, 542, rfl⟩
abbrev main_c_135 : Ref sig .tc := ⟨.hbm, 543, rfl⟩
abbrev main_v280 : Ref sig .tc := ⟨.hbm, 544, rfl⟩
abbrev main_c_136 : Ref sig .tc := ⟨.hbm, 545, rfl⟩
abbrev main_v281 : Ref sig .tc := ⟨.hbm, 546, rfl⟩
abbrev main_v282 : Ref sig .tc := ⟨.hbm, 547, rfl⟩
abbrev main_c_137 : Ref sig .tc := ⟨.hbm, 548, rfl⟩
abbrev main_v283 : Ref sig .tc := ⟨.hbm, 549, rfl⟩
abbrev main_c_138 : Ref sig .tc := ⟨.hbm, 550, rfl⟩
abbrev main_v284 : Ref sig .tc := ⟨.hbm, 551, rfl⟩
abbrev main_v285 : Ref sig .tc := ⟨.hbm, 552, rfl⟩
abbrev main_c_139 : Ref sig .tc := ⟨.hbm, 553, rfl⟩
abbrev main_c_140 : Ref sig .tc := ⟨.hbm, 554, rfl⟩
abbrev main_v286 : Ref sig .tc := ⟨.hbm, 555, rfl⟩
abbrev main_c_141 : Ref sig .tc := ⟨.hbm, 556, rfl⟩
abbrev main_c_142 : Ref sig .tc := ⟨.hbm, 557, rfl⟩
abbrev main_v287 : Ref sig .tc := ⟨.hbm, 558, rfl⟩
abbrev main_c_143 : Ref sig .tc := ⟨.hbm, 559, rfl⟩
abbrev main_v288 : Ref sig .tc := ⟨.hbm, 560, rfl⟩
abbrev main_v289 : Ref sig .tc := ⟨.hbm, 561, rfl⟩
abbrev main_v290 : Ref sig .tc := ⟨.hbm, 562, rfl⟩
abbrev main_v291 : Ref sig .tc := ⟨.hbm, 563, rfl⟩
abbrev main_c_144 : Ref sig .tc := ⟨.hbm, 564, rfl⟩
abbrev main_v292 : Ref sig .tc := ⟨.hbm, 565, rfl⟩
abbrev main_c_145 : Ref sig .tc := ⟨.hbm, 566, rfl⟩
abbrev main_v293 : Ref sig .tc := ⟨.hbm, 567, rfl⟩
abbrev main_v294 : Ref sig .tc := ⟨.hbm, 568, rfl⟩
abbrev main_v295 : Ref sig .tc := ⟨.hbm, 569, rfl⟩
abbrev main_v296 : Ref sig .tc := ⟨.hbm, 570, rfl⟩
abbrev main_v297 : Ref sig .tc := ⟨.hbm, 571, rfl⟩
abbrev main_v298 : Ref sig .tc := ⟨.hbm, 572, rfl⟩
abbrev main_v299 : Ref sig .tc := ⟨.hbm, 573, rfl⟩
abbrev main_c_146 : Ref sig .tc := ⟨.hbm, 574, rfl⟩
abbrev main_v300 : Ref sig .tc := ⟨.hbm, 575, rfl⟩
abbrev main_c_147 : Ref sig .tc := ⟨.hbm, 576, rfl⟩
abbrev main_v301 : Ref sig .tc := ⟨.hbm, 577, rfl⟩
abbrev main_v302 : Ref sig .tc := ⟨.hbm, 578, rfl⟩
abbrev main_c_148 : Ref sig .tc := ⟨.hbm, 579, rfl⟩
abbrev main_v303 : Ref sig .tc := ⟨.hbm, 580, rfl⟩
abbrev main_c_149 : Ref sig .tc := ⟨.hbm, 581, rfl⟩
abbrev main_v304 : Ref sig .tc := ⟨.hbm, 582, rfl⟩
abbrev main_v305 : Ref sig .tc := ⟨.hbm, 583, rfl⟩
abbrev main_c_150 : Ref sig .tc := ⟨.hbm, 584, rfl⟩
abbrev main_v306 : Ref sig .tc := ⟨.hbm, 585, rfl⟩
abbrev main_c_151 : Ref sig .tc := ⟨.hbm, 586, rfl⟩
abbrev main_v307 : Ref sig .tc := ⟨.hbm, 587, rfl⟩
abbrev main_v308 : Ref sig .tc := ⟨.hbm, 588, rfl⟩
abbrev main_c_152 : Ref sig .tc := ⟨.hbm, 589, rfl⟩
abbrev main_c_153 : Ref sig .tc := ⟨.hbm, 590, rfl⟩
abbrev main_v309 : Ref sig .tc := ⟨.hbm, 591, rfl⟩
abbrev main_c_154 : Ref sig .tc := ⟨.hbm, 592, rfl⟩
abbrev main_c_155 : Ref sig .tc := ⟨.hbm, 593, rfl⟩
abbrev main_v310 : Ref sig .tc := ⟨.hbm, 594, rfl⟩
abbrev main_c_156 : Ref sig .tc := ⟨.hbm, 595, rfl⟩
abbrev main_v311 : Ref sig .tc := ⟨.hbm, 596, rfl⟩
abbrev main_v312 : Ref sig .tc := ⟨.hbm, 597, rfl⟩
abbrev main_v313 : Ref sig .tc := ⟨.hbm, 598, rfl⟩
abbrev main_v314 : Ref sig .tc := ⟨.hbm, 599, rfl⟩
abbrev main_v315 : Ref sig .tc := ⟨.hbm, 600, rfl⟩
abbrev main_v316 : Ref sig .tc := ⟨.hbm, 601, rfl⟩
abbrev main_v317 : Ref sig .tc := ⟨.hbm, 602, rfl⟩
abbrev main_v318 : Ref sig .tc := ⟨.hbm, 603, rfl⟩
abbrev main_v319 : Ref sig .tc := ⟨.hbm, 604, rfl⟩
abbrev main_v320 : Ref sig .tc := ⟨.hbm, 605, rfl⟩
abbrev main_v321 : Ref sig .tc := ⟨.hbm, 606, rfl⟩
abbrev main_v322 : Ref sig .tc := ⟨.hbm, 607, rfl⟩
abbrev main_v323 : Ref sig .tc := ⟨.hbm, 608, rfl⟩
abbrev main_v324 : Ref sig .tc := ⟨.hbm, 609, rfl⟩
abbrev main_v325 : Ref sig .tc := ⟨.hbm, 610, rfl⟩
abbrev main_v326 : Ref sig .tc := ⟨.hbm, 611, rfl⟩
abbrev main_c_157 : Ref sig .tc := ⟨.hbm, 612, rfl⟩
abbrev main_v327 : Ref sig .tc := ⟨.hbm, 613, rfl⟩
abbrev main_c_158 : Ref sig .tc := ⟨.hbm, 614, rfl⟩
abbrev main_v328 : Ref sig .tc := ⟨.hbm, 615, rfl⟩
abbrev main_v329 : Ref sig .tc := ⟨.hbm, 616, rfl⟩
abbrev main_c_159 : Ref sig .tc := ⟨.hbm, 617, rfl⟩
abbrev main_v330 : Ref sig .tc := ⟨.hbm, 618, rfl⟩
abbrev main_c_160 : Ref sig .tc := ⟨.hbm, 619, rfl⟩
abbrev main_v331 : Ref sig .tc := ⟨.hbm, 620, rfl⟩
abbrev main_v332 : Ref sig .tc := ⟨.hbm, 621, rfl⟩
abbrev main_c_161 : Ref sig .tc := ⟨.hbm, 622, rfl⟩
abbrev main_v333 : Ref sig .tc := ⟨.hbm, 623, rfl⟩
abbrev main_c_162 : Ref sig .tc := ⟨.hbm, 624, rfl⟩
abbrev main_v334 : Ref sig .tc := ⟨.hbm, 625, rfl⟩
abbrev main_v335 : Ref sig .tc := ⟨.hbm, 626, rfl⟩
abbrev main_c_163 : Ref sig .tc := ⟨.hbm, 627, rfl⟩
abbrev main_c_164 : Ref sig .tc := ⟨.hbm, 628, rfl⟩
abbrev main_v336 : Ref sig .tc := ⟨.hbm, 629, rfl⟩
abbrev main_c_165 : Ref sig .tc := ⟨.hbm, 630, rfl⟩
abbrev main_c_166 : Ref sig .tc := ⟨.hbm, 631, rfl⟩
abbrev main_v337 : Ref sig .tc := ⟨.hbm, 632, rfl⟩
abbrev main_c_167 : Ref sig .tc := ⟨.hbm, 633, rfl⟩
abbrev main_v338 : Ref sig .tc := ⟨.hbm, 634, rfl⟩
abbrev main_v339 : Ref sig .tc := ⟨.hbm, 635, rfl⟩
abbrev main_v340 : Ref sig .tc := ⟨.hbm, 636, rfl⟩
abbrev main_v341 : Ref sig .tc := ⟨.hbm, 637, rfl⟩
abbrev main_v342 : Ref sig .tc := ⟨.hbm, 638, rfl⟩
abbrev main_c_168 : Ref sig .tc := ⟨.hbm, 639, rfl⟩
abbrev main_v343 : Ref sig .tc := ⟨.hbm, 640, rfl⟩
abbrev main_c_169 : Ref sig .tc := ⟨.hbm, 641, rfl⟩
abbrev main_call7_v0 : Ref sig .tc := ⟨.hbm, 642, rfl⟩
abbrev main_call7_c : Ref sig .tc := ⟨.hbm, 643, rfl⟩
abbrev main_call7_v1 : Ref sig .tc := ⟨.hbm, 644, rfl⟩
abbrev main_call7_c_0 : Ref sig .tc := ⟨.hbm, 645, rfl⟩
abbrev main_call7_v2 : Ref sig .tc := ⟨.hbm, 646, rfl⟩
abbrev main_call7_v3 : Ref sig .tc := ⟨.hbm, 647, rfl⟩
abbrev main_call7_c_1 : Ref sig .tc := ⟨.hbm, 648, rfl⟩
abbrev main_call7_v4 : Ref sig .tc := ⟨.hbm, 649, rfl⟩
abbrev main_call7_c_2 : Ref sig .tc := ⟨.hbm, 650, rfl⟩
abbrev main_call7_v5 : Ref sig .tc := ⟨.hbm, 651, rfl⟩
abbrev main_call7_c_3 : Ref sig .tc := ⟨.hbm, 652, rfl⟩
abbrev main_call7_v6 : Ref sig .tc := ⟨.hbm, 653, rfl⟩
abbrev main_call7_v7 : Ref sig .tc := ⟨.hbm, 654, rfl⟩
abbrev main_call7_v8 : Ref sig .tc := ⟨.hbm, 655, rfl⟩
abbrev main_call7_v9 : Ref sig .tc := ⟨.hbm, 656, rfl⟩
abbrev main_v344 : Ref sig .tc := ⟨.hbm, 657, rfl⟩
abbrev main_c_170 : Ref sig .tc := ⟨.hbm, 658, rfl⟩
abbrev main_v345 : Ref sig .tc := ⟨.hbm, 659, rfl⟩
abbrev main_v346 : Ref sig .tc := ⟨.hbm, 660, rfl⟩
abbrev main_v347 : Ref sig .tc := ⟨.hbm, 661, rfl⟩
abbrev main_v348 : Ref sig .tc := ⟨.hbm, 662, rfl⟩
abbrev main_v349 : Ref sig .tc := ⟨.hbm, 663, rfl⟩
abbrev main_v350 : Ref sig .tc := ⟨.hbm, 664, rfl⟩
abbrev main_v351 : Ref sig .tc := ⟨.hbm, 665, rfl⟩
abbrev main_v352 : Ref sig .tc := ⟨.hbm, 666, rfl⟩
abbrev main_c_171 : Ref sig .tc := ⟨.hbm, 667, rfl⟩
abbrev main_v353 : Ref sig .tc := ⟨.hbm, 668, rfl⟩
abbrev main_c_172 : Ref sig .tc := ⟨.hbm, 669, rfl⟩
abbrev main_v354 : Ref sig .tc := ⟨.hbm, 670, rfl⟩
abbrev main_v355 : Ref sig .tc := ⟨.hbm, 671, rfl⟩
abbrev main_c_173 : Ref sig .tc := ⟨.hbm, 672, rfl⟩
abbrev main_v356 : Ref sig .tc := ⟨.hbm, 673, rfl⟩
abbrev main_c_174 : Ref sig .tc := ⟨.hbm, 674, rfl⟩
abbrev main_v357 : Ref sig .tc := ⟨.hbm, 675, rfl⟩
abbrev main_v358 : Ref sig .tc := ⟨.hbm, 676, rfl⟩
abbrev main_c_175 : Ref sig .tc := ⟨.hbm, 677, rfl⟩
abbrev main_v359 : Ref sig .tc := ⟨.hbm, 678, rfl⟩
abbrev main_c_176 : Ref sig .tc := ⟨.hbm, 679, rfl⟩
abbrev main_v360 : Ref sig .tc := ⟨.hbm, 680, rfl⟩
abbrev main_v361 : Ref sig .tc := ⟨.hbm, 681, rfl⟩
abbrev main_c_177 : Ref sig .tc := ⟨.hbm, 682, rfl⟩
abbrev main_c_178 : Ref sig .tc := ⟨.hbm, 683, rfl⟩
abbrev main_v362 : Ref sig .tc := ⟨.hbm, 684, rfl⟩
abbrev main_c_179 : Ref sig .tc := ⟨.hbm, 685, rfl⟩
abbrev main_c_180 : Ref sig .tc := ⟨.hbm, 686, rfl⟩
abbrev main_v363 : Ref sig .tc := ⟨.hbm, 687, rfl⟩
abbrev main_c_181 : Ref sig .tc := ⟨.hbm, 688, rfl⟩
abbrev main_v364 : Ref sig .tc := ⟨.hbm, 689, rfl⟩
abbrev main_v365 : Ref sig .tc := ⟨.hbm, 690, rfl⟩
abbrev main_v366 : Ref sig .tc := ⟨.hbm, 691, rfl⟩
abbrev main_v367 : Ref sig .tc := ⟨.hbm, 692, rfl⟩
abbrev main_v368 : Ref sig .tc := ⟨.hbm, 693, rfl⟩
abbrev main_c_182 : Ref sig .tc := ⟨.hbm, 694, rfl⟩
abbrev main_v369 : Ref sig .tc := ⟨.hbm, 695, rfl⟩
abbrev main_c_183 : Ref sig .tc := ⟨.hbm, 696, rfl⟩
abbrev main_call8_v0 : Ref sig .tc := ⟨.hbm, 697, rfl⟩
abbrev main_call8_c : Ref sig .tc := ⟨.hbm, 698, rfl⟩
abbrev main_call8_v1 : Ref sig .tc := ⟨.hbm, 699, rfl⟩
abbrev main_call8_c_0 : Ref sig .tc := ⟨.hbm, 700, rfl⟩
abbrev main_call8_v2 : Ref sig .tc := ⟨.hbm, 701, rfl⟩
abbrev main_call8_v3 : Ref sig .tc := ⟨.hbm, 702, rfl⟩
abbrev main_call8_c_1 : Ref sig .tc := ⟨.hbm, 703, rfl⟩
abbrev main_call8_v4 : Ref sig .tc := ⟨.hbm, 704, rfl⟩
abbrev main_call8_c_2 : Ref sig .tc := ⟨.hbm, 705, rfl⟩
abbrev main_call8_v5 : Ref sig .tc := ⟨.hbm, 706, rfl⟩
abbrev main_call8_c_3 : Ref sig .tc := ⟨.hbm, 707, rfl⟩
abbrev main_call8_v6 : Ref sig .tc := ⟨.hbm, 708, rfl⟩
abbrev main_call8_v7 : Ref sig .tc := ⟨.hbm, 709, rfl⟩
abbrev main_call8_v8 : Ref sig .tc := ⟨.hbm, 710, rfl⟩
abbrev main_call8_v9 : Ref sig .tc := ⟨.hbm, 711, rfl⟩
abbrev main_v370 : Ref sig .tc := ⟨.hbm, 712, rfl⟩
abbrev main_c_184 : Ref sig .tc := ⟨.hbm, 713, rfl⟩
abbrev main_v371 : Ref sig .tc := ⟨.hbm, 714, rfl⟩
abbrev main_v372 : Ref sig .tc := ⟨.hbm, 715, rfl⟩
abbrev main_v373 : Ref sig .tc := ⟨.hbm, 716, rfl⟩
abbrev main_v374 : Ref sig .tc := ⟨.hbm, 717, rfl⟩
abbrev main_v375 : Ref sig .tc := ⟨.hbm, 718, rfl⟩
abbrev main_v376 : Ref sig .tc := ⟨.hbm, 719, rfl⟩
abbrev main_v377 : Ref sig .tc := ⟨.hbm, 720, rfl⟩
abbrev main_v378 : Ref sig .tc := ⟨.hbm, 721, rfl⟩
abbrev main_c_185 : Ref sig .tc := ⟨.hbm, 722, rfl⟩
abbrev main_v379 : Ref sig .tc := ⟨.hbm, 723, rfl⟩
abbrev main_c_186 : Ref sig .tc := ⟨.hbm, 724, rfl⟩
abbrev main_v380 : Ref sig .tc := ⟨.hbm, 725, rfl⟩
abbrev main_v381 : Ref sig .tc := ⟨.hbm, 726, rfl⟩
abbrev main_c_187 : Ref sig .tc := ⟨.hbm, 727, rfl⟩
abbrev main_v382 : Ref sig .tc := ⟨.hbm, 728, rfl⟩
abbrev main_c_188 : Ref sig .tc := ⟨.hbm, 729, rfl⟩
abbrev main_v383 : Ref sig .tc := ⟨.hbm, 730, rfl⟩
abbrev main_v384 : Ref sig .tc := ⟨.hbm, 731, rfl⟩
abbrev main_c_189 : Ref sig .tc := ⟨.hbm, 732, rfl⟩
abbrev main_v385 : Ref sig .tc := ⟨.hbm, 733, rfl⟩
abbrev main_c_190 : Ref sig .tc := ⟨.hbm, 734, rfl⟩
abbrev main_v386 : Ref sig .tc := ⟨.hbm, 735, rfl⟩
abbrev main_v387 : Ref sig .tc := ⟨.hbm, 736, rfl⟩
abbrev main_c_191 : Ref sig .tc := ⟨.hbm, 737, rfl⟩
abbrev main_c_192 : Ref sig .tc := ⟨.hbm, 738, rfl⟩
abbrev main_v388 : Ref sig .tc := ⟨.hbm, 739, rfl⟩
abbrev main_c_193 : Ref sig .tc := ⟨.hbm, 740, rfl⟩
abbrev main_c_194 : Ref sig .tc := ⟨.hbm, 741, rfl⟩
abbrev main_v389 : Ref sig .tc := ⟨.hbm, 742, rfl⟩
abbrev main_c_195 : Ref sig .tc := ⟨.hbm, 743, rfl⟩
abbrev main_v390 : Ref sig .tc := ⟨.hbm, 744, rfl⟩
abbrev main_v391 : Ref sig .tc := ⟨.hbm, 745, rfl⟩
abbrev main_v392 : Ref sig .tc := ⟨.hbm, 746, rfl⟩
abbrev main_v393 : Ref sig .tc := ⟨.hbm, 747, rfl⟩
abbrev main_c_196 : Ref sig .tc := ⟨.hbm, 748, rfl⟩
abbrev main_v394 : Ref sig .tc := ⟨.hbm, 749, rfl⟩
abbrev main_c_197 : Ref sig .tc := ⟨.hbm, 750, rfl⟩
abbrev main_v395 : Ref sig .tc := ⟨.hbm, 751, rfl⟩
abbrev main_v396 : Ref sig .tc := ⟨.hbm, 752, rfl⟩
abbrev main_v397 : Ref sig .tc := ⟨.hbm, 753, rfl⟩
abbrev main_v398 : Ref sig .tc := ⟨.hbm, 754, rfl⟩
abbrev main_v399 : Ref sig .tc := ⟨.hbm, 755, rfl⟩
abbrev main_v400 : Ref sig .tc := ⟨.hbm, 756, rfl⟩
abbrev main_v401 : Ref sig .tc := ⟨.hbm, 757, rfl⟩
abbrev main_c_198 : Ref sig .tc := ⟨.hbm, 758, rfl⟩
abbrev main_v402 : Ref sig .tc := ⟨.hbm, 759, rfl⟩
abbrev main_c_199 : Ref sig .tc := ⟨.hbm, 760, rfl⟩
abbrev main_v403 : Ref sig .tc := ⟨.hbm, 761, rfl⟩
abbrev main_v404 : Ref sig .tc := ⟨.hbm, 762, rfl⟩
abbrev main_c_200 : Ref sig .tc := ⟨.hbm, 763, rfl⟩
abbrev main_v405 : Ref sig .tc := ⟨.hbm, 764, rfl⟩
abbrev main_c_201 : Ref sig .tc := ⟨.hbm, 765, rfl⟩
abbrev main_v406 : Ref sig .tc := ⟨.hbm, 766, rfl⟩
abbrev main_v407 : Ref sig .tc := ⟨.hbm, 767, rfl⟩
abbrev main_c_202 : Ref sig .tc := ⟨.hbm, 768, rfl⟩
abbrev main_v408 : Ref sig .tc := ⟨.hbm, 769, rfl⟩
abbrev main_c_203 : Ref sig .tc := ⟨.hbm, 770, rfl⟩
abbrev main_v409 : Ref sig .tc := ⟨.hbm, 771, rfl⟩
abbrev main_v410 : Ref sig .tc := ⟨.hbm, 772, rfl⟩
abbrev main_c_204 : Ref sig .tc := ⟨.hbm, 773, rfl⟩
abbrev main_c_205 : Ref sig .tc := ⟨.hbm, 774, rfl⟩
abbrev main_v411 : Ref sig .tc := ⟨.hbm, 775, rfl⟩
abbrev main_c_206 : Ref sig .tc := ⟨.hbm, 776, rfl⟩
abbrev main_c_207 : Ref sig .tc := ⟨.hbm, 777, rfl⟩
abbrev main_v412 : Ref sig .tc := ⟨.hbm, 778, rfl⟩
abbrev main_c_208 : Ref sig .tc := ⟨.hbm, 779, rfl⟩
abbrev main_v413 : Ref sig .tc := ⟨.hbm, 780, rfl⟩
abbrev main_v414 : Ref sig .tc := ⟨.hbm, 781, rfl⟩
abbrev main_v415 : Ref sig .tc := ⟨.hbm, 782, rfl⟩
abbrev main_v416 : Ref sig .tc := ⟨.hbm, 783, rfl⟩
abbrev main_v417 : Ref sig .tc := ⟨.hbm, 784, rfl⟩
abbrev main_v418 : Ref sig .tc := ⟨.hbm, 785, rfl⟩
abbrev main_v419 : Ref sig .tc := ⟨.hbm, 786, rfl⟩
abbrev main_v420 : Ref sig .tc := ⟨.hbm, 787, rfl⟩
abbrev main_v421 : Ref sig .tc := ⟨.hbm, 788, rfl⟩
abbrev main_v422 : Ref sig .tc := ⟨.hbm, 789, rfl⟩
abbrev main_v423 : Ref sig .tc := ⟨.hbm, 790, rfl⟩
abbrev main_v424 : Ref sig .tc := ⟨.hbm, 791, rfl⟩
abbrev main_v425 : Ref sig .tc := ⟨.hbm, 792, rfl⟩
abbrev main_v426 : Ref sig .tc := ⟨.hbm, 793, rfl⟩
abbrev main_v427 : Ref sig .tc := ⟨.hbm, 794, rfl⟩
abbrev main_v428 : Ref sig .tc := ⟨.hbm, 795, rfl⟩
abbrev main_c_209 : Ref sig .tc := ⟨.hbm, 796, rfl⟩
abbrev main_v429 : Ref sig .tc := ⟨.hbm, 797, rfl⟩
abbrev main_c_210 : Ref sig .tc := ⟨.hbm, 798, rfl⟩
abbrev main_v430 : Ref sig .tc := ⟨.hbm, 799, rfl⟩
abbrev main_v431 : Ref sig .tc := ⟨.hbm, 800, rfl⟩
abbrev main_c_211 : Ref sig .tc := ⟨.hbm, 801, rfl⟩
abbrev main_v432 : Ref sig .tc := ⟨.hbm, 802, rfl⟩
abbrev main_c_212 : Ref sig .tc := ⟨.hbm, 803, rfl⟩
abbrev main_v433 : Ref sig .tc := ⟨.hbm, 804, rfl⟩
abbrev main_v434 : Ref sig .tc := ⟨.hbm, 805, rfl⟩
abbrev main_c_213 : Ref sig .tc := ⟨.hbm, 806, rfl⟩
abbrev main_v435 : Ref sig .tc := ⟨.hbm, 807, rfl⟩
abbrev main_c_214 : Ref sig .tc := ⟨.hbm, 808, rfl⟩
abbrev main_v436 : Ref sig .tc := ⟨.hbm, 809, rfl⟩
abbrev main_v437 : Ref sig .tc := ⟨.hbm, 810, rfl⟩
abbrev main_c_215 : Ref sig .tc := ⟨.hbm, 811, rfl⟩
abbrev main_c_216 : Ref sig .tc := ⟨.hbm, 812, rfl⟩
abbrev main_v438 : Ref sig .tc := ⟨.hbm, 813, rfl⟩
abbrev main_c_217 : Ref sig .tc := ⟨.hbm, 814, rfl⟩
abbrev main_c_218 : Ref sig .tc := ⟨.hbm, 815, rfl⟩
abbrev main_v439 : Ref sig .tc := ⟨.hbm, 816, rfl⟩
abbrev main_c_219 : Ref sig .tc := ⟨.hbm, 817, rfl⟩
abbrev main_v440 : Ref sig .tc := ⟨.hbm, 818, rfl⟩
abbrev main_v441 : Ref sig .tc := ⟨.hbm, 819, rfl⟩
abbrev main_v442 : Ref sig .tc := ⟨.hbm, 820, rfl⟩
abbrev main_v443 : Ref sig .tc := ⟨.hbm, 821, rfl⟩
abbrev main_v444 : Ref sig .tc := ⟨.hbm, 822, rfl⟩
abbrev main_c_220 : Ref sig .tc := ⟨.hbm, 823, rfl⟩
abbrev main_v445 : Ref sig .tc := ⟨.hbm, 824, rfl⟩
abbrev main_c_221 : Ref sig .tc := ⟨.hbm, 825, rfl⟩
abbrev main_call9_v0 : Ref sig .tc := ⟨.hbm, 826, rfl⟩
abbrev main_call9_c : Ref sig .tc := ⟨.hbm, 827, rfl⟩
abbrev main_call9_v1 : Ref sig .tc := ⟨.hbm, 828, rfl⟩
abbrev main_call9_c_0 : Ref sig .tc := ⟨.hbm, 829, rfl⟩
abbrev main_call9_v2 : Ref sig .tc := ⟨.hbm, 830, rfl⟩
abbrev main_call9_v3 : Ref sig .tc := ⟨.hbm, 831, rfl⟩
abbrev main_call9_c_1 : Ref sig .tc := ⟨.hbm, 832, rfl⟩
abbrev main_call9_v4 : Ref sig .tc := ⟨.hbm, 833, rfl⟩
abbrev main_call9_c_2 : Ref sig .tc := ⟨.hbm, 834, rfl⟩
abbrev main_call9_v5 : Ref sig .tc := ⟨.hbm, 835, rfl⟩
abbrev main_call9_c_3 : Ref sig .tc := ⟨.hbm, 836, rfl⟩
abbrev main_call9_v6 : Ref sig .tc := ⟨.hbm, 837, rfl⟩
abbrev main_call9_v7 : Ref sig .tc := ⟨.hbm, 838, rfl⟩
abbrev main_call9_v8 : Ref sig .tc := ⟨.hbm, 839, rfl⟩
abbrev main_call9_v9 : Ref sig .tc := ⟨.hbm, 840, rfl⟩
abbrev main_v446 : Ref sig .tc := ⟨.hbm, 841, rfl⟩
abbrev main_c_222 : Ref sig .tc := ⟨.hbm, 842, rfl⟩
abbrev main_v447 : Ref sig .tc := ⟨.hbm, 843, rfl⟩
abbrev main_v448 : Ref sig .tc := ⟨.hbm, 844, rfl⟩
abbrev main_v449 : Ref sig .tc := ⟨.hbm, 845, rfl⟩
abbrev main_v450 : Ref sig .tc := ⟨.hbm, 846, rfl⟩
abbrev main_v451 : Ref sig .tc := ⟨.hbm, 847, rfl⟩
abbrev main_v452 : Ref sig .tc := ⟨.hbm, 848, rfl⟩
abbrev main_v453 : Ref sig .tc := ⟨.hbm, 849, rfl⟩
abbrev main_v454 : Ref sig .tc := ⟨.hbm, 850, rfl⟩
abbrev main_c_223 : Ref sig .tc := ⟨.hbm, 851, rfl⟩
abbrev main_v455 : Ref sig .tc := ⟨.hbm, 852, rfl⟩
abbrev main_c_224 : Ref sig .tc := ⟨.hbm, 853, rfl⟩
abbrev main_v456 : Ref sig .tc := ⟨.hbm, 854, rfl⟩
abbrev main_v457 : Ref sig .tc := ⟨.hbm, 855, rfl⟩
abbrev main_c_225 : Ref sig .tc := ⟨.hbm, 856, rfl⟩
abbrev main_v458 : Ref sig .tc := ⟨.hbm, 857, rfl⟩
abbrev main_c_226 : Ref sig .tc := ⟨.hbm, 858, rfl⟩
abbrev main_v459 : Ref sig .tc := ⟨.hbm, 859, rfl⟩
abbrev main_v460 : Ref sig .tc := ⟨.hbm, 860, rfl⟩
abbrev main_c_227 : Ref sig .tc := ⟨.hbm, 861, rfl⟩
abbrev main_v461 : Ref sig .tc := ⟨.hbm, 862, rfl⟩
abbrev main_c_228 : Ref sig .tc := ⟨.hbm, 863, rfl⟩
abbrev main_v462 : Ref sig .tc := ⟨.hbm, 864, rfl⟩
abbrev main_v463 : Ref sig .tc := ⟨.hbm, 865, rfl⟩
abbrev main_c_229 : Ref sig .tc := ⟨.hbm, 866, rfl⟩
abbrev main_c_230 : Ref sig .tc := ⟨.hbm, 867, rfl⟩
abbrev main_v464 : Ref sig .tc := ⟨.hbm, 868, rfl⟩
abbrev main_c_231 : Ref sig .tc := ⟨.hbm, 869, rfl⟩
abbrev main_c_232 : Ref sig .tc := ⟨.hbm, 870, rfl⟩
abbrev main_v465 : Ref sig .tc := ⟨.hbm, 871, rfl⟩
abbrev main_c_233 : Ref sig .tc := ⟨.hbm, 872, rfl⟩
abbrev main_v466 : Ref sig .tc := ⟨.hbm, 873, rfl⟩
abbrev main_v467 : Ref sig .tc := ⟨.hbm, 874, rfl⟩
abbrev main_v468 : Ref sig .tc := ⟨.hbm, 875, rfl⟩
abbrev main_v469 : Ref sig .tc := ⟨.hbm, 876, rfl⟩
abbrev main_v470 : Ref sig .tc := ⟨.hbm, 877, rfl⟩
abbrev main_c_234 : Ref sig .tc := ⟨.hbm, 878, rfl⟩
abbrev main_v471 : Ref sig .tc := ⟨.hbm, 879, rfl⟩
abbrev main_c_235 : Ref sig .tc := ⟨.hbm, 880, rfl⟩
abbrev main_call10_v0 : Ref sig .tc := ⟨.hbm, 881, rfl⟩
abbrev main_call10_c : Ref sig .tc := ⟨.hbm, 882, rfl⟩
abbrev main_call10_v1 : Ref sig .tc := ⟨.hbm, 883, rfl⟩
abbrev main_call10_c_0 : Ref sig .tc := ⟨.hbm, 884, rfl⟩
abbrev main_call10_v2 : Ref sig .tc := ⟨.hbm, 885, rfl⟩
abbrev main_call10_v3 : Ref sig .tc := ⟨.hbm, 886, rfl⟩
abbrev main_call10_c_1 : Ref sig .tc := ⟨.hbm, 887, rfl⟩
abbrev main_call10_v4 : Ref sig .tc := ⟨.hbm, 888, rfl⟩
abbrev main_call10_c_2 : Ref sig .tc := ⟨.hbm, 889, rfl⟩
abbrev main_call10_v5 : Ref sig .tc := ⟨.hbm, 890, rfl⟩
abbrev main_call10_c_3 : Ref sig .tc := ⟨.hbm, 891, rfl⟩
abbrev main_call10_v6 : Ref sig .tc := ⟨.hbm, 892, rfl⟩
abbrev main_call10_v7 : Ref sig .tc := ⟨.hbm, 893, rfl⟩
abbrev main_call10_v8 : Ref sig .tc := ⟨.hbm, 894, rfl⟩
abbrev main_call10_v9 : Ref sig .tc := ⟨.hbm, 895, rfl⟩
abbrev main_v472 : Ref sig .tc := ⟨.hbm, 896, rfl⟩
abbrev main_c_236 : Ref sig .tc := ⟨.hbm, 897, rfl⟩
abbrev main_v473 : Ref sig .tc := ⟨.hbm, 898, rfl⟩
abbrev main_v474 : Ref sig .tc := ⟨.hbm, 899, rfl⟩
abbrev main_v475 : Ref sig .tc := ⟨.hbm, 900, rfl⟩
abbrev main_v476 : Ref sig .tc := ⟨.hbm, 901, rfl⟩
abbrev main_v477 : Ref sig .tc := ⟨.hbm, 902, rfl⟩
abbrev main_v478 : Ref sig .tc := ⟨.hbm, 903, rfl⟩
abbrev main_v479 : Ref sig .tc := ⟨.hbm, 904, rfl⟩
abbrev main_v480 : Ref sig .tc := ⟨.hbm, 905, rfl⟩
abbrev main_c_237 : Ref sig .tc := ⟨.hbm, 906, rfl⟩
abbrev main_v481 : Ref sig .tc := ⟨.hbm, 907, rfl⟩
abbrev main_c_238 : Ref sig .tc := ⟨.hbm, 908, rfl⟩
abbrev main_v482 : Ref sig .tc := ⟨.hbm, 909, rfl⟩
abbrev main_v483 : Ref sig .tc := ⟨.hbm, 910, rfl⟩
abbrev main_c_239 : Ref sig .tc := ⟨.hbm, 911, rfl⟩
abbrev main_v484 : Ref sig .tc := ⟨.hbm, 912, rfl⟩
abbrev main_c_240 : Ref sig .tc := ⟨.hbm, 913, rfl⟩
abbrev main_v485 : Ref sig .tc := ⟨.hbm, 914, rfl⟩
abbrev main_v486 : Ref sig .tc := ⟨.hbm, 915, rfl⟩
abbrev main_c_241 : Ref sig .tc := ⟨.hbm, 916, rfl⟩
abbrev main_v487 : Ref sig .tc := ⟨.hbm, 917, rfl⟩
abbrev main_c_242 : Ref sig .tc := ⟨.hbm, 918, rfl⟩
abbrev main_v488 : Ref sig .tc := ⟨.hbm, 919, rfl⟩
abbrev main_v489 : Ref sig .tc := ⟨.hbm, 920, rfl⟩
abbrev main_c_243 : Ref sig .tc := ⟨.hbm, 921, rfl⟩
abbrev main_c_244 : Ref sig .tc := ⟨.hbm, 922, rfl⟩
abbrev main_v490 : Ref sig .tc := ⟨.hbm, 923, rfl⟩
abbrev main_c_245 : Ref sig .tc := ⟨.hbm, 924, rfl⟩
abbrev main_c_246 : Ref sig .tc := ⟨.hbm, 925, rfl⟩
abbrev main_v491 : Ref sig .tc := ⟨.hbm, 926, rfl⟩
abbrev main_c_247 : Ref sig .tc := ⟨.hbm, 927, rfl⟩
abbrev main_v492 : Ref sig .tc := ⟨.hbm, 928, rfl⟩
abbrev main_v493 : Ref sig .tc := ⟨.hbm, 929, rfl⟩
abbrev main_v494 : Ref sig .tc := ⟨.hbm, 930, rfl⟩
abbrev main_v495 : Ref sig .tc := ⟨.hbm, 931, rfl⟩
abbrev main_c_248 : Ref sig .tc := ⟨.hbm, 932, rfl⟩
abbrev main_v496 : Ref sig .tc := ⟨.hbm, 933, rfl⟩
abbrev main_c_249 : Ref sig .tc := ⟨.hbm, 934, rfl⟩
abbrev main_v497 : Ref sig .tc := ⟨.hbm, 935, rfl⟩
abbrev main_v498 : Ref sig .tc := ⟨.hbm, 936, rfl⟩
abbrev main_v499 : Ref sig .tc := ⟨.hbm, 937, rfl⟩
abbrev main_v500 : Ref sig .tc := ⟨.hbm, 938, rfl⟩
abbrev main_v501 : Ref sig .tc := ⟨.hbm, 939, rfl⟩
abbrev main_v502 : Ref sig .tc := ⟨.hbm, 940, rfl⟩
abbrev main_v503 : Ref sig .tc := ⟨.hbm, 941, rfl⟩
abbrev main_c_250 : Ref sig .tc := ⟨.hbm, 942, rfl⟩
abbrev main_v504 : Ref sig .tc := ⟨.hbm, 943, rfl⟩
abbrev main_c_251 : Ref sig .tc := ⟨.hbm, 944, rfl⟩
abbrev main_v505 : Ref sig .tc := ⟨.hbm, 945, rfl⟩
abbrev main_v506 : Ref sig .tc := ⟨.hbm, 946, rfl⟩
abbrev main_c_252 : Ref sig .tc := ⟨.hbm, 947, rfl⟩
abbrev main_v507 : Ref sig .tc := ⟨.hbm, 948, rfl⟩
abbrev main_c_253 : Ref sig .tc := ⟨.hbm, 949, rfl⟩
abbrev main_v508 : Ref sig .tc := ⟨.hbm, 950, rfl⟩
abbrev main_v509 : Ref sig .tc := ⟨.hbm, 951, rfl⟩
abbrev main_c_254 : Ref sig .tc := ⟨.hbm, 952, rfl⟩
abbrev main_v510 : Ref sig .tc := ⟨.hbm, 953, rfl⟩
abbrev main_c_255 : Ref sig .tc := ⟨.hbm, 954, rfl⟩
abbrev main_v511 : Ref sig .tc := ⟨.hbm, 955, rfl⟩
abbrev main_v512 : Ref sig .tc := ⟨.hbm, 956, rfl⟩
abbrev main_c_256 : Ref sig .tc := ⟨.hbm, 957, rfl⟩
abbrev main_c_257 : Ref sig .tc := ⟨.hbm, 958, rfl⟩
abbrev main_v513 : Ref sig .tc := ⟨.hbm, 959, rfl⟩
abbrev main_c_258 : Ref sig .tc := ⟨.hbm, 960, rfl⟩
abbrev main_c_259 : Ref sig .tc := ⟨.hbm, 961, rfl⟩
abbrev main_v514 : Ref sig .tc := ⟨.hbm, 962, rfl⟩
abbrev main_c_260 : Ref sig .tc := ⟨.hbm, 963, rfl⟩
abbrev main_v515 : Ref sig .tc := ⟨.hbm, 964, rfl⟩
abbrev main_v516 : Ref sig .tc := ⟨.hbm, 965, rfl⟩
abbrev main_v517 : Ref sig .tc := ⟨.hbm, 966, rfl⟩
abbrev main_v518 : Ref sig .tc := ⟨.hbm, 967, rfl⟩
abbrev main_v519 : Ref sig .tc := ⟨.hbm, 968, rfl⟩
abbrev main_v520 : Ref sig .tc := ⟨.hbm, 969, rfl⟩
abbrev main_v521 : Ref sig .tc := ⟨.hbm, 970, rfl⟩
abbrev main_v522 : Ref sig .tc := ⟨.hbm, 971, rfl⟩
abbrev main_v523 : Ref sig .tc := ⟨.hbm, 972, rfl⟩
abbrev main_v524 : Ref sig .tc := ⟨.hbm, 973, rfl⟩
abbrev main_v525 : Ref sig .tc := ⟨.hbm, 974, rfl⟩
abbrev main_v526 : Ref sig .tc := ⟨.hbm, 975, rfl⟩
abbrev main_v527 : Ref sig .tc := ⟨.hbm, 976, rfl⟩
abbrev main_v528 : Ref sig .tc := ⟨.hbm, 977, rfl⟩
abbrev main_v529 : Ref sig .tc := ⟨.hbm, 978, rfl⟩
abbrev main_v530 : Ref sig .tc := ⟨.hbm, 979, rfl⟩
abbrev main_c_261 : Ref sig .tc := ⟨.hbm, 980, rfl⟩
abbrev main_v531 : Ref sig .tc := ⟨.hbm, 981, rfl⟩
abbrev main_c_262 : Ref sig .tc := ⟨.hbm, 982, rfl⟩
abbrev main_v532 : Ref sig .tc := ⟨.hbm, 983, rfl⟩
abbrev main_v533 : Ref sig .tc := ⟨.hbm, 984, rfl⟩
abbrev main_c_263 : Ref sig .tc := ⟨.hbm, 985, rfl⟩
abbrev main_v534 : Ref sig .tc := ⟨.hbm, 986, rfl⟩
abbrev main_c_264 : Ref sig .tc := ⟨.hbm, 987, rfl⟩
abbrev main_v535 : Ref sig .tc := ⟨.hbm, 988, rfl⟩
abbrev main_v536 : Ref sig .tc := ⟨.hbm, 989, rfl⟩
abbrev main_c_265 : Ref sig .tc := ⟨.hbm, 990, rfl⟩
abbrev main_v537 : Ref sig .tc := ⟨.hbm, 991, rfl⟩
abbrev main_c_266 : Ref sig .tc := ⟨.hbm, 992, rfl⟩
abbrev main_v538 : Ref sig .tc := ⟨.hbm, 993, rfl⟩
abbrev main_v539 : Ref sig .tc := ⟨.hbm, 994, rfl⟩
abbrev main_c_267 : Ref sig .tc := ⟨.hbm, 995, rfl⟩
abbrev main_c_268 : Ref sig .tc := ⟨.hbm, 996, rfl⟩
abbrev main_v540 : Ref sig .tc := ⟨.hbm, 997, rfl⟩
abbrev main_c_269 : Ref sig .tc := ⟨.hbm, 998, rfl⟩
abbrev main_c_270 : Ref sig .tc := ⟨.hbm, 999, rfl⟩
abbrev main_v541 : Ref sig .tc := ⟨.hbm, 1000, rfl⟩
abbrev main_c_271 : Ref sig .tc := ⟨.hbm, 1001, rfl⟩
abbrev main_v542 : Ref sig .tc := ⟨.hbm, 1002, rfl⟩
abbrev main_v543 : Ref sig .tc := ⟨.hbm, 1003, rfl⟩
abbrev main_v544 : Ref sig .tc := ⟨.hbm, 1004, rfl⟩
abbrev main_v545 : Ref sig .tc := ⟨.hbm, 1005, rfl⟩
abbrev main_v546 : Ref sig .tc := ⟨.hbm, 1006, rfl⟩
abbrev main_c_272 : Ref sig .tc := ⟨.hbm, 1007, rfl⟩
abbrev main_v547 : Ref sig .tc := ⟨.hbm, 1008, rfl⟩
abbrev main_c_273 : Ref sig .tc := ⟨.hbm, 1009, rfl⟩
abbrev main_call11_v0 : Ref sig .tc := ⟨.hbm, 1010, rfl⟩
abbrev main_call11_c : Ref sig .tc := ⟨.hbm, 1011, rfl⟩
abbrev main_call11_v1 : Ref sig .tc := ⟨.hbm, 1012, rfl⟩
abbrev main_call11_c_0 : Ref sig .tc := ⟨.hbm, 1013, rfl⟩
abbrev main_call11_v2 : Ref sig .tc := ⟨.hbm, 1014, rfl⟩
abbrev main_call11_v3 : Ref sig .tc := ⟨.hbm, 1015, rfl⟩
abbrev main_call11_c_1 : Ref sig .tc := ⟨.hbm, 1016, rfl⟩
abbrev main_call11_v4 : Ref sig .tc := ⟨.hbm, 1017, rfl⟩
abbrev main_call11_c_2 : Ref sig .tc := ⟨.hbm, 1018, rfl⟩
abbrev main_call11_v5 : Ref sig .tc := ⟨.hbm, 1019, rfl⟩
abbrev main_call11_c_3 : Ref sig .tc := ⟨.hbm, 1020, rfl⟩
abbrev main_call11_v6 : Ref sig .tc := ⟨.hbm, 1021, rfl⟩
abbrev main_call11_v7 : Ref sig .tc := ⟨.hbm, 1022, rfl⟩
abbrev main_call11_v8 : Ref sig .tc := ⟨.hbm, 1023, rfl⟩
abbrev main_call11_v9 : Ref sig .tc := ⟨.hbm, 1024, rfl⟩
abbrev main_v548 : Ref sig .tc := ⟨.hbm, 1025, rfl⟩
abbrev main_c_274 : Ref sig .tc := ⟨.hbm, 1026, rfl⟩
abbrev main_v549 : Ref sig .tc := ⟨.hbm, 1027, rfl⟩
abbrev main_v550 : Ref sig .tc := ⟨.hbm, 1028, rfl⟩
abbrev main_v551 : Ref sig .tc := ⟨.hbm, 1029, rfl⟩
abbrev main_v552 : Ref sig .tc := ⟨.hbm, 1030, rfl⟩
abbrev main_v553 : Ref sig .tc := ⟨.hbm, 1031, rfl⟩
abbrev main_v554 : Ref sig .tc := ⟨.hbm, 1032, rfl⟩
abbrev main_v555 : Ref sig .tc := ⟨.hbm, 1033, rfl⟩
abbrev main_v556 : Ref sig .tc := ⟨.hbm, 1034, rfl⟩
abbrev main_c_275 : Ref sig .tc := ⟨.hbm, 1035, rfl⟩
abbrev main_v557 : Ref sig .tc := ⟨.hbm, 1036, rfl⟩
abbrev main_c_276 : Ref sig .tc := ⟨.hbm, 1037, rfl⟩
abbrev main_v558 : Ref sig .tc := ⟨.hbm, 1038, rfl⟩
abbrev main_v559 : Ref sig .tc := ⟨.hbm, 1039, rfl⟩
abbrev main_c_277 : Ref sig .tc := ⟨.hbm, 1040, rfl⟩
abbrev main_v560 : Ref sig .tc := ⟨.hbm, 1041, rfl⟩
abbrev main_c_278 : Ref sig .tc := ⟨.hbm, 1042, rfl⟩
abbrev main_v561 : Ref sig .tc := ⟨.hbm, 1043, rfl⟩
abbrev main_v562 : Ref sig .tc := ⟨.hbm, 1044, rfl⟩
abbrev main_c_279 : Ref sig .tc := ⟨.hbm, 1045, rfl⟩
abbrev main_v563 : Ref sig .tc := ⟨.hbm, 1046, rfl⟩
abbrev main_c_280 : Ref sig .tc := ⟨.hbm, 1047, rfl⟩
abbrev main_v564 : Ref sig .tc := ⟨.hbm, 1048, rfl⟩
abbrev main_v565 : Ref sig .tc := ⟨.hbm, 1049, rfl⟩
abbrev main_c_281 : Ref sig .tc := ⟨.hbm, 1050, rfl⟩
abbrev main_c_282 : Ref sig .tc := ⟨.hbm, 1051, rfl⟩
abbrev main_v566 : Ref sig .tc := ⟨.hbm, 1052, rfl⟩
abbrev main_c_283 : Ref sig .tc := ⟨.hbm, 1053, rfl⟩
abbrev main_c_284 : Ref sig .tc := ⟨.hbm, 1054, rfl⟩
abbrev main_v567 : Ref sig .tc := ⟨.hbm, 1055, rfl⟩
abbrev main_c_285 : Ref sig .tc := ⟨.hbm, 1056, rfl⟩
abbrev main_v568 : Ref sig .tc := ⟨.hbm, 1057, rfl⟩
abbrev main_v569 : Ref sig .tc := ⟨.hbm, 1058, rfl⟩
abbrev main_v570 : Ref sig .tc := ⟨.hbm, 1059, rfl⟩
abbrev main_v571 : Ref sig .tc := ⟨.hbm, 1060, rfl⟩
abbrev main_v572 : Ref sig .tc := ⟨.hbm, 1061, rfl⟩
abbrev main_c_286 : Ref sig .tc := ⟨.hbm, 1062, rfl⟩
abbrev main_v573 : Ref sig .tc := ⟨.hbm, 1063, rfl⟩
abbrev main_c_287 : Ref sig .tc := ⟨.hbm, 1064, rfl⟩
abbrev main_call12_v0 : Ref sig .tc := ⟨.hbm, 1065, rfl⟩
abbrev main_call12_c : Ref sig .tc := ⟨.hbm, 1066, rfl⟩
abbrev main_call12_v1 : Ref sig .tc := ⟨.hbm, 1067, rfl⟩
abbrev main_call12_c_0 : Ref sig .tc := ⟨.hbm, 1068, rfl⟩
abbrev main_call12_v2 : Ref sig .tc := ⟨.hbm, 1069, rfl⟩
abbrev main_call12_v3 : Ref sig .tc := ⟨.hbm, 1070, rfl⟩
abbrev main_call12_c_1 : Ref sig .tc := ⟨.hbm, 1071, rfl⟩
abbrev main_call12_v4 : Ref sig .tc := ⟨.hbm, 1072, rfl⟩
abbrev main_call12_c_2 : Ref sig .tc := ⟨.hbm, 1073, rfl⟩
abbrev main_call12_v5 : Ref sig .tc := ⟨.hbm, 1074, rfl⟩
abbrev main_call12_c_3 : Ref sig .tc := ⟨.hbm, 1075, rfl⟩
abbrev main_call12_v6 : Ref sig .tc := ⟨.hbm, 1076, rfl⟩
abbrev main_call12_v7 : Ref sig .tc := ⟨.hbm, 1077, rfl⟩
abbrev main_call12_v8 : Ref sig .tc := ⟨.hbm, 1078, rfl⟩
abbrev main_call12_v9 : Ref sig .tc := ⟨.hbm, 1079, rfl⟩
abbrev main_v574 : Ref sig .tc := ⟨.hbm, 1080, rfl⟩
abbrev main_c_288 : Ref sig .tc := ⟨.hbm, 1081, rfl⟩
abbrev main_v575 : Ref sig .tc := ⟨.hbm, 1082, rfl⟩
abbrev main_v576 : Ref sig .tc := ⟨.hbm, 1083, rfl⟩
abbrev main_v577 : Ref sig .tc := ⟨.hbm, 1084, rfl⟩
abbrev main_v578 : Ref sig .tc := ⟨.hbm, 1085, rfl⟩
abbrev main_v579 : Ref sig .tc := ⟨.hbm, 1086, rfl⟩
abbrev main_v580 : Ref sig .tc := ⟨.hbm, 1087, rfl⟩
abbrev main_v581 : Ref sig .tc := ⟨.hbm, 1088, rfl⟩
abbrev main_v582 : Ref sig .tc := ⟨.hbm, 1089, rfl⟩
abbrev main_c_289 : Ref sig .tc := ⟨.hbm, 1090, rfl⟩
abbrev main_v583 : Ref sig .tc := ⟨.hbm, 1091, rfl⟩
abbrev main_c_290 : Ref sig .tc := ⟨.hbm, 1092, rfl⟩
abbrev main_v584 : Ref sig .tc := ⟨.hbm, 1093, rfl⟩
abbrev main_v585 : Ref sig .tc := ⟨.hbm, 1094, rfl⟩
abbrev main_c_291 : Ref sig .tc := ⟨.hbm, 1095, rfl⟩
abbrev main_v586 : Ref sig .tc := ⟨.hbm, 1096, rfl⟩
abbrev main_c_292 : Ref sig .tc := ⟨.hbm, 1097, rfl⟩
abbrev main_v587 : Ref sig .tc := ⟨.hbm, 1098, rfl⟩
abbrev main_v588 : Ref sig .tc := ⟨.hbm, 1099, rfl⟩
abbrev main_c_293 : Ref sig .tc := ⟨.hbm, 1100, rfl⟩
abbrev main_v589 : Ref sig .tc := ⟨.hbm, 1101, rfl⟩
abbrev main_c_294 : Ref sig .tc := ⟨.hbm, 1102, rfl⟩
abbrev main_v590 : Ref sig .tc := ⟨.hbm, 1103, rfl⟩
abbrev main_v591 : Ref sig .tc := ⟨.hbm, 1104, rfl⟩
abbrev main_c_295 : Ref sig .tc := ⟨.hbm, 1105, rfl⟩
abbrev main_c_296 : Ref sig .tc := ⟨.hbm, 1106, rfl⟩
abbrev main_v592 : Ref sig .tc := ⟨.hbm, 1107, rfl⟩
abbrev main_c_297 : Ref sig .tc := ⟨.hbm, 1108, rfl⟩
abbrev main_c_298 : Ref sig .tc := ⟨.hbm, 1109, rfl⟩
abbrev main_v593 : Ref sig .tc := ⟨.hbm, 1110, rfl⟩
abbrev main_c_299 : Ref sig .tc := ⟨.hbm, 1111, rfl⟩
abbrev main_v594 : Ref sig .tc := ⟨.hbm, 1112, rfl⟩
abbrev main_v595 : Ref sig .tc := ⟨.hbm, 1113, rfl⟩
abbrev main_v596 : Ref sig .tc := ⟨.hbm, 1114, rfl⟩
abbrev main_v597 : Ref sig .tc := ⟨.hbm, 1115, rfl⟩
abbrev main_c_300 : Ref sig .tc := ⟨.hbm, 1116, rfl⟩
abbrev main_v598 : Ref sig .tc := ⟨.hbm, 1117, rfl⟩
abbrev main_c_301 : Ref sig .tc := ⟨.hbm, 1118, rfl⟩
abbrev main_v599 : Ref sig .tc := ⟨.hbm, 1119, rfl⟩
abbrev main_v600 : Ref sig .tc := ⟨.hbm, 1120, rfl⟩
abbrev main_v601 : Ref sig .tc := ⟨.hbm, 1121, rfl⟩
abbrev main_v602 : Ref sig .tc := ⟨.hbm, 1122, rfl⟩
abbrev main_v603 : Ref sig .tc := ⟨.hbm, 1123, rfl⟩
abbrev main_v604 : Ref sig .tc := ⟨.hbm, 1124, rfl⟩
abbrev main_v605 : Ref sig .tc := ⟨.hbm, 1125, rfl⟩
abbrev main_c_302 : Ref sig .tc := ⟨.hbm, 1126, rfl⟩
abbrev main_v606 : Ref sig .tc := ⟨.hbm, 1127, rfl⟩
abbrev main_c_303 : Ref sig .tc := ⟨.hbm, 1128, rfl⟩
abbrev main_v607 : Ref sig .tc := ⟨.hbm, 1129, rfl⟩
abbrev main_v608 : Ref sig .tc := ⟨.hbm, 1130, rfl⟩
abbrev main_c_304 : Ref sig .tc := ⟨.hbm, 1131, rfl⟩
abbrev main_v609 : Ref sig .tc := ⟨.hbm, 1132, rfl⟩
abbrev main_c_305 : Ref sig .tc := ⟨.hbm, 1133, rfl⟩
abbrev main_v610 : Ref sig .tc := ⟨.hbm, 1134, rfl⟩
abbrev main_v611 : Ref sig .tc := ⟨.hbm, 1135, rfl⟩
abbrev main_c_306 : Ref sig .tc := ⟨.hbm, 1136, rfl⟩
abbrev main_v612 : Ref sig .tc := ⟨.hbm, 1137, rfl⟩
abbrev main_c_307 : Ref sig .tc := ⟨.hbm, 1138, rfl⟩
abbrev main_v613 : Ref sig .tc := ⟨.hbm, 1139, rfl⟩
abbrev main_v614 : Ref sig .tc := ⟨.hbm, 1140, rfl⟩
abbrev main_c_308 : Ref sig .tc := ⟨.hbm, 1141, rfl⟩
abbrev main_c_309 : Ref sig .tc := ⟨.hbm, 1142, rfl⟩
abbrev main_v615 : Ref sig .tc := ⟨.hbm, 1143, rfl⟩
abbrev main_c_310 : Ref sig .tc := ⟨.hbm, 1144, rfl⟩
abbrev main_c_311 : Ref sig .tc := ⟨.hbm, 1145, rfl⟩
abbrev main_v616 : Ref sig .tc := ⟨.hbm, 1146, rfl⟩
abbrev main_c_312 : Ref sig .tc := ⟨.hbm, 1147, rfl⟩
abbrev main_v617 : Ref sig .tc := ⟨.hbm, 1148, rfl⟩
abbrev main_v618 : Ref sig .tc := ⟨.hbm, 1149, rfl⟩
abbrev main_v619 : Ref sig .tc := ⟨.hbm, 1150, rfl⟩
abbrev main_v620 : Ref sig .tc := ⟨.hbm, 1151, rfl⟩
abbrev main_v621 : Ref sig .tc := ⟨.hbm, 1152, rfl⟩
abbrev main_v622 : Ref sig .tc := ⟨.hbm, 1153, rfl⟩
abbrev main_v623 : Ref sig .tc := ⟨.hbm, 1154, rfl⟩
abbrev main_v624 : Ref sig .tc := ⟨.hbm, 1155, rfl⟩
abbrev main_v625 : Ref sig .tc := ⟨.hbm, 1156, rfl⟩
abbrev main_v626 : Ref sig .tc := ⟨.hbm, 1157, rfl⟩
abbrev main_v627 : Ref sig .tc := ⟨.hbm, 1158, rfl⟩
abbrev main_v628 : Ref sig .tc := ⟨.hbm, 1159, rfl⟩
abbrev main_v629 : Ref sig .tc := ⟨.hbm, 1160, rfl⟩
abbrev main_v630 : Ref sig .tc := ⟨.hbm, 1161, rfl⟩
abbrev main_cst_313 : Ref sig .tc := ⟨.hbm, 1162, rfl⟩
abbrev main_v631 : Ref sig .tc := ⟨.hbm, 1163, rfl⟩
abbrev main_v632 : Ref sig .tc := ⟨.hbm, 1164, rfl⟩
abbrev main_v633 : Ref sig .tc := ⟨.hbm, 1165, rfl⟩
abbrev main_v634 : Ref sig .tc := ⟨.hbm, 1166, rfl⟩
abbrev main_v635 : Ref sig .tc := ⟨.hbm, 1167, rfl⟩
abbrev main_v636 : Ref sig .tc := ⟨.hbm, 1168, rfl⟩
abbrev main_cst_314 : Ref sig .tc := ⟨.hbm, 1169, rfl⟩
abbrev main_v637 : Ref sig .tc := ⟨.hbm, 1170, rfl⟩
abbrev main_v638 : Ref sig .tc := ⟨.hbm, 1171, rfl⟩
abbrev main_v639 : Ref sig .tc := ⟨.hbm, 1172, rfl⟩
abbrev main_v640 : Ref sig .tc := ⟨.hbm, 1173, rfl⟩
abbrev main_v641 : Ref sig .tc := ⟨.hbm, 1174, rfl⟩
abbrev main_v642 : Ref sig .tc := ⟨.hbm, 1175, rfl⟩
abbrev main_v643 : Ref sig .tc := ⟨.hbm, 1176, rfl⟩
abbrev main_v644 : Ref sig .tc := ⟨.hbm, 1177, rfl⟩
abbrev main_v645 : Ref sig .tc := ⟨.hbm, 1178, rfl⟩
abbrev main_v646 : Ref sig .tc := ⟨.hbm, 1179, rfl⟩
abbrev main_cst_315 : Ref sig .tc := ⟨.hbm, 1180, rfl⟩
abbrev main_v647 : Ref sig .tc := ⟨.hbm, 1181, rfl⟩
abbrev main_v648 : Ref sig .tc := ⟨.hbm, 1182, rfl⟩
abbrev main_v649 : Ref sig .tc := ⟨.hbm, 1183, rfl⟩
abbrev main_v650 : Ref sig .tc := ⟨.hbm, 1184, rfl⟩
abbrev main_v651 : Ref sig .tc := ⟨.hbm, 1185, rfl⟩
abbrev main_v652 : Ref sig .tc := ⟨.hbm, 1186, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  slices_S16384x4_S1x4_0_0 : S16384x4.Slices ![0, 0] S1x4
  shapeCasts_S1x4_S4 : S1x4.ShapeCasts S4
  bcast_S_S4 : S_.BroadcastsInDim S4 (![] : Fin 0 → Fin S4.rank)
  bcast_S_S1 : S_.BroadcastsInDim S1 (![] : Fin 0 → Fin S1.rank)
  slices_S4_S1_0 : S4.Slices ![0] S1
  shapeCasts_S1_S_ : S1.ShapeCasts S_
  slices_S4_S1_1 : S4.Slices ![1] S1
  slices_S4_S1_2 : S4.Slices ![2] S1
  sliceFits_S10x10x10x4_S1x1x1x1 : S10x10x10x4.Slices (fun _ => 0) S1x1x1x1
  h_S_ : 0 < S_.numel
  shapeCasts_S1x1x1x1_S_ : S1x1x1x1.ShapeCasts S_
  slices_S4_S1_3 : S4.Slices ![3] S1
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  dot_S16384x4_S4x2048_S16384x2048_1_0_0_1_n_n_wf : DotDims.WF S16384x4 S4x2048 S16384x2048 [1] [0] [0] [1] [] []
  dot_S16384x2048_S2048x4096_S16384x4096_1_0_0_1_n_n_wf : DotDims.WF S16384x2048 S2048x4096 S16384x4096 [1] [0] [0] [1] [] []
  scatter_S4_S1_S__n_0_0_0_wf : ScatterDims.WF S4 S1 S_ [] [0] [0] 0
  dot_S16384x4096_S4096x2048_S16384x2048_1_0_0_1_n_n_wf : DotDims.WF S16384x4096 S4096x2048 S16384x2048 [1] [0] [0] [1] [] []
  dot_S16384x2048_S2048x1024_S16384x1024_1_0_0_1_n_n_wf : DotDims.WF S16384x2048 S2048x1024 S16384x1024 [1] [0] [0] [1] [] []
  dot_S16384x1024_S1024x1_S16384x1_1_0_0_1_n_n_wf : DotDims.WF S16384x1024 S1024x1 S16384x1 [1] [0] [0] [1] [] []
  dot_S16384x2048_S2048x1_S16384x1_1_0_0_1_n_n_wf : DotDims.WF S16384x2048 S2048x1 S16384x1 [1] [0] [0] [1] [] []

variable [Facts₀]

def dot_S16384x4_S4x2048_S16384x2048_1_0_0_1_n_n : DotDims S16384x4 S4x2048 S16384x2048 where
  lhsContracting := [1]
  rhsContracting := [0]
  lhsNonContracting := [0]
  rhsNonContracting := [1]
  lhsBatch := []
  rhsBatch := []
  wf := dot_S16384x4_S4x2048_S16384x2048_1_0_0_1_n_n_wf
def dot_S16384x2048_S2048x4096_S16384x4096_1_0_0_1_n_n : DotDims S16384x2048 S2048x4096 S16384x4096 where
  lhsContracting := [1]
  rhsContracting := [0]
  lhsNonContracting := [0]
  rhsNonContracting := [1]
  lhsBatch := []
  rhsBatch := []
  wf := dot_S16384x2048_S2048x4096_S16384x4096_1_0_0_1_n_n_wf
def scatter_S4_S1_S__n_0_0_0 : ScatterDims S4 S1 S_ where
  updateWindowDims := []
  insertedWindowDims := [0]
  scatterDimsToOperandDims := [0]
  indexVectorDim := 0
  wf := scatter_S4_S1_S__n_0_0_0_wf
def dot_S16384x4096_S4096x2048_S16384x2048_1_0_0_1_n_n : DotDims S16384x4096 S4096x2048 S16384x2048 where
  lhsContracting := [1]
  rhsContracting := [0]
  lhsNonContracting := [0]
  rhsNonContracting := [1]
  lhsBatch := []
  rhsBatch := []
  wf := dot_S16384x4096_S4096x2048_S16384x2048_1_0_0_1_n_n_wf
def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf
def dot_S16384x1024_S1024x1_S16384x1_1_0_0_1_n_n : DotDims S16384x1024 S1024x1 S16384x1 where
  lhsContracting := [1]
  rhsContracting := [0]
  lhsNonContracting := [0]
  rhsNonContracting := [1]
  lhsBatch := []
  rhsBatch := []
  wf := dot_S16384x1024_S1024x1_S16384x1_1_0_0_1_n_n_wf
def dot_S16384x2048_S2048x1_S16384x1_1_0_0_1_n_n : DotDims S16384x2048 S2048x1 S16384x1 where
  lhsContracting := [1]
  rhsContracting := [0]
  lhsNonContracting := [0]
  rhsNonContracting := [1]
  lhsBatch := []
  rhsBatch := []
  wf := dot_S16384x2048_S2048x1_S16384x1_1_0_0_1_n_n_wf

class Facts : Prop extends Facts₀ where

variable [Facts]
-- ==== Proof.Ideal.FieldRegion.lean ====
import proofs.«143799_j35253091566215_1_alg».proof.Proof.Gen.KernelIdeal.Launch
import proofs.«143799_j35253091566215_1_alg».proof.Proof.Gen.KernelIdeal.Skeleton
import proofs.«143799_j35253091566215_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Field

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0 : Rect S1024x4 := Rect.unit (s := S1024x4) ![0, 0] S1024x4.size inb_S1024x4_S1024x4_0_0
abbrev r1 : Rect S4x2048 := Rect.unit (s := S4x2048) ![0, 0] S4x2048.size inb_S4x2048_S4x2048_0_0
abbrev r2 : Rect S2048 := Rect.unit (s := S2048) ![0] S2048.size inb_S2048_S2048_0
abbrev r3 : Rect S2048x1024 := Rect.unit (s := S2048x1024) ![0, 0] S2048x1024.size inb_S2048x1024_S2048x1024_0_0
abbrev r4 : Rect S1024 := Rect.unit (s := S1024) ![0] S1024.size inb_S1024_S1024_0
abbrev r5 : Rect S1024x1024 := Rect.unit (s := S1024x1024) ![0, 0] S1024x1024.size inb_S1024x1024_S1024x1024_0_0

def out (x0 : Vec F S1024x4 .bf16) (x1 : Vec F S4x2048 .bf16) (x2 : Vec F S2048 .f32) (x3 : Vec F S2048x1024 .bf16) (x4 : Vec F S1024 .f32) : Vec F S1024x1024 .f32 :=
  View.canon [⟨r5, k0_pay1 (View.ld x0 r0) (View.ld x1 r1) (View.ld x2 r2) (View.ld x3 r3) (View.ld x4 r4)⟩]

theorem cover (p0 : Vec F S1024x1024 .f32) (y : S1024x1024.Idx) :
    ∃ pc ∈ ([⟨r5, p0⟩] : List (View.Piece (Elt F) S1024x1024 .f32)), y ∈ pc.1.set :=
  View.cover_of_tiled [⟨r5, p0⟩] S1024x1024.size (by rfl) y

set_option maxHeartbeats 1000000 in
theorem sound_kernel (c : Dev nD) (E : Set ℕ) (i : grid0.Coords) (arg2 : Memref sig .tc .vmem S1024x4 .bf16) (harg2 : arg2.IsWhole) (arg3 : Memref sig .tc .vmem S4x2048 .bf16) (harg3 : arg3.IsWhole) (arg4 : Memref sig .tc .vmem S2048 .f32) (harg4 : arg4.IsWhole) (arg5 : Memref sig .tc .vmem S2048x1024 .bf16) (harg5 : arg5.IsWhole) (arg6 : Memref sig .tc .vmem S1024 .f32) (harg6 : arg6.IsWhole) (arg7 : Memref sig .tc .vmem S1024x1024 .f32) (harg7 : arg7.IsWhole)
    (x0 : Vec F S1024x4 .bf16) (x1 : Vec F S4x2048 .bf16) (x2 : Vec F S2048 .f32) (x3 : Vec F S2048x1024 .bf16) (x4 : Vec F S1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (out x0 x1 x2 x3 x4)) -∗ K ⟨⟩))
      ⊢ wp frame (wpE (defs₀ (F := F)) Variants.none c none) E (cc0__field_kernel i arg2 harg2 arg3 harg3 arg4 harg4 arg5 harg5 arg6 harg6 arg7 harg7) K := by
  simp only [cc0__field_kernel_eq_skeleton]; unfold cc0__field_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out (iblk V c 0 t) (iblk V c 1 t) (iblk V c 2 t) (iblk V c 3 t) (iblk V c 4 t)
  Φ _ := Pipeline.ΦA spec0 c
  q _ := fullShare
  owed _ := 0

theorem A_eq (c : Dev nD) (w : Fin cfg0.W) : (dat V c).A w = V c (Pipeline.arrRef spec0 w) := by
  dsimp only [dat]

theorem after_out (c : Dev nD) (t : Fin cfg0.N) :
    (dat V c).after 5 t = out (iblk V c 0 t) (iblk V c 1 t) (iblk V c 2 t) (iblk V c 3 t) (iblk V c 4 t) := by dsimp only [dat]

theorem before_in (c : Dev nD) (w : Fin cfg0.W) (hw : w ≠ 5) (t : Fin cfg0.N) (d) : (dat V c).before w t d = (dat V c).after w t := by
  fin_cases w <;> first | exact absurd rfl hw | exact
    ((dat V c).before_in_eq_fetched _ rfl (fun _ => rfl) (fun _ _ _ => rfl) (fun _ => rfl) t d).trans rfl

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in V c 0 (by decide), before_in V c 1 (by decide), before_in V c 2 (by decide), before_in V c 3 (by decide), before_in V c 4 (by decide)]
  rw [show (dat V c).owesAt () t.succ = (dat V c).owesAt () t.castSucc from rfl]
  dsimp only [dat]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  iframe
  isplitl [H5]; · iexists _; iexact H5
  iintro H; iexact H

theorem body_obligation (c : Dev nD) : BodyObligation (dat (F := F) V c) (defs₀ (F := F)) Variants.none () Set.univ := fun t => by
  rw [bigSep_W0, bigSep_W0]
  exact sound_body V c t

end Cert.KernelIdeal.Field
-- ==== Proof.Ideal.WilsonRegion.lean ====
import proofs.«143799_j35253091566215_1_alg».proof.Proof.Gen.KernelIdeal.Launch
import proofs.«143799_j35253091566215_1_alg».proof.Proof.Gen.KernelIdeal.Skeleton
import proofs.«143799_j35253091566215_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Wilson

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r0 : Rect S512x4096 := Rect.unit (s := S512x4096) ![0, 0] S512x4096.size inb_S512x4096_S512x4096_0_0
abbrev r1 : Rect S4096x2048 := Rect.unit (s := S4096x2048) ![0, 0] S4096x2048.size inb_S4096x2048_S4096x2048_0_0
abbrev r2 : Rect S2048 := Rect.unit (s := S2048) ![0] S2048.size inb_S2048_S2048_0
abbrev r3 : Rect S2048x1024 := Rect.unit (s := S2048x1024) ![0, 0] S2048x1024.size inb_S2048x1024_S2048x1024_0_0
abbrev r4 : Rect S1024 := Rect.unit (s := S1024) ![0] S1024.size inb_S1024_S1024_0
abbrev r5 : Rect S1024x1 := Rect.unit (s := S1024x1) ![0, 0] S1024x1.size inb_S1024x1_S1024x1_0_0
abbrev r6 : Rect S1 := Rect.unit (s := S1) ![0] S1.size inb_S1_S1_0
abbrev r7 : Rect S512x1 := Rect.unit (s := S512x1) ![0, 0] S512x1.size inb_S512x1_S512x1_0_0

def out (x0 : Vec F S512x4096 .bf16) (x1 : Vec F S4096x2048 .bf16) (x2 : Vec F S2048 .f32) (x3 : Vec F S2048x1024 .bf16) (x4 : Vec F S1024 .f32) (x5 : Vec F S1024x1 .bf16) (x6 : Vec F S1 .f32) : Vec F S512x1 .f32 :=
  View.canon [⟨r7, k1_pay1 (View.ld x0 r0) (View.ld x1 r1) (View.ld x2 r2) (View.ld x3 r3) (View.ld x4 r4) (View.ld x5 r5) (View.ld x6 r6)⟩]

theorem cover (p0 : Vec F S512x1 .f32) (y : S512x1.Idx) :
    ∃ pc ∈ ([⟨r7, p0⟩] : List (View.Piece (Elt F) S512x1 .f32)), y ∈ pc.1.set :=
  View.cover_of_tiled [⟨r7, p0⟩] S512x1.size (by rfl) y

set_option maxHeartbeats 1000000 in
theorem sound_kernel (c : Dev nD) (E : Set ℕ) (i : grid1.Coords) (arg1 : Memref sig .tc .vmem S512x4096 .bf16) (harg1 : arg1.IsWhole) (arg2 : Memref sig .tc .vmem S4096x2048 .bf16) (harg2 : arg2.IsWhole) (arg3 : Memref sig .tc .vmem S2048 .f32) (harg3 : arg3.IsWhole) (arg4 : Memref sig .tc .vmem S2048x1024 .bf16) (harg4 : arg4.IsWhole) (arg5 : Memref sig .tc .vmem S1024 .f32) (harg5 : arg5.IsWhole) (arg6 : Memref sig .tc .vmem S1024x1 .bf16) (harg6 : arg6.IsWhole) (arg7 : Memref sig .tc .vmem S1 .f32) (harg7 : arg7.IsWhole) (arg8 : Memref sig .tc .vmem S512x1 .f32) (harg8 : arg8.IsWhole)
    (x0 : Vec F S512x4096 .bf16) (x1 : Vec F S4096x2048 .bf16) (x2 : Vec F S2048 .f32) (x3 : Vec F S2048x1024 .bf16) (x4 : Vec F S1024 .f32) (x5 : Vec F S1024x1 .bf16) (x6 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out x0 x1 x2 x3 x4 x5 x6)) -∗ K ⟨⟩))
      ⊢ wp frame (wpE (defs₀ (F := F)) Variants.none c none) E (cc1__wilson_kernel i arg1 harg1 arg2 harg2 arg3 harg3 arg4 harg4 arg5 harg5 arg6 harg6 arg7 harg7 arg8 harg8) K := by
  simp only [cc1__wilson_kernel_eq_skeleton]; unfold cc1__wilson_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover _)

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => out (iblk V c 0 t) (iblk V c 1 t) (iblk V c 2 t) (iblk V c 3 t) (iblk V c 4 t) (iblk V c 5 t) (iblk V c 6 t)
  Φ _ := Pipeline.ΦA spec1 c
  q _ := fullShare
  owed _ := 0

theorem A_eq (c : Dev nD) (w : Fin cfg1.W) : (dat V c).A w = V c (Pipeline.arrRef spec1 w) := by
  dsimp only [dat]

theorem after_out (c : Dev nD) (t : Fin cfg1.N) : (dat V c).after 7 t = out (iblk V c 0 t) (iblk V c 1 t) (iblk V c 2 t) (iblk V c 3 t) (iblk V c 4 t) (iblk V c 5 t) (iblk V c 6 t) := by dsimp only [dat]

theorem before_in (c : Dev nD) (w : Fin cfg1.W) (hw : w ≠ 7) (t : Fin cfg1.N) (d) : (dat V c).before w t d = (dat V c).after w t := by
  fin_cases w <;> first | exact absurd rfl hw | exact
    ((dat V c).before_in_eq_fetched _ rfl (fun _ => rfl) (fun _ _ _ => rfl) (fun _ => rfl) t d).trans rfl

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_in V c 0 (by decide), before_in V c 1 (by decide), before_in V c 2 (by decide), before_in V c 3 (by decide), before_in V c 4 (by decide), before_in V c 5 (by decide), before_in V c 6 (by decide)]
  rw [show (dat V c).owesAt () t.succ = (dat V c).owesAt () t.castSucc from rfl]
  dsimp only [dat]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk V c 0 t) (iblk V c 1 t) (iblk V c 2 t) (iblk V c 3 t) (iblk V c 4 t) (iblk V c 5 t) (iblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dat (F := F) V c) (defs₀ (F := F)) Variants.none () Set.univ := fun t => by
  rw [bigSep_W1, bigSep_W1]
  exact sound_body V c t

end Cert.KernelIdeal.Wilson

end
-- ==== Proof.Ideal.TopologyRegion.lean ====
import proofs.«143799_j35253091566215_1_alg».proof.Proof.Gen.KernelIdeal.Launch
import proofs.«143799_j35253091566215_1_alg».proof.Proof.Gen.KernelIdeal.Skeleton
import proofs.«143799_j35253091566215_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Topology

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rIn0 : Rect S512x4096 := Rect.unit (s := S512x4096) ![0, 0] S512x4096.size inb_S512x4096_S512x4096_0_0
abbrev rIn1 : Rect S4096x2048 := Rect.unit (s := S4096x2048) ![0, 0] S4096x2048.size inb_S4096x2048_S4096x2048_0_0
abbrev rIn2 : Rect S2048 := Rect.unit (s := S2048) ![0] S2048.size inb_S2048_S2048_0
abbrev rIn3 : Rect S2048x1 := Rect.unit (s := S2048x1) ![0, 0] S2048x1.size inb_S2048x1_S2048x1_0_0
abbrev rIn4 : Rect S1 := Rect.unit (s := S1) ![0] S1.size inb_S1_S1_0
abbrev rOut : Rect S512x1 := Rect.unit (s := S512x1) ![0, 0] S512x1.size inb_S512x1_S512x1_0_0

def out (x0 : Vec F S512x4096 .bf16) (x1 : Vec F S4096x2048 .bf16) (x2 : Vec F S2048 .f32) (x3 : Vec F S2048x1 .bf16)
    (x4 : Vec F S1 .f32) : Vec F S512x1 .f32 :=
  View.canon [⟨rOut, k2_pay1 (View.ld x0 rIn0) (View.ld x1 rIn1) (View.ld x2 rIn2) (View.ld x3 rIn3) (View.ld x4 rIn4)⟩]

theorem cover (p0 : Vec F S512x1 .f32) (y : S512x1.Idx) :
    ∃ pc ∈ ([⟨rOut, p0⟩] : List (View.Piece (Elt F) S512x1 .f32)), y ∈ pc.1.set :=
  View.cover_of_tiled [⟨rOut, p0⟩] S512x1.size (by rfl) y

set_option maxHeartbeats 1000000 in
theorem sound_kernel (c : Dev nD) (E : Set ℕ) (i : grid2.Coords)
    (arg1 : Memref sig .tc .vmem S512x4096 .bf16) (harg1 : arg1.IsWhole) (arg2 : Memref sig .tc .vmem S4096x2048 .bf16) (harg2 : arg2.IsWhole)
    (arg3 : Memref sig .tc .vmem S2048 .f32) (harg3 : arg3.IsWhole) (arg4 : Memref sig .tc .vmem S2048x1 .bf16) (harg4 : arg4.IsWhole)
    (arg5 : Memref sig .tc .vmem S1 .f32) (harg5 : arg5.IsWhole) (arg6 : Memref sig .tc .vmem S512x1 .f32) (harg6 : arg6.IsWhole)
    (x0 : Vec F S512x4096 .bf16) (x1 : Vec F S4096x2048 .bf16) (x2 : Vec F S2048 .f32) (x3 : Vec F S2048x1 .bf16) (x4 : Vec F S1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out x0 x1 x2 x3 x4)) -∗ K ⟨⟩))
      ⊢ wp frame (wpE (defs₀ (F := F)) Variants.none c none) E (cc2__topology_kernel i arg1 harg1 arg2 harg2 arg3 harg3 arg4 harg4 arg5 harg5 arg6 harg6) K := by
  simp only [cc2__topology_kernel_eq_skeleton]; unfold cc2__topology_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out (iblk V c 0 t) (iblk V c 1 t) (iblk V c 2 t) (iblk V c 3 t) (iblk V c 4 t)
  Φ _ := Pipeline.ΦA spec2 c
  q _ := fullShare
  owed _ := 0

theorem A_eq (c : Dev nD) (w : Fin cfg2.W) : (dat V c).A w = V c (Pipeline.arrRef spec2 w) := by
  dsimp only [dat]

theorem after_out (c : Dev nD) (t : Fin cfg2.N) :
    (dat V c).after 5 t = out (iblk V c 0 t) (iblk V c 1 t) (iblk V c 2 t) (iblk V c 3 t) (iblk V c 4 t) := by dsimp only [dat]

theorem before_in (c : Dev nD) (w : Fin cfg2.W) (hw : w ≠ 5) (t : Fin cfg2.N) (d) : (dat V c).before w t d = (dat V c).after w t := by
  fin_cases w <;> first | exact absurd rfl hw | exact
    ((dat V c).before_in_eq_fetched _ rfl (fun _ => rfl) (fun _ _ _ => rfl) (fun _ => rfl) t d).trans rfl

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t))

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_in V c 0 (by decide), before_in V c 1 (by decide), before_in V c 2 (by decide), before_in V c 3 (by decide), before_in V c 4 (by decide)]
  rw [show (dat V c).owesAt () t.succ = (dat V c).owesAt () t.castSucc from rfl]
  dsimp only [dat]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dat (F := F) V c) (defs₀ (F := F)) Variants.none () Set.univ := fun t => by
  rw [bigSep_W2, bigSep_W2]
  exact sound_body V c t

end Cert.KernelIdeal.Topology

end
-- ==== Proof.Ideal.Fold.lean ====
import proofs.«143799_j35253091566215_1_alg».proof.Proof.Ideal.FieldRegion
import proofs.«143799_j35253091566215_1_alg».proof.Proof.Ideal.WilsonRegion
import proofs.«143799_j35253091566215_1_alg».proof.Proof.Ideal.TopologyRegion
import Idealize.ShloMosaic.Lib.Pipeline.FrameSuffix

noncomputable section

namespace Cert.KernelIdeal.Run

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]

variable (m : (ℓ : Loc nD τ sig) → Buf (Elt F) ℓ) (ρ : Dev nD → PrngReg)

-- Core `c`'s buffers at launch; `W(k+1)` is `Wk` after the next host stretch or region of @main.
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
abbrev W6 : Dev nD → Valuation τ sig (Elt F) := fun c => StableHlo.after hostOps0_5 (W5 m ρ c)
abbrev W7 : Dev nD → Valuation τ sig (Elt F) := fun c => StableHlo.after hostOps0_6 (W6 m ρ c)
abbrev W8 : Dev nD → Valuation τ sig (Elt F) := fun c => StableHlo.after hostOps0_7 (W7 m ρ c)
abbrev W9 : Dev nD → Valuation τ sig (Elt F) := fun c => StableHlo.after hostOps0_8 (W8 m ρ c)
abbrev W10 : Dev nD → Valuation τ sig (Elt F) := fun c => StableHlo.after hostOps0_9 (W9 m ρ c)
abbrev W11 : Dev nD → Valuation τ sig (Elt F) := fun c => StableHlo.after hostOps0_10 (W10 m ρ c)
abbrev W12 : Dev nD → Valuation τ sig (Elt F) := fun c => StableHlo.after hostOps0_11 (W11 m ρ c)
abbrev W13 : Dev nD → Valuation τ sig (Elt F) := fun c => StableHlo.after hostOps0_12 (W12 m ρ c)
abbrev W14 : Dev nD → Valuation τ sig (Elt F) := fun c => StableHlo.after hostOps0_13 (W13 m ρ c)
abbrev W15 : Dev nD → Valuation τ sig (Elt F) := fun c => StableHlo.after hostOps0_14 (W14 m ρ c)
abbrev W16 : Dev nD → Valuation τ sig (Elt F) := fun c => StableHlo.after hostOps0_15 (W15 m ρ c)
abbrev W17 : Dev nD → Valuation τ sig (Elt F) := fun c => StableHlo.after hostOps0_16 (W16 m ρ c)
abbrev W18 : Dev nD → Valuation τ sig (Elt F) := fun c => StableHlo.after hostOps0_17 (W17 m ρ c)
abbrev W19 : Dev nD → Valuation τ sig (Elt F) := fun c => StableHlo.after hostOps0_18 (W18 m ρ c)
abbrev W20 : Dev nD → Valuation τ sig (Elt F) := fun c => StableHlo.after hostOps0_19 (W19 m ρ c)
abbrev W21 : Dev nD → Valuation τ sig (Elt F) := fun c => StableHlo.after hostOps0_20 (W20 m ρ c)
abbrev W22 : Dev nD → Valuation τ sig (Elt F) := fun c => StableHlo.after hostOps0_21 (W21 m ρ c)
abbrev W23 : Dev nD → Valuation τ sig (Elt F) := fun c => StableHlo.after hostOps0_22 (W22 m ρ c)
abbrev W24 : Dev nD → Valuation τ sig (Elt F) := fun c => StableHlo.after hostOps0_23 (W23 m ρ c)
abbrev W25 : Dev nD → Valuation τ sig (Elt F) := fun c => StableHlo.after hostOps0_24 (W24 m ρ c)
abbrev W26 : Dev nD → Valuation τ sig (Elt F) := fun c => StableHlo.after hostOps0_25 (W25 m ρ c)
abbrev W27 : Dev nD → Valuation τ sig (Elt F) := fun c => StableHlo.after hostOps0_26 (W26 m ρ c)
abbrev V27 : (c : Dev nD) → (b : Ref sig .tc) → Buf (Elt F) ((c : Thread nD τ).loc b) := fun c b => W27 m ρ c b
-- At a region's exit its windows' arrays hold `arrAt · N` of the region's proof data, every other buffer what it held at entry.
def W28 (c : Dev nD) : Valuation τ sig (Elt F) :=
  Pipeline.withArrays spec0 c (W27 m ρ c) fun w => (Field.dat (V27 m ρ) c).arrAt w cfg0.N
abbrev V28 : (c : Dev nD) → (b : Ref sig .tc) → Buf (Elt F) ((c : Thread nD τ).loc b) := fun c b => W28 m ρ c b
theorem W28_arr (c : Dev nD) (w : Fin cfg0.W) :
    W28 m ρ c (Proc.devRef .tc (Pipeline.arrRef spec0 w)) = (Field.dat (V27 m ρ) c).arrAt w cfg0.N :=
  Pipeline.withArrays_arr spec0 launch0.win.arr_inj c _ _ w
theorem W28_rest (c : Dev nD) (b : Ref sig .tc) (hb : b ∉ Finset.univ.image (Pipeline.arrRef spec0)) :
    W28 m ρ c (Proc.devRef .tc b) = W27 m ρ c (Proc.devRef .tc b) :=
  Pipeline.withArrays_of_ne spec0 c _ _ b fun w e => hb (e ▸ Finset.mem_image_of_mem _ (Finset.mem_univ w))
abbrev W29 : Dev nD → Valuation τ sig (Elt F) := fun c => StableHlo.after hostOps1 (W28 m ρ c)
abbrev V29 : (c : Dev nD) → (b : Ref sig .tc) → Buf (Elt F) ((c : Thread nD τ).loc b) := fun c b => W29 m ρ c b
def W30 (c : Dev nD) : Valuation τ sig (Elt F) :=
  Pipeline.withArrays spec1 c (W29 m ρ c) fun w => (Wilson.dat (V29 m ρ) c).arrAt w cfg1.N
abbrev V30 : (c : Dev nD) → (b : Ref sig .tc) → Buf (Elt F) ((c : Thread nD τ).loc b) := fun c b => W30 m ρ c b
theorem W30_arr (c : Dev nD) (w : Fin cfg1.W) :
    W30 m ρ c (Proc.devRef .tc (Pipeline.arrRef spec1 w)) = (Wilson.dat (V29 m ρ) c).arrAt w cfg1.N :=
  Pipeline.withArrays_arr spec1 launch1.win.arr_inj c _ _ w
theorem W30_rest (c : Dev nD) (b : Ref sig .tc) (hb : b ∉ Finset.univ.image (Pipeline.arrRef spec1)) :
    W30 m ρ c (Proc.devRef .tc b) = W29 m ρ c (Proc.devRef .tc b) :=
  Pipeline.withArrays_of_ne spec1 c _ _ b fun w e => hb (e ▸ Finset.mem_image_of_mem _ (Finset.mem_univ w))
abbrev W31 : Dev nD → Valuation τ sig (Elt F) := fun c => StableHlo.after hostOps2 (W30 m ρ c)
abbrev V31 : (c : Dev nD) → (b : Ref sig .tc) → Buf (Elt F) ((c : Thread nD τ).loc b) := fun c b => W31 m ρ c b
def W32 (c : Dev nD) : Valuation τ sig (Elt F) :=
  Pipeline.withArrays spec2 c (W31 m ρ c) fun w => (Topology.dat (V31 m ρ) c).arrAt w cfg2.N
abbrev V32 : (c : Dev nD) → (b : Ref sig .tc) → Buf (Elt F) ((c : Thread nD τ).loc b) := fun c b => W32 m ρ c b
theorem W32_arr (c : Dev nD) (w : Fin cfg2.W) :
    W32 m ρ c (Proc.devRef .tc (Pipeline.arrRef spec2 w)) = (Topology.dat (V31 m ρ) c).arrAt w cfg2.N :=
  Pipeline.withArrays_arr spec2 launch2.win.arr_inj c _ _ w
theorem W32_rest (c : Dev nD) (b : Ref sig .tc) (hb : b ∉ Finset.univ.image (Pipeline.arrRef spec2)) :
    W32 m ρ c (Proc.devRef .tc b) = W31 m ρ c (Proc.devRef .tc b) :=
  Pipeline.withArrays_of_ne spec2 c _ _ b fun w e => hb (e ▸ Finset.mem_image_of_mem _ (Finset.mem_univ w))

end Cert.KernelIdeal.Run

end
-- ==== Proof.Ideal.Run.lean ====
import proofs.«143799_j35253091566215_1_alg».proof.Proof.Ideal.Fold
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => Field.dat (V27 m ρ) c
  | ⟨1, _⟩ => fun c => Wilson.dat (V29 m ρ) c
  | ⟨2, _⟩ => fun c => Topology.dat (V31 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (W : Dev nD → Valuation τ sig (Elt F))
    (hfresh : ops.Forall fun op => op.fresh = ∅ := by simp only [List.Forall]; repeat' constructor) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W32 m ρ c) ∗ ∃ r, prngReg c r)
abbrev rd (W : Dev nD → Valuation τ sig (Elt F)) : (c : Dev nD) → (b : Ref sig .tc) → Buf (Elt F) ((c : Thread nD τ).loc b) := fun c b => W c b

set_option backward.isDefEq.respectTransparency.types false in
-- One region as a segment, from the unscoped buffers at `Wi` to the same at `Wo`: the three regions differ only in these data.
def reg (p : Fin 3) (launch : Pipeline.LaunchFacts (nD := nD) (τ := τ) cfgs p) (Wi Wo : Dev nD → Valuation τ sig (Elt F))
    (hbody : ∀ c, Pipeline.BodyObligationLoose (pdats m ρ p c) (defs₀ (F := F)) 𝒱₀ () Set.univ)
    (howed : ∀ c t, (pdats m ρ p c).owed t = 0) (hrec : ∀ c t, (pdats m ρ p c).recorded t = Set.univ)
    (hq : ∀ c w, (pdats m ρ p c).q w = fullShare) (hK : IsEmpty (Fin (pcfgs (F := F) p).pre.K))
    (hΦ : ∀ c t, (pdats m ρ p c).Φ t = (Pipeline.ΦA (Pipeline.pin (pcfgs (F := F)) adm p).spec c : sProp 𝕄))
    (hA : ∀ c w, (pdats m ρ p c).A w = rd Wi c (Pipeline.arrRef (Pipeline.pin (pcfgs (F := F)) adm p).spec w))
    (hF : ∀ c w, (pdats m ρ p c).arrAt w (Pipeline.pin (pcfgs (F := F)) adm p).N = rd Wo c (Pipeline.arrRef (Pipeline.pin (pcfgs (F := F)) adm p).spec w))
    (hrest : ∀ c b, b ∉ Finset.univ.image (Pipeline.arrRef (Pipeline.pin (pcfgs (F := F)) adm p).spec) → rd Wo c b = rd Wi c b) :
    Pipeline.RegionSeg (pcfgs (F := F)) adm (pdats m ρ) () defs₀ 𝒱₀ L lv p where
  win := launch.win.to₀
  block_pos := launch.block_pos
  stage_whole := launch.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (rd Wi c)
  hentry c := by
    rw [Pipeline.ownSems0_none]
    have hsplit := Pipeline.arrays_of_unscopedBufs (p := p) (pcfgs (F := F)) adm (pdats m ρ) launch.win launch.arr_whole c
      ((pdats m ρ p c).share_full (hq c)) (rd Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [Finset.univ_eq_empty, BI.bigSep_empty]; iempintro
    isplitl [HO]
    · unfold Pipeline.Dat.owesAt Pipeline.owesWithin; rw [howed c]
      icases HO with ⟨%W, HO⟩; iexists W; isplitr; · ipureintro; exact fun _ _ => Or.inl (hrec c 0 ▸ Set.mem_univ _)
      iexact HO
    isplitl [Hp]; · iexact Hp
    iexact Hrest
  hin c := by
    rw [hΦ c]; unfold Pipeline.ΦA
    iintro ⟨Hp, -, Hr⟩
    isplitl [Hr]; · iexact Hr
    iexact Hp
  hout c := by
    rw [Pipeline.ownSems0_none, hΦ c]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m ρ) ((pdats m ρ p c).share_full (hq c))
      (rd Wi c) (rd Wo c) ((pdats m ρ p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

abbrev reg0 := reg m ρ 0 launch0 (W27 m ρ) (W28 m ρ) (fun c => (Field.body_obligation (V27 m ρ) c).loose) (fun _ _ => rfl) (fun _ _ => rfl)
  (fun _ _ => rfl) (inferInstanceAs (IsEmpty (Fin 0))) (fun _ _ => rfl) (fun _ _ => rfl) (fun c w => (W28_arr m ρ c w).symm) (W28_rest m ρ)
abbrev reg1 := reg m ρ 1 launch1 (W29 m ρ) (W30 m ρ) (fun c => (Wilson.body_obligation (V29 m ρ) c).loose) (fun _ _ => rfl) (fun _ _ => rfl)
  (fun _ _ => rfl) (inferInstanceAs (IsEmpty (Fin 0))) (fun _ _ => rfl) (fun _ _ => rfl) (fun c w => (W30_arr m ρ c w).symm) (W30_rest m ρ)
abbrev reg2 := reg m ρ 2 launch2 (W31 m ρ) (W32 m ρ) (fun c => (Topology.body_obligation (V31 m ρ) c).loose) (fun _ _ => rfl) (fun _ _ => rfl)
  (fun _ _ => rfl) (inferInstanceAs (IsEmpty (Fin 0))) (fun _ _ => rfl) (fun _ _ => rfl) (fun c w => (W32_arr m ρ c w).symm) (W32_rest m ρ)

-- The last region's exit state, regrouped as the launch reads it.
theorem post_last (c : Dev nD) : iprop(StableHlo.held (c : Thread nD τ) (Pipeline.ucRefs τ sig) (W32 m ρ c) ∗ R c)
    ⊢ iprop(Tₙ m ρ c ∗ ∃ W, owes (c : Thread nD τ) (0 : CellTallies nD τ sig Unit) W) := by
  iintro ⟨Hh, Hp, HO⟩; isplitl [Hh Hp]
  · isplitl [Hh] <;> iassumption
  iexact HO

abbrev segs : List (Pipeline.Seg (pcfgs (F := F)) adm (pdats m ρ) () defs₀ 𝒱₀ L lv) :=
  [ .host (hseg hostOps0 hostOps0_sub (W0 m ρ)),
    .host (hseg hostOps0_1 hostOps0_1_sub (W1 m ρ)),
    .host (hseg hostOps0_2 hostOps0_2_sub (W2 m ρ)),
    .host (hseg hostOps0_3 hostOps0_3_sub (W3 m ρ)),
    .host (hseg hostOps0_4 hostOps0_4_sub (W4 m ρ)),
    .host (hseg hostOps0_5 hostOps0_5_sub (W5 m ρ)),
    .host (hseg hostOps0_6 hostOps0_6_sub (W6 m ρ)),
    .host (hseg hostOps0_7 hostOps0_7_sub (W7 m ρ)),
    .host (hseg hostOps0_8 hostOps0_8_sub (W8 m ρ)),
    .host (hseg hostOps0_9 hostOps0_9_sub (W9 m ρ)),
    .host (hseg hostOps0_10 hostOps0_10_sub (W10 m ρ)),
    .host (hseg hostOps0_11 hostOps0_11_sub (W11 m ρ)),
    .host (hseg hostOps0_12 hostOps0_12_sub (W12 m ρ)),
    .host (hseg hostOps0_13 hostOps0_13_sub (W13 m ρ)),
    .host (hseg hostOps0_14 hostOps0_14_sub (W14 m ρ)),
    .host (hseg hostOps0_15 hostOps0_15_sub (W15 m ρ)),
    .host (hseg hostOps0_16 hostOps0_16_sub (W16 m ρ)),
    .host (hseg hostOps0_17 hostOps0_17_sub (W17 m ρ)),
    .host (hseg hostOps0_18 hostOps0_18_sub (W18 m ρ)),
    .host (hseg hostOps0_19 hostOps0_19_sub (W19 m ρ)),
    .host (hseg hostOps0_20 hostOps0_20_sub (W20 m ρ)),
    .host (hseg hostOps0_21 hostOps0_21_sub (W21 m ρ)),
    .host (hseg hostOps0_22 hostOps0_22_sub (W22 m ρ)),
    .host (hseg hostOps0_23 hostOps0_23_sub (W23 m ρ)),
    .host (hseg hostOps0_24 hostOps0_24_sub (W24 m ρ)),
    .host (hseg hostOps0_25 hostOps0_25_sub (W25 m ρ)),
    .host (hseg hostOps0_26 hostOps0_26_sub (W26 m ρ)),
    .region (reg0 m ρ),
    .host (hseg hostOps1 hostOps1_sub (W28 m ρ)),
    .region (reg1 m ρ),
    .host (hseg hostOps2 hostOps2_sub (W30 m ρ)),
    .region (reg2 m ρ) ]
theorem main_run (c : Dev nD) : main (F := F) c = Pipeline.Seg.run (segs m ρ) := (main_chain c).trans (by chain_rfl)
set_option backward.isDefEq.respectTransparency.types false in
theorem run_main : θ_run defs (onTc (τ := τ) (main (F := F))) ⟨m, fun _ => 0, ρ⟩
    (fun r => ∀ c : Dev nD, ∀ b ∈ Pipeline.ucRefs τ sig, r.2.mem (((c : Thread nD τ)).1, b) = W32 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, post_last m ρ⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W32 m ρ c b)
    (hfin := fun c s' => by
      iintro ⟨⟨Hh, -⟩, HSI⟩
      unfold StableHlo.held
      imodintro
      iapply (pointsTo_read_all (Pipeline.ucRefs τ sig) (fun b => (((c : Thread nD τ)).1, b)) (W32 m ρ c) s')
      isplitl [Hh] <;> iassumption)
    (hQ := fun s h => h)

end Cert.KernelIdeal.Run

end
-- ==== Proof.Ideal.ArgsKept.lean ====
import proofs.«143799_j35253091566215_1_alg».proof.Proof.Ideal.Fold

noncomputable section

namespace Cert.KernelIdeal.Run

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9, main_arg10, main_arg11, main_arg12, main_arg13, main_arg14, main_arg15]
abbrev keep1 : List (Ref sig .tc) := main_v616 :: main_v620 :: argRefs
abbrev keep2 : List (Ref sig .tc) := main_v621 :: main_v625 :: keep1
noncomputable abbrev pre26 : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25]

-- The operation writes exactly one buffer, whose index is no index of the list `K`.
def WritesOff (K : List (Ref sig .tc)) (op : HloOp τ sig (Elt F)) : Prop :=
  ∃ y : Ref sig .tc, op.writes = {Proc.devRef .tc y} ∧ y.idx.val ∉ K.map (·.idx.val)

-- A stretch keeps every buffer none of its operations writes.
theorem after_kept {K : List (Ref sig .tc)} (ops : List (HloOp τ sig (Elt F))) (V : Valuation τ sig (Elt F))
    (h : ops.Forall (WritesOff K)) {r : Ref sig .tc} (hr : r ∈ K) :
    StableHlo.after ops V (Proc.devRef .tc r) = V (Proc.devRef .tc r) :=
  StableHlo.after_of_forall_not_mem ops V fun op hop hb => by
    obtain ⟨y, hy, hK⟩ := (List.forall_iff_forall_mem.mp h) op hop
    rw [hy, Finset.mem_singleton] at hb
    exact hK (Proc.devRef_injective _ hb ▸ List.mem_map_of_mem hr)

-- The same through a chain of stretches, by induction on the chain.
theorem foldl_after_kept {K : List (Ref sig .tc)} (L : List (List (HloOp τ sig (Elt F)))) (V : Valuation τ sig (Elt F))
    (h : L.Forall (·.Forall (WritesOff K))) {r : Ref sig .tc} (hr : r ∈ K) :
    L.foldl (fun V ops => StableHlo.after ops V) V (Proc.devRef .tc r) = V (Proc.devRef .tc r) := by
  induction L generalizing V with
  | nil => rfl
  | cons ops L ih => rw [List.forall_cons] at h; exact (ih _ h.2).trans (after_kept ops V h.1 hr)

-- No stretch before a region writes what must reach that region or the return: each operation's one written buffer is read off.
theorem stretches_off : (pre26 (F := F)).Forall (·.Forall (WritesOff argRefs)) ∧ (hostOps0_26 : List (HloOp τ sig (Elt F))).Forall (WritesOff argRefs)
    ∧ (hostOps1 : List (HloOp τ sig (Elt F))).Forall (WritesOff keep1) ∧ (hostOps2 : List (HloOp τ sig (Elt F))).Forall (WritesOff keep2) := by
  simp only [List.Forall]; repeat' apply And.intro
  all_goals exact ⟨_, rfl, by decide⟩

theorem W26_arg (c : Dev nD) {r : Ref sig .tc} (hr : r ∈ argRefs) : W26 m ρ c (Proc.devRef .tc r) = m ((c : Thread nD τ).loc r) := by
  have h := foldl_after_kept pre26 (W0 m ρ c) stretches_off.1 hr
  simp only [List.foldl_cons, List.foldl_nil] at h; exact h
theorem W27_arg (c : Dev nD) {r : Ref sig .tc} (hr : r ∈ argRefs) : W27 m ρ c (Proc.devRef .tc r) = m ((c : Thread nD τ).loc r) :=
  (after_kept hostOps0_26 _ stretches_off.2.1 hr).trans (W26_arg m ρ c hr)

-- At a region's exit only its output window's array differs from the entry contents.
theorem W28_in (c : Dev nD) {b : Ref sig .tc} (hb : b ≠ main_v620) : W28 m ρ c (Proc.devRef .tc b) = W27 m ρ c (Proc.devRef .tc b) := by
  by_cases h : b ∈ Finset.univ.image (Pipeline.arrRef spec0)
  · obtain ⟨w, -, rfl⟩ := Finset.mem_image.mp h
    exact (W28_arr m ρ c w).trans (((Field.dat (V27 m ρ) c).arrAt_in w ((by decide : ∀ w : Fin cfg0.W, Pipeline.arrRef spec0 w ≠ main_v620 → (cfg0.win w).isOut = false) w hb) _).trans (Field.A_eq (V27 m ρ) c w))
  · exact W28_rest m ρ c b h

theorem W30_in (c : Dev nD) {b : Ref sig .tc} (hb : b ≠ main_v625) : W30 m ρ c (Proc.devRef .tc b) = W29 m ρ c (Proc.devRef .tc b) := by
  by_cases h : b ∈ Finset.univ.image (Pipeline.arrRef spec1)
  · obtain ⟨w, -, rfl⟩ := Finset.mem_image.mp h
    exact (W30_arr m ρ c w).trans (((Wilson.dat (V29 m ρ) c).arrAt_in w ((by decide : ∀ w : Fin cfg1.W, Pipeline.arrRef spec1 w ≠ main_v625 → (cfg1.win w).isOut = false) w hb) _).trans (Wilson.A_eq (V29 m ρ) c w))
  · exact W30_rest m ρ c b h

theorem W32_in (c : Dev nD) {b : Ref sig .tc} (hb : b ≠ main_v628) : W32 m ρ c (Proc.devRef .tc b) = W31 m ρ c (Proc.devRef .tc b) := by
  by_cases h : b ∈ Finset.univ.image (Pipeline.arrRef spec2)
  · obtain ⟨w, -, rfl⟩ := Finset.mem_image.mp h
    exact (W32_arr m ρ c w).trans (((Topology.dat (V31 m ρ) c).arrAt_in w ((by decide : ∀ w : Fin cfg2.W, Pipeline.arrRef spec2 w ≠ main_v628 → (cfg2.win w).isOut = false) w hb) _).trans (Topology.A_eq (V31 m ρ) c w))
  · exact W32_rest m ρ c b h

theorem W29_kept (c : Dev nD) {r : Ref sig .tc} (hr : r ∈ keep1) : W29 m ρ c (Proc.devRef .tc r) = W28 m ρ c (Proc.devRef .tc r) :=
  after_kept hostOps1 _ stretches_off.2.2.1 hr
theorem W31_kept (c : Dev nD) {r : Ref sig .tc} (hr : r ∈ keep2) : W31 m ρ c (Proc.devRef .tc r) = W30 m ρ c (Proc.devRef .tc r) :=
  after_kept hostOps2 _ stretches_off.2.2.2 hr
-- What must outlive the first region is neither later region's output, and no later stretch writes it.
theorem W32_of_W28 (c : Dev nD) {r : Ref sig .tc} (hr : r ∈ keep1) : W32 m ρ c (Proc.devRef .tc r) = W28 m ρ c (Proc.devRef .tc r) :=
  (W32_in m ρ c (ne_of_mem_of_not_mem hr (by decide))).trans <| (W31_kept m ρ c (.tail _ (.tail _ hr))).trans <|
    (W30_in m ρ c (ne_of_mem_of_not_mem hr (by decide))).trans (W29_kept m ρ c hr)

theorem W28_arg (c : Dev nD) {r : Ref sig .tc} (hr : r ∈ argRefs) : W28 m ρ c (Proc.devRef .tc r) = m ((c : Thread nD τ).loc r) :=
  (W28_in m ρ c (ne_of_mem_of_not_mem hr (by decide))).trans (W27_arg m ρ c hr)
theorem W29_arg (c : Dev nD) {r : Ref sig .tc} (hr : r ∈ argRefs) : W29 m ρ c (Proc.devRef .tc r) = m ((c : Thread nD τ).loc r) :=
  (W29_kept m ρ c (.tail _ (.tail _ hr))).trans (W28_arg m ρ c hr)
theorem W30_arg (c : Dev nD) {r : Ref sig .tc} (hr : r ∈ argRefs) : W30 m ρ c (Proc.devRef .tc r) = m ((c : Thread nD τ).loc r) :=
  (W30_in m ρ c (ne_of_mem_of_not_mem hr (by decide))).trans (W29_arg m ρ c hr)
theorem W31_arg (c : Dev nD) {r : Ref sig .tc} (hr : r ∈ argRefs) : W31 m ρ c (Proc.devRef .tc r) = m ((c : Thread nD τ).loc r) :=
  (W31_kept m ρ c (.tail _ (.tail _ (.tail _ (.tail _ hr))))).trans (W30_arg m ρ c hr)
theorem W32_arg (c : Dev nD) {r : Ref sig .tc} (hr : r ∈ argRefs) : W32 m ρ c (Proc.devRef .tc r) = m ((c : Thread nD τ).loc r) :=
  (W32_of_W28 m ρ c (.tail _ (.tail _ hr))).trans (W28_arg m ρ c hr)
theorem V27_arg (c : Dev nD) {r : Ref sig .tc} (hr : r ∈ argRefs) : V27 m ρ c r = m ((c : Thread nD τ).loc r) := W27_arg m ρ c hr
theorem V29_arg (c : Dev nD) {r : Ref sig .tc} (hr : r ∈ argRefs) : V29 m ρ c r = m ((c : Thread nD τ).loc r) := W29_arg m ρ c hr
theorem V31_arg (c : Dev nD) {r : Ref sig .tc} (hr : r ∈ argRefs) : V31 m ρ c r = m ((c : Thread nD τ).loc r) := W31_arg m ρ c hr

theorem W28_v620 (c : Dev nD) : W28 m ρ c (Proc.devRef .tc main_v620) = (Field.dat (V27 m ρ) c).arrAt 5 cfg0.N :=
  W28_arr m ρ c 5
theorem W32_v620 (c : Dev nD) : W32 m ρ c (Proc.devRef .tc main_v620) = (Field.dat (V27 m ρ) c).arrAt 5 cfg0.N :=
  (W32_of_W28 m ρ c (by decide)).trans (W28_arr m ρ c 5)
theorem W32_v625 (c : Dev nD) : W32 m ρ c (Proc.devRef .tc main_v625) = (Wilson.dat (V29 m ρ) c).arrAt 7 cfg1.N :=
  (W32_in m ρ c (by decide)).trans <| (W31_kept m ρ c (by decide)).trans (W30_arr m ρ c 7)
theorem W32_v628 (c : Dev nD) : W32 m ρ c (Proc.devRef .tc main_v628) = (Topology.dat (V31 m ρ) c).arrAt 5 cfg2.N :=
  W32_arr m ρ c 5
theorem W32_v616 (c : Dev nD) : W32 m ρ c (Proc.devRef .tc main_v616) = W27 m ρ c (Proc.devRef .tc main_v616) :=
  (W32_of_W28 m ρ c (by decide)).trans (W28_in m ρ c (by decide))

-- Each network's matrix operands are arguments narrowed to bf16 by the stretch before its region.
theorem V27_v617 (c : Dev nD) : V27 m ρ c main_v617 = ((truncf .bf16 · bitsLt_bf16_f32) : (⟨S16384x4, .f32⟩ : BufTy).Contents (Elt F) → (⟨S16384x4, .bf16⟩ : BufTy).Contents (Elt F)) (m ((c : Thread nD τ).loc main_arg0)) := by
  rw [← W26_arg m ρ c (r := main_arg0) (by decide)]; show StableHlo.after hostOps0_26 (W26 m ρ c) _ = _
  generalize W26 m ρ c = V; after_results_simp
theorem V27_v618 (c : Dev nD) : V27 m ρ c main_v618 = ((truncf .bf16 · bitsLt_bf16_f32) : (⟨S4x2048, .f32⟩ : BufTy).Contents (Elt F) → (⟨S4x2048, .bf16⟩ : BufTy).Contents (Elt F)) (m ((c : Thread nD τ).loc main_arg2)) := by
  rw [← W26_arg m ρ c (r := main_arg2) (by decide)]; show StableHlo.after hostOps0_26 (W26 m ρ c) _ = _
  generalize W26 m ρ c = V; after_results_simp
theorem V27_v619 (c : Dev nD) : V27 m ρ c main_v619 = ((truncf .bf16 · bitsLt_bf16_f32) : (⟨S2048x4096, .f32⟩ : BufTy).Contents (Elt F) → (⟨S2048x4096, .bf16⟩ : BufTy).Contents (Elt F)) (m ((c : Thread nD τ).loc main_arg4)) := by
  rw [← W26_arg m ρ c (r := main_arg4) (by decide)]; show StableHlo.after hostOps0_26 (W26 m ρ c) _ = _
  generalize W26 m ρ c = V; after_results_simp
theorem V29_v621 (c : Dev nD) : V29 m ρ c main_v621 = ((truncf .bf16 · bitsLt_bf16_f32) : (⟨S16384x4096, .f32⟩ : BufTy).Contents (Elt F) → (⟨S16384x4096, .bf16⟩ : BufTy).Contents (Elt F)) (W28 m ρ c (Proc.devRef .tc main_v620)) := by
  show StableHlo.after hostOps1 (W28 m ρ c) _ = _
  generalize W28 m ρ c = V; after_results_simp
theorem V29_v622 (c : Dev nD) : V29 m ρ c main_v622 = ((truncf .bf16 · bitsLt_bf16_f32) : (⟨S4096x2048, .f32⟩ : BufTy).Contents (Elt F) → (⟨S4096x2048, .bf16⟩ : BufTy).Contents (Elt F)) (m ((c : Thread nD τ).loc main_arg6)) := by
  rw [← W28_arg m ρ c (r := main_arg6) (by decide)]; show StableHlo.after hostOps1 (W28 m ρ c) _ = _
  generalize W28 m ρ c = V; after_results_simp
theorem V29_v623 (c : Dev nD) : V29 m ρ c main_v623 = ((truncf .bf16 · bitsLt_bf16_f32) : (⟨S2048x1024, .f32⟩ : BufTy).Contents (Elt F) → (⟨S2048x1024, .bf16⟩ : BufTy).Contents (Elt F)) (m ((c : Thread nD τ).loc main_arg8)) := by
  rw [← W28_arg m ρ c (r := main_arg8) (by decide)]; show StableHlo.after hostOps1 (W28 m ρ c) _ = _
  generalize W28 m ρ c = V; after_results_simp
theorem V29_v624 (c : Dev nD) : V29 m ρ c main_v624 = ((truncf .bf16 · bitsLt_bf16_f32) : (⟨S1024x1, .f32⟩ : BufTy).Contents (Elt F) → (⟨S1024x1, .bf16⟩ : BufTy).Contents (Elt F)) (m ((c : Thread nD τ).loc main_arg10)) := by
  rw [← W28_arg m ρ c (r := main_arg10) (by decide)]; show StableHlo.after hostOps1 (W28 m ρ c) _ = _
  generalize W28 m ρ c = V; after_results_simp
theorem V31_v621 (c : Dev nD) : V31 m ρ c main_v621 = V29 m ρ c main_v621 :=
  (W31_kept m ρ c (by decide)).trans (W30_in m ρ c (by decide))
theorem V31_v626 (c : Dev nD) : V31 m ρ c main_v626 = ((truncf .bf16 · bitsLt_bf16_f32) : (⟨S4096x2048, .f32⟩ : BufTy).Contents (Elt F) → (⟨S4096x2048, .bf16⟩ : BufTy).Contents (Elt F)) (m ((c : Thread nD τ).loc main_arg12)) := by
  rw [← W30_arg m ρ c (r := main_arg12) (by decide)]; show StableHlo.after hostOps2 (W30 m ρ c) _ = _
  generalize W30 m ρ c = V; after_results_simp
theorem V31_v627 (c : Dev nD) : V31 m ρ c main_v627 = ((truncf .bf16 · bitsLt_bf16_f32) : (⟨S2048x1, .f32⟩ : BufTy).Contents (Elt F) → (⟨S2048x1, .bf16⟩ : BufTy).Contents (Elt F)) (m ((c : Thread nD τ).loc main_arg14)) := by
  rw [← W30_arg m ρ c (r := main_arg14) (by decide)]; show StableHlo.after hostOps2 (W30 m ρ c) _ = _
  generalize W30 m ρ c = V; after_results_simp

end Cert.KernelIdeal.Run

end
-- ==== Proof.Bits.FieldRegion.lean ====
import proofs.«143799_j35253091566215_1_alg».proof.Proof.Gen.Kernel.Launch
import proofs.«143799_j35253091566215_1_alg».proof.Proof.Gen.Kernel.Skeleton
import proofs.«143799_j35253091566215_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Field

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0 : Rect S1024x4 := Rect.unit (s := S1024x4) ![0, 0] S1024x4.size inb_S1024x4_S1024x4_0_0
abbrev r1 : Rect S4x2048 := Rect.unit (s := S4x2048) ![0, 0] S4x2048.size inb_S4x2048_S4x2048_0_0
abbrev r2 : Rect S2048 := Rect.unit (s := S2048) ![0] S2048.size inb_S2048_S2048_0
abbrev r3 : Rect S2048x1024 := Rect.unit (s := S2048x1024) ![0, 0] S2048x1024.size inb_S2048x1024_S2048x1024_0_0
abbrev r4 : Rect S1024 := Rect.unit (s := S1024) ![0] S1024.size inb_S1024_S1024_0
abbrev r5 : Rect S1024x1024 := Rect.unit (s := S1024x1024) ![0, 0] S1024x1024.size inb_S1024x1024_S1024x1024_0_0

def out (x0 : Vec F S1024x4 .bf16) (x1 : Vec F S4x2048 .bf16) (x2 : Vec F S2048 .f32) (x3 : Vec F S2048x1024 .bf16) (x4 : Vec F S1024 .f32) : Vec F S1024x1024 .f32 :=
  View.canon [⟨r5, k0_pay1 (View.ld x0 r0) (View.ld x1 r1) (View.ld x2 r2) (View.ld x3 r3) (View.ld x4 r4)⟩]

theorem cover (p0 : Vec F S1024x1024 .f32) (y : S1024x1024.Idx) :
    ∃ pc ∈ ([⟨r5, p0⟩] : List (View.Piece (Elt F) S1024x1024 .f32)), y ∈ pc.1.set :=
  View.cover_of_tiled [⟨r5, p0⟩] S1024x1024.size (by rfl) y

set_option maxHeartbeats 1000000 in
theorem sound_kernel (c : Dev nD) (E : Set ℕ) (i : grid0.Coords) (arg2 : Memref sig .tc .vmem S1024x4 .bf16) (harg2 : arg2.IsWhole) (arg3 : Memref sig .tc .vmem S4x2048 .bf16) (harg3 : arg3.IsWhole) (arg4 : Memref sig .tc .vmem S2048 .f32) (harg4 : arg4.IsWhole) (arg5 : Memref sig .tc .vmem S2048x1024 .bf16) (harg5 : arg5.IsWhole) (arg6 : Memref sig .tc .vmem S1024 .f32) (harg6 : arg6.IsWhole) (arg7 : Memref sig .tc .vmem S1024x1024 .f32) (harg7 : arg7.IsWhole)
    (x0 : Vec F S1024x4 .bf16) (x1 : Vec F S4x2048 .bf16) (x2 : Vec F S2048 .f32) (x3 : Vec F S2048x1024 .bf16) (x4 : Vec F S1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (out x0 x1 x2 x3 x4)) -∗ K ⟨⟩))
      ⊢ wp frame (wpE (defs₀ (F := F)) Variants.none c none) E (cc0__field_kernel i arg2 harg2 arg3 harg3 arg4 harg4 arg5 harg5 arg6 harg6 arg7 harg7) K := by
  simp only [cc0__field_kernel_eq_skeleton]; unfold cc0__field_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out (iblk V c 0 t) (iblk V c 1 t) (iblk V c 2 t) (iblk V c 3 t) (iblk V c 4 t)
  Φ _ := Pipeline.ΦA spec0 c
  q _ := fullShare
  owed _ := 0

theorem A_eq (c : Dev nD) (w : Fin cfg0.W) : (dat V c).A w = V c (Pipeline.arrRef spec0 w) := by
  dsimp only [dat]

theorem after_out (c : Dev nD) (t : Fin cfg0.N) :
    (dat V c).after 5 t = out (iblk V c 0 t) (iblk V c 1 t) (iblk V c 2 t) (iblk V c 3 t) (iblk V c 4 t) := by dsimp only [dat]

theorem before_in (c : Dev nD) (w : Fin cfg0.W) (hw : w ≠ 5) (t : Fin cfg0.N) (d) : (dat V c).before w t d = (dat V c).after w t := by
  fin_cases w <;> first | exact absurd rfl hw | exact
    ((dat V c).before_in_eq_fetched _ rfl (fun _ => rfl) (fun _ _ _ => rfl) (fun _ => rfl) t d).trans rfl

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_in V c 0 (by decide), before_in V c 1 (by decide), before_in V c 2 (by decide), before_in V c 3 (by decide), before_in V c 4 (by decide)]
  rw [show (dat V c).owesAt () t.succ = (dat V c).owesAt () t.castSucc from rfl]
  dsimp only [dat]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  iframe
  isplitl [H5]; · iexists _; iexact H5
  iintro H; iexact H

theorem body_obligation (c : Dev nD) : BodyObligation (dat (F := F) V c) (defs₀ (F := F)) Variants.none () Set.univ := fun t => by
  rw [bigSep_W0, bigSep_W0]
  exact sound_body V c t

end Cert.Kernel.Field
-- ==== Proof.Bits.WilsonRegion.lean ====
import proofs.«143799_j35253091566215_1_alg».proof.Proof.Gen.Kernel.Launch
import proofs.«143799_j35253091566215_1_alg».proof.Proof.Gen.Kernel.Skeleton
import proofs.«143799_j35253091566215_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Wilson

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r0 : Rect S512x4096 := Rect.unit (s := S512x4096) ![0, 0] S512x4096.size inb_S512x4096_S512x4096_0_0
abbrev r1 : Rect S4096x2048 := Rect.unit (s := S4096x2048) ![0, 0] S4096x2048.size inb_S4096x2048_S4096x2048_0_0
abbrev r2 : Rect S2048 := Rect.unit (s := S2048) ![0] S2048.size inb_S2048_S2048_0
abbrev r3 : Rect S2048x1024 := Rect.unit (s := S2048x1024) ![0, 0] S2048x1024.size inb_S2048x1024_S2048x1024_0_0
abbrev r4 : Rect S1024 := Rect.unit (s := S1024) ![0] S1024.size inb_S1024_S1024_0
abbrev r5 : Rect S1024x1 := Rect.unit (s := S1024x1) ![0, 0] S1024x1.size inb_S1024x1_S1024x1_0_0
abbrev r6 : Rect S1 := Rect.unit (s := S1) ![0] S1.size inb_S1_S1_0
abbrev r7 : Rect S512x1 := Rect.unit (s := S512x1) ![0, 0] S512x1.size inb_S512x1_S512x1_0_0

def out (x0 : Vec F S512x4096 .bf16) (x1 : Vec F S4096x2048 .bf16) (x2 : Vec F S2048 .f32) (x3 : Vec F S2048x1024 .bf16) (x4 : Vec F S1024 .f32) (x5 : Vec F S1024x1 .bf16) (x6 : Vec F S1 .f32) : Vec F S512x1 .f32 :=
  View.canon [⟨r7, k1_pay1 (View.ld x0 r0) (View.ld x1 r1) (View.ld x2 r2) (View.ld x3 r3) (View.ld x4 r4) (View.ld x5 r5) (View.ld x6 r6)⟩]

theorem cover (p0 : Vec F S512x1 .f32) (y : S512x1.Idx) :
    ∃ pc ∈ ([⟨r7, p0⟩] : List (View.Piece (Elt F) S512x1 .f32)), y ∈ pc.1.set :=
  View.cover_of_tiled [⟨r7, p0⟩] S512x1.size (by rfl) y

set_option maxHeartbeats 1000000 in
theorem sound_kernel (c : Dev nD) (E : Set ℕ) (i : grid1.Coords) (arg1 : Memref sig .tc .vmem S512x4096 .bf16) (harg1 : arg1.IsWhole) (arg2 : Memref sig .tc .vmem S4096x2048 .bf16) (harg2 : arg2.IsWhole) (arg3 : Memref sig .tc .vmem S2048 .f32) (harg3 : arg3.IsWhole) (arg4 : Memref sig .tc .vmem S2048x1024 .bf16) (harg4 : arg4.IsWhole) (arg5 : Memref sig .tc .vmem S1024 .f32) (harg5 : arg5.IsWhole) (arg6 : Memref sig .tc .vmem S1024x1 .bf16) (harg6 : arg6.IsWhole) (arg7 : Memref sig .tc .vmem S1 .f32) (harg7 : arg7.IsWhole) (arg8 : Memref sig .tc .vmem S512x1 .f32) (harg8 : arg8.IsWhole)
    (x0 : Vec F S512x4096 .bf16) (x1 : Vec F S4096x2048 .bf16) (x2 : Vec F S2048 .f32) (x3 : Vec F S2048x1024 .bf16) (x4 : Vec F S1024 .f32) (x5 : Vec F S1024x1 .bf16) (x6 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out x0 x1 x2 x3 x4 x5 x6)) -∗ K ⟨⟩))
      ⊢ wp frame (wpE (defs₀ (F := F)) Variants.none c none) E (cc1__wilson_kernel i arg1 harg1 arg2 harg2 arg3 harg3 arg4 harg4 arg5 harg5 arg6 harg6 arg7 harg7 arg8 harg8) K := by
  simp only [cc1__wilson_kernel_eq_skeleton]; unfold cc1__wilson_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover _)

def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => out (iblk V c 0 t) (iblk V c 1 t) (iblk V c 2 t) (iblk V c 3 t) (iblk V c 4 t) (iblk V c 5 t) (iblk V c 6 t)
  Φ _ := Pipeline.ΦA spec1 c
  q _ := fullShare
  owed _ := 0

theorem A_eq (c : Dev nD) (w : Fin cfg1.W) : (dat V c).A w = V c (Pipeline.arrRef spec1 w) := by
  dsimp only [dat]

theorem after_out (c : Dev nD) (t : Fin cfg1.N) : (dat V c).after 7 t = out (iblk V c 0 t) (iblk V c 1 t) (iblk V c 2 t) (iblk V c 3 t) (iblk V c 4 t) (iblk V c 5 t) (iblk V c 6 t) := by dsimp only [dat]

theorem before_in (c : Dev nD) (w : Fin cfg1.W) (hw : w ≠ 7) (t : Fin cfg1.N) (d) : (dat V c).before w t d = (dat V c).after w t := by
  fin_cases w <;> first | exact absurd rfl hw | exact
    ((dat V c).before_in_eq_fetched _ rfl (fun _ => rfl) (fun _ _ _ => rfl) (fun _ => rfl) t d).trans rfl

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_in V c 0 (by decide), before_in V c 1 (by decide), before_in V c 2 (by decide), before_in V c 3 (by decide), before_in V c 4 (by decide), before_in V c 5 (by decide), before_in V c 6 (by decide)]
  rw [show (dat V c).owesAt () t.succ = (dat V c).owesAt () t.castSucc from rfl]
  dsimp only [dat]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk V c 0 t) (iblk V c 1 t) (iblk V c 2 t) (iblk V c 3 t) (iblk V c 4 t) (iblk V c 5 t) (iblk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dat (F := F) V c) (defs₀ (F := F)) Variants.none () Set.univ := fun t => by
  rw [bigSep_W1, bigSep_W1]
  exact sound_body V c t

end Cert.Kernel.Wilson

end
-- ==== Proof.Bits.TopologyRegion.lean ====
import proofs.«143799_j35253091566215_1_alg».proof.Proof.Gen.Kernel.Launch
import proofs.«143799_j35253091566215_1_alg».proof.Proof.Gen.Kernel.Skeleton
import proofs.«143799_j35253091566215_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Topology

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rIn0 : Rect S512x4096 := Rect.unit (s := S512x4096) ![0, 0] S512x4096.size inb_S512x4096_S512x4096_0_0
abbrev rIn1 : Rect S4096x2048 := Rect.unit (s := S4096x2048) ![0, 0] S4096x2048.size inb_S4096x2048_S4096x2048_0_0
abbrev rIn2 : Rect S2048 := Rect.unit (s := S2048) ![0] S2048.size inb_S2048_S2048_0
abbrev rIn3 : Rect S2048x1 := Rect.unit (s := S2048x1) ![0, 0] S2048x1.size inb_S2048x1_S2048x1_0_0
abbrev rIn4 : Rect S1 := Rect.unit (s := S1) ![0] S1.size inb_S1_S1_0
abbrev rOut : Rect S512x1 := Rect.unit (s := S512x1) ![0, 0] S512x1.size inb_S512x1_S512x1_0_0

def out (x0 : Vec F S512x4096 .bf16) (x1 : Vec F S4096x2048 .bf16) (x2 : Vec F S2048 .f32) (x3 : Vec F S2048x1 .bf16)
    (x4 : Vec F S1 .f32) : Vec F S512x1 .f32 :=
  View.canon [⟨rOut, k2_pay1 (View.ld x0 rIn0) (View.ld x1 rIn1) (View.ld x2 rIn2) (View.ld x3 rIn3) (View.ld x4 rIn4)⟩]

theorem cover (p0 : Vec F S512x1 .f32) (y : S512x1.Idx) :
    ∃ pc ∈ ([⟨rOut, p0⟩] : List (View.Piece (Elt F) S512x1 .f32)), y ∈ pc.1.set :=
  View.cover_of_tiled [⟨rOut, p0⟩] S512x1.size (by rfl) y

set_option maxHeartbeats 1000000 in
theorem sound_kernel (c : Dev nD) (E : Set ℕ) (i : grid2.Coords)
    (arg1 : Memref sig .tc .vmem S512x4096 .bf16) (harg1 : arg1.IsWhole) (arg2 : Memref sig .tc .vmem S4096x2048 .bf16) (harg2 : arg2.IsWhole)
    (arg3 : Memref sig .tc .vmem S2048 .f32) (harg3 : arg3.IsWhole) (arg4 : Memref sig .tc .vmem S2048x1 .bf16) (harg4 : arg4.IsWhole)
    (arg5 : Memref sig .tc .vmem S1 .f32) (harg5 : arg5.IsWhole) (arg6 : Memref sig .tc .vmem S512x1 .f32) (harg6 : arg6.IsWhole)
    (x0 : Vec F S512x4096 .bf16) (x1 : Vec F S4096x2048 .bf16) (x2 : Vec F S2048 .f32) (x3 : Vec F S2048x1 .bf16) (x4 : Vec F S1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out x0 x1 x2 x3 x4)) -∗ K ⟨⟩))
      ⊢ wp frame (wpE (defs₀ (F := F)) Variants.none c none) E (cc2__topology_kernel i arg1 harg1 arg2 harg2 arg3 harg3 arg4 harg4 arg5 harg5 arg6 harg6) K := by
  simp only [cc2__topology_kernel_eq_skeleton]; unfold cc2__topology_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out (iblk V c 0 t) (iblk V c 1 t) (iblk V c 2 t) (iblk V c 3 t) (iblk V c 4 t)
  Φ _ := Pipeline.ΦA spec2 c
  q _ := fullShare
  owed _ := 0

theorem A_eq (c : Dev nD) (w : Fin cfg2.W) : (dat V c).A w = V c (Pipeline.arrRef spec2 w) := by
  dsimp only [dat]

theorem after_out (c : Dev nD) (t : Fin cfg2.N) :
    (dat V c).after 5 t = out (iblk V c 0 t) (iblk V c 1 t) (iblk V c 2 t) (iblk V c 3 t) (iblk V c 4 t) := by dsimp only [dat]

theorem before_in (c : Dev nD) (w : Fin cfg2.W) (hw : w ≠ 5) (t : Fin cfg2.N) (d) : (dat V c).before w t d = (dat V c).after w t := by
  fin_cases w <;> first | exact absurd rfl hw | exact
    ((dat V c).before_in_eq_fetched _ rfl (fun _ => rfl) (fun _ _ _ => rfl) (fun _ => rfl) t d).trans rfl

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d)))

def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t))

theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_in V c 0 (by decide), before_in V c 1 (by decide), before_in V c 2 (by decide), before_in V c 3 (by decide), before_in V c 4 (by decide)]
  rw [show (dat V c).owesAt () t.succ = (dat V c).owesAt () t.castSucc from rfl]
  dsimp only [dat]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dat (F := F) V c) (defs₀ (F := F)) Variants.none () Set.univ := fun t => by
  rw [bigSep_W2, bigSep_W2]
  exact sound_body V c t

end Cert.Kernel.Topology

end
-- ==== Proof.Bits.Fold.lean ====
import proofs.«143799_j35253091566215_1_alg».proof.Proof.Bits.FieldRegion
import proofs.«143799_j35253091566215_1_alg».proof.Proof.Bits.WilsonRegion
import proofs.«143799_j35253091566215_1_alg».proof.Proof.Bits.TopologyRegion
import Idealize.ShloMosaic.Lib.Pipeline.FrameSuffix

noncomputable section

namespace Cert.Kernel.Run

open Cert.Kernel Cert.Kernel.Gen
open Idealize.ShloMosaic Idealize.ShloMosaic.TcCoe Idealize.ShloMosaic.Tactic
open Idealize.SL.Sem
open Idealize.ShloMosaic.Pipeline (Dat Cfg Window)

variable {F : FTy → Type} [FloatOps F]

variable (m : (ℓ : Loc nD τ sig) → Buf (Elt F) ℓ) (ρ : Dev nD → PrngReg)

-- Core `c`'s buffers at launch; `W(k+1)` is `Wk` after the next host stretch or region of @main.
abbrev W0 : Dev nD → Valuation τ sig (Elt F) := fun c b => (s₀ m ρ).mem ((c : Dev nD), b)
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
abbrev W6 : Dev nD → Valuation τ sig (Elt F) := fun c => StableHlo.after hostOps0_5 (W5 m ρ c)
abbrev W7 : Dev nD → Valuation τ sig (Elt F) := fun c => StableHlo.after hostOps0_6 (W6 m ρ c)
abbrev W8 : Dev nD → Valuation τ sig (Elt F) := fun c => StableHlo.after hostOps0_7 (W7 m ρ c)
abbrev W9 : Dev nD → Valuation τ sig (Elt F) := fun c => StableHlo.after hostOps0_8 (W8 m ρ c)
abbrev W10 : Dev nD → Valuation τ sig (Elt F) := fun c => StableHlo.after hostOps0_9 (W9 m ρ c)
abbrev W11 : Dev nD → Valuation τ sig (Elt F) := fun c => StableHlo.after hostOps0_10 (W10 m ρ c)
abbrev W12 : Dev nD → Valuation τ sig (Elt F) := fun c => StableHlo.after hostOps0_11 (W11 m ρ c)
abbrev W13 : Dev nD → Valuation τ sig (Elt F) := fun c => StableHlo.after hostOps0_12 (W12 m ρ c)
abbrev W14 : Dev nD → Valuation τ sig (Elt F) := fun c => StableHlo.after hostOps0_13 (W13 m ρ c)
abbrev W15 : Dev nD → Valuation τ sig (Elt F) := fun c => StableHlo.after hostOps0_14 (W14 m ρ c)
abbrev W16 : Dev nD → Valuation τ sig (Elt F) := fun c => StableHlo.after hostOps0_15 (W15 m ρ c)
abbrev W17 : Dev nD → Valuation τ sig (Elt F) := fun c => StableHlo.after hostOps0_16 (W16 m ρ c)
abbrev W18 : Dev nD → Valuation τ sig (Elt F) := fun c => StableHlo.after hostOps0_17 (W17 m ρ c)
abbrev W19 : Dev nD → Valuation τ sig (Elt F) := fun c => StableHlo.after hostOps0_18 (W18 m ρ c)
abbrev W20 : Dev nD → Valuation τ sig (Elt F) := fun c => StableHlo.after hostOps0_19 (W19 m ρ c)
abbrev W21 : Dev nD → Valuation τ sig (Elt F) := fun c => StableHlo.after hostOps0_20 (W20 m ρ c)
abbrev W22 : Dev nD → Valuation τ sig (Elt F) := fun c => StableHlo.after hostOps0_21 (W21 m ρ c)
abbrev W23 : Dev nD → Valuation τ sig (Elt F) := fun c => StableHlo.after hostOps0_22 (W22 m ρ c)
abbrev W24 : Dev nD → Valuation τ sig (Elt F) := fun c => StableHlo.after hostOps0_23 (W23 m ρ c)
abbrev W25 : Dev nD → Valuation τ sig (Elt F) := fun c => StableHlo.after hostOps0_24 (W24 m ρ c)
abbrev W26 : Dev nD → Valuation τ sig (Elt F) := fun c => StableHlo.after hostOps0_25 (W25 m ρ c)
abbrev W27 : Dev nD → Valuation τ sig (Elt F) := fun c => StableHlo.after hostOps0_26 (W26 m ρ c)
abbrev V27 : (c : Dev nD) → (b : Ref sig .tc) → Buf (Elt F) ((c : Thread nD τ).loc b) := fun c b => W27 m ρ c b
-- At a region's exit its windows' arrays hold `arrAt · N` of the region's proof data, every other buffer what it held at entry.
def W28 (c : Dev nD) : Valuation τ sig (Elt F) :=
  Pipeline.withArrays spec0 c (W27 m ρ c) fun w => (Field.dat (V27 m ρ) c).arrAt w cfg0.N
abbrev V28 : (c : Dev nD) → (b : Ref sig .tc) → Buf (Elt F) ((c : Thread nD τ).loc b) := fun c b => W28 m ρ c b
theorem W28_arr (c : Dev nD) (w : Fin cfg0.W) :
    W28 m ρ c (Proc.devRef .tc (Pipeline.arrRef spec0 w)) = (Field.dat (V27 m ρ) c).arrAt w cfg0.N :=
  Pipeline.withArrays_arr spec0 launch0.win.arr_inj c _ _ w
theorem W28_rest (c : Dev nD) (b : Ref sig .tc) (hb : b ∉ Finset.univ.image (Pipeline.arrRef spec0)) :
    W28 m ρ c (Proc.devRef .tc b) = W27 m ρ c (Proc.devRef .tc b) :=
  Pipeline.withArrays_of_ne spec0 c _ _ b fun w e => hb (e ▸ Finset.mem_image_of_mem _ (Finset.mem_univ w))
abbrev W29 : Dev nD → Valuation τ sig (Elt F) := fun c => StableHlo.after hostOps1 (W28 m ρ c)
abbrev V29 : (c : Dev nD) → (b : Ref sig .tc) → Buf (Elt F) ((c : Thread nD τ).loc b) := fun c b => W29 m ρ c b
def W30 (c : Dev nD) : Valuation τ sig (Elt F) :=
  Pipeline.withArrays spec1 c (W29 m ρ c) fun w => (Wilson.dat (V29 m ρ) c).arrAt w cfg1.N
abbrev V30 : (c : Dev nD) → (b : Ref sig .tc) → Buf (Elt F) ((c : Thread nD τ).loc b) := fun c b => W30 m ρ c b
theorem W30_arr (c : Dev nD) (w : Fin cfg1.W) :
    W30 m ρ c (Proc.devRef .tc (Pipeline.arrRef spec1 w)) = (Wilson.dat (V29 m ρ) c).arrAt w cfg1.N :=
  Pipeline.withArrays_arr spec1 launch1.win.arr_inj c _ _ w
theorem W30_rest (c : Dev nD) (b : Ref sig .tc) (hb : b ∉ Finset.univ.image (Pipeline.arrRef spec1)) :
    W30 m ρ c (Proc.devRef .tc b) = W29 m ρ c (Proc.devRef .tc b) :=
  Pipeline.withArrays_of_ne spec1 c _ _ b fun w e => hb (e ▸ Finset.mem_image_of_mem _ (Finset.mem_univ w))
abbrev W31 : Dev nD → Valuation τ sig (Elt F) := fun c => StableHlo.after hostOps2 (W30 m ρ c)
abbrev V31 : (c : Dev nD) → (b : Ref sig .tc) → Buf (Elt F) ((c : Thread nD τ).loc b) := fun c b => W31 m ρ c b
def W32 (c : Dev nD) : Valuation τ sig (Elt F) :=
  Pipeline.withArrays spec2 c (W31 m ρ c) fun w => (Topology.dat (V31 m ρ) c).arrAt w cfg2.N
abbrev V32 : (c : Dev nD) → (b : Ref sig .tc) → Buf (Elt F) ((c : Thread nD τ).loc b) := fun c b => W32 m ρ c b
theorem W32_arr (c : Dev nD) (w : Fin cfg2.W) :
    W32 m ρ c (Proc.devRef .tc (Pipeline.arrRef spec2 w)) = (Topology.dat (V31 m ρ) c).arrAt w cfg2.N :=
  Pipeline.withArrays_arr spec2 launch2.win.arr_inj c _ _ w
theorem W32_rest (c : Dev nD) (b : Ref sig .tc) (hb : b ∉ Finset.univ.image (Pipeline.arrRef spec2)) :
    W32 m ρ c (Proc.devRef .tc b) = W31 m ρ c (Proc.devRef .tc b) :=
  Pipeline.withArrays_of_ne spec2 c _ _ b fun w e => hb (e ▸ Finset.mem_image_of_mem _ (Finset.mem_univ w))

end Cert.Kernel.Run

end
-- ==== Proof.Bits.Run.lean ====
import proofs.«143799_j35253091566215_1_alg».proof.Proof.Bits.Fold
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => Field.dat (V27 m ρ) c
  | ⟨1, _⟩ => fun c => Wilson.dat (V29 m ρ) c
  | ⟨2, _⟩ => fun c => Topology.dat (V31 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (W : Dev nD → Valuation τ sig (Elt F))
    (hfresh : ops.Forall fun op => op.fresh = ∅ := by simp only [List.Forall]; repeat' constructor) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W32 m ρ c) ∗ ∃ r, prngReg c r)
abbrev rd (W : Dev nD → Valuation τ sig (Elt F)) : (c : Dev nD) → (b : Ref sig .tc) → Buf (Elt F) ((c : Thread nD τ).loc b) := fun c b => W c b

set_option backward.isDefEq.respectTransparency.types false in
-- One region as a segment, from the unscoped buffers at `Wi` to the same at `Wo`: the three regions differ only in these data.
def reg (p : Fin 3) (launch : Pipeline.LaunchFacts (nD := nD) (τ := τ) cfgs p) (Wi Wo : Dev nD → Valuation τ sig (Elt F))
    (hbody : ∀ c, Pipeline.BodyObligationLoose (pdats m ρ p c) (defs₀ (F := F)) 𝒱₀ () Set.univ)
    (howed : ∀ c t, (pdats m ρ p c).owed t = 0) (hrec : ∀ c t, (pdats m ρ p c).recorded t = Set.univ)
    (hq : ∀ c w, (pdats m ρ p c).q w = fullShare) (hK : IsEmpty (Fin (pcfgs (F := F) p).pre.K))
    (hΦ : ∀ c t, (pdats m ρ p c).Φ t = (Pipeline.ΦA (Pipeline.pin (pcfgs (F := F)) adm p).spec c : sProp 𝕄))
    (hA : ∀ c w, (pdats m ρ p c).A w = rd Wi c (Pipeline.arrRef (Pipeline.pin (pcfgs (F := F)) adm p).spec w))
    (hF : ∀ c w, (pdats m ρ p c).arrAt w (Pipeline.pin (pcfgs (F := F)) adm p).N = rd Wo c (Pipeline.arrRef (Pipeline.pin (pcfgs (F := F)) adm p).spec w))
    (hrest : ∀ c b, b ∉ Finset.univ.image (Pipeline.arrRef (Pipeline.pin (pcfgs (F := F)) adm p).spec) → rd Wo c b = rd Wi c b) :
    Pipeline.RegionSeg (pcfgs (F := F)) adm (pdats m ρ) () defs₀ 𝒱₀ L lv p where
  win := launch.win.to₀
  block_pos := launch.block_pos
  stage_whole := launch.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (rd Wi c)
  hentry c := by
    rw [Pipeline.ownSems0_none]
    have hsplit := Pipeline.arrays_of_unscopedBufs (p := p) (pcfgs (F := F)) adm (pdats m ρ) launch.win launch.arr_whole c
      ((pdats m ρ p c).share_full (hq c)) (rd Wi c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [Finset.univ_eq_empty, BI.bigSep_empty]; iempintro
    isplitl [HO]
    · unfold Pipeline.Dat.owesAt Pipeline.owesWithin; rw [howed c]
      icases HO with ⟨%W, HO⟩; iexists W; isplitr; · ipureintro; exact fun _ _ => Or.inl (hrec c 0 ▸ Set.mem_univ _)
      iexact HO
    isplitl [Hp]; · iexact Hp
    iexact Hrest
  hin c := by
    rw [hΦ c]; unfold Pipeline.ΦA
    iintro ⟨Hp, -, Hr⟩
    isplitl [Hr]; · iexact Hr
    iexact Hp
  hout c := by
    rw [Pipeline.ownSems0_none, hΦ c]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      launch.win launch.arr_whole c (pdats m ρ) ((pdats m ρ p c).share_full (hq c))
      (rd Wi c) (rd Wo c) ((pdats m ρ p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

abbrev reg0 := reg m ρ 0 launch0 (W27 m ρ) (W28 m ρ) (fun c => (Field.body_obligation (V27 m ρ) c).loose) (fun _ _ => rfl) (fun _ _ => rfl)
  (fun _ _ => rfl) (inferInstanceAs (IsEmpty (Fin 0))) (fun _ _ => rfl) (fun _ _ => rfl) (fun c w => (W28_arr m ρ c w).symm) (W28_rest m ρ)
abbrev reg1 := reg m ρ 1 launch1 (W29 m ρ) (W30 m ρ) (fun c => (Wilson.body_obligation (V29 m ρ) c).loose) (fun _ _ => rfl) (fun _ _ => rfl)
  (fun _ _ => rfl) (inferInstanceAs (IsEmpty (Fin 0))) (fun _ _ => rfl) (fun _ _ => rfl) (fun c w => (W30_arr m ρ c w).symm) (W30_rest m ρ)
abbrev reg2 := reg m ρ 2 launch2 (W31 m ρ) (W32 m ρ) (fun c => (Topology.body_obligation (V31 m ρ) c).loose) (fun _ _ => rfl) (fun _ _ => rfl)
  (fun _ _ => rfl) (inferInstanceAs (IsEmpty (Fin 0))) (fun _ _ => rfl) (fun _ _ => rfl) (fun c w => (W32_arr m ρ c w).symm) (W32_rest m ρ)

-- The last region's exit state, regrouped as the launch reads it.
theorem post_last (c : Dev nD) : iprop(StableHlo.held (c : Thread nD τ) (Pipeline.ucRefs τ sig) (W32 m ρ c) ∗ R c)
    ⊢ iprop(Tₙ m ρ c ∗ ∃ W, owes (c : Thread nD τ) (0 : CellTallies nD τ sig Unit) W) := by
  iintro ⟨Hh, Hp, HO⟩; isplitl [Hh Hp]
  · isplitl [Hh] <;> iassumption
  iexact HO

abbrev segs : List (Pipeline.Seg (pcfgs (F := F)) adm (pdats m ρ) () defs₀ 𝒱₀ L lv) :=
  [ .host (hseg hostOps0 hostOps0_sub (W0 m ρ)),
    .host (hseg hostOps0_1 hostOps0_1_sub (W1 m ρ)),
    .host (hseg hostOps0_2 hostOps0_2_sub (W2 m ρ)),
    .host (hseg hostOps0_3 hostOps0_3_sub (W3 m ρ)),
    .host (hseg hostOps0_4 hostOps0_4_sub (W4 m ρ)),
    .host (hseg hostOps0_5 hostOps0_5_sub (W5 m ρ)),
    .host (hseg hostOps0_6 hostOps0_6_sub (W6 m ρ)),
    .host (hseg hostOps0_7 hostOps0_7_sub (W7 m ρ)),
    .host (hseg hostOps0_8 hostOps0_8_sub (W8 m ρ)),
    .host (hseg hostOps0_9 hostOps0_9_sub (W9 m ρ)),
    .host (hseg hostOps0_10 hostOps0_10_sub (W10 m ρ)),
    .host (hseg hostOps0_11 hostOps0_11_sub (W11 m ρ)),
    .host (hseg hostOps0_12 hostOps0_12_sub (W12 m ρ)),
    .host (hseg hostOps0_13 hostOps0_13_sub (W13 m ρ)),
    .host (hseg hostOps0_14 hostOps0_14_sub (W14 m ρ)),
    .host (hseg hostOps0_15 hostOps0_15_sub (W15 m ρ)),
    .host (hseg hostOps0_16 hostOps0_16_sub (W16 m ρ)),
    .host (hseg hostOps0_17 hostOps0_17_sub (W17 m ρ)),
    .host (hseg hostOps0_18 hostOps0_18_sub (W18 m ρ)),
    .host (hseg hostOps0_19 hostOps0_19_sub (W19 m ρ)),
    .host (hseg hostOps0_20 hostOps0_20_sub (W20 m ρ)),
    .host (hseg hostOps0_21 hostOps0_21_sub (W21 m ρ)),
    .host (hseg hostOps0_22 hostOps0_22_sub (W22 m ρ)),
    .host (hseg hostOps0_23 hostOps0_23_sub (W23 m ρ)),
    .host (hseg hostOps0_24 hostOps0_24_sub (W24 m ρ)),
    .host (hseg hostOps0_25 hostOps0_25_sub (W25 m ρ)),
    .host (hseg hostOps0_26 hostOps0_26_sub (W26 m ρ)),
    .region (reg0 m ρ),
    .host (hseg hostOps1 hostOps1_sub (W28 m ρ)),
    .region (reg1 m ρ),
    .host (hseg hostOps2 hostOps2_sub (W30 m ρ)),
    .region (reg2 m ρ) ]
theorem main_run (c : Dev nD) : main (F := F) c = Pipeline.Seg.run (segs m ρ) := (main_chain c).trans (by chain_rfl)
set_option backward.isDefEq.respectTransparency.types false in
theorem run_main : θ_run defs (onTc (τ := τ) (main (F := F))) ⟨m, fun _ => 0, ρ⟩
    (fun r => ∀ c : Dev nD, ∀ b ∈ Pipeline.ucRefs τ sig, r.2.mem (((c : Thread nD τ)).1, b) = W32 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, post_last m ρ⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W32 m ρ c b)
    (hfin := fun c s' => by
      iintro ⟨⟨Hh, -⟩, HSI⟩
      unfold StableHlo.held
      imodintro
      iapply (pointsTo_read_all (Pipeline.ucRefs τ sig) (fun b => (((c : Thread nD τ)).1, b)) (W32 m ρ c) s')
      isplitl [Hh] <;> iassumption)
    (hQ := fun s h => h)

end Cert.Kernel.Run

end
-- ==== Proof.Bits.ArgsKept.lean ====
import proofs.«143799_j35253091566215_1_alg».proof.Proof.Bits.Fold

noncomputable section

namespace Cert.Kernel.Run

open Cert.Kernel Cert.Kernel.Gen
open Idealize.ShloMosaic Idealize.ShloMosaic.TcCoe Idealize.ShloMosaic.Tactic
open Idealize.SL.Sem
open Idealize.ShloMosaic.Pipeline (Dat Cfg Window)

variable {F : FTy → Type} [FloatOps F]

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9, main_arg10, main_arg11, main_arg12, main_arg13, main_arg14, main_arg15]
abbrev keep1 : List (Ref sig .tc) := main_v616 :: main_v620 :: argRefs
abbrev keep2 : List (Ref sig .tc) := main_v621 :: main_v625 :: keep1
noncomputable abbrev pre26 : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25]

-- The operation writes exactly one buffer, whose index is no index of the list `K`.
def WritesOff (K : List (Ref sig .tc)) (op : HloOp τ sig (Elt F)) : Prop :=
  ∃ y : Ref sig .tc, op.writes = {Proc.devRef .tc y} ∧ y.idx.val ∉ K.map (·.idx.val)

-- A stretch keeps every buffer none of its operations writes.
theorem after_kept {K : List (Ref sig .tc)} (ops : List (HloOp τ sig (Elt F))) (V : Valuation τ sig (Elt F))
    (h : ops.Forall (WritesOff K)) {r : Ref sig .tc} (hr : r ∈ K) :
    StableHlo.after ops V (Proc.devRef .tc r) = V (Proc.devRef .tc r) :=
  StableHlo.after_of_forall_not_mem ops V fun op hop hb => by
    obtain ⟨y, hy, hK⟩ := (List.forall_iff_forall_mem.mp h) op hop
    rw [hy, Finset.mem_singleton] at hb
    exact hK (Proc.devRef_injective _ hb ▸ List.mem_map_of_mem hr)

-- The same through a chain of stretches, by induction on the chain.
theorem foldl_after_kept {K : List (Ref sig .tc)} (L : List (List (HloOp τ sig (Elt F)))) (V : Valuation τ sig (Elt F))
    (h : L.Forall (·.Forall (WritesOff K))) {r : Ref sig .tc} (hr : r ∈ K) :
    L.foldl (fun V ops => StableHlo.after ops V) V (Proc.devRef .tc r) = V (Proc.devRef .tc r) := by
  induction L generalizing V with
  | nil => rfl
  | cons ops L ih => rw [List.forall_cons] at h; exact (ih _ h.2).trans (after_kept ops V h.1 hr)

-- No stretch before a region writes what must reach that region or the return: each operation's one written buffer is read off.
theorem stretches_off : (pre26 (F := F)).Forall (·.Forall (WritesOff argRefs)) ∧ (hostOps0_26 : List (HloOp τ sig (Elt F))).Forall (WritesOff argRefs)
    ∧ (hostOps1 : List (HloOp τ sig (Elt F))).Forall (WritesOff keep1) ∧ (hostOps2 : List (HloOp τ sig (Elt F))).Forall (WritesOff keep2) := by
  simp only [List.Forall]; repeat' apply And.intro
  all_goals exact ⟨_, rfl, by decide⟩

theorem W26_arg (c : Dev nD) {r : Ref sig .tc} (hr : r ∈ argRefs) : W26 m ρ c (Proc.devRef .tc r) = m ((c : Thread nD τ).loc r) := by
  have h := foldl_after_kept pre26 (W0 m ρ c) stretches_off.1 hr
  simp only [List.foldl_cons, List.foldl_nil] at h; exact h
theorem W27_arg (c : Dev nD) {r : Ref sig .tc} (hr : r ∈ argRefs) : W27 m ρ c (Proc.devRef .tc r) = m ((c : Thread nD τ).loc r) :=
  (after_kept hostOps0_26 _ stretches_off.2.1 hr).trans (W26_arg m ρ c hr)

-- At a region's exit only its output window's array differs from the entry contents.
theorem W28_in (c : Dev nD) {b : Ref sig .tc} (hb : b ≠ main_v620) : W28 m ρ c (Proc.devRef .tc b) = W27 m ρ c (Proc.devRef .tc b) := by
  by_cases h : b ∈ Finset.univ.image (Pipeline.arrRef spec0)
  · obtain ⟨w, -, rfl⟩ := Finset.mem_image.mp h
    exact (W28_arr m ρ c w).trans (((Field.dat (V27 m ρ) c).arrAt_in w ((by decide : ∀ w : Fin cfg0.W, Pipeline.arrRef spec0 w ≠ main_v620 → (cfg0.win w).isOut = false) w hb) _).trans (Field.A_eq (V27 m ρ) c w))
  · exact W28_rest m ρ c b h

theorem W30_in (c : Dev nD) {b : Ref sig .tc} (hb : b ≠ main_v625) : W30 m ρ c (Proc.devRef .tc b) = W29 m ρ c (Proc.devRef .tc b) := by
  by_cases h : b ∈ Finset.univ.image (Pipeline.arrRef spec1)
  · obtain ⟨w, -, rfl⟩ := Finset.mem_image.mp h
    exact (W30_arr m ρ c w).trans (((Wilson.dat (V29 m ρ) c).arrAt_in w ((by decide : ∀ w : Fin cfg1.W, Pipeline.arrRef spec1 w ≠ main_v625 → (cfg1.win w).isOut = false) w hb) _).trans (Wilson.A_eq (V29 m ρ) c w))
  · exact W30_rest m ρ c b h

theorem W32_in (c : Dev nD) {b : Ref sig .tc} (hb : b ≠ main_v628) : W32 m ρ c (Proc.devRef .tc b) = W31 m ρ c (Proc.devRef .tc b) := by
  by_cases h : b ∈ Finset.univ.image (Pipeline.arrRef spec2)
  · obtain ⟨w, -, rfl⟩ := Finset.mem_image.mp h
    exact (W32_arr m ρ c w).trans (((Topology.dat (V31 m ρ) c).arrAt_in w ((by decide : ∀ w : Fin cfg2.W, Pipeline.arrRef spec2 w ≠ main_v628 → (cfg2.win w).isOut = false) w hb) _).trans (Topology.A_eq (V31 m ρ) c w))
  · exact W32_rest m ρ c b h

theorem W29_kept (c : Dev nD) {r : Ref sig .tc} (hr : r ∈ keep1) : W29 m ρ c (Proc.devRef .tc r) = W28 m ρ c (Proc.devRef .tc r) :=
  after_kept hostOps1 _ stretches_off.2.2.1 hr
theorem W31_kept (c : Dev nD) {r : Ref sig .tc} (hr : r ∈ keep2) : W31 m ρ c (Proc.devRef .tc r) = W30 m ρ c (Proc.devRef .tc r) :=
  after_kept hostOps2 _ stretches_off.2.2.2 hr
-- What must outlive the first region is neither later region's output, and no later stretch writes it.
theorem W32_of_W28 (c : Dev nD) {r : Ref sig .tc} (hr : r ∈ keep1) : W32 m ρ c (Proc.devRef .tc r) = W28 m ρ c (Proc.devRef .tc r) :=
  (W32_in m ρ c (ne_of_mem_of_not_mem hr (by decide))).trans <| (W31_kept m ρ c (.tail _ (.tail _ hr))).trans <|
    (W30_in m ρ c (ne_of_mem_of_not_mem hr (by decide))).trans (W29_kept m ρ c hr)

theorem W28_arg (c : Dev nD) {r : Ref sig .tc} (hr : r ∈ argRefs) : W28 m ρ c (Proc.devRef .tc r) = m ((c : Thread nD τ).loc r) :=
  (W28_in m ρ c (ne_of_mem_of_not_mem hr (by decide))).trans (W27_arg m ρ c hr)
theorem W29_arg (c : Dev nD) {r : Ref sig .tc} (hr : r ∈ argRefs) : W29 m ρ c (Proc.devRef .tc r) = m ((c : Thread nD τ).loc r) :=
  (W29_kept m ρ c (.tail _ (.tail _ hr))).trans (W28_arg m ρ c hr)
theorem W30_arg (c : Dev nD) {r : Ref sig .tc} (hr : r ∈ argRefs) : W30 m ρ c (Proc.devRef .tc r) = m ((c : Thread nD τ).loc r) :=
  (W30_in m ρ c (ne_of_mem_of_not_mem hr (by decide))).trans (W29_arg m ρ c hr)
theorem W31_arg (c : Dev nD) {r : Ref sig .tc} (hr : r ∈ argRefs) : W31 m ρ c (Proc.devRef .tc r) = m ((c : Thread nD τ).loc r) :=
  (W31_kept m ρ c (.tail _ (.tail _ (.tail _ (.tail _ hr))))).trans (W30_arg m ρ c hr)
theorem W32_arg (c : Dev nD) {r : Ref sig .tc} (hr : r ∈ argRefs) : W32 m ρ c (Proc.devRef .tc r) = m ((c : Thread nD τ).loc r) :=
  (W32_of_W28 m ρ c (.tail _ (.tail _ hr))).trans (W28_arg m ρ c hr)
theorem V27_arg (c : Dev nD) {r : Ref sig .tc} (hr : r ∈ argRefs) : V27 m ρ c r = m ((c : Thread nD τ).loc r) := W27_arg m ρ c hr
theorem V29_arg (c : Dev nD) {r : Ref sig .tc} (hr : r ∈ argRefs) : V29 m ρ c r = m ((c : Thread nD τ).loc r) := W29_arg m ρ c hr
theorem V31_arg (c : Dev nD) {r : Ref sig .tc} (hr : r ∈ argRefs) : V31 m ρ c r = m ((c : Thread nD τ).loc r) := W31_arg m ρ c hr

theorem W28_v620 (c : Dev nD) : W28 m ρ c (Proc.devRef .tc main_v620) = (Field.dat (V27 m ρ) c).arrAt 5 cfg0.N :=
  W28_arr m ρ c 5
theorem W32_v620 (c : Dev nD) : W32 m ρ c (Proc.devRef .tc main_v620) = (Field.dat (V27 m ρ) c).arrAt 5 cfg0.N :=
  (W32_of_W28 m ρ c (by decide)).trans (W28_arr m ρ c 5)
theorem W32_v625 (c : Dev nD) : W32 m ρ c (Proc.devRef .tc main_v625) = (Wilson.dat (V29 m ρ) c).arrAt 7 cfg1.N :=
  (W32_in m ρ c (by decide)).trans <| (W31_kept m ρ c (by decide)).trans (W30_arr m ρ c 7)
theorem W32_v628 (c : Dev nD) : W32 m ρ c (Proc.devRef .tc main_v628) = (Topology.dat (V31 m ρ) c).arrAt 5 cfg2.N :=
  W32_arr m ρ c 5
theorem W32_v616 (c : Dev nD) : W32 m ρ c (Proc.devRef .tc main_v616) = W27 m ρ c (Proc.devRef .tc main_v616) :=
  (W32_of_W28 m ρ c (by decide)).trans (W28_in m ρ c (by decide))

-- Each network's matrix operands are arguments narrowed to bf16 by the stretch before its region.
theorem V27_v617 (c : Dev nD) : V27 m ρ c main_v617 = ((truncf .bf16 · bitsLt_bf16_f32) : (⟨S16384x4, .f32⟩ : BufTy).Contents (Elt F) → (⟨S16384x4, .bf16⟩ : BufTy).Contents (Elt F)) (m ((c : Thread nD τ).loc main_arg0)) := by
  rw [← W26_arg m ρ c (r := main_arg0) (by decide)]; show StableHlo.after hostOps0_26 (W26 m ρ c) _ = _
  generalize W26 m ρ c = V; after_results_simp
theorem V27_v618 (c : Dev nD) : V27 m ρ c main_v618 = ((truncf .bf16 · bitsLt_bf16_f32) : (⟨S4x2048, .f32⟩ : BufTy).Contents (Elt F) → (⟨S4x2048, .bf16⟩ : BufTy).Contents (Elt F)) (m ((c : Thread nD τ).loc main_arg2)) := by
  rw [← W26_arg m ρ c (r := main_arg2) (by decide)]; show StableHlo.after hostOps0_26 (W26 m ρ c) _ = _
  generalize W26 m ρ c = V; after_results_simp
theorem V27_v619 (c : Dev nD) : V27 m ρ c main_v619 = ((truncf .bf16 · bitsLt_bf16_f32) : (⟨S2048x4096, .f32⟩ : BufTy).Contents (Elt F) → (⟨S2048x4096, .bf16⟩ : BufTy).Contents (Elt F)) (m ((c : Thread nD τ).loc main_arg4)) := by
  rw [← W26_arg m ρ c (r := main_arg4) (by decide)]; show StableHlo.after hostOps0_26 (W26 m ρ c) _ = _
  generalize W26 m ρ c = V; after_results_simp
theorem V29_v621 (c : Dev nD) : V29 m ρ c main_v621 = ((truncf .bf16 · bitsLt_bf16_f32) : (⟨S16384x4096, .f32⟩ : BufTy).Contents (Elt F) → (⟨S16384x4096, .bf16⟩ : BufTy).Contents (Elt F)) (W28 m ρ c (Proc.devRef .tc main_v620)) := by
  show StableHlo.after hostOps1 (W28 m ρ c) _ = _
  generalize W28 m ρ c = V; after_results_simp
theorem V29_v622 (c : Dev nD) : V29 m ρ c main_v622 = ((truncf .bf16 · bitsLt_bf16_f32) : (⟨S4096x2048, .f32⟩ : BufTy).Contents (Elt F) → (⟨S4096x2048, .bf16⟩ : BufTy).Contents (Elt F)) (m ((c : Thread nD τ).loc main_arg6)) := by
  rw [← W28_arg m ρ c (r := main_arg6) (by decide)]; show StableHlo.after hostOps1 (W28 m ρ c) _ = _
  generalize W28 m ρ c = V; after_results_simp
theorem V29_v623 (c : Dev nD) : V29 m ρ c main_v623 = ((truncf .bf16 · bitsLt_bf16_f32) : (⟨S2048x1024, .f32⟩ : BufTy).Contents (Elt F) → (⟨S2048x1024, .bf16⟩ : BufTy).Contents (Elt F)) (m ((c : Thread nD τ).loc main_arg8)) := by
  rw [← W28_arg m ρ c (r := main_arg8) (by decide)]; show StableHlo.after hostOps1 (W28 m ρ c) _ = _
  generalize W28 m ρ c = V; after_results_simp
theorem V29_v624 (c : Dev nD) : V29 m ρ c main_v624 = ((truncf .bf16 · bitsLt_bf16_f32) : (⟨S1024x1, .f32⟩ : BufTy).Contents (Elt F) → (⟨S1024x1, .bf16⟩ : BufTy).Contents (Elt F)) (m ((c : Thread nD τ).loc main_arg10)) := by
  rw [← W28_arg m ρ c (r := main_arg10) (by decide)]; show StableHlo.after hostOps1 (W28 m ρ c) _ = _
  generalize W28 m ρ c = V; after_results_simp
theorem V31_v621 (c : Dev nD) : V31 m ρ c main_v621 = V29 m ρ c main_v621 :=
  (W31_kept m ρ c (by decide)).trans (W30_in m ρ c (by decide))
theorem V31_v626 (c : Dev nD) : V31 m ρ c main_v626 = ((truncf .bf16 · bitsLt_bf16_f32) : (⟨S4096x2048, .f32⟩ : BufTy).Contents (Elt F) → (⟨S4096x2048, .bf16⟩ : BufTy).Contents (Elt F)) (m ((c : Thread nD τ).loc main_arg12)) := by
  rw [← W30_arg m ρ c (r := main_arg12) (by decide)]; show StableHlo.after hostOps2 (W30 m ρ c) _ = _
  generalize W30 m ρ c = V; after_results_simp
theorem V31_v627 (c : Dev nD) : V31 m ρ c main_v627 = ((truncf .bf16 · bitsLt_bf16_f32) : (⟨S2048x1, .f32⟩ : BufTy).Contents (Elt F) → (⟨S2048x1, .bf16⟩ : BufTy).Contents (Elt F)) (m ((c : Thread nD τ).loc main_arg14)) := by
  rw [← W30_arg m ρ c (r := main_arg14) (by decide)]; show StableHlo.after hostOps2 (W30 m ρ c) _ = _
  generalize W30 m ρ c = V; after_results_simp

end Cert.Kernel.Run

end
-- ==== Proof.Reference.Ops.lean ====
import proofs.«143799_j35253091566215_1_alg».proof.ReferenceIdeal
import proofs.«143799_j35253091566215_1_alg».proof.Proof.Gen.ReferenceIdeal
import Idealize.ShloMosaic.Lib.Pipeline.Regions
import Idealize.ShloMosaic.Lib.StableHlo.Run

set_option maxRecDepth 8192

noncomputable section

namespace Cert.ReferenceIdeal.Run

open Idealize.ShloMosaic Idealize.ShloMosaic.TcCoe Idealize.SL.Sem
open Cert.ReferenceIdeal Cert.ReferenceIdeal.Gen

variable {F : FTy → Type} [FloatOps F]

-- One call of the floored remainder of x by y (a zero y read as one), as host operations over the call's buffers.
noncomputable abbrev remainder0Ops (x y : StableHlo.TRef sig ⟨S_, .i32⟩) (φ : fn_remainder_0.Bufs) : List (HloOp τ sig (Elt F)) :=
  [ StableHlo.TRef.unary y φ.v0 id,
    StableHlo.TRef.nullary φ.c (constantI S_ 32 0#32),
    StableHlo.TRef.binary φ.v0 φ.c φ.v1 (cmpi .eq),
    StableHlo.TRef.nullary φ.c_0 (constantI S_ 32 1#32),
    StableHlo.TRef.ternary φ.v1 φ.c_0 φ.v0 φ.call0.v0 select,
    StableHlo.TRef.binary x φ.call0.v0 φ.v3 Host.remsi,
    StableHlo.TRef.nullary φ.c_1 (constantI S_ 32 0#32),
    StableHlo.TRef.binary φ.v3 φ.c_1 φ.v4 (cmpi .ne),
    StableHlo.TRef.nullary φ.c_2 (constantI S_ 32 0#32),
    StableHlo.TRef.binary φ.v3 φ.c_2 φ.v5 (cmpi .slt),
    StableHlo.TRef.nullary φ.c_3 (constantI S_ 32 0#32),
    StableHlo.TRef.binary φ.call0.v0 φ.c_3 φ.v6 (cmpi .slt),
    StableHlo.TRef.binary φ.v5 φ.v6 φ.v7 (cmpi .ne),
    StableHlo.TRef.binary φ.v7 φ.v4 φ.v8 andi,
    StableHlo.TRef.binary φ.v3 φ.call0.v0 φ.v9 addi,
    StableHlo.TRef.ternary φ.v8 φ.v9 φ.v3 φ.v10 select ]

noncomputable abbrev w0_i0 : List (HloOp τ sig (Elt F)) :=
  ( StableHlo.binary main_arg0 main_arg2 main_v0 ((fun l r => Host.dotGeneral dot_S16384x4_S4x2048_S16384x2048_1_0_0_1_n_n none l r) : (⟨S16384x4, .f32⟩ : BufTy).Contents (Elt F) → (⟨S4x2048, .f32⟩ : BufTy).Contents (Elt F) → (⟨S16384x2048, .f32⟩ : BufTy).Contents (Elt F))
  :: StableHlo.unary main_arg3 main_v1 (broadcastInDim S1x2048 ![1] bcast_S2048_S1x2048_1 : (⟨S2048, .f32⟩ : BufTy).Contents (Elt F) → (⟨S1x2048, .f32⟩ : BufTy).Contents (Elt F))
  :: StableHlo.unary main_v1 main_v2 (broadcastInDim S16384x2048 ![0, 1] bcast_S1x2048_S16384x2048_0_1 : (⟨S1x2048, .f32⟩ : BufTy).Contents (Elt F) → (⟨S16384x2048, .f32⟩ : BufTy).Contents (Elt F))
  :: StableHlo.binary main_v0 main_v2 main_v3 (addf : (⟨S16384x2048, .f32⟩ : BufTy).Contents (Elt F) → (⟨S16384x2048, .f32⟩ : BufTy).Contents (Elt F) → (⟨S16384x2048, .f32⟩ : BufTy).Contents (Elt F))
  :: StableHlo.nullary main_cst (constant S_ .f32 0x00000000#32)
  :: StableHlo.unary main_cst main_v4 (broadcastInDim S16384x2048 ![] bcast_S_S16384x2048 : (⟨S_, .f32⟩ : BufTy).Contents (Elt F) → (⟨S16384x2048, .f32⟩ : BufTy).Contents (Elt F))
  :: StableHlo.binary main_v3 main_v4 main_v5 (maximumf : (⟨S16384x2048, .f32⟩ : BufTy).Contents (Elt F) → (⟨S16384x2048, .f32⟩ : BufTy).Contents (Elt F) → (⟨S16384x2048, .f32⟩ : BufTy).Contents (Elt F))
  :: StableHlo.binary main_v5 main_arg4 main_v6 ((fun l r => Host.dotGeneral dot_S16384x2048_S2048x4096_S16384x4096_1_0_0_1_n_n none l r) : (⟨S16384x2048, .f32⟩ : BufTy).Contents (Elt F) → (⟨S2048x4096, .f32⟩ : BufTy).Contents (Elt F) → (⟨S16384x4096, .f32⟩ : BufTy).Contents (Elt F))
  :: StableHlo.unary main_arg5 main_v7 (broadcastInDim S1x4096 ![1] bcast_S4096_S1x4096_1 : (⟨S4096, .f32⟩ : BufTy).Contents (Elt F) → (⟨S1x4096, .f32⟩ : BufTy).Contents (Elt F))
  :: StableHlo.unary main_v7 main_v8 (broadcastInDim S16384x4096 ![0, 1] bcast_S1x4096_S16384x4096_0_1 : (⟨S1x4096, .f32⟩ : BufTy).Contents (Elt F) → (⟨S16384x4096, .f32⟩ : BufTy).Contents (Elt F))
  :: StableHlo.binary main_v6 main_v8 main_v9 (addf : (⟨S16384x4096, .f32⟩ : BufTy).Contents (Elt F) → (⟨S16384x4096, .f32⟩ : BufTy).Contents (Elt F) → (⟨S16384x4096, .f32⟩ : BufTy).Contents (Elt F))
  :: StableHlo.unary main_arg0 main_v10 ((extractStridedSlice S1x4 ![0, 0] · slices_S16384x4_S1x4_0_0) : (⟨S16384x4, .f32⟩ : BufTy).Contents (Elt F) → (⟨S1x4, .f32⟩ : BufTy).Contents (Elt F))
  :: StableHlo.reshape main_v10 main_v11 rfl shapeCasts_S1x4_S4
  :: StableHlo.unary main_v11 main_v12 (fptosi 32 : (⟨S4, .f32⟩ : BufTy).Contents (Elt F) → (⟨S4, .i32⟩ : BufTy).Contents (Elt F))
  :: StableHlo.nullary main_c (constantI S_ 32 10#32)
  :: [] )
noncomputable abbrev w0_i1 : List (HloOp τ sig (Elt F)) :=
  ( StableHlo.TRef.unary (.of main_c : StableHlo.TRef sig ⟨S_, .i32⟩) (.of main_call0_v0 : StableHlo.TRef sig ⟨S_, .i32⟩) id
  :: StableHlo.TRef.nullary (.of main_call0_c : StableHlo.TRef sig ⟨S_, .i32⟩) (constantI S_ 32 0#32)
  :: StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq)
  :: StableHlo.TRef.nullary (.of main_call0_c_0 : StableHlo.TRef sig ⟨S_, .i32⟩) (constantI S_ 32 1#32)
  :: StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select
  :: StableHlo.TRef.unary main_call0_call0.v0 (.of main_call0_v3 : StableHlo.TRef sig ⟨S4, .i32⟩) (broadcastInDim S4 ![] bcast_S_S4)
  :: StableHlo.TRef.binary (.of main_v12 : StableHlo.TRef sig ⟨S4, .i32⟩) (.of main_call0_v3 : StableHlo.TRef sig ⟨S4, .i32⟩) (.of main_call0_v4 : StableHlo.TRef sig ⟨S4, .i32⟩) Host.remsi
  :: StableHlo.TRef.nullary (.of main_call0_c_1 : StableHlo.TRef sig ⟨S_, .i32⟩) (constantI S_ 32 0#32)
  :: StableHlo.TRef.unary (.of main_call0_c_1 : StableHlo.TRef sig ⟨S_, .i32⟩) (.of main_call0_v5 : StableHlo.TRef sig ⟨S4, .i32⟩) (broadcastInDim S4 ![] bcast_S_S4)
  :: StableHlo.TRef.binary (.of main_call0_v4 : StableHlo.TRef sig ⟨S4, .i32⟩) (.of main_call0_v5 : StableHlo.TRef sig ⟨S4, .i32⟩) (.of main_call0_v6 : StableHlo.TRef sig ⟨S4, .i1⟩) (cmpi .ne)
  :: StableHlo.TRef.nullary (.of main_call0_c_2 : StableHlo.TRef sig ⟨S_, .i32⟩) (constantI S_ 32 0#32)
  :: StableHlo.TRef.unary (.of main_call0_c_2 : StableHlo.TRef sig ⟨S_, .i32⟩) (.of main_call0_v7 : StableHlo.TRef sig ⟨S4, .i32⟩) (broadcastInDim S4 ![] bcast_S_S4)
  :: StableHlo.TRef.binary (.of main_call0_v4 : StableHlo.TRef sig ⟨S4, .i32⟩) (.of main_call0_v7 : StableHlo.TRef sig ⟨S4, .i32⟩) (.of main_call0_v8 : StableHlo.TRef sig ⟨S4, .i1⟩) (cmpi .slt)
  :: StableHlo.TRef.nullary (.of main_call0_c_3 : StableHlo.TRef sig ⟨S_, .i32⟩) (constantI S_ 32 0#32)
  :: StableHlo.TRef.binary main_call0_call0.v0 (.of main_call0_c_3 : StableHlo.TRef sig ⟨S_, .i32⟩) (.of main_call0_v9 : StableHlo.TRef sig ⟨S_, .i1⟩) (cmpi .slt)
  :: StableHlo.TRef.unary (.of main_call0_v9 : StableHlo.TRef sig ⟨S_, .i1⟩) (.of main_call0_v10 : StableHlo.TRef sig ⟨S4, .i1⟩) (broadcastInDim S4 ![] bcast_S_S4)
  :: StableHlo.TRef.binary (.of main_call0_v8 : StableHlo.TRef sig ⟨S4, .i1⟩) (.of main_call0_v10 : StableHlo.TRef sig ⟨S4, .i1⟩) (.of main_call0_v11 : StableHlo.TRef sig ⟨S4, .i1⟩) (cmpi .ne)
  :: StableHlo.TRef.binary (.of main_call0_v11 : StableHlo.TRef sig ⟨S4, .i1⟩) (.of main_call0_v6 : StableHlo.TRef sig ⟨S4, .i1⟩) (.of main_call0_v12 : StableHlo.TRef sig ⟨S4, .i1⟩) andi
  :: StableHlo.TRef.unary main_call0_call0.v0 (.of main_call0_v13 : StableHlo.TRef sig ⟨S4, .i32⟩) (broadcastInDim S4 ![] bcast_S_S4)
  :: StableHlo.TRef.binary (.of main_call0_v4 : StableHlo.TRef sig ⟨S4, .i32⟩) (.of main_call0_v13 : StableHlo.TRef sig ⟨S4, .i32⟩) (.of main_call0_v14 : StableHlo.TRef sig ⟨S4, .i32⟩) addi
  :: StableHlo.TRef.ternary (.of main_call0_v12 : StableHlo.TRef sig ⟨S4, .i1⟩) (.of main_call0_v14 : StableHlo.TRef sig ⟨S4, .i32⟩) (.of main_call0_v4 : StableHlo.TRef sig ⟨S4, .i32⟩) (.of main_v13 : StableHlo.TRef sig ⟨S4, .i32⟩) select
  :: [] )
noncomputable abbrev w0_i2 : List (HloOp τ sig (Elt F)) :=
  ( StableHlo.nullary main_cst_0 (constant S_ .f32 0x3F800000#32)
  :: StableHlo.unary main_cst_0 main_v14 (broadcastInDim S1 ![] bcast_S_S1 : (⟨S_, .f32⟩ : BufTy).Contents (Elt F) → (⟨S1, .f32⟩ : BufTy).Contents (Elt F))
  :: StableHlo.unary main_v13 main_v15 ((extractStridedSlice S1 ![0] · slices_S4_S1_0) : (⟨S4, .i32⟩ : BufTy).Contents (Elt F) → (⟨S1, .i32⟩ : BufTy).Contents (Elt F))
  :: StableHlo.reshape main_v15 main_v16 rfl shapeCasts_S1_S_
  :: StableHlo.unary main_v13 main_v17 ((extractStridedSlice S1 ![1] · slices_S4_S1_1) : (⟨S4, .i32⟩ : BufTy).Contents (Elt F) → (⟨S1, .i32⟩ : BufTy).Contents (Elt F))
  :: StableHlo.reshape main_v17 main_v18 rfl shapeCasts_S1_S_
  :: StableHlo.unary main_v13 main_v19 ((extractStridedSlice S1 ![2] · slices_S4_S1_2) : (⟨S4, .i32⟩ : BufTy).Contents (Elt F) → (⟨S1, .i32⟩ : BufTy).Contents (Elt F))
  :: StableHlo.reshape main_v19 main_v20 rfl shapeCasts_S1_S_
  :: StableHlo.nullary main_c_1 (constantI S_ 32 0#32)
  :: StableHlo.binary main_v16 main_c_1 main_v21 (cmpi .slt : (⟨S_, .i32⟩ : BufTy).Contents (Elt F) → (⟨S_, .i32⟩ : BufTy).Contents (Elt F) → (⟨S_, .i1⟩ : BufTy).Contents (Elt F))
  :: StableHlo.nullary main_c_2 (constantI S_ 32 10#32)
  :: StableHlo.binary main_v16 main_c_2 main_v22 (addi : (⟨S_, .i32⟩ : BufTy).Contents (Elt F) → (⟨S_, .i32⟩ : BufTy).Contents (Elt F) → (⟨S_, .i32⟩ : BufTy).Contents (Elt F))
  :: StableHlo.ternary main_v21 main_v22 main_v16 main_v23 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_3 (constantI S_ 32 0#32)
  :: StableHlo.binary main_v18 main_c_3 main_v24 (cmpi .slt : (⟨S_, .i32⟩ : BufTy).Contents (Elt F) → (⟨S_, .i32⟩ : BufTy).Contents (Elt F) → (⟨S_, .i1⟩ : BufTy).Contents (Elt F))
  :: StableHlo.nullary main_c_4 (constantI S_ 32 10#32)
  :: StableHlo.binary main_v18 main_c_4 main_v25 (addi : (⟨S_, .i32⟩ : BufTy).Contents (Elt F) → (⟨S_, .i32⟩ : BufTy).Contents (Elt F) → (⟨S_, .i32⟩ : BufTy).Contents (Elt F))
  :: StableHlo.ternary main_v24 main_v25 main_v18 main_v26 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_5 (constantI S_ 32 0#32)
  :: StableHlo.binary main_v20 main_c_5 main_v27 (cmpi .slt : (⟨S_, .i32⟩ : BufTy).Contents (Elt F) → (⟨S_, .i32⟩ : BufTy).Contents (Elt F) → (⟨S_, .i1⟩ : BufTy).Contents (Elt F))
  :: StableHlo.nullary main_c_6 (constantI S_ 32 10#32)
  :: StableHlo.binary main_v20 main_c_6 main_v28 (addi : (⟨S_, .i32⟩ : BufTy).Contents (Elt F) → (⟨S_, .i32⟩ : BufTy).Contents (Elt F) → (⟨S_, .i32⟩ : BufTy).Contents (Elt F))
  :: StableHlo.ternary main_v27 main_v28 main_v20 main_v29 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_7 (constantI S_ 32 0#32)
  :: StableHlo.nullary main_c_8 (constantI S_ 32 0#32)
  :: StableHlo.binary main_c_7 main_c_8 main_v30 (cmpi .slt : (⟨S_, .i32⟩ : BufTy).Contents (Elt F) → (⟨S_, .i32⟩ : BufTy).Contents (Elt F) → (⟨S_, .i1⟩ : BufTy).Contents (Elt F))
  :: StableHlo.nullary main_c_9 (constantI S_ 32 0#32)
  :: StableHlo.nullary main_c_10 (constantI S_ 32 4#32)
  :: StableHlo.binary main_c_9 main_c_10 main_v31 (addi : (⟨S_, .i32⟩ : BufTy).Contents (Elt F) → (⟨S_, .i32⟩ : BufTy).Contents (Elt F) → (⟨S_, .i32⟩ : BufTy).Contents (Elt F))
  :: StableHlo.nullary main_c_11 (constantI S_ 32 0#32)
  :: StableHlo.ternary main_v30 main_v31 main_c_11 main_v32 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v23, main_v26, main_v29, main_v32] ⟨S_, .i32⟩ main_v33 ((fun x i => Host.dynamicSlice S1x1x1x1 x (fun k => (i k (Shape.Idx.first h_S_)).toInt) sliceFits_S10x10x10x4_S1x1x1x1) : (⟨S10x10x10x4, .f32⟩ : BufTy).Contents (Elt F) → (Fin 4 → (⟨S_, .i32⟩ : BufTy).Contents (Elt F)) → (⟨S1x1x1x1, .f32⟩ : BufTy).Contents (Elt F))
  :: StableHlo.reshape main_v33 main_v34 rfl shapeCasts_S1x1x1x1_S_
  :: StableHlo.unary main_v13 main_v35 ((extractStridedSlice S1 ![0] · slices_S4_S1_0) : (⟨S4, .i32⟩ : BufTy).Contents (Elt F) → (⟨S1, .i32⟩ : BufTy).Contents (Elt F))
  :: StableHlo.reshape main_v35 main_v36 rfl shapeCasts_S1_S_
  :: StableHlo.nullary main_c_12 (constantI S_ 32 1#32)
  :: StableHlo.binary main_v36 main_c_12 main_v37 (addi : (⟨S_, .i32⟩ : BufTy).Contents (Elt F) → (⟨S_, .i32⟩ : BufTy).Contents (Elt F) → (⟨S_, .i32⟩ : BufTy).Contents (Elt F))
  :: StableHlo.nullary main_c_13 (constantI S_ 32 10#32)
  :: [] )
noncomputable abbrev w0_i3 : List (HloOp τ sig (Elt F)) := remainder0Ops (.of main_v37) (.of main_c_13) main_call1
noncomputable abbrev w0_i4 : List (HloOp τ sig (Elt F)) :=
  ( StableHlo.nullary main_c_14 (constantI S_ 32 0#32)
  :: StableHlo.unary main_c_14 main_v39 (broadcastInDim S1 ![] bcast_S_S1 : (⟨S_, .i32⟩ : BufTy).Contents (Elt F) → (⟨S1, .i32⟩ : BufTy).Contents (Elt F))
  :: StableHlo.ternary main_v13 main_v39 main_v38 main_v40 ((fun x i u => Host.scatter scatter_S4_S1_S__n_0_0_0 (fun _ b => b) x i u) : (⟨S4, .i32⟩ : BufTy).Contents (Elt F) → (⟨S1, .i32⟩ : BufTy).Contents (Elt F) → (⟨S_, .i32⟩ : BufTy).Contents (Elt F) → (⟨S4, .i32⟩ : BufTy).Contents (Elt F))
  :: StableHlo.unary main_v40 main_v41 ((extractStridedSlice S1 ![0] · slices_S4_S1_0) : (⟨S4, .i32⟩ : BufTy).Contents (Elt F) → (⟨S1, .i32⟩ : BufTy).Contents (Elt F))
  :: StableHlo.reshape main_v41 main_v42 rfl shapeCasts_S1_S_
  :: [] )
theorem main_part0_chain (c : Dev nD) : main_part0 (F := F) c = (Pipeline.chainK
  [ StableHlo.seq w0_i0,
    StableHlo.seq w0_i1,
    StableHlo.seq w0_i2,
    StableHlo.seq w0_i3 ]
  (StableHlo.seq w0_i4) : Prog (TpuEff nD τ sig (Elt F) (Pipeline.Sig Λ₀ (Fin 0) fun p => (pcfgs (F := F) p).Adm) .tc) PUnit) := by
  chain_rfl

noncomputable abbrev w1_i0 : List (HloOp τ sig (Elt F)) :=
  ( StableHlo.unary main_v40 main_v43 ((extractStridedSlice S1 ![1] · slices_S4_S1_1) : (⟨S4, .i32⟩ : BufTy).Contents (Elt F) → (⟨S1, .i32⟩ : BufTy).Contents (Elt F))
  :: StableHlo.reshape main_v43 main_v44 rfl shapeCasts_S1_S_
  :: StableHlo.unary main_v40 main_v45 ((extractStridedSlice S1 ![2] · slices_S4_S1_2) : (⟨S4, .i32⟩ : BufTy).Contents (Elt F) → (⟨S1, .i32⟩ : BufTy).Contents (Elt F))
  :: StableHlo.reshape main_v45 main_v46 rfl shapeCasts_S1_S_
  :: StableHlo.nullary main_c_15 (constantI S_ 32 0#32)
  :: StableHlo.binary main_v42 main_c_15 main_v47 (cmpi .slt : (⟨S_, .i32⟩ : BufTy).Contents (Elt F) → (⟨S_, .i32⟩ : BufTy).Contents (Elt F) → (⟨S_, .i1⟩ : BufTy).Contents (Elt F))
  :: StableHlo.nullary main_c_16 (constantI S_ 32 10#32)
  :: StableHlo.binary main_v42 main_c_16 main_v48 (addi : (⟨S_, .i32⟩ : BufTy).Contents (Elt F) → (⟨S_, .i32⟩ : BufTy).Contents (Elt F) → (⟨S_, .i32⟩ : BufTy).Contents (Elt F))
  :: StableHlo.ternary main_v47 main_v48 main_v42 main_v49 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_17 (constantI S_ 32 0#32)
  :: StableHlo.binary main_v44 main_c_17 main_v50 (cmpi .slt : (⟨S_, .i32⟩ : BufTy).Contents (Elt F) → (⟨S_, .i32⟩ : BufTy).Contents (Elt F) → (⟨S_, .i1⟩ : BufTy).Contents (Elt F))
  :: StableHlo.nullary main_c_18 (constantI S_ 32 10#32)
  :: StableHlo.binary main_v44 main_c_18 main_v51 (addi : (⟨S_, .i32⟩ : BufTy).Contents (Elt F) → (⟨S_, .i32⟩ : BufTy).Contents (Elt F) → (⟨S_, .i32⟩ : BufTy).Contents (Elt F))
  :: StableHlo.ternary main_v50 main_v51 main_v44 main_v52 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_19 (constantI S_ 32 0#32)
  :: StableHlo.binary main_v46 main_c_19 main_v53 (cmpi .slt : (⟨S_, .i32⟩ : BufTy).Contents (Elt F) → (⟨S_, .i32⟩ : BufTy).Contents (Elt F) → (⟨S_, .i1⟩ : BufTy).Contents (Elt F))
  :: StableHlo.nullary main_c_20 (constantI S_ 32 10#32)
  :: StableHlo.binary main_v46 main_c_20 main_v54 (addi : (⟨S_, .i32⟩ : BufTy).Contents (Elt F) → (⟨S_, .i32⟩ : BufTy).Contents (Elt F) → (⟨S_, .i32⟩ : BufTy).Contents (Elt F))
  :: StableHlo.ternary main_v53 main_v54 main_v46 main_v55 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_21 (constantI S_ 32 1#32)
  :: StableHlo.nullary main_c_22 (constantI S_ 32 0#32)
  :: StableHlo.binary main_c_21 main_c_22 main_v56 (cmpi .slt : (⟨S_, .i32⟩ : BufTy).Contents (Elt F) → (⟨S_, .i32⟩ : BufTy).Contents (Elt F) → (⟨S_, .i1⟩ : BufTy).Contents (Elt F))
  :: StableHlo.nullary main_c_23 (constantI S_ 32 1#32)
  :: StableHlo.nullary main_c_24 (constantI S_ 32 4#32)
  :: StableHlo.binary main_c_23 main_c_24 main_v57 (addi : (⟨S_, .i32⟩ : BufTy).Contents (Elt F) → (⟨S_, .i32⟩ : BufTy).Contents (Elt F) → (⟨S_, .i32⟩ : BufTy).Contents (Elt F))
  :: StableHlo.nullary main_c_25 (constantI S_ 32 1#32)
  :: StableHlo.ternary main_v56 main_v57 main_c_25 main_v58 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v49, main_v52, main_v55, main_v58] ⟨S_, .i32⟩ main_v59 ((fun x i => Host.dynamicSlice S1x1x1x1 x (fun k => (i k (Shape.Idx.first h_S_)).toInt) sliceFits_S10x10x10x4_S1x1x1x1) : (⟨S10x10x10x4, .f32⟩ : BufTy).Contents (Elt F) → (Fin 4 → (⟨S_, .i32⟩ : BufTy).Contents (Elt F)) → (⟨S1x1x1x1, .f32⟩ : BufTy).Contents (Elt F))
  :: StableHlo.reshape main_v59 main_v60 rfl shapeCasts_S1x1x1x1_S_
  :: StableHlo.unary main_v40 main_v61 ((extractStridedSlice S1 ![1] · slices_S4_S1_1) : (⟨S4, .i32⟩ : BufTy).Contents (Elt F) → (⟨S1, .i32⟩ : BufTy).Contents (Elt F))
  :: StableHlo.reshape main_v61 main_v62 rfl shapeCasts_S1_S_
  :: StableHlo.nullary main_c_26 (constantI S_ 32 1#32)
  :: StableHlo.binary main_v62 main_c_26 main_v63 (addi : (⟨S_, .i32⟩ : BufTy).Contents (Elt F) → (⟨S_, .i32⟩ : BufTy).Contents (Elt F) → (⟨S_, .i32⟩ : BufTy).Contents (Elt F))
  :: StableHlo.nullary main_c_27 (constantI S_ 32 10#32)
  :: [] )
noncomputable abbrev w1_i1 : List (HloOp τ sig (Elt F)) := remainder0Ops (.of main_v63) (.of main_c_27) main_call2
noncomputable abbrev w1_i2 : List (HloOp τ sig (Elt F)) :=
  ( StableHlo.nullary main_c_28 (constantI S_ 32 1#32)
  :: StableHlo.unary main_c_28 main_v65 (broadcastInDim S1 ![] bcast_S_S1 : (⟨S_, .i32⟩ : BufTy).Contents (Elt F) → (⟨S1, .i32⟩ : BufTy).Contents (Elt F))
  :: StableHlo.ternary main_v40 main_v65 main_v64 main_v66 ((fun x i u => Host.scatter scatter_S4_S1_S__n_0_0_0 (fun _ b => b) x i u) : (⟨S4, .i32⟩ : BufTy).Contents (Elt F) → (⟨S1, .i32⟩ : BufTy).Contents (Elt F) → (⟨S_, .i32⟩ : BufTy).Contents (Elt F) → (⟨S4, .i32⟩ : BufTy).Contents (Elt F))
  :: StableHlo.unary main_v66 main_v67 ((extractStridedSlice S1 ![0] · slices_S4_S1_0) : (⟨S4, .i32⟩ : BufTy).Contents (Elt F) → (⟨S1, .i32⟩ : BufTy).Contents (Elt F))
  :: StableHlo.reshape main_v67 main_v68 rfl shapeCasts_S1_S_
  :: StableHlo.unary main_v66 main_v69 ((extractStridedSlice S1 ![1] · slices_S4_S1_1) : (⟨S4, .i32⟩ : BufTy).Contents (Elt F) → (⟨S1, .i32⟩ : BufTy).Contents (Elt F))
  :: StableHlo.reshape main_v69 main_v70 rfl shapeCasts_S1_S_
  :: StableHlo.unary main_v66 main_v71 ((extractStridedSlice S1 ![2] · slices_S4_S1_2) : (⟨S4, .i32⟩ : BufTy).Contents (Elt F) → (⟨S1, .i32⟩ : BufTy).Contents (Elt F))
  :: StableHlo.reshape main_v71 main_v72 rfl shapeCasts_S1_S_
  :: StableHlo.nullary main_c_29 (constantI S_ 32 0#32)
  :: StableHlo.binary main_v68 main_c_29 main_v73 (cmpi .slt : (⟨S_, .i32⟩ : BufTy).Contents (Elt F) → (⟨S_, .i32⟩ : BufTy).Contents (Elt F) → (⟨S_, .i1⟩ : BufTy).Contents (Elt F))
  :: StableHlo.nullary main_c_30 (constantI S_ 32 10#32)
  :: StableHlo.binary main_v68 main_c_30 main_v74 (addi : (⟨S_, .i32⟩ : BufTy).Contents (Elt F) → (⟨S_, .i32⟩ : BufTy).Contents (Elt F) → (⟨S_, .i32⟩ : BufTy).Contents (Elt F))
  :: StableHlo.ternary main_v73 main_v74 main_v68 main_v75 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_31 (constantI S_ 32 0#32)
  :: StableHlo.binary main_v70 main_c_31 main_v76 (cmpi .slt : (⟨S_, .i32⟩ : BufTy).Contents (Elt F) → (⟨S_, .i32⟩ : BufTy).Contents (Elt F) → (⟨S_, .i1⟩ : BufTy).Contents (Elt F))
  :: StableHlo.nullary main_c_32 (constantI S_ 32 10#32)
  :: StableHlo.binary main_v70 main_c_32 main_v77 (addi : (⟨S_, .i32⟩ : BufTy).Contents (Elt F) → (⟨S_, .i32⟩ : BufTy).Contents (Elt F) → (⟨S_, .i32⟩ : BufTy).Contents (Elt F))
  :: StableHlo.ternary main_v76 main_v77 main_v70 main_v78 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_33 (constantI S_ 32 0#32)
  :: StableHlo.binary main_v72 main_c_33 main_v79 (cmpi .slt : (⟨S_, .i32⟩ : BufTy).Contents (Elt F) → (⟨S_, .i32⟩ : BufTy).Contents (Elt F) → (⟨S_, .i1⟩ : BufTy).Contents (Elt F))
  :: StableHlo.nullary main_c_34 (constantI S_ 32 10#32)
  :: StableHlo.binary main_v72 main_c_34 main_v80 (addi : (⟨S_, .i32⟩ : BufTy).Contents (Elt F) → (⟨S_, .i32⟩ : BufTy).Contents (Elt F) → (⟨S_, .i32⟩ : BufTy).Contents (Elt F))
  :: StableHlo.ternary main_v79 main_v80 main_v72 main_v81 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_35 (constantI S_ 32 0#32)
  :: [] )
theorem main_part1_chain (c : Dev nD) : main_part1 (F := F) c = (Pipeline.chainK
  [ StableHlo.seq w1_i0,
    StableHlo.seq w1_i1 ]
  (StableHlo.seq w1_i2) : Prog (TpuEff nD τ sig (Elt F) (Pipeline.Sig Λ₀ (Fin 0) fun p => (pcfgs (F := F) p).Adm) .tc) PUnit) := by
  chain_rfl

noncomputable abbrev w2_i0 : List (HloOp τ sig (Elt F)) :=
  ( StableHlo.nullary main_c_36 (constantI S_ 32 0#32)
  :: StableHlo.binary main_c_35 main_c_36 main_v82 (cmpi .slt : (⟨S_, .i32⟩ : BufTy).Contents (Elt F) → (⟨S_, .i32⟩ : BufTy).Contents (Elt F) → (⟨S_, .i1⟩ : BufTy).Contents (Elt F))
  :: StableHlo.nullary main_c_37 (constantI S_ 32 0#32)
  :: StableHlo.nullary main_c_38 (constantI S_ 32 4#32)
  :: StableHlo.binary main_c_37 main_c_38 main_v83 (addi : (⟨S_, .i32⟩ : BufTy).Contents (Elt F) → (⟨S_, .i32⟩ : BufTy).Contents (Elt F) → (⟨S_, .i32⟩ : BufTy).Contents (Elt F))
  :: StableHlo.nullary main_c_39 (constantI S_ 32 0#32)
  :: StableHlo.ternary main_v82 main_v83 main_c_39 main_v84 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v75, main_v78, main_v81, main_v84] ⟨S_, .i32⟩ main_v85 ((fun x i => Host.dynamicSlice S1x1x1x1 x (fun k => (i k (Shape.Idx.first h_S_)).toInt) sliceFits_S10x10x10x4_S1x1x1x1) : (⟨S10x10x10x4, .f32⟩ : BufTy).Contents (Elt F) → (Fin 4 → (⟨S_, .i32⟩ : BufTy).Contents (Elt F)) → (⟨S1x1x1x1, .f32⟩ : BufTy).Contents (Elt F))
  :: StableHlo.reshape main_v85 main_v86 rfl shapeCasts_S1x1x1x1_S_
  :: StableHlo.unary main_v86 main_v87 (Host.negf : (⟨S_, .f32⟩ : BufTy).Contents (Elt F) → (⟨S_, .f32⟩ : BufTy).Contents (Elt F))
  :: StableHlo.nullary main_c_40 (constantI S_ 32 0#32)
  :: StableHlo.unary main_c_40 main_v88 (broadcastInDim S1 ![] bcast_S_S1 : (⟨S_, .i32⟩ : BufTy).Contents (Elt F) → (⟨S1, .i32⟩ : BufTy).Contents (Elt F))
  :: StableHlo.nullary main_c_41 (constantI S_ 32 4294967295#32)
  :: StableHlo.ternary main_v66 main_v88 main_c_41 main_v89 ((fun x i u => Host.scatter scatter_S4_S1_S__n_0_0_0 IntOp.addi x i u) : (⟨S4, .i32⟩ : BufTy).Contents (Elt F) → (⟨S1, .i32⟩ : BufTy).Contents (Elt F) → (⟨S_, .i32⟩ : BufTy).Contents (Elt F) → (⟨S4, .i32⟩ : BufTy).Contents (Elt F))
  :: StableHlo.unary main_v13 main_v90 ((extractStridedSlice S1 ![0] · slices_S4_S1_0) : (⟨S4, .i32⟩ : BufTy).Contents (Elt F) → (⟨S1, .i32⟩ : BufTy).Contents (Elt F))
  :: StableHlo.reshape main_v90 main_v91 rfl shapeCasts_S1_S_
  :: StableHlo.unary main_v13 main_v92 ((extractStridedSlice S1 ![1] · slices_S4_S1_1) : (⟨S4, .i32⟩ : BufTy).Contents (Elt F) → (⟨S1, .i32⟩ : BufTy).Contents (Elt F))
  :: StableHlo.reshape main_v92 main_v93 rfl shapeCasts_S1_S_
  :: StableHlo.unary main_v13 main_v94 ((extractStridedSlice S1 ![2] · slices_S4_S1_2) : (⟨S4, .i32⟩ : BufTy).Contents (Elt F) → (⟨S1, .i32⟩ : BufTy).Contents (Elt F))
  :: StableHlo.reshape main_v94 main_v95 rfl shapeCasts_S1_S_
  :: StableHlo.nullary main_c_42 (constantI S_ 32 0#32)
  :: StableHlo.binary main_v91 main_c_42 main_v96 (cmpi .slt : (⟨S_, .i32⟩ : BufTy).Contents (Elt F) → (⟨S_, .i32⟩ : BufTy).Contents (Elt F) → (⟨S_, .i1⟩ : BufTy).Contents (Elt F))
  :: StableHlo.nullary main_c_43 (constantI S_ 32 10#32)
  :: StableHlo.binary main_v91 main_c_43 main_v97 (addi : (⟨S_, .i32⟩ : BufTy).Contents (Elt F) → (⟨S_, .i32⟩ : BufTy).Contents (Elt F) → (⟨S_, .i32⟩ : BufTy).Contents (Elt F))
  :: StableHlo.ternary main_v96 main_v97 main_v91 main_v98 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_44 (constantI S_ 32 0#32)
  :: StableHlo.binary main_v93 main_c_44 main_v99 (cmpi .slt : (⟨S_, .i32⟩ : BufTy).Contents (Elt F) → (⟨S_, .i32⟩ : BufTy).Contents (Elt F) → (⟨S_, .i1⟩ : BufTy).Contents (Elt F))
  :: StableHlo.nullary main_c_45 (constantI S_ 32 10#32)
  :: StableHlo.binary main_v93 main_c_45 main_v100 (addi : (⟨S_, .i32⟩ : BufTy).Contents (Elt F) → (⟨S_, .i32⟩ : BufTy).Contents (Elt F) → (⟨S_, .i32⟩ : BufTy).Contents (Elt F))
  :: StableHlo.ternary main_v99 main_v100 main_v93 main_v101 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_46 (constantI S_ 32 0#32)
  :: StableHlo.binary main_v95 main_c_46 main_v102 (cmpi .slt : (⟨S_, .i32⟩ : BufTy).Contents (Elt F) → (⟨S_, .i32⟩ : BufTy).Contents (Elt F) → (⟨S_, .i1⟩ : BufTy).Contents (Elt F))
  :: StableHlo.nullary main_c_47 (constantI S_ 32 10#32)
  :: StableHlo.binary main_v95 main_c_47 main_v103 (addi : (⟨S_, .i32⟩ : BufTy).Contents (Elt F) → (⟨S_, .i32⟩ : BufTy).Contents (Elt F) → (⟨S_, .i32⟩ : BufTy).Contents (Elt F))
  :: StableHlo.ternary main_v102 main_v103 main_v95 main_v104 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_48 (constantI S_ 32 1#32)
  :: StableHlo.nullary main_c_49 (constantI S_ 32 0#32)
  :: StableHlo.binary main_c_48 main_c_49 main_v105 (cmpi .slt : (⟨S_, .i32⟩ : BufTy).Contents (Elt F) → (⟨S_, .i32⟩ : BufTy).Contents (Elt F) → (⟨S_, .i1⟩ : BufTy).Contents (Elt F))
  :: StableHlo.nullary main_c_50 (constantI S_ 32 1#32)
  :: StableHlo.nullary main_c_51 (constantI S_ 32 4#32)
  :: StableHlo.binary main_c_50 main_c_51 main_v106 (addi : (⟨S_, .i32⟩ : BufTy).Contents (Elt F) → (⟨S_, .i32⟩ : BufTy).Contents (Elt F) → (⟨S_, .i32⟩ : BufTy).Contents (Elt F))
  :: StableHlo.nullary main_c_52 (constantI S_ 32 1#32)
  :: StableHlo.ternary main_v105 main_v106 main_c_52 main_v107 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v98, main_v101, main_v104, main_v107] ⟨S_, .i32⟩ main_v108 ((fun x i => Host.dynamicSlice S1x1x1x1 x (fun k => (i k (Shape.Idx.first h_S_)).toInt) sliceFits_S10x10x10x4_S1x1x1x1) : (⟨S10x10x10x4, .f32⟩ : BufTy).Contents (Elt F) → (Fin 4 → (⟨S_, .i32⟩ : BufTy).Contents (Elt F)) → (⟨S1x1x1x1, .f32⟩ : BufTy).Contents (Elt F))
  :: StableHlo.reshape main_v108 main_v109 rfl shapeCasts_S1x1x1x1_S_
  :: StableHlo.unary main_v109 main_v110 (Host.negf : (⟨S_, .f32⟩ : BufTy).Contents (Elt F) → (⟨S_, .f32⟩ : BufTy).Contents (Elt F))
  :: StableHlo.binary main_v34 main_v60 main_v111 (addf : (⟨S_, .f32⟩ : BufTy).Contents (Elt F) → (⟨S_, .f32⟩ : BufTy).Contents (Elt F) → (⟨S_, .f32⟩ : BufTy).Contents (Elt F))
  :: StableHlo.binary main_v111 main_v87 main_v112 (addf : (⟨S_, .f32⟩ : BufTy).Contents (Elt F) → (⟨S_, .f32⟩ : BufTy).Contents (Elt F) → (⟨S_, .f32⟩ : BufTy).Contents (Elt F))
  :: StableHlo.binary main_v112 main_v110 main_v113 (addf : (⟨S_, .f32⟩ : BufTy).Contents (Elt F) → (⟨S_, .f32⟩ : BufTy).Contents (Elt F) → (⟨S_, .f32⟩ : BufTy).Contents (Elt F))
  :: StableHlo.unary main_v113 main_v114 (Host.exp : (⟨S_, .f32⟩ : BufTy).Contents (Elt F) → (⟨S_, .f32⟩ : BufTy).Contents (Elt F))
  :: StableHlo.unary main_v114 main_v115 (broadcastInDim S1 ![] bcast_S_S1 : (⟨S_, .f32⟩ : BufTy).Contents (Elt F) → (⟨S1, .f32⟩ : BufTy).Contents (Elt F))
  :: StableHlo.binary main_v14 main_v115 main_v116 (mulf : (⟨S1, .f32⟩ : BufTy).Contents (Elt F) → (⟨S1, .f32⟩ : BufTy).Contents (Elt F) → (⟨S1, .f32⟩ : BufTy).Contents (Elt F))
  :: StableHlo.unary main_v13 main_v117 ((extractStridedSlice S1 ![0] · slices_S4_S1_0) : (⟨S4, .i32⟩ : BufTy).Contents (Elt F) → (⟨S1, .i32⟩ : BufTy).Contents (Elt F))
  :: StableHlo.reshape main_v117 main_v118 rfl shapeCasts_S1_S_
  :: StableHlo.unary main_v13 main_v119 ((extractStridedSlice S1 ![1] · slices_S4_S1_1) : (⟨S4, .i32⟩ : BufTy).Contents (Elt F) → (⟨S1, .i32⟩ : BufTy).Contents (Elt F))
  :: StableHlo.reshape main_v119 main_v120 rfl shapeCasts_S1_S_
  :: StableHlo.unary main_v13 main_v121 ((extractStridedSlice S1 ![2] · slices_S4_S1_2) : (⟨S4, .i32⟩ : BufTy).Contents (Elt F) → (⟨S1, .i32⟩ : BufTy).Contents (Elt F))
  :: StableHlo.reshape main_v121 main_v122 rfl shapeCasts_S1_S_
  :: StableHlo.nullary main_c_53 (constantI S_ 32 0#32)
  :: StableHlo.binary main_v118 main_c_53 main_v123 (cmpi .slt : (⟨S_, .i32⟩ : BufTy).Contents (Elt F) → (⟨S_, .i32⟩ : BufTy).Contents (Elt F) → (⟨S_, .i1⟩ : BufTy).Contents (Elt F))
  :: [] )
theorem main_part2_chain (c : Dev nD) : main_part2 (F := F) c = (Pipeline.chainK
  [  ]
  (StableHlo.seq w2_i0) : Prog (TpuEff nD τ sig (Elt F) (Pipeline.Sig Λ₀ (Fin 0) fun p => (pcfgs (F := F) p).Adm) .tc) PUnit) := by
  chain_rfl

noncomputable abbrev w3_i0 : List (HloOp τ sig (Elt F)) :=
  ( StableHlo.nullary main_c_54 (constantI S_ 32 10#32)
  :: StableHlo.binary main_v118 main_c_54 main_v124 (addi : (⟨S_, .i32⟩ : BufTy).Contents (Elt F) → (⟨S_, .i32⟩ : BufTy).Contents (Elt F) → (⟨S_, .i32⟩ : BufTy).Contents (Elt F))
  :: StableHlo.ternary main_v123 main_v124 main_v118 main_v125 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_55 (constantI S_ 32 0#32)
  :: StableHlo.binary main_v120 main_c_55 main_v126 (cmpi .slt : (⟨S_, .i32⟩ : BufTy).Contents (Elt F) → (⟨S_, .i32⟩ : BufTy).Contents (Elt F) → (⟨S_, .i1⟩ : BufTy).Contents (Elt F))
  :: StableHlo.nullary main_c_56 (constantI S_ 32 10#32)
  :: StableHlo.binary main_v120 main_c_56 main_v127 (addi : (⟨S_, .i32⟩ : BufTy).Contents (Elt F) → (⟨S_, .i32⟩ : BufTy).Contents (Elt F) → (⟨S_, .i32⟩ : BufTy).Contents (Elt F))
  :: StableHlo.ternary main_v126 main_v127 main_v120 main_v128 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_57 (constantI S_ 32 0#32)
  :: StableHlo.binary main_v122 main_c_57 main_v129 (cmpi .slt : (⟨S_, .i32⟩ : BufTy).Contents (Elt F) → (⟨S_, .i32⟩ : BufTy).Contents (Elt F) → (⟨S_, .i1⟩ : BufTy).Contents (Elt F))
  :: StableHlo.nullary main_c_58 (constantI S_ 32 10#32)
  :: StableHlo.binary main_v122 main_c_58 main_v130 (addi : (⟨S_, .i32⟩ : BufTy).Contents (Elt F) → (⟨S_, .i32⟩ : BufTy).Contents (Elt F) → (⟨S_, .i32⟩ : BufTy).Contents (Elt F))
  :: StableHlo.ternary main_v129 main_v130 main_v122 main_v131 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_59 (constantI S_ 32 0#32)
  :: StableHlo.nullary main_c_60 (constantI S_ 32 0#32)
  :: StableHlo.binary main_c_59 main_c_60 main_v132 (cmpi .slt : (⟨S_, .i32⟩ : BufTy).Contents (Elt F) → (⟨S_, .i32⟩ : BufTy).Contents (Elt F) → (⟨S_, .i1⟩ : BufTy).Contents (Elt F))
  :: StableHlo.nullary main_c_61 (constantI S_ 32 0#32)
  :: StableHlo.nullary main_c_62 (constantI S_ 32 4#32)
  :: StableHlo.binary main_c_61 main_c_62 main_v133 (addi : (⟨S_, .i32⟩ : BufTy).Contents (Elt F) → (⟨S_, .i32⟩ : BufTy).Contents (Elt F) → (⟨S_, .i32⟩ : BufTy).Contents (Elt F))
  :: StableHlo.nullary main_c_63 (constantI S_ 32 0#32)
  :: StableHlo.ternary main_v132 main_v133 main_c_63 main_v134 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v125, main_v128, main_v131, main_v134] ⟨S_, .i32⟩ main_v135 ((fun x i => Host.dynamicSlice S1x1x1x1 x (fun k => (i k (Shape.Idx.first h_S_)).toInt) sliceFits_S10x10x10x4_S1x1x1x1) : (⟨S10x10x10x4, .f32⟩ : BufTy).Contents (Elt F) → (Fin 4 → (⟨S_, .i32⟩ : BufTy).Contents (Elt F)) → (⟨S1x1x1x1, .f32⟩ : BufTy).Contents (Elt F))
  :: StableHlo.reshape main_v135 main_v136 rfl shapeCasts_S1x1x1x1_S_
  :: StableHlo.unary main_v13 main_v137 ((extractStridedSlice S1 ![0] · slices_S4_S1_0) : (⟨S4, .i32⟩ : BufTy).Contents (Elt F) → (⟨S1, .i32⟩ : BufTy).Contents (Elt F))
  :: StableHlo.reshape main_v137 main_v138 rfl shapeCasts_S1_S_
  :: StableHlo.nullary main_c_64 (constantI S_ 32 1#32)
  :: StableHlo.binary main_v138 main_c_64 main_v139 (addi : (⟨S_, .i32⟩ : BufTy).Contents (Elt F) → (⟨S_, .i32⟩ : BufTy).Contents (Elt F) → (⟨S_, .i32⟩ : BufTy).Contents (Elt F))
  :: StableHlo.nullary main_c_65 (constantI S_ 32 10#32)
  :: [] )
noncomputable abbrev w3_i1 : List (HloOp τ sig (Elt F)) := remainder0Ops (.of main_v139) (.of main_c_65) main_call3
noncomputable abbrev w3_i2 : List (HloOp τ sig (Elt F)) :=
  ( StableHlo.nullary main_c_66 (constantI S_ 32 0#32)
  :: StableHlo.unary main_c_66 main_v141 (broadcastInDim S1 ![] bcast_S_S1 : (⟨S_, .i32⟩ : BufTy).Contents (Elt F) → (⟨S1, .i32⟩ : BufTy).Contents (Elt F))
  :: StableHlo.ternary main_v13 main_v141 main_v140 main_v142 ((fun x i u => Host.scatter scatter_S4_S1_S__n_0_0_0 (fun _ b => b) x i u) : (⟨S4, .i32⟩ : BufTy).Contents (Elt F) → (⟨S1, .i32⟩ : BufTy).Contents (Elt F) → (⟨S_, .i32⟩ : BufTy).Contents (Elt F) → (⟨S4, .i32⟩ : BufTy).Contents (Elt F))
  :: StableHlo.unary main_v142 main_v143 ((extractStridedSlice S1 ![0] · slices_S4_S1_0) : (⟨S4, .i32⟩ : BufTy).Contents (Elt F) → (⟨S1, .i32⟩ : BufTy).Contents (Elt F))
  :: StableHlo.reshape main_v143 main_v144 rfl shapeCasts_S1_S_
  :: StableHlo.unary main_v142 main_v145 ((extractStridedSlice S1 ![1] · slices_S4_S1_1) : (⟨S4, .i32⟩ : BufTy).Contents (Elt F) → (⟨S1, .i32⟩ : BufTy).Contents (Elt F))
  :: StableHlo.reshape main_v145 main_v146 rfl shapeCasts_S1_S_
  :: StableHlo.unary main_v142 main_v147 ((extractStridedSlice S1 ![2] · slices_S4_S1_2) : (⟨S4, .i32⟩ : BufTy).Contents (Elt F) → (⟨S1, .i32⟩ : BufTy).Contents (Elt F))
  :: StableHlo.reshape main_v147 main_v148 rfl shapeCasts_S1_S_
  :: StableHlo.nullary main_c_67 (constantI S_ 32 0#32)
  :: StableHlo.binary main_v144 main_c_67 main_v149 (cmpi .slt : (⟨S_, .i32⟩ : BufTy).Contents (Elt F) → (⟨S_, .i32⟩ : BufTy).Contents (Elt F) → (⟨S_, .i1⟩ : BufTy).Contents (Elt F))
  :: StableHlo.nullary main_c_68 (constantI S_ 32 10#32)
  :: StableHlo.binary main_v144 main_c_68 main_v150 (addi : (⟨S_, .i32⟩ : BufTy).Contents (Elt F) → (⟨S_, .i32⟩ : BufTy).Contents (Elt F) → (⟨S_, .i32⟩ : BufTy).Contents (Elt F))
  :: StableHlo.ternary main_v149 main_v150 main_v144 main_v151 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_69 (constantI S_ 32 0#32)
  :: StableHlo.binary main_v146 main_c_69 main_v152 (cmpi .slt : (⟨S_, .i32⟩ : BufTy).Contents (Elt F) → (⟨S_, .i32⟩ : BufTy).Contents (Elt F) → (⟨S_, .i1⟩ : BufTy).Contents (Elt F))
  :: StableHlo.nullary main_c_70 (constantI S_ 32 10#32)
  :: StableHlo.binary main_v146 main_c_70 main_v153 (addi : (⟨S_, .i32⟩ : BufTy).Contents (Elt F) → (⟨S_, .i32⟩ : BufTy).Contents (Elt F) → (⟨S_, .i32⟩ : BufTy).Contents (Elt F))
  :: StableHlo.ternary main_v152 main_v153 main_v146 main_v154 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_71 (constantI S_ 32 0#32)
  :: StableHlo.binary main_v148 main_c_71 main_v155 (cmpi .slt : (⟨S_, .i32⟩ : BufTy).Contents (Elt F) → (⟨S_, .i32⟩ : BufTy).Contents (Elt F) → (⟨S_, .i1⟩ : BufTy).Contents (Elt F))
  :: StableHlo.nullary main_c_72 (constantI S_ 32 10#32)
  :: StableHlo.binary main_v148 main_c_72 main_v156 (addi : (⟨S_, .i32⟩ : BufTy).Contents (Elt F) → (⟨S_, .i32⟩ : BufTy).Contents (Elt F) → (⟨S_, .i32⟩ : BufTy).Contents (Elt F))
  :: StableHlo.ternary main_v155 main_v156 main_v148 main_v157 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_73 (constantI S_ 32 2#32)
  :: StableHlo.nullary main_c_74 (constantI S_ 32 0#32)
  :: StableHlo.binary main_c_73 main_c_74 main_v158 (cmpi .slt : (⟨S_, .i32⟩ : BufTy).Contents (Elt F) → (⟨S_, .i32⟩ : BufTy).Contents (Elt F) → (⟨S_, .i1⟩ : BufTy).Contents (Elt F))
  :: StableHlo.nullary main_c_75 (constantI S_ 32 2#32)
  :: StableHlo.nullary main_c_76 (constantI S_ 32 4#32)
  :: StableHlo.binary main_c_75 main_c_76 main_v159 (addi : (⟨S_, .i32⟩ : BufTy).Contents (Elt F) → (⟨S_, .i32⟩ : BufTy).Contents (Elt F) → (⟨S_, .i32⟩ : BufTy).Contents (Elt F))
  :: StableHlo.nullary main_c_77 (constantI S_ 32 2#32)
  :: [] )
theorem main_part3_chain (c : Dev nD) : main_part3 (F := F) c = (Pipeline.chainK
  [ StableHlo.seq w3_i0,
    StableHlo.seq w3_i1 ]
  (StableHlo.seq w3_i2) : Prog (TpuEff nD τ sig (Elt F) (Pipeline.Sig Λ₀ (Fin 0) fun p => (pcfgs (F := F) p).Adm) .tc) PUnit) := by
  chain_rfl

noncomputable abbrev w4_i0 : List (HloOp τ sig (Elt F)) :=
  ( StableHlo.ternary main_v158 main_v159 main_c_77 main_v160 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v151, main_v154, main_v157, main_v160] ⟨S_, .i32⟩ main_v161 ((fun x i => Host.dynamicSlice S1x1x1x1 x (fun k => (i k (Shape.Idx.first h_S_)).toInt) sliceFits_S10x10x10x4_S1x1x1x1) : (⟨S10x10x10x4, .f32⟩ : BufTy).Contents (Elt F) → (Fin 4 → (⟨S_, .i32⟩ : BufTy).Contents (Elt F)) → (⟨S1x1x1x1, .f32⟩ : BufTy).Contents (Elt F))
  :: StableHlo.reshape main_v161 main_v162 rfl shapeCasts_S1x1x1x1_S_
  :: StableHlo.unary main_v142 main_v163 ((extractStridedSlice S1 ![2] · slices_S4_S1_2) : (⟨S4, .i32⟩ : BufTy).Contents (Elt F) → (⟨S1, .i32⟩ : BufTy).Contents (Elt F))
  :: StableHlo.reshape main_v163 main_v164 rfl shapeCasts_S1_S_
  :: StableHlo.nullary main_c_78 (constantI S_ 32 1#32)
  :: StableHlo.binary main_v164 main_c_78 main_v165 (addi : (⟨S_, .i32⟩ : BufTy).Contents (Elt F) → (⟨S_, .i32⟩ : BufTy).Contents (Elt F) → (⟨S_, .i32⟩ : BufTy).Contents (Elt F))
  :: StableHlo.nullary main_c_79 (constantI S_ 32 10#32)
  :: [] )
noncomputable abbrev w4_i1 : List (HloOp τ sig (Elt F)) := remainder0Ops (.of main_v165) (.of main_c_79) main_call4
noncomputable abbrev w4_i2 : List (HloOp τ sig (Elt F)) :=
  ( StableHlo.nullary main_c_80 (constantI S_ 32 2#32)
  :: StableHlo.unary main_c_80 main_v167 (broadcastInDim S1 ![] bcast_S_S1 : (⟨S_, .i32⟩ : BufTy).Contents (Elt F) → (⟨S1, .i32⟩ : BufTy).Contents (Elt F))
  :: StableHlo.ternary main_v142 main_v167 main_v166 main_v168 ((fun x i u => Host.scatter scatter_S4_S1_S__n_0_0_0 (fun _ b => b) x i u) : (⟨S4, .i32⟩ : BufTy).Contents (Elt F) → (⟨S1, .i32⟩ : BufTy).Contents (Elt F) → (⟨S_, .i32⟩ : BufTy).Contents (Elt F) → (⟨S4, .i32⟩ : BufTy).Contents (Elt F))
  :: StableHlo.unary main_v168 main_v169 ((extractStridedSlice S1 ![0] · slices_S4_S1_0) : (⟨S4, .i32⟩ : BufTy).Contents (Elt F) → (⟨S1, .i32⟩ : BufTy).Contents (Elt F))
  :: StableHlo.reshape main_v169 main_v170 rfl shapeCasts_S1_S_
  :: StableHlo.unary main_v168 main_v171 ((extractStridedSlice S1 ![1] · slices_S4_S1_1) : (⟨S4, .i32⟩ : BufTy).Contents (Elt F) → (⟨S1, .i32⟩ : BufTy).Contents (Elt F))
  :: StableHlo.reshape main_v171 main_v172 rfl shapeCasts_S1_S_
  :: StableHlo.unary main_v168 main_v173 ((extractStridedSlice S1 ![2] · slices_S4_S1_2) : (⟨S4, .i32⟩ : BufTy).Contents (Elt F) → (⟨S1, .i32⟩ : BufTy).Contents (Elt F))
  :: StableHlo.reshape main_v173 main_v174 rfl shapeCasts_S1_S_
  :: StableHlo.nullary main_c_81 (constantI S_ 32 0#32)
  :: StableHlo.binary main_v170 main_c_81 main_v175 (cmpi .slt : (⟨S_, .i32⟩ : BufTy).Contents (Elt F) → (⟨S_, .i32⟩ : BufTy).Contents (Elt F) → (⟨S_, .i1⟩ : BufTy).Contents (Elt F))
  :: StableHlo.nullary main_c_82 (constantI S_ 32 10#32)
  :: StableHlo.binary main_v170 main_c_82 main_v176 (addi : (⟨S_, .i32⟩ : BufTy).Contents (Elt F) → (⟨S_, .i32⟩ : BufTy).Contents (Elt F) → (⟨S_, .i32⟩ : BufTy).Contents (Elt F))
  :: StableHlo.ternary main_v175 main_v176 main_v170 main_v177 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_83 (constantI S_ 32 0#32)
  :: StableHlo.binary main_v172 main_c_83 main_v178 (cmpi .slt : (⟨S_, .i32⟩ : BufTy).Contents (Elt F) → (⟨S_, .i32⟩ : BufTy).Contents (Elt F) → (⟨S_, .i1⟩ : BufTy).Contents (Elt F))
  :: StableHlo.nullary main_c_84 (constantI S_ 32 10#32)
  :: StableHlo.binary main_v172 main_c_84 main_v179 (addi : (⟨S_, .i32⟩ : BufTy).Contents (Elt F) → (⟨S_, .i32⟩ : BufTy).Contents (Elt F) → (⟨S_, .i32⟩ : BufTy).Contents (Elt F))
  :: StableHlo.ternary main_v178 main_v179 main_v172 main_v180 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_85 (constantI S_ 32 0#32)
  :: StableHlo.binary main_v174 main_c_85 main_v181 (cmpi .slt : (⟨S_, .i32⟩ : BufTy).Contents (Elt F) → (⟨S_, .i32⟩ : BufTy).Contents (Elt F) → (⟨S_, .i1⟩ : BufTy).Contents (Elt F))
  :: StableHlo.nullary main_c_86 (constantI S_ 32 10#32)
  :: StableHlo.binary main_v174 main_c_86 main_v182 (addi : (⟨S_, .i32⟩ : BufTy).Contents (Elt F) → (⟨S_, .i32⟩ : BufTy).Contents (Elt F) → (⟨S_, .i32⟩ : BufTy).Contents (Elt F))
  :: StableHlo.ternary main_v181 main_v182 main_v174 main_v183 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_87 (constantI S_ 32 0#32)
  :: StableHlo.nullary main_c_88 (constantI S_ 32 0#32)
  :: StableHlo.binary main_c_87 main_c_88 main_v184 (cmpi .slt : (⟨S_, .i32⟩ : BufTy).Contents (Elt F) → (⟨S_, .i32⟩ : BufTy).Contents (Elt F) → (⟨S_, .i1⟩ : BufTy).Contents (Elt F))
  :: StableHlo.nullary main_c_89 (constantI S_ 32 0#32)
  :: StableHlo.nullary main_c_90 (constantI S_ 32 4#32)
  :: StableHlo.binary main_c_89 main_c_90 main_v185 (addi : (⟨S_, .i32⟩ : BufTy).Contents (Elt F) → (⟨S_, .i32⟩ : BufTy).Contents (Elt F) → (⟨S_, .i32⟩ : BufTy).Contents (Elt F))
  :: StableHlo.nullary main_c_91 (constantI S_ 32 0#32)
  :: StableHlo.ternary main_v184 main_v185 main_c_91 main_v186 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v177, main_v180, main_v183, main_v186] ⟨S_, .i32⟩ main_v187 ((fun x i => Host.dynamicSlice S1x1x1x1 x (fun k => (i k (Shape.Idx.first h_S_)).toInt) sliceFits_S10x10x10x4_S1x1x1x1) : (⟨S10x10x10x4, .f32⟩ : BufTy).Contents (Elt F) → (Fin 4 → (⟨S_, .i32⟩ : BufTy).Contents (Elt F)) → (⟨S1x1x1x1, .f32⟩ : BufTy).Contents (Elt F))
  :: StableHlo.reshape main_v187 main_v188 rfl shapeCasts_S1x1x1x1_S_
  :: StableHlo.unary main_v188 main_v189 (Host.negf : (⟨S_, .f32⟩ : BufTy).Contents (Elt F) → (⟨S_, .f32⟩ : BufTy).Contents (Elt F))
  :: StableHlo.nullary main_c_92 (constantI S_ 32 0#32)
  :: StableHlo.unary main_c_92 main_v190 (broadcastInDim S1 ![] bcast_S_S1 : (⟨S_, .i32⟩ : BufTy).Contents (Elt F) → (⟨S1, .i32⟩ : BufTy).Contents (Elt F))
  :: StableHlo.nullary main_c_93 (constantI S_ 32 4294967295#32)
  :: StableHlo.ternary main_v168 main_v190 main_c_93 main_v191 ((fun x i u => Host.scatter scatter_S4_S1_S__n_0_0_0 IntOp.addi x i u) : (⟨S4, .i32⟩ : BufTy).Contents (Elt F) → (⟨S1, .i32⟩ : BufTy).Contents (Elt F) → (⟨S_, .i32⟩ : BufTy).Contents (Elt F) → (⟨S4, .i32⟩ : BufTy).Contents (Elt F))
  :: StableHlo.unary main_v13 main_v192 ((extractStridedSlice S1 ![0] · slices_S4_S1_0) : (⟨S4, .i32⟩ : BufTy).Contents (Elt F) → (⟨S1, .i32⟩ : BufTy).Contents (Elt F))
  :: StableHlo.reshape main_v192 main_v193 rfl shapeCasts_S1_S_
  :: StableHlo.unary main_v13 main_v194 ((extractStridedSlice S1 ![1] · slices_S4_S1_1) : (⟨S4, .i32⟩ : BufTy).Contents (Elt F) → (⟨S1, .i32⟩ : BufTy).Contents (Elt F))
  :: StableHlo.reshape main_v194 main_v195 rfl shapeCasts_S1_S_
  :: StableHlo.unary main_v13 main_v196 ((extractStridedSlice S1 ![2] · slices_S4_S1_2) : (⟨S4, .i32⟩ : BufTy).Contents (Elt F) → (⟨S1, .i32⟩ : BufTy).Contents (Elt F))
  :: StableHlo.reshape main_v196 main_v197 rfl shapeCasts_S1_S_
  :: StableHlo.nullary main_c_94 (constantI S_ 32 0#32)
  :: StableHlo.binary main_v193 main_c_94 main_v198 (cmpi .slt : (⟨S_, .i32⟩ : BufTy).Contents (Elt F) → (⟨S_, .i32⟩ : BufTy).Contents (Elt F) → (⟨S_, .i1⟩ : BufTy).Contents (Elt F))
  :: StableHlo.nullary main_c_95 (constantI S_ 32 10#32)
  :: StableHlo.binary main_v193 main_c_95 main_v199 (addi : (⟨S_, .i32⟩ : BufTy).Contents (Elt F) → (⟨S_, .i32⟩ : BufTy).Contents (Elt F) → (⟨S_, .i32⟩ : BufTy).Contents (Elt F))
  :: StableHlo.ternary main_v198 main_v199 main_v193 main_v200 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_96 (constantI S_ 32 0#32)
  :: [] )
theorem main_part4_chain (c : Dev nD) : main_part4 (F := F) c = (Pipeline.chainK
  [ StableHlo.seq w4_i0,
    StableHlo.seq w4_i1 ]
  (StableHlo.seq w4_i2) : Prog (TpuEff nD τ sig (Elt F) (Pipeline.Sig Λ₀ (Fin 0) fun p => (pcfgs (F := F) p).Adm) .tc) PUnit) := by
  chain_rfl

noncomputable abbrev w5_i0 : List (HloOp τ sig (Elt F)) :=
  ( StableHlo.binary main_v195 main_c_96 main_v201 (cmpi .slt : (⟨S_, .i32⟩ : BufTy).Contents (Elt F) → (⟨S_, .i32⟩ : BufTy).Contents (Elt F) → (⟨S_, .i1⟩ : BufTy).Contents (Elt F))
  :: StableHlo.nullary main_c_97 (constantI S_ 32 10#32)
  :: StableHlo.binary main_v195 main_c_97 main_v202 (addi : (⟨S_, .i32⟩ : BufTy).Contents (Elt F) → (⟨S_, .i32⟩ : BufTy).Contents (Elt F) → (⟨S_, .i32⟩ : BufTy).Contents (Elt F))
  :: StableHlo.ternary main_v201 main_v202 main_v195 main_v203 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_98 (constantI S_ 32 0#32)
  :: StableHlo.binary main_v197 main_c_98 main_v204 (cmpi .slt : (⟨S_, .i32⟩ : BufTy).Contents (Elt F) → (⟨S_, .i32⟩ : BufTy).Contents (Elt F) → (⟨S_, .i1⟩ : BufTy).Contents (Elt F))
  :: StableHlo.nullary main_c_99 (constantI S_ 32 10#32)
  :: StableHlo.binary main_v197 main_c_99 main_v205 (addi : (⟨S_, .i32⟩ : BufTy).Contents (Elt F) → (⟨S_, .i32⟩ : BufTy).Contents (Elt F) → (⟨S_, .i32⟩ : BufTy).Contents (Elt F))
  :: StableHlo.ternary main_v204 main_v205 main_v197 main_v206 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_100 (constantI S_ 32 2#32)
  :: StableHlo.nullary main_c_101 (constantI S_ 32 0#32)
  :: StableHlo.binary main_c_100 main_c_101 main_v207 (cmpi .slt : (⟨S_, .i32⟩ : BufTy).Contents (Elt F) → (⟨S_, .i32⟩ : BufTy).Contents (Elt F) → (⟨S_, .i1⟩ : BufTy).Contents (Elt F))
  :: StableHlo.nullary main_c_102 (constantI S_ 32 2#32)
  :: StableHlo.nullary main_c_103 (constantI S_ 32 4#32)
  :: StableHlo.binary main_c_102 main_c_103 main_v208 (addi : (⟨S_, .i32⟩ : BufTy).Contents (Elt F) → (⟨S_, .i32⟩ : BufTy).Contents (Elt F) → (⟨S_, .i32⟩ : BufTy).Contents (Elt F))
  :: StableHlo.nullary main_c_104 (constantI S_ 32 2#32)
  :: StableHlo.ternary main_v207 main_v208 main_c_104 main_v209 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v200, main_v203, main_v206, main_v209] ⟨S_, .i32⟩ main_v210 ((fun x i => Host.dynamicSlice S1x1x1x1 x (fun k => (i k (Shape.Idx.first h_S_)).toInt) sliceFits_S10x10x10x4_S1x1x1x1) : (⟨S10x10x10x4, .f32⟩ : BufTy).Contents (Elt F) → (Fin 4 → (⟨S_, .i32⟩ : BufTy).Contents (Elt F)) → (⟨S1x1x1x1, .f32⟩ : BufTy).Contents (Elt F))
  :: StableHlo.reshape main_v210 main_v211 rfl shapeCasts_S1x1x1x1_S_
  :: StableHlo.unary main_v211 main_v212 (Host.negf : (⟨S_, .f32⟩ : BufTy).Contents (Elt F) → (⟨S_, .f32⟩ : BufTy).Contents (Elt F))
  :: StableHlo.binary main_v136 main_v162 main_v213 (addf : (⟨S_, .f32⟩ : BufTy).Contents (Elt F) → (⟨S_, .f32⟩ : BufTy).Contents (Elt F) → (⟨S_, .f32⟩ : BufTy).Contents (Elt F))
  :: StableHlo.binary main_v213 main_v189 main_v214 (addf : (⟨S_, .f32⟩ : BufTy).Contents (Elt F) → (⟨S_, .f32⟩ : BufTy).Contents (Elt F) → (⟨S_, .f32⟩ : BufTy).Contents (Elt F))
  :: StableHlo.binary main_v214 main_v212 main_v215 (addf : (⟨S_, .f32⟩ : BufTy).Contents (Elt F) → (⟨S_, .f32⟩ : BufTy).Contents (Elt F) → (⟨S_, .f32⟩ : BufTy).Contents (Elt F))
  :: StableHlo.unary main_v215 main_v216 (Host.exp : (⟨S_, .f32⟩ : BufTy).Contents (Elt F) → (⟨S_, .f32⟩ : BufTy).Contents (Elt F))
  :: StableHlo.unary main_v216 main_v217 (broadcastInDim S1 ![] bcast_S_S1 : (⟨S_, .f32⟩ : BufTy).Contents (Elt F) → (⟨S1, .f32⟩ : BufTy).Contents (Elt F))
  :: StableHlo.binary main_v116 main_v217 main_v218 (mulf : (⟨S1, .f32⟩ : BufTy).Contents (Elt F) → (⟨S1, .f32⟩ : BufTy).Contents (Elt F) → (⟨S1, .f32⟩ : BufTy).Contents (Elt F))
  :: StableHlo.unary main_v13 main_v219 ((extractStridedSlice S1 ![0] · slices_S4_S1_0) : (⟨S4, .i32⟩ : BufTy).Contents (Elt F) → (⟨S1, .i32⟩ : BufTy).Contents (Elt F))
  :: StableHlo.reshape main_v219 main_v220 rfl shapeCasts_S1_S_
  :: StableHlo.unary main_v13 main_v221 ((extractStridedSlice S1 ![1] · slices_S4_S1_1) : (⟨S4, .i32⟩ : BufTy).Contents (Elt F) → (⟨S1, .i32⟩ : BufTy).Contents (Elt F))
  :: StableHlo.reshape main_v221 main_v222 rfl shapeCasts_S1_S_
  :: StableHlo.unary main_v13 main_v223 ((extractStridedSlice S1 ![2] · slices_S4_S1_2) : (⟨S4, .i32⟩ : BufTy).Contents (Elt F) → (⟨S1, .i32⟩ : BufTy).Contents (Elt F))
  :: StableHlo.reshape main_v223 main_v224 rfl shapeCasts_S1_S_
  :: StableHlo.nullary main_c_105 (constantI S_ 32 0#32)
  :: StableHlo.binary main_v220 main_c_105 main_v225 (cmpi .slt : (⟨S_, .i32⟩ : BufTy).Contents (Elt F) → (⟨S_, .i32⟩ : BufTy).Contents (Elt F) → (⟨S_, .i1⟩ : BufTy).Contents (Elt F))
  :: StableHlo.nullary main_c_106 (constantI S_ 32 10#32)
  :: StableHlo.binary main_v220 main_c_106 main_v226 (addi : (⟨S_, .i32⟩ : BufTy).Contents (Elt F) → (⟨S_, .i32⟩ : BufTy).Contents (Elt F) → (⟨S_, .i32⟩ : BufTy).Contents (Elt F))
  :: StableHlo.ternary main_v225 main_v226 main_v220 main_v227 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_107 (constantI S_ 32 0#32)
  :: StableHlo.binary main_v222 main_c_107 main_v228 (cmpi .slt : (⟨S_, .i32⟩ : BufTy).Contents (Elt F) → (⟨S_, .i32⟩ : BufTy).Contents (Elt F) → (⟨S_, .i1⟩ : BufTy).Contents (Elt F))
  :: StableHlo.nullary main_c_108 (constantI S_ 32 10#32)
  :: StableHlo.binary main_v222 main_c_108 main_v229 (addi : (⟨S_, .i32⟩ : BufTy).Contents (Elt F) → (⟨S_, .i32⟩ : BufTy).Contents (Elt F) → (⟨S_, .i32⟩ : BufTy).Contents (Elt F))
  :: StableHlo.ternary main_v228 main_v229 main_v222 main_v230 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_109 (constantI S_ 32 0#32)
  :: StableHlo.binary main_v224 main_c_109 main_v231 (cmpi .slt : (⟨S_, .i32⟩ : BufTy).Contents (Elt F) → (⟨S_, .i32⟩ : BufTy).Contents (Elt F) → (⟨S_, .i1⟩ : BufTy).Contents (Elt F))
  :: StableHlo.nullary main_c_110 (constantI S_ 32 10#32)
  :: StableHlo.binary main_v224 main_c_110 main_v232 (addi : (⟨S_, .i32⟩ : BufTy).Contents (Elt F) → (⟨S_, .i32⟩ : BufTy).Contents (Elt F) → (⟨S_, .i32⟩ : BufTy).Contents (Elt F))
  :: StableHlo.ternary main_v231 main_v232 main_v224 main_v233 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_111 (constantI S_ 32 0#32)
  :: StableHlo.nullary main_c_112 (constantI S_ 32 0#32)
  :: StableHlo.binary main_c_111 main_c_112 main_v234 (cmpi .slt : (⟨S_, .i32⟩ : BufTy).Contents (Elt F) → (⟨S_, .i32⟩ : BufTy).Contents (Elt F) → (⟨S_, .i1⟩ : BufTy).Contents (Elt F))
  :: StableHlo.nullary main_c_113 (constantI S_ 32 0#32)
  :: StableHlo.nullary main_c_114 (constantI S_ 32 4#32)
  :: StableHlo.binary main_c_113 main_c_114 main_v235 (addi : (⟨S_, .i32⟩ : BufTy).Contents (Elt F) → (⟨S_, .i32⟩ : BufTy).Contents (Elt F) → (⟨S_, .i32⟩ : BufTy).Contents (Elt F))
  :: StableHlo.nullary main_c_115 (constantI S_ 32 0#32)
  :: StableHlo.ternary main_v234 main_v235 main_c_115 main_v236 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v227, main_v230, main_v233, main_v236] ⟨S_, .i32⟩ main_v237 ((fun x i => Host.dynamicSlice S1x1x1x1 x (fun k => (i k (Shape.Idx.first h_S_)).toInt) sliceFits_S10x10x10x4_S1x1x1x1) : (⟨S10x10x10x4, .f32⟩ : BufTy).Contents (Elt F) → (Fin 4 → (⟨S_, .i32⟩ : BufTy).Contents (Elt F)) → (⟨S1x1x1x1, .f32⟩ : BufTy).Contents (Elt F))
  :: StableHlo.reshape main_v237 main_v238 rfl shapeCasts_S1x1x1x1_S_
  :: StableHlo.unary main_v13 main_v239 ((extractStridedSlice S1 ![0] · slices_S4_S1_0) : (⟨S4, .i32⟩ : BufTy).Contents (Elt F) → (⟨S1, .i32⟩ : BufTy).Contents (Elt F))
  :: StableHlo.reshape main_v239 main_v240 rfl shapeCasts_S1_S_
  :: StableHlo.nullary main_c_116 (constantI S_ 32 1#32)
  :: [] )
theorem main_part5_chain (c : Dev nD) : main_part5 (F := F) c = (Pipeline.chainK
  [  ]
  (StableHlo.seq w5_i0) : Prog (TpuEff nD τ sig (Elt F) (Pipeline.Sig Λ₀ (Fin 0) fun p => (pcfgs (F := F) p).Adm) .tc) PUnit) := by
  chain_rfl

noncomputable abbrev w6_i0 : List (HloOp τ sig (Elt F)) :=
  ( StableHlo.binary main_v240 main_c_116 main_v241 (addi : (⟨S_, .i32⟩ : BufTy).Contents (Elt F) → (⟨S_, .i32⟩ : BufTy).Contents (Elt F) → (⟨S_, .i32⟩ : BufTy).Contents (Elt F))
  :: StableHlo.nullary main_c_117 (constantI S_ 32 10#32)
  :: [] )
noncomputable abbrev w6_i1 : List (HloOp τ sig (Elt F)) := remainder0Ops (.of main_v241) (.of main_c_117) main_call5
noncomputable abbrev w6_i2 : List (HloOp τ sig (Elt F)) :=
  ( StableHlo.nullary main_c_118 (constantI S_ 32 0#32)
  :: StableHlo.unary main_c_118 main_v243 (broadcastInDim S1 ![] bcast_S_S1 : (⟨S_, .i32⟩ : BufTy).Contents (Elt F) → (⟨S1, .i32⟩ : BufTy).Contents (Elt F))
  :: StableHlo.ternary main_v13 main_v243 main_v242 main_v244 ((fun x i u => Host.scatter scatter_S4_S1_S__n_0_0_0 (fun _ b => b) x i u) : (⟨S4, .i32⟩ : BufTy).Contents (Elt F) → (⟨S1, .i32⟩ : BufTy).Contents (Elt F) → (⟨S_, .i32⟩ : BufTy).Contents (Elt F) → (⟨S4, .i32⟩ : BufTy).Contents (Elt F))
  :: StableHlo.unary main_v244 main_v245 ((extractStridedSlice S1 ![0] · slices_S4_S1_0) : (⟨S4, .i32⟩ : BufTy).Contents (Elt F) → (⟨S1, .i32⟩ : BufTy).Contents (Elt F))
  :: StableHlo.reshape main_v245 main_v246 rfl shapeCasts_S1_S_
  :: StableHlo.unary main_v244 main_v247 ((extractStridedSlice S1 ![1] · slices_S4_S1_1) : (⟨S4, .i32⟩ : BufTy).Contents (Elt F) → (⟨S1, .i32⟩ : BufTy).Contents (Elt F))
  :: StableHlo.reshape main_v247 main_v248 rfl shapeCasts_S1_S_
  :: StableHlo.unary main_v244 main_v249 ((extractStridedSlice S1 ![2] · slices_S4_S1_2) : (⟨S4, .i32⟩ : BufTy).Contents (Elt F) → (⟨S1, .i32⟩ : BufTy).Contents (Elt F))
  :: StableHlo.reshape main_v249 main_v250 rfl shapeCasts_S1_S_
  :: StableHlo.nullary main_c_119 (constantI S_ 32 0#32)
  :: StableHlo.binary main_v246 main_c_119 main_v251 (cmpi .slt : (⟨S_, .i32⟩ : BufTy).Contents (Elt F) → (⟨S_, .i32⟩ : BufTy).Contents (Elt F) → (⟨S_, .i1⟩ : BufTy).Contents (Elt F))
  :: StableHlo.nullary main_c_120 (constantI S_ 32 10#32)
  :: StableHlo.binary main_v246 main_c_120 main_v252 (addi : (⟨S_, .i32⟩ : BufTy).Contents (Elt F) → (⟨S_, .i32⟩ : BufTy).Contents (Elt F) → (⟨S_, .i32⟩ : BufTy).Contents (Elt F))
  :: StableHlo.ternary main_v251 main_v252 main_v246 main_v253 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_121 (constantI S_ 32 0#32)
  :: StableHlo.binary main_v248 main_c_121 main_v254 (cmpi .slt : (⟨S_, .i32⟩ : BufTy).Contents (Elt F) → (⟨S_, .i32⟩ : BufTy).Contents (Elt F) → (⟨S_, .i1⟩ : BufTy).Contents (Elt F))
  :: StableHlo.nullary main_c_122 (constantI S_ 32 10#32)
  :: StableHlo.binary main_v248 main_c_122 main_v255 (addi : (⟨S_, .i32⟩ : BufTy).Contents (Elt F) → (⟨S_, .i32⟩ : BufTy).Contents (Elt F) → (⟨S_, .i32⟩ : BufTy).Contents (Elt F))
  :: StableHlo.ternary main_v254 main_v255 main_v248 main_v256 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_123 (constantI S_ 32 0#32)
  :: StableHlo.binary main_v250 main_c_123 main_v257 (cmpi .slt : (⟨S_, .i32⟩ : BufTy).Contents (Elt F) → (⟨S_, .i32⟩ : BufTy).Contents (Elt F) → (⟨S_, .i1⟩ : BufTy).Contents (Elt F))
  :: StableHlo.nullary main_c_124 (constantI S_ 32 10#32)
  :: StableHlo.binary main_v250 main_c_124 main_v258 (addi : (⟨S_, .i32⟩ : BufTy).Contents (Elt F) → (⟨S_, .i32⟩ : BufTy).Contents (Elt F) → (⟨S_, .i32⟩ : BufTy).Contents (Elt F))
  :: StableHlo.ternary main_v257 main_v258 main_v250 main_v259 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_125 (constantI S_ 32 3#32)
  :: StableHlo.nullary main_c_126 (constantI S_ 32 0#32)
  :: StableHlo.binary main_c_125 main_c_126 main_v260 (cmpi .slt : (⟨S_, .i32⟩ : BufTy).Contents (Elt F) → (⟨S_, .i32⟩ : BufTy).Contents (Elt F) → (⟨S_, .i1⟩ : BufTy).Contents (Elt F))
  :: StableHlo.nullary main_c_127 (constantI S_ 32 3#32)
  :: StableHlo.nullary main_c_128 (constantI S_ 32 4#32)
  :: StableHlo.binary main_c_127 main_c_128 main_v261 (addi : (⟨S_, .i32⟩ : BufTy).Contents (Elt F) → (⟨S_, .i32⟩ : BufTy).Contents (Elt F) → (⟨S_, .i32⟩ : BufTy).Contents (Elt F))
  :: StableHlo.nullary main_c_129 (constantI S_ 32 3#32)
  :: StableHlo.ternary main_v260 main_v261 main_c_129 main_v262 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v253, main_v256, main_v259, main_v262] ⟨S_, .i32⟩ main_v263 ((fun x i => Host.dynamicSlice S1x1x1x1 x (fun k => (i k (Shape.Idx.first h_S_)).toInt) sliceFits_S10x10x10x4_S1x1x1x1) : (⟨S10x10x10x4, .f32⟩ : BufTy).Contents (Elt F) → (Fin 4 → (⟨S_, .i32⟩ : BufTy).Contents (Elt F)) → (⟨S1x1x1x1, .f32⟩ : BufTy).Contents (Elt F))
  :: StableHlo.reshape main_v263 main_v264 rfl shapeCasts_S1x1x1x1_S_
  :: StableHlo.unary main_v244 main_v265 ((extractStridedSlice S1 ![3] · slices_S4_S1_3) : (⟨S4, .i32⟩ : BufTy).Contents (Elt F) → (⟨S1, .i32⟩ : BufTy).Contents (Elt F))
  :: StableHlo.reshape main_v265 main_v266 rfl shapeCasts_S1_S_
  :: StableHlo.nullary main_c_130 (constantI S_ 32 1#32)
  :: StableHlo.binary main_v266 main_c_130 main_v267 (addi : (⟨S_, .i32⟩ : BufTy).Contents (Elt F) → (⟨S_, .i32⟩ : BufTy).Contents (Elt F) → (⟨S_, .i32⟩ : BufTy).Contents (Elt F))
  :: StableHlo.nullary main_c_131 (constantI S_ 32 10#32)
  :: [] )
noncomputable abbrev w6_i3 : List (HloOp τ sig (Elt F)) := remainder0Ops (.of main_v267) (.of main_c_131) main_call6
noncomputable abbrev w6_i4 : List (HloOp τ sig (Elt F)) :=
  ( StableHlo.nullary main_c_132 (constantI S_ 32 3#32)
  :: StableHlo.unary main_c_132 main_v269 (broadcastInDim S1 ![] bcast_S_S1 : (⟨S_, .i32⟩ : BufTy).Contents (Elt F) → (⟨S1, .i32⟩ : BufTy).Contents (Elt F))
  :: StableHlo.ternary main_v244 main_v269 main_v268 main_v270 ((fun x i u => Host.scatter scatter_S4_S1_S__n_0_0_0 (fun _ b => b) x i u) : (⟨S4, .i32⟩ : BufTy).Contents (Elt F) → (⟨S1, .i32⟩ : BufTy).Contents (Elt F) → (⟨S_, .i32⟩ : BufTy).Contents (Elt F) → (⟨S4, .i32⟩ : BufTy).Contents (Elt F))
  :: StableHlo.unary main_v270 main_v271 ((extractStridedSlice S1 ![0] · slices_S4_S1_0) : (⟨S4, .i32⟩ : BufTy).Contents (Elt F) → (⟨S1, .i32⟩ : BufTy).Contents (Elt F))
  :: StableHlo.reshape main_v271 main_v272 rfl shapeCasts_S1_S_
  :: StableHlo.unary main_v270 main_v273 ((extractStridedSlice S1 ![1] · slices_S4_S1_1) : (⟨S4, .i32⟩ : BufTy).Contents (Elt F) → (⟨S1, .i32⟩ : BufTy).Contents (Elt F))
  :: StableHlo.reshape main_v273 main_v274 rfl shapeCasts_S1_S_
  :: StableHlo.unary main_v270 main_v275 ((extractStridedSlice S1 ![2] · slices_S4_S1_2) : (⟨S4, .i32⟩ : BufTy).Contents (Elt F) → (⟨S1, .i32⟩ : BufTy).Contents (Elt F))
  :: StableHlo.reshape main_v275 main_v276 rfl shapeCasts_S1_S_
  :: StableHlo.nullary main_c_133 (constantI S_ 32 0#32)
  :: StableHlo.binary main_v272 main_c_133 main_v277 (cmpi .slt : (⟨S_, .i32⟩ : BufTy).Contents (Elt F) → (⟨S_, .i32⟩ : BufTy).Contents (Elt F) → (⟨S_, .i1⟩ : BufTy).Contents (Elt F))
  :: StableHlo.nullary main_c_134 (constantI S_ 32 10#32)
  :: StableHlo.binary main_v272 main_c_134 main_v278 (addi : (⟨S_, .i32⟩ : BufTy).Contents (Elt F) → (⟨S_, .i32⟩ : BufTy).Contents (Elt F) → (⟨S_, .i32⟩ : BufTy).Contents (Elt F))
  :: StableHlo.ternary main_v277 main_v278 main_v272 main_v279 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_135 (constantI S_ 32 0#32)
  :: StableHlo.binary main_v274 main_c_135 main_v280 (cmpi .slt : (⟨S_, .i32⟩ : BufTy).Contents (Elt F) → (⟨S_, .i32⟩ : BufTy).Contents (Elt F) → (⟨S_, .i1⟩ : BufTy).Contents (Elt F))
  :: StableHlo.nullary main_c_136 (constantI S_ 32 10#32)
  :: [] )
theorem main_part6_chain (c : Dev nD) : main_part6 (F := F) c = (Pipeline.chainK
  [ StableHlo.seq w6_i0,
    StableHlo.seq w6_i1,
    StableHlo.seq w6_i2,
    StableHlo.seq w6_i3 ]
  (StableHlo.seq w6_i4) : Prog (TpuEff nD τ sig (Elt F) (Pipeline.Sig Λ₀ (Fin 0) fun p => (pcfgs (F := F) p).Adm) .tc) PUnit) := by
  chain_rfl

noncomputable abbrev w7_i0 : List (HloOp τ sig (Elt F)) :=
  ( StableHlo.binary main_v274 main_c_136 main_v281 (addi : (⟨S_, .i32⟩ : BufTy).Contents (Elt F) → (⟨S_, .i32⟩ : BufTy).Contents (Elt F) → (⟨S_, .i32⟩ : BufTy).Contents (Elt F))
  :: StableHlo.ternary main_v280 main_v281 main_v274 main_v282 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_137 (constantI S_ 32 0#32)
  :: StableHlo.binary main_v276 main_c_137 main_v283 (cmpi .slt : (⟨S_, .i32⟩ : BufTy).Contents (Elt F) → (⟨S_, .i32⟩ : BufTy).Contents (Elt F) → (⟨S_, .i1⟩ : BufTy).Contents (Elt F))
  :: StableHlo.nullary main_c_138 (constantI S_ 32 10#32)
  :: StableHlo.binary main_v276 main_c_138 main_v284 (addi : (⟨S_, .i32⟩ : BufTy).Contents (Elt F) → (⟨S_, .i32⟩ : BufTy).Contents (Elt F) → (⟨S_, .i32⟩ : BufTy).Contents (Elt F))
  :: StableHlo.ternary main_v283 main_v284 main_v276 main_v285 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_139 (constantI S_ 32 0#32)
  :: StableHlo.nullary main_c_140 (constantI S_ 32 0#32)
  :: StableHlo.binary main_c_139 main_c_140 main_v286 (cmpi .slt : (⟨S_, .i32⟩ : BufTy).Contents (Elt F) → (⟨S_, .i32⟩ : BufTy).Contents (Elt F) → (⟨S_, .i1⟩ : BufTy).Contents (Elt F))
  :: StableHlo.nullary main_c_141 (constantI S_ 32 0#32)
  :: StableHlo.nullary main_c_142 (constantI S_ 32 4#32)
  :: StableHlo.binary main_c_141 main_c_142 main_v287 (addi : (⟨S_, .i32⟩ : BufTy).Contents (Elt F) → (⟨S_, .i32⟩ : BufTy).Contents (Elt F) → (⟨S_, .i32⟩ : BufTy).Contents (Elt F))
  :: StableHlo.nullary main_c_143 (constantI S_ 32 0#32)
  :: StableHlo.ternary main_v286 main_v287 main_c_143 main_v288 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v279, main_v282, main_v285, main_v288] ⟨S_, .i32⟩ main_v289 ((fun x i => Host.dynamicSlice S1x1x1x1 x (fun k => (i k (Shape.Idx.first h_S_)).toInt) sliceFits_S10x10x10x4_S1x1x1x1) : (⟨S10x10x10x4, .f32⟩ : BufTy).Contents (Elt F) → (Fin 4 → (⟨S_, .i32⟩ : BufTy).Contents (Elt F)) → (⟨S1x1x1x1, .f32⟩ : BufTy).Contents (Elt F))
  :: StableHlo.reshape main_v289 main_v290 rfl shapeCasts_S1x1x1x1_S_
  :: StableHlo.unary main_v290 main_v291 (Host.negf : (⟨S_, .f32⟩ : BufTy).Contents (Elt F) → (⟨S_, .f32⟩ : BufTy).Contents (Elt F))
  :: StableHlo.nullary main_c_144 (constantI S_ 32 0#32)
  :: StableHlo.unary main_c_144 main_v292 (broadcastInDim S1 ![] bcast_S_S1 : (⟨S_, .i32⟩ : BufTy).Contents (Elt F) → (⟨S1, .i32⟩ : BufTy).Contents (Elt F))
  :: StableHlo.nullary main_c_145 (constantI S_ 32 4294967295#32)
  :: StableHlo.ternary main_v270 main_v292 main_c_145 main_v293 ((fun x i u => Host.scatter scatter_S4_S1_S__n_0_0_0 IntOp.addi x i u) : (⟨S4, .i32⟩ : BufTy).Contents (Elt F) → (⟨S1, .i32⟩ : BufTy).Contents (Elt F) → (⟨S_, .i32⟩ : BufTy).Contents (Elt F) → (⟨S4, .i32⟩ : BufTy).Contents (Elt F))
  :: StableHlo.unary main_v13 main_v294 ((extractStridedSlice S1 ![0] · slices_S4_S1_0) : (⟨S4, .i32⟩ : BufTy).Contents (Elt F) → (⟨S1, .i32⟩ : BufTy).Contents (Elt F))
  :: StableHlo.reshape main_v294 main_v295 rfl shapeCasts_S1_S_
  :: StableHlo.unary main_v13 main_v296 ((extractStridedSlice S1 ![1] · slices_S4_S1_1) : (⟨S4, .i32⟩ : BufTy).Contents (Elt F) → (⟨S1, .i32⟩ : BufTy).Contents (Elt F))
  :: StableHlo.reshape main_v296 main_v297 rfl shapeCasts_S1_S_
  :: StableHlo.unary main_v13 main_v298 ((extractStridedSlice S1 ![2] · slices_S4_S1_2) : (⟨S4, .i32⟩ : BufTy).Contents (Elt F) → (⟨S1, .i32⟩ : BufTy).Contents (Elt F))
  :: StableHlo.reshape main_v298 main_v299 rfl shapeCasts_S1_S_
  :: StableHlo.nullary main_c_146 (constantI S_ 32 0#32)
  :: StableHlo.binary main_v295 main_c_146 main_v300 (cmpi .slt : (⟨S_, .i32⟩ : BufTy).Contents (Elt F) → (⟨S_, .i32⟩ : BufTy).Contents (Elt F) → (⟨S_, .i1⟩ : BufTy).Contents (Elt F))
  :: StableHlo.nullary main_c_147 (constantI S_ 32 10#32)
  :: StableHlo.binary main_v295 main_c_147 main_v301 (addi : (⟨S_, .i32⟩ : BufTy).Contents (Elt F) → (⟨S_, .i32⟩ : BufTy).Contents (Elt F) → (⟨S_, .i32⟩ : BufTy).Contents (Elt F))
  :: StableHlo.ternary main_v300 main_v301 main_v295 main_v302 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_148 (constantI S_ 32 0#32)
  :: StableHlo.binary main_v297 main_c_148 main_v303 (cmpi .slt : (⟨S_, .i32⟩ : BufTy).Contents (Elt F) → (⟨S_, .i32⟩ : BufTy).Contents (Elt F) → (⟨S_, .i1⟩ : BufTy).Contents (Elt F))
  :: StableHlo.nullary main_c_149 (constantI S_ 32 10#32)
  :: StableHlo.binary main_v297 main_c_149 main_v304 (addi : (⟨S_, .i32⟩ : BufTy).Contents (Elt F) → (⟨S_, .i32⟩ : BufTy).Contents (Elt F) → (⟨S_, .i32⟩ : BufTy).Contents (Elt F))
  :: StableHlo.ternary main_v303 main_v304 main_v297 main_v305 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_150 (constantI S_ 32 0#32)
  :: StableHlo.binary main_v299 main_c_150 main_v306 (cmpi .slt : (⟨S_, .i32⟩ : BufTy).Contents (Elt F) → (⟨S_, .i32⟩ : BufTy).Contents (Elt F) → (⟨S_, .i1⟩ : BufTy).Contents (Elt F))
  :: StableHlo.nullary main_c_151 (constantI S_ 32 10#32)
  :: StableHlo.binary main_v299 main_c_151 main_v307 (addi : (⟨S_, .i32⟩ : BufTy).Contents (Elt F) → (⟨S_, .i32⟩ : BufTy).Contents (Elt F) → (⟨S_, .i32⟩ : BufTy).Contents (Elt F))
  :: StableHlo.ternary main_v306 main_v307 main_v299 main_v308 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_152 (constantI S_ 32 3#32)
  :: StableHlo.nullary main_c_153 (constantI S_ 32 0#32)
  :: StableHlo.binary main_c_152 main_c_153 main_v309 (cmpi .slt : (⟨S_, .i32⟩ : BufTy).Contents (Elt F) → (⟨S_, .i32⟩ : BufTy).Contents (Elt F) → (⟨S_, .i1⟩ : BufTy).Contents (Elt F))
  :: StableHlo.nullary main_c_154 (constantI S_ 32 3#32)
  :: StableHlo.nullary main_c_155 (constantI S_ 32 4#32)
  :: StableHlo.binary main_c_154 main_c_155 main_v310 (addi : (⟨S_, .i32⟩ : BufTy).Contents (Elt F) → (⟨S_, .i32⟩ : BufTy).Contents (Elt F) → (⟨S_, .i32⟩ : BufTy).Contents (Elt F))
  :: StableHlo.nullary main_c_156 (constantI S_ 32 3#32)
  :: StableHlo.ternary main_v309 main_v310 main_c_156 main_v311 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v302, main_v305, main_v308, main_v311] ⟨S_, .i32⟩ main_v312 ((fun x i => Host.dynamicSlice S1x1x1x1 x (fun k => (i k (Shape.Idx.first h_S_)).toInt) sliceFits_S10x10x10x4_S1x1x1x1) : (⟨S10x10x10x4, .f32⟩ : BufTy).Contents (Elt F) → (Fin 4 → (⟨S_, .i32⟩ : BufTy).Contents (Elt F)) → (⟨S1x1x1x1, .f32⟩ : BufTy).Contents (Elt F))
  :: StableHlo.reshape main_v312 main_v313 rfl shapeCasts_S1x1x1x1_S_
  :: StableHlo.unary main_v313 main_v314 (Host.negf : (⟨S_, .f32⟩ : BufTy).Contents (Elt F) → (⟨S_, .f32⟩ : BufTy).Contents (Elt F))
  :: StableHlo.binary main_v238 main_v264 main_v315 (addf : (⟨S_, .f32⟩ : BufTy).Contents (Elt F) → (⟨S_, .f32⟩ : BufTy).Contents (Elt F) → (⟨S_, .f32⟩ : BufTy).Contents (Elt F))
  :: StableHlo.binary main_v315 main_v291 main_v316 (addf : (⟨S_, .f32⟩ : BufTy).Contents (Elt F) → (⟨S_, .f32⟩ : BufTy).Contents (Elt F) → (⟨S_, .f32⟩ : BufTy).Contents (Elt F))
  :: StableHlo.binary main_v316 main_v314 main_v317 (addf : (⟨S_, .f32⟩ : BufTy).Contents (Elt F) → (⟨S_, .f32⟩ : BufTy).Contents (Elt F) → (⟨S_, .f32⟩ : BufTy).Contents (Elt F))
  :: StableHlo.unary main_v317 main_v318 (Host.exp : (⟨S_, .f32⟩ : BufTy).Contents (Elt F) → (⟨S_, .f32⟩ : BufTy).Contents (Elt F))
  :: StableHlo.unary main_v318 main_v319 (broadcastInDim S1 ![] bcast_S_S1 : (⟨S_, .f32⟩ : BufTy).Contents (Elt F) → (⟨S1, .f32⟩ : BufTy).Contents (Elt F))
  :: StableHlo.binary main_v218 main_v319 main_v320 (mulf : (⟨S1, .f32⟩ : BufTy).Contents (Elt F) → (⟨S1, .f32⟩ : BufTy).Contents (Elt F) → (⟨S1, .f32⟩ : BufTy).Contents (Elt F))
  :: [] )
theorem main_part7_chain (c : Dev nD) : main_part7 (F := F) c = (Pipeline.chainK
  [  ]
  (StableHlo.seq w7_i0) : Prog (TpuEff nD τ sig (Elt F) (Pipeline.Sig Λ₀ (Fin 0) fun p => (pcfgs (F := F) p).Adm) .tc) PUnit) := by
  chain_rfl

noncomputable abbrev w8_i0 : List (HloOp τ sig (Elt F)) :=
  ( StableHlo.unary main_v13 main_v321 ((extractStridedSlice S1 ![0] · slices_S4_S1_0) : (⟨S4, .i32⟩ : BufTy).Contents (Elt F) → (⟨S1, .i32⟩ : BufTy).Contents (Elt F))
  :: StableHlo.reshape main_v321 main_v322 rfl shapeCasts_S1_S_
  :: StableHlo.unary main_v13 main_v323 ((extractStridedSlice S1 ![1] · slices_S4_S1_1) : (⟨S4, .i32⟩ : BufTy).Contents (Elt F) → (⟨S1, .i32⟩ : BufTy).Contents (Elt F))
  :: StableHlo.reshape main_v323 main_v324 rfl shapeCasts_S1_S_
  :: StableHlo.unary main_v13 main_v325 ((extractStridedSlice S1 ![2] · slices_S4_S1_2) : (⟨S4, .i32⟩ : BufTy).Contents (Elt F) → (⟨S1, .i32⟩ : BufTy).Contents (Elt F))
  :: StableHlo.reshape main_v325 main_v326 rfl shapeCasts_S1_S_
  :: StableHlo.nullary main_c_157 (constantI S_ 32 0#32)
  :: StableHlo.binary main_v322 main_c_157 main_v327 (cmpi .slt : (⟨S_, .i32⟩ : BufTy).Contents (Elt F) → (⟨S_, .i32⟩ : BufTy).Contents (Elt F) → (⟨S_, .i1⟩ : BufTy).Contents (Elt F))
  :: StableHlo.nullary main_c_158 (constantI S_ 32 10#32)
  :: StableHlo.binary main_v322 main_c_158 main_v328 (addi : (⟨S_, .i32⟩ : BufTy).Contents (Elt F) → (⟨S_, .i32⟩ : BufTy).Contents (Elt F) → (⟨S_, .i32⟩ : BufTy).Contents (Elt F))
  :: StableHlo.ternary main_v327 main_v328 main_v322 main_v329 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_159 (constantI S_ 32 0#32)
  :: StableHlo.binary main_v324 main_c_159 main_v330 (cmpi .slt : (⟨S_, .i32⟩ : BufTy).Contents (Elt F) → (⟨S_, .i32⟩ : BufTy).Contents (Elt F) → (⟨S_, .i1⟩ : BufTy).Contents (Elt F))
  :: StableHlo.nullary main_c_160 (constantI S_ 32 10#32)
  :: StableHlo.binary main_v324 main_c_160 main_v331 (addi : (⟨S_, .i32⟩ : BufTy).Contents (Elt F) → (⟨S_, .i32⟩ : BufTy).Contents (Elt F) → (⟨S_, .i32⟩ : BufTy).Contents (Elt F))
  :: StableHlo.ternary main_v330 main_v331 main_v324 main_v332 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_161 (constantI S_ 32 0#32)
  :: StableHlo.binary main_v326 main_c_161 main_v333 (cmpi .slt : (⟨S_, .i32⟩ : BufTy).Contents (Elt F) → (⟨S_, .i32⟩ : BufTy).Contents (Elt F) → (⟨S_, .i1⟩ : BufTy).Contents (Elt F))
  :: StableHlo.nullary main_c_162 (constantI S_ 32 10#32)
  :: StableHlo.binary main_v326 main_c_162 main_v334 (addi : (⟨S_, .i32⟩ : BufTy).Contents (Elt F) → (⟨S_, .i32⟩ : BufTy).Contents (Elt F) → (⟨S_, .i32⟩ : BufTy).Contents (Elt F))
  :: StableHlo.ternary main_v333 main_v334 main_v326 main_v335 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_163 (constantI S_ 32 1#32)
  :: StableHlo.nullary main_c_164 (constantI S_ 32 0#32)
  :: StableHlo.binary main_c_163 main_c_164 main_v336 (cmpi .slt : (⟨S_, .i32⟩ : BufTy).Contents (Elt F) → (⟨S_, .i32⟩ : BufTy).Contents (Elt F) → (⟨S_, .i1⟩ : BufTy).Contents (Elt F))
  :: StableHlo.nullary main_c_165 (constantI S_ 32 1#32)
  :: StableHlo.nullary main_c_166 (constantI S_ 32 4#32)
  :: StableHlo.binary main_c_165 main_c_166 main_v337 (addi : (⟨S_, .i32⟩ : BufTy).Contents (Elt F) → (⟨S_, .i32⟩ : BufTy).Contents (Elt F) → (⟨S_, .i32⟩ : BufTy).Contents (Elt F))
  :: StableHlo.nullary main_c_167 (constantI S_ 32 1#32)
  :: StableHlo.ternary main_v336 main_v337 main_c_167 main_v338 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v329, main_v332, main_v335, main_v338] ⟨S_, .i32⟩ main_v339 ((fun x i => Host.dynamicSlice S1x1x1x1 x (fun k => (i k (Shape.Idx.first h_S_)).toInt) sliceFits_S10x10x10x4_S1x1x1x1) : (⟨S10x10x10x4, .f32⟩ : BufTy).Contents (Elt F) → (Fin 4 → (⟨S_, .i32⟩ : BufTy).Contents (Elt F)) → (⟨S1x1x1x1, .f32⟩ : BufTy).Contents (Elt F))
  :: StableHlo.reshape main_v339 main_v340 rfl shapeCasts_S1x1x1x1_S_
  :: StableHlo.unary main_v13 main_v341 ((extractStridedSlice S1 ![1] · slices_S4_S1_1) : (⟨S4, .i32⟩ : BufTy).Contents (Elt F) → (⟨S1, .i32⟩ : BufTy).Contents (Elt F))
  :: StableHlo.reshape main_v341 main_v342 rfl shapeCasts_S1_S_
  :: StableHlo.nullary main_c_168 (constantI S_ 32 1#32)
  :: StableHlo.binary main_v342 main_c_168 main_v343 (addi : (⟨S_, .i32⟩ : BufTy).Contents (Elt F) → (⟨S_, .i32⟩ : BufTy).Contents (Elt F) → (⟨S_, .i32⟩ : BufTy).Contents (Elt F))
  :: StableHlo.nullary main_c_169 (constantI S_ 32 10#32)
  :: [] )
noncomputable abbrev w8_i1 : List (HloOp τ sig (Elt F)) := remainder0Ops (.of main_v343) (.of main_c_169) main_call7
noncomputable abbrev w8_i2 : List (HloOp τ sig (Elt F)) :=
  ( StableHlo.nullary main_c_170 (constantI S_ 32 1#32)
  :: StableHlo.unary main_c_170 main_v345 (broadcastInDim S1 ![] bcast_S_S1 : (⟨S_, .i32⟩ : BufTy).Contents (Elt F) → (⟨S1, .i32⟩ : BufTy).Contents (Elt F))
  :: StableHlo.ternary main_v13 main_v345 main_v344 main_v346 ((fun x i u => Host.scatter scatter_S4_S1_S__n_0_0_0 (fun _ b => b) x i u) : (⟨S4, .i32⟩ : BufTy).Contents (Elt F) → (⟨S1, .i32⟩ : BufTy).Contents (Elt F) → (⟨S_, .i32⟩ : BufTy).Contents (Elt F) → (⟨S4, .i32⟩ : BufTy).Contents (Elt F))
  :: StableHlo.unary main_v346 main_v347 ((extractStridedSlice S1 ![0] · slices_S4_S1_0) : (⟨S4, .i32⟩ : BufTy).Contents (Elt F) → (⟨S1, .i32⟩ : BufTy).Contents (Elt F))
  :: StableHlo.reshape main_v347 main_v348 rfl shapeCasts_S1_S_
  :: StableHlo.unary main_v346 main_v349 ((extractStridedSlice S1 ![1] · slices_S4_S1_1) : (⟨S4, .i32⟩ : BufTy).Contents (Elt F) → (⟨S1, .i32⟩ : BufTy).Contents (Elt F))
  :: StableHlo.reshape main_v349 main_v350 rfl shapeCasts_S1_S_
  :: StableHlo.unary main_v346 main_v351 ((extractStridedSlice S1 ![2] · slices_S4_S1_2) : (⟨S4, .i32⟩ : BufTy).Contents (Elt F) → (⟨S1, .i32⟩ : BufTy).Contents (Elt F))
  :: StableHlo.reshape main_v351 main_v352 rfl shapeCasts_S1_S_
  :: StableHlo.nullary main_c_171 (constantI S_ 32 0#32)
  :: StableHlo.binary main_v348 main_c_171 main_v353 (cmpi .slt : (⟨S_, .i32⟩ : BufTy).Contents (Elt F) → (⟨S_, .i32⟩ : BufTy).Contents (Elt F) → (⟨S_, .i1⟩ : BufTy).Contents (Elt F))
  :: StableHlo.nullary main_c_172 (constantI S_ 32 10#32)
  :: StableHlo.binary main_v348 main_c_172 main_v354 (addi : (⟨S_, .i32⟩ : BufTy).Contents (Elt F) → (⟨S_, .i32⟩ : BufTy).Contents (Elt F) → (⟨S_, .i32⟩ : BufTy).Contents (Elt F))
  :: StableHlo.ternary main_v353 main_v354 main_v348 main_v355 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_173 (constantI S_ 32 0#32)
  :: StableHlo.binary main_v350 main_c_173 main_v356 (cmpi .slt : (⟨S_, .i32⟩ : BufTy).Contents (Elt F) → (⟨S_, .i32⟩ : BufTy).Contents (Elt F) → (⟨S_, .i1⟩ : BufTy).Contents (Elt F))
  :: StableHlo.nullary main_c_174 (constantI S_ 32 10#32)
  :: StableHlo.binary main_v350 main_c_174 main_v357 (addi : (⟨S_, .i32⟩ : BufTy).Contents (Elt F) → (⟨S_, .i32⟩ : BufTy).Contents (Elt F) → (⟨S_, .i32⟩ : BufTy).Contents (Elt F))
  :: StableHlo.ternary main_v356 main_v357 main_v350 main_v358 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_175 (constantI S_ 32 0#32)
  :: StableHlo.binary main_v352 main_c_175 main_v359 (cmpi .slt : (⟨S_, .i32⟩ : BufTy).Contents (Elt F) → (⟨S_, .i32⟩ : BufTy).Contents (Elt F) → (⟨S_, .i1⟩ : BufTy).Contents (Elt F))
  :: StableHlo.nullary main_c_176 (constantI S_ 32 10#32)
  :: StableHlo.binary main_v352 main_c_176 main_v360 (addi : (⟨S_, .i32⟩ : BufTy).Contents (Elt F) → (⟨S_, .i32⟩ : BufTy).Contents (Elt F) → (⟨S_, .i32⟩ : BufTy).Contents (Elt F))
  :: [] )
theorem main_part8_chain (c : Dev nD) : main_part8 (F := F) c = (Pipeline.chainK
  [ StableHlo.seq w8_i0,
    StableHlo.seq w8_i1 ]
  (StableHlo.seq w8_i2) : Prog (TpuEff nD τ sig (Elt F) (Pipeline.Sig Λ₀ (Fin 0) fun p => (pcfgs (F := F) p).Adm) .tc) PUnit) := by
  chain_rfl

noncomputable abbrev w9_i0 : List (HloOp τ sig (Elt F)) :=
  ( StableHlo.ternary main_v359 main_v360 main_v352 main_v361 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_177 (constantI S_ 32 2#32)
  :: StableHlo.nullary main_c_178 (constantI S_ 32 0#32)
  :: StableHlo.binary main_c_177 main_c_178 main_v362 (cmpi .slt : (⟨S_, .i32⟩ : BufTy).Contents (Elt F) → (⟨S_, .i32⟩ : BufTy).Contents (Elt F) → (⟨S_, .i1⟩ : BufTy).Contents (Elt F))
  :: StableHlo.nullary main_c_179 (constantI S_ 32 2#32)
  :: StableHlo.nullary main_c_180 (constantI S_ 32 4#32)
  :: StableHlo.binary main_c_179 main_c_180 main_v363 (addi : (⟨S_, .i32⟩ : BufTy).Contents (Elt F) → (⟨S_, .i32⟩ : BufTy).Contents (Elt F) → (⟨S_, .i32⟩ : BufTy).Contents (Elt F))
  :: StableHlo.nullary main_c_181 (constantI S_ 32 2#32)
  :: StableHlo.ternary main_v362 main_v363 main_c_181 main_v364 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v355, main_v358, main_v361, main_v364] ⟨S_, .i32⟩ main_v365 ((fun x i => Host.dynamicSlice S1x1x1x1 x (fun k => (i k (Shape.Idx.first h_S_)).toInt) sliceFits_S10x10x10x4_S1x1x1x1) : (⟨S10x10x10x4, .f32⟩ : BufTy).Contents (Elt F) → (Fin 4 → (⟨S_, .i32⟩ : BufTy).Contents (Elt F)) → (⟨S1x1x1x1, .f32⟩ : BufTy).Contents (Elt F))
  :: StableHlo.reshape main_v365 main_v366 rfl shapeCasts_S1x1x1x1_S_
  :: StableHlo.unary main_v346 main_v367 ((extractStridedSlice S1 ![2] · slices_S4_S1_2) : (⟨S4, .i32⟩ : BufTy).Contents (Elt F) → (⟨S1, .i32⟩ : BufTy).Contents (Elt F))
  :: StableHlo.reshape main_v367 main_v368 rfl shapeCasts_S1_S_
  :: StableHlo.nullary main_c_182 (constantI S_ 32 1#32)
  :: StableHlo.binary main_v368 main_c_182 main_v369 (addi : (⟨S_, .i32⟩ : BufTy).Contents (Elt F) → (⟨S_, .i32⟩ : BufTy).Contents (Elt F) → (⟨S_, .i32⟩ : BufTy).Contents (Elt F))
  :: StableHlo.nullary main_c_183 (constantI S_ 32 10#32)
  :: [] )
noncomputable abbrev w9_i1 : List (HloOp τ sig (Elt F)) := remainder0Ops (.of main_v369) (.of main_c_183) main_call8
noncomputable abbrev w9_i2 : List (HloOp τ sig (Elt F)) :=
  ( StableHlo.nullary main_c_184 (constantI S_ 32 2#32)
  :: StableHlo.unary main_c_184 main_v371 (broadcastInDim S1 ![] bcast_S_S1 : (⟨S_, .i32⟩ : BufTy).Contents (Elt F) → (⟨S1, .i32⟩ : BufTy).Contents (Elt F))
  :: StableHlo.ternary main_v346 main_v371 main_v370 main_v372 ((fun x i u => Host.scatter scatter_S4_S1_S__n_0_0_0 (fun _ b => b) x i u) : (⟨S4, .i32⟩ : BufTy).Contents (Elt F) → (⟨S1, .i32⟩ : BufTy).Contents (Elt F) → (⟨S_, .i32⟩ : BufTy).Contents (Elt F) → (⟨S4, .i32⟩ : BufTy).Contents (Elt F))
  :: StableHlo.unary main_v372 main_v373 ((extractStridedSlice S1 ![0] · slices_S4_S1_0) : (⟨S4, .i32⟩ : BufTy).Contents (Elt F) → (⟨S1, .i32⟩ : BufTy).Contents (Elt F))
  :: StableHlo.reshape main_v373 main_v374 rfl shapeCasts_S1_S_
  :: StableHlo.unary main_v372 main_v375 ((extractStridedSlice S1 ![1] · slices_S4_S1_1) : (⟨S4, .i32⟩ : BufTy).Contents (Elt F) → (⟨S1, .i32⟩ : BufTy).Contents (Elt F))
  :: StableHlo.reshape main_v375 main_v376 rfl shapeCasts_S1_S_
  :: StableHlo.unary main_v372 main_v377 ((extractStridedSlice S1 ![2] · slices_S4_S1_2) : (⟨S4, .i32⟩ : BufTy).Contents (Elt F) → (⟨S1, .i32⟩ : BufTy).Contents (Elt F))
  :: StableHlo.reshape main_v377 main_v378 rfl shapeCasts_S1_S_
  :: StableHlo.nullary main_c_185 (constantI S_ 32 0#32)
  :: StableHlo.binary main_v374 main_c_185 main_v379 (cmpi .slt : (⟨S_, .i32⟩ : BufTy).Contents (Elt F) → (⟨S_, .i32⟩ : BufTy).Contents (Elt F) → (⟨S_, .i1⟩ : BufTy).Contents (Elt F))
  :: StableHlo.nullary main_c_186 (constantI S_ 32 10#32)
  :: StableHlo.binary main_v374 main_c_186 main_v380 (addi : (⟨S_, .i32⟩ : BufTy).Contents (Elt F) → (⟨S_, .i32⟩ : BufTy).Contents (Elt F) → (⟨S_, .i32⟩ : BufTy).Contents (Elt F))
  :: StableHlo.ternary main_v379 main_v380 main_v374 main_v381 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_187 (constantI S_ 32 0#32)
  :: StableHlo.binary main_v376 main_c_187 main_v382 (cmpi .slt : (⟨S_, .i32⟩ : BufTy).Contents (Elt F) → (⟨S_, .i32⟩ : BufTy).Contents (Elt F) → (⟨S_, .i1⟩ : BufTy).Contents (Elt F))
  :: StableHlo.nullary main_c_188 (constantI S_ 32 10#32)
  :: StableHlo.binary main_v376 main_c_188 main_v383 (addi : (⟨S_, .i32⟩ : BufTy).Contents (Elt F) → (⟨S_, .i32⟩ : BufTy).Contents (Elt F) → (⟨S_, .i32⟩ : BufTy).Contents (Elt F))
  :: StableHlo.ternary main_v382 main_v383 main_v376 main_v384 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_189 (constantI S_ 32 0#32)
  :: StableHlo.binary main_v378 main_c_189 main_v385 (cmpi .slt : (⟨S_, .i32⟩ : BufTy).Contents (Elt F) → (⟨S_, .i32⟩ : BufTy).Contents (Elt F) → (⟨S_, .i1⟩ : BufTy).Contents (Elt F))
  :: StableHlo.nullary main_c_190 (constantI S_ 32 10#32)
  :: StableHlo.binary main_v378 main_c_190 main_v386 (addi : (⟨S_, .i32⟩ : BufTy).Contents (Elt F) → (⟨S_, .i32⟩ : BufTy).Contents (Elt F) → (⟨S_, .i32⟩ : BufTy).Contents (Elt F))
  :: StableHlo.ternary main_v385 main_v386 main_v378 main_v387 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_191 (constantI S_ 32 1#32)
  :: StableHlo.nullary main_c_192 (constantI S_ 32 0#32)
  :: StableHlo.binary main_c_191 main_c_192 main_v388 (cmpi .slt : (⟨S_, .i32⟩ : BufTy).Contents (Elt F) → (⟨S_, .i32⟩ : BufTy).Contents (Elt F) → (⟨S_, .i1⟩ : BufTy).Contents (Elt F))
  :: StableHlo.nullary main_c_193 (constantI S_ 32 1#32)
  :: StableHlo.nullary main_c_194 (constantI S_ 32 4#32)
  :: StableHlo.binary main_c_193 main_c_194 main_v389 (addi : (⟨S_, .i32⟩ : BufTy).Contents (Elt F) → (⟨S_, .i32⟩ : BufTy).Contents (Elt F) → (⟨S_, .i32⟩ : BufTy).Contents (Elt F))
  :: StableHlo.nullary main_c_195 (constantI S_ 32 1#32)
  :: StableHlo.ternary main_v388 main_v389 main_c_195 main_v390 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v381, main_v384, main_v387, main_v390] ⟨S_, .i32⟩ main_v391 ((fun x i => Host.dynamicSlice S1x1x1x1 x (fun k => (i k (Shape.Idx.first h_S_)).toInt) sliceFits_S10x10x10x4_S1x1x1x1) : (⟨S10x10x10x4, .f32⟩ : BufTy).Contents (Elt F) → (Fin 4 → (⟨S_, .i32⟩ : BufTy).Contents (Elt F)) → (⟨S1x1x1x1, .f32⟩ : BufTy).Contents (Elt F))
  :: StableHlo.reshape main_v391 main_v392 rfl shapeCasts_S1x1x1x1_S_
  :: StableHlo.unary main_v392 main_v393 (Host.negf : (⟨S_, .f32⟩ : BufTy).Contents (Elt F) → (⟨S_, .f32⟩ : BufTy).Contents (Elt F))
  :: StableHlo.nullary main_c_196 (constantI S_ 32 1#32)
  :: StableHlo.unary main_c_196 main_v394 (broadcastInDim S1 ![] bcast_S_S1 : (⟨S_, .i32⟩ : BufTy).Contents (Elt F) → (⟨S1, .i32⟩ : BufTy).Contents (Elt F))
  :: StableHlo.nullary main_c_197 (constantI S_ 32 4294967295#32)
  :: StableHlo.ternary main_v372 main_v394 main_c_197 main_v395 ((fun x i u => Host.scatter scatter_S4_S1_S__n_0_0_0 IntOp.addi x i u) : (⟨S4, .i32⟩ : BufTy).Contents (Elt F) → (⟨S1, .i32⟩ : BufTy).Contents (Elt F) → (⟨S_, .i32⟩ : BufTy).Contents (Elt F) → (⟨S4, .i32⟩ : BufTy).Contents (Elt F))
  :: StableHlo.unary main_v13 main_v396 ((extractStridedSlice S1 ![0] · slices_S4_S1_0) : (⟨S4, .i32⟩ : BufTy).Contents (Elt F) → (⟨S1, .i32⟩ : BufTy).Contents (Elt F))
  :: StableHlo.reshape main_v396 main_v397 rfl shapeCasts_S1_S_
  :: StableHlo.unary main_v13 main_v398 ((extractStridedSlice S1 ![1] · slices_S4_S1_1) : (⟨S4, .i32⟩ : BufTy).Contents (Elt F) → (⟨S1, .i32⟩ : BufTy).Contents (Elt F))
  :: StableHlo.reshape main_v398 main_v399 rfl shapeCasts_S1_S_
  :: [] )
theorem main_part9_chain (c : Dev nD) : main_part9 (F := F) c = (Pipeline.chainK
  [ StableHlo.seq w9_i0,
    StableHlo.seq w9_i1 ]
  (StableHlo.seq w9_i2) : Prog (TpuEff nD τ sig (Elt F) (Pipeline.Sig Λ₀ (Fin 0) fun p => (pcfgs (F := F) p).Adm) .tc) PUnit) := by
  chain_rfl

noncomputable abbrev w10_i0 : List (HloOp τ sig (Elt F)) :=
  ( StableHlo.unary main_v13 main_v400 ((extractStridedSlice S1 ![2] · slices_S4_S1_2) : (⟨S4, .i32⟩ : BufTy).Contents (Elt F) → (⟨S1, .i32⟩ : BufTy).Contents (Elt F))
  :: StableHlo.reshape main_v400 main_v401 rfl shapeCasts_S1_S_
  :: StableHlo.nullary main_c_198 (constantI S_ 32 0#32)
  :: StableHlo.binary main_v397 main_c_198 main_v402 (cmpi .slt : (⟨S_, .i32⟩ : BufTy).Contents (Elt F) → (⟨S_, .i32⟩ : BufTy).Contents (Elt F) → (⟨S_, .i1⟩ : BufTy).Contents (Elt F))
  :: StableHlo.nullary main_c_199 (constantI S_ 32 10#32)
  :: StableHlo.binary main_v397 main_c_199 main_v403 (addi : (⟨S_, .i32⟩ : BufTy).Contents (Elt F) → (⟨S_, .i32⟩ : BufTy).Contents (Elt F) → (⟨S_, .i32⟩ : BufTy).Contents (Elt F))
  :: StableHlo.ternary main_v402 main_v403 main_v397 main_v404 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_200 (constantI S_ 32 0#32)
  :: StableHlo.binary main_v399 main_c_200 main_v405 (cmpi .slt : (⟨S_, .i32⟩ : BufTy).Contents (Elt F) → (⟨S_, .i32⟩ : BufTy).Contents (Elt F) → (⟨S_, .i1⟩ : BufTy).Contents (Elt F))
  :: StableHlo.nullary main_c_201 (constantI S_ 32 10#32)
  :: StableHlo.binary main_v399 main_c_201 main_v406 (addi : (⟨S_, .i32⟩ : BufTy).Contents (Elt F) → (⟨S_, .i32⟩ : BufTy).Contents (Elt F) → (⟨S_, .i32⟩ : BufTy).Contents (Elt F))
  :: StableHlo.ternary main_v405 main_v406 main_v399 main_v407 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_202 (constantI S_ 32 0#32)
  :: StableHlo.binary main_v401 main_c_202 main_v408 (cmpi .slt : (⟨S_, .i32⟩ : BufTy).Contents (Elt F) → (⟨S_, .i32⟩ : BufTy).Contents (Elt F) → (⟨S_, .i1⟩ : BufTy).Contents (Elt F))
  :: StableHlo.nullary main_c_203 (constantI S_ 32 10#32)
  :: StableHlo.binary main_v401 main_c_203 main_v409 (addi : (⟨S_, .i32⟩ : BufTy).Contents (Elt F) → (⟨S_, .i32⟩ : BufTy).Contents (Elt F) → (⟨S_, .i32⟩ : BufTy).Contents (Elt F))
  :: StableHlo.ternary main_v408 main_v409 main_v401 main_v410 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_204 (constantI S_ 32 2#32)
  :: StableHlo.nullary main_c_205 (constantI S_ 32 0#32)
  :: StableHlo.binary main_c_204 main_c_205 main_v411 (cmpi .slt : (⟨S_, .i32⟩ : BufTy).Contents (Elt F) → (⟨S_, .i32⟩ : BufTy).Contents (Elt F) → (⟨S_, .i1⟩ : BufTy).Contents (Elt F))
  :: StableHlo.nullary main_c_206 (constantI S_ 32 2#32)
  :: StableHlo.nullary main_c_207 (constantI S_ 32 4#32)
  :: StableHlo.binary main_c_206 main_c_207 main_v412 (addi : (⟨S_, .i32⟩ : BufTy).Contents (Elt F) → (⟨S_, .i32⟩ : BufTy).Contents (Elt F) → (⟨S_, .i32⟩ : BufTy).Contents (Elt F))
  :: StableHlo.nullary main_c_208 (constantI S_ 32 2#32)
  :: StableHlo.ternary main_v411 main_v412 main_c_208 main_v413 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v404, main_v407, main_v410, main_v413] ⟨S_, .i32⟩ main_v414 ((fun x i => Host.dynamicSlice S1x1x1x1 x (fun k => (i k (Shape.Idx.first h_S_)).toInt) sliceFits_S10x10x10x4_S1x1x1x1) : (⟨S10x10x10x4, .f32⟩ : BufTy).Contents (Elt F) → (Fin 4 → (⟨S_, .i32⟩ : BufTy).Contents (Elt F)) → (⟨S1x1x1x1, .f32⟩ : BufTy).Contents (Elt F))
  :: StableHlo.reshape main_v414 main_v415 rfl shapeCasts_S1x1x1x1_S_
  :: StableHlo.unary main_v415 main_v416 (Host.negf : (⟨S_, .f32⟩ : BufTy).Contents (Elt F) → (⟨S_, .f32⟩ : BufTy).Contents (Elt F))
  :: StableHlo.binary main_v340 main_v366 main_v417 (addf : (⟨S_, .f32⟩ : BufTy).Contents (Elt F) → (⟨S_, .f32⟩ : BufTy).Contents (Elt F) → (⟨S_, .f32⟩ : BufTy).Contents (Elt F))
  :: StableHlo.binary main_v417 main_v393 main_v418 (addf : (⟨S_, .f32⟩ : BufTy).Contents (Elt F) → (⟨S_, .f32⟩ : BufTy).Contents (Elt F) → (⟨S_, .f32⟩ : BufTy).Contents (Elt F))
  :: StableHlo.binary main_v418 main_v416 main_v419 (addf : (⟨S_, .f32⟩ : BufTy).Contents (Elt F) → (⟨S_, .f32⟩ : BufTy).Contents (Elt F) → (⟨S_, .f32⟩ : BufTy).Contents (Elt F))
  :: StableHlo.unary main_v419 main_v420 (Host.exp : (⟨S_, .f32⟩ : BufTy).Contents (Elt F) → (⟨S_, .f32⟩ : BufTy).Contents (Elt F))
  :: StableHlo.unary main_v420 main_v421 (broadcastInDim S1 ![] bcast_S_S1 : (⟨S_, .f32⟩ : BufTy).Contents (Elt F) → (⟨S1, .f32⟩ : BufTy).Contents (Elt F))
  :: StableHlo.binary main_v320 main_v421 main_v422 (mulf : (⟨S1, .f32⟩ : BufTy).Contents (Elt F) → (⟨S1, .f32⟩ : BufTy).Contents (Elt F) → (⟨S1, .f32⟩ : BufTy).Contents (Elt F))
  :: StableHlo.unary main_v13 main_v423 ((extractStridedSlice S1 ![0] · slices_S4_S1_0) : (⟨S4, .i32⟩ : BufTy).Contents (Elt F) → (⟨S1, .i32⟩ : BufTy).Contents (Elt F))
  :: StableHlo.reshape main_v423 main_v424 rfl shapeCasts_S1_S_
  :: StableHlo.unary main_v13 main_v425 ((extractStridedSlice S1 ![1] · slices_S4_S1_1) : (⟨S4, .i32⟩ : BufTy).Contents (Elt F) → (⟨S1, .i32⟩ : BufTy).Contents (Elt F))
  :: StableHlo.reshape main_v425 main_v426 rfl shapeCasts_S1_S_
  :: StableHlo.unary main_v13 main_v427 ((extractStridedSlice S1 ![2] · slices_S4_S1_2) : (⟨S4, .i32⟩ : BufTy).Contents (Elt F) → (⟨S1, .i32⟩ : BufTy).Contents (Elt F))
  :: StableHlo.reshape main_v427 main_v428 rfl shapeCasts_S1_S_
  :: StableHlo.nullary main_c_209 (constantI S_ 32 0#32)
  :: StableHlo.binary main_v424 main_c_209 main_v429 (cmpi .slt : (⟨S_, .i32⟩ : BufTy).Contents (Elt F) → (⟨S_, .i32⟩ : BufTy).Contents (Elt F) → (⟨S_, .i1⟩ : BufTy).Contents (Elt F))
  :: StableHlo.nullary main_c_210 (constantI S_ 32 10#32)
  :: StableHlo.binary main_v424 main_c_210 main_v430 (addi : (⟨S_, .i32⟩ : BufTy).Contents (Elt F) → (⟨S_, .i32⟩ : BufTy).Contents (Elt F) → (⟨S_, .i32⟩ : BufTy).Contents (Elt F))
  :: StableHlo.ternary main_v429 main_v430 main_v424 main_v431 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_211 (constantI S_ 32 0#32)
  :: StableHlo.binary main_v426 main_c_211 main_v432 (cmpi .slt : (⟨S_, .i32⟩ : BufTy).Contents (Elt F) → (⟨S_, .i32⟩ : BufTy).Contents (Elt F) → (⟨S_, .i1⟩ : BufTy).Contents (Elt F))
  :: StableHlo.nullary main_c_212 (constantI S_ 32 10#32)
  :: StableHlo.binary main_v426 main_c_212 main_v433 (addi : (⟨S_, .i32⟩ : BufTy).Contents (Elt F) → (⟨S_, .i32⟩ : BufTy).Contents (Elt F) → (⟨S_, .i32⟩ : BufTy).Contents (Elt F))
  :: StableHlo.ternary main_v432 main_v433 main_v426 main_v434 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_213 (constantI S_ 32 0#32)
  :: StableHlo.binary main_v428 main_c_213 main_v435 (cmpi .slt : (⟨S_, .i32⟩ : BufTy).Contents (Elt F) → (⟨S_, .i32⟩ : BufTy).Contents (Elt F) → (⟨S_, .i1⟩ : BufTy).Contents (Elt F))
  :: StableHlo.nullary main_c_214 (constantI S_ 32 10#32)
  :: StableHlo.binary main_v428 main_c_214 main_v436 (addi : (⟨S_, .i32⟩ : BufTy).Contents (Elt F) → (⟨S_, .i32⟩ : BufTy).Contents (Elt F) → (⟨S_, .i32⟩ : BufTy).Contents (Elt F))
  :: StableHlo.ternary main_v435 main_v436 main_v428 main_v437 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_215 (constantI S_ 32 1#32)
  :: StableHlo.nullary main_c_216 (constantI S_ 32 0#32)
  :: StableHlo.binary main_c_215 main_c_216 main_v438 (cmpi .slt : (⟨S_, .i32⟩ : BufTy).Contents (Elt F) → (⟨S_, .i32⟩ : BufTy).Contents (Elt F) → (⟨S_, .i1⟩ : BufTy).Contents (Elt F))
  :: StableHlo.nullary main_c_217 (constantI S_ 32 1#32)
  :: StableHlo.nullary main_c_218 (constantI S_ 32 4#32)
  :: [] )
theorem main_part10_chain (c : Dev nD) : main_part10 (F := F) c = (Pipeline.chainK
  [  ]
  (StableHlo.seq w10_i0) : Prog (TpuEff nD τ sig (Elt F) (Pipeline.Sig Λ₀ (Fin 0) fun p => (pcfgs (F := F) p).Adm) .tc) PUnit) := by
  chain_rfl

noncomputable abbrev w11_i0 : List (HloOp τ sig (Elt F)) :=
  ( StableHlo.binary main_c_217 main_c_218 main_v439 (addi : (⟨S_, .i32⟩ : BufTy).Contents (Elt F) → (⟨S_, .i32⟩ : BufTy).Contents (Elt F) → (⟨S_, .i32⟩ : BufTy).Contents (Elt F))
  :: StableHlo.nullary main_c_219 (constantI S_ 32 1#32)
  :: StableHlo.ternary main_v438 main_v439 main_c_219 main_v440 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v431, main_v434, main_v437, main_v440] ⟨S_, .i32⟩ main_v441 ((fun x i => Host.dynamicSlice S1x1x1x1 x (fun k => (i k (Shape.Idx.first h_S_)).toInt) sliceFits_S10x10x10x4_S1x1x1x1) : (⟨S10x10x10x4, .f32⟩ : BufTy).Contents (Elt F) → (Fin 4 → (⟨S_, .i32⟩ : BufTy).Contents (Elt F)) → (⟨S1x1x1x1, .f32⟩ : BufTy).Contents (Elt F))
  :: StableHlo.reshape main_v441 main_v442 rfl shapeCasts_S1x1x1x1_S_
  :: StableHlo.unary main_v13 main_v443 ((extractStridedSlice S1 ![1] · slices_S4_S1_1) : (⟨S4, .i32⟩ : BufTy).Contents (Elt F) → (⟨S1, .i32⟩ : BufTy).Contents (Elt F))
  :: StableHlo.reshape main_v443 main_v444 rfl shapeCasts_S1_S_
  :: StableHlo.nullary main_c_220 (constantI S_ 32 1#32)
  :: StableHlo.binary main_v444 main_c_220 main_v445 (addi : (⟨S_, .i32⟩ : BufTy).Contents (Elt F) → (⟨S_, .i32⟩ : BufTy).Contents (Elt F) → (⟨S_, .i32⟩ : BufTy).Contents (Elt F))
  :: StableHlo.nullary main_c_221 (constantI S_ 32 10#32)
  :: [] )
noncomputable abbrev w11_i1 : List (HloOp τ sig (Elt F)) := remainder0Ops (.of main_v445) (.of main_c_221) main_call9
noncomputable abbrev w11_i2 : List (HloOp τ sig (Elt F)) :=
  ( StableHlo.nullary main_c_222 (constantI S_ 32 1#32)
  :: StableHlo.unary main_c_222 main_v447 (broadcastInDim S1 ![] bcast_S_S1 : (⟨S_, .i32⟩ : BufTy).Contents (Elt F) → (⟨S1, .i32⟩ : BufTy).Contents (Elt F))
  :: StableHlo.ternary main_v13 main_v447 main_v446 main_v448 ((fun x i u => Host.scatter scatter_S4_S1_S__n_0_0_0 (fun _ b => b) x i u) : (⟨S4, .i32⟩ : BufTy).Contents (Elt F) → (⟨S1, .i32⟩ : BufTy).Contents (Elt F) → (⟨S_, .i32⟩ : BufTy).Contents (Elt F) → (⟨S4, .i32⟩ : BufTy).Contents (Elt F))
  :: StableHlo.unary main_v448 main_v449 ((extractStridedSlice S1 ![0] · slices_S4_S1_0) : (⟨S4, .i32⟩ : BufTy).Contents (Elt F) → (⟨S1, .i32⟩ : BufTy).Contents (Elt F))
  :: StableHlo.reshape main_v449 main_v450 rfl shapeCasts_S1_S_
  :: StableHlo.unary main_v448 main_v451 ((extractStridedSlice S1 ![1] · slices_S4_S1_1) : (⟨S4, .i32⟩ : BufTy).Contents (Elt F) → (⟨S1, .i32⟩ : BufTy).Contents (Elt F))
  :: StableHlo.reshape main_v451 main_v452 rfl shapeCasts_S1_S_
  :: StableHlo.unary main_v448 main_v453 ((extractStridedSlice S1 ![2] · slices_S4_S1_2) : (⟨S4, .i32⟩ : BufTy).Contents (Elt F) → (⟨S1, .i32⟩ : BufTy).Contents (Elt F))
  :: StableHlo.reshape main_v453 main_v454 rfl shapeCasts_S1_S_
  :: StableHlo.nullary main_c_223 (constantI S_ 32 0#32)
  :: StableHlo.binary main_v450 main_c_223 main_v455 (cmpi .slt : (⟨S_, .i32⟩ : BufTy).Contents (Elt F) → (⟨S_, .i32⟩ : BufTy).Contents (Elt F) → (⟨S_, .i1⟩ : BufTy).Contents (Elt F))
  :: StableHlo.nullary main_c_224 (constantI S_ 32 10#32)
  :: StableHlo.binary main_v450 main_c_224 main_v456 (addi : (⟨S_, .i32⟩ : BufTy).Contents (Elt F) → (⟨S_, .i32⟩ : BufTy).Contents (Elt F) → (⟨S_, .i32⟩ : BufTy).Contents (Elt F))
  :: StableHlo.ternary main_v455 main_v456 main_v450 main_v457 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_225 (constantI S_ 32 0#32)
  :: StableHlo.binary main_v452 main_c_225 main_v458 (cmpi .slt : (⟨S_, .i32⟩ : BufTy).Contents (Elt F) → (⟨S_, .i32⟩ : BufTy).Contents (Elt F) → (⟨S_, .i1⟩ : BufTy).Contents (Elt F))
  :: StableHlo.nullary main_c_226 (constantI S_ 32 10#32)
  :: StableHlo.binary main_v452 main_c_226 main_v459 (addi : (⟨S_, .i32⟩ : BufTy).Contents (Elt F) → (⟨S_, .i32⟩ : BufTy).Contents (Elt F) → (⟨S_, .i32⟩ : BufTy).Contents (Elt F))
  :: StableHlo.ternary main_v458 main_v459 main_v452 main_v460 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_227 (constantI S_ 32 0#32)
  :: StableHlo.binary main_v454 main_c_227 main_v461 (cmpi .slt : (⟨S_, .i32⟩ : BufTy).Contents (Elt F) → (⟨S_, .i32⟩ : BufTy).Contents (Elt F) → (⟨S_, .i1⟩ : BufTy).Contents (Elt F))
  :: StableHlo.nullary main_c_228 (constantI S_ 32 10#32)
  :: StableHlo.binary main_v454 main_c_228 main_v462 (addi : (⟨S_, .i32⟩ : BufTy).Contents (Elt F) → (⟨S_, .i32⟩ : BufTy).Contents (Elt F) → (⟨S_, .i32⟩ : BufTy).Contents (Elt F))
  :: StableHlo.ternary main_v461 main_v462 main_v454 main_v463 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_229 (constantI S_ 32 3#32)
  :: StableHlo.nullary main_c_230 (constantI S_ 32 0#32)
  :: StableHlo.binary main_c_229 main_c_230 main_v464 (cmpi .slt : (⟨S_, .i32⟩ : BufTy).Contents (Elt F) → (⟨S_, .i32⟩ : BufTy).Contents (Elt F) → (⟨S_, .i1⟩ : BufTy).Contents (Elt F))
  :: StableHlo.nullary main_c_231 (constantI S_ 32 3#32)
  :: StableHlo.nullary main_c_232 (constantI S_ 32 4#32)
  :: StableHlo.binary main_c_231 main_c_232 main_v465 (addi : (⟨S_, .i32⟩ : BufTy).Contents (Elt F) → (⟨S_, .i32⟩ : BufTy).Contents (Elt F) → (⟨S_, .i32⟩ : BufTy).Contents (Elt F))
  :: StableHlo.nullary main_c_233 (constantI S_ 32 3#32)
  :: StableHlo.ternary main_v464 main_v465 main_c_233 main_v466 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v457, main_v460, main_v463, main_v466] ⟨S_, .i32⟩ main_v467 ((fun x i => Host.dynamicSlice S1x1x1x1 x (fun k => (i k (Shape.Idx.first h_S_)).toInt) sliceFits_S10x10x10x4_S1x1x1x1) : (⟨S10x10x10x4, .f32⟩ : BufTy).Contents (Elt F) → (Fin 4 → (⟨S_, .i32⟩ : BufTy).Contents (Elt F)) → (⟨S1x1x1x1, .f32⟩ : BufTy).Contents (Elt F))
  :: StableHlo.reshape main_v467 main_v468 rfl shapeCasts_S1x1x1x1_S_
  :: StableHlo.unary main_v448 main_v469 ((extractStridedSlice S1 ![3] · slices_S4_S1_3) : (⟨S4, .i32⟩ : BufTy).Contents (Elt F) → (⟨S1, .i32⟩ : BufTy).Contents (Elt F))
  :: StableHlo.reshape main_v469 main_v470 rfl shapeCasts_S1_S_
  :: StableHlo.nullary main_c_234 (constantI S_ 32 1#32)
  :: StableHlo.binary main_v470 main_c_234 main_v471 (addi : (⟨S_, .i32⟩ : BufTy).Contents (Elt F) → (⟨S_, .i32⟩ : BufTy).Contents (Elt F) → (⟨S_, .i32⟩ : BufTy).Contents (Elt F))
  :: StableHlo.nullary main_c_235 (constantI S_ 32 10#32)
  :: [] )
noncomputable abbrev w11_i3 : List (HloOp τ sig (Elt F)) := remainder0Ops (.of main_v471) (.of main_c_235) main_call10
noncomputable abbrev w11_i4 : List (HloOp τ sig (Elt F)) :=
  ( StableHlo.nullary main_c_236 (constantI S_ 32 3#32)
  :: StableHlo.unary main_c_236 main_v473 (broadcastInDim S1 ![] bcast_S_S1 : (⟨S_, .i32⟩ : BufTy).Contents (Elt F) → (⟨S1, .i32⟩ : BufTy).Contents (Elt F))
  :: StableHlo.ternary main_v448 main_v473 main_v472 main_v474 ((fun x i u => Host.scatter scatter_S4_S1_S__n_0_0_0 (fun _ b => b) x i u) : (⟨S4, .i32⟩ : BufTy).Contents (Elt F) → (⟨S1, .i32⟩ : BufTy).Contents (Elt F) → (⟨S_, .i32⟩ : BufTy).Contents (Elt F) → (⟨S4, .i32⟩ : BufTy).Contents (Elt F))
  :: StableHlo.unary main_v474 main_v475 ((extractStridedSlice S1 ![0] · slices_S4_S1_0) : (⟨S4, .i32⟩ : BufTy).Contents (Elt F) → (⟨S1, .i32⟩ : BufTy).Contents (Elt F))
  :: StableHlo.reshape main_v475 main_v476 rfl shapeCasts_S1_S_
  :: StableHlo.unary main_v474 main_v477 ((extractStridedSlice S1 ![1] · slices_S4_S1_1) : (⟨S4, .i32⟩ : BufTy).Contents (Elt F) → (⟨S1, .i32⟩ : BufTy).Contents (Elt F))
  :: StableHlo.reshape main_v477 main_v478 rfl shapeCasts_S1_S_
  :: StableHlo.unary main_v474 main_v479 ((extractStridedSlice S1 ![2] · slices_S4_S1_2) : (⟨S4, .i32⟩ : BufTy).Contents (Elt F) → (⟨S1, .i32⟩ : BufTy).Contents (Elt F))
  :: StableHlo.reshape main_v479 main_v480 rfl shapeCasts_S1_S_
  :: [] )
theorem main_part11_chain (c : Dev nD) : main_part11 (F := F) c = (Pipeline.chainK
  [ StableHlo.seq w11_i0,
    StableHlo.seq w11_i1,
    StableHlo.seq w11_i2,
    StableHlo.seq w11_i3 ]
  (StableHlo.seq w11_i4) : Prog (TpuEff nD τ sig (Elt F) (Pipeline.Sig Λ₀ (Fin 0) fun p => (pcfgs (F := F) p).Adm) .tc) PUnit) := by
  chain_rfl

noncomputable abbrev w12_i0 : List (HloOp τ sig (Elt F)) :=
  ( StableHlo.nullary main_c_237 (constantI S_ 32 0#32)
  :: StableHlo.binary main_v476 main_c_237 main_v481 (cmpi .slt : (⟨S_, .i32⟩ : BufTy).Contents (Elt F) → (⟨S_, .i32⟩ : BufTy).Contents (Elt F) → (⟨S_, .i1⟩ : BufTy).Contents (Elt F))
  :: StableHlo.nullary main_c_238 (constantI S_ 32 10#32)
  :: StableHlo.binary main_v476 main_c_238 main_v482 (addi : (⟨S_, .i32⟩ : BufTy).Contents (Elt F) → (⟨S_, .i32⟩ : BufTy).Contents (Elt F) → (⟨S_, .i32⟩ : BufTy).Contents (Elt F))
  :: StableHlo.ternary main_v481 main_v482 main_v476 main_v483 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_239 (constantI S_ 32 0#32)
  :: StableHlo.binary main_v478 main_c_239 main_v484 (cmpi .slt : (⟨S_, .i32⟩ : BufTy).Contents (Elt F) → (⟨S_, .i32⟩ : BufTy).Contents (Elt F) → (⟨S_, .i1⟩ : BufTy).Contents (Elt F))
  :: StableHlo.nullary main_c_240 (constantI S_ 32 10#32)
  :: StableHlo.binary main_v478 main_c_240 main_v485 (addi : (⟨S_, .i32⟩ : BufTy).Contents (Elt F) → (⟨S_, .i32⟩ : BufTy).Contents (Elt F) → (⟨S_, .i32⟩ : BufTy).Contents (Elt F))
  :: StableHlo.ternary main_v484 main_v485 main_v478 main_v486 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_241 (constantI S_ 32 0#32)
  :: StableHlo.binary main_v480 main_c_241 main_v487 (cmpi .slt : (⟨S_, .i32⟩ : BufTy).Contents (Elt F) → (⟨S_, .i32⟩ : BufTy).Contents (Elt F) → (⟨S_, .i1⟩ : BufTy).Contents (Elt F))
  :: StableHlo.nullary main_c_242 (constantI S_ 32 10#32)
  :: StableHlo.binary main_v480 main_c_242 main_v488 (addi : (⟨S_, .i32⟩ : BufTy).Contents (Elt F) → (⟨S_, .i32⟩ : BufTy).Contents (Elt F) → (⟨S_, .i32⟩ : BufTy).Contents (Elt F))
  :: StableHlo.ternary main_v487 main_v488 main_v480 main_v489 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_243 (constantI S_ 32 1#32)
  :: StableHlo.nullary main_c_244 (constantI S_ 32 0#32)
  :: StableHlo.binary main_c_243 main_c_244 main_v490 (cmpi .slt : (⟨S_, .i32⟩ : BufTy).Contents (Elt F) → (⟨S_, .i32⟩ : BufTy).Contents (Elt F) → (⟨S_, .i1⟩ : BufTy).Contents (Elt F))
  :: StableHlo.nullary main_c_245 (constantI S_ 32 1#32)
  :: StableHlo.nullary main_c_246 (constantI S_ 32 4#32)
  :: StableHlo.binary main_c_245 main_c_246 main_v491 (addi : (⟨S_, .i32⟩ : BufTy).Contents (Elt F) → (⟨S_, .i32⟩ : BufTy).Contents (Elt F) → (⟨S_, .i32⟩ : BufTy).Contents (Elt F))
  :: StableHlo.nullary main_c_247 (constantI S_ 32 1#32)
  :: StableHlo.ternary main_v490 main_v491 main_c_247 main_v492 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v483, main_v486, main_v489, main_v492] ⟨S_, .i32⟩ main_v493 ((fun x i => Host.dynamicSlice S1x1x1x1 x (fun k => (i k (Shape.Idx.first h_S_)).toInt) sliceFits_S10x10x10x4_S1x1x1x1) : (⟨S10x10x10x4, .f32⟩ : BufTy).Contents (Elt F) → (Fin 4 → (⟨S_, .i32⟩ : BufTy).Contents (Elt F)) → (⟨S1x1x1x1, .f32⟩ : BufTy).Contents (Elt F))
  :: StableHlo.reshape main_v493 main_v494 rfl shapeCasts_S1x1x1x1_S_
  :: StableHlo.unary main_v494 main_v495 (Host.negf : (⟨S_, .f32⟩ : BufTy).Contents (Elt F) → (⟨S_, .f32⟩ : BufTy).Contents (Elt F))
  :: StableHlo.nullary main_c_248 (constantI S_ 32 1#32)
  :: StableHlo.unary main_c_248 main_v496 (broadcastInDim S1 ![] bcast_S_S1 : (⟨S_, .i32⟩ : BufTy).Contents (Elt F) → (⟨S1, .i32⟩ : BufTy).Contents (Elt F))
  :: StableHlo.nullary main_c_249 (constantI S_ 32 4294967295#32)
  :: StableHlo.ternary main_v474 main_v496 main_c_249 main_v497 ((fun x i u => Host.scatter scatter_S4_S1_S__n_0_0_0 IntOp.addi x i u) : (⟨S4, .i32⟩ : BufTy).Contents (Elt F) → (⟨S1, .i32⟩ : BufTy).Contents (Elt F) → (⟨S_, .i32⟩ : BufTy).Contents (Elt F) → (⟨S4, .i32⟩ : BufTy).Contents (Elt F))
  :: StableHlo.unary main_v13 main_v498 ((extractStridedSlice S1 ![0] · slices_S4_S1_0) : (⟨S4, .i32⟩ : BufTy).Contents (Elt F) → (⟨S1, .i32⟩ : BufTy).Contents (Elt F))
  :: StableHlo.reshape main_v498 main_v499 rfl shapeCasts_S1_S_
  :: StableHlo.unary main_v13 main_v500 ((extractStridedSlice S1 ![1] · slices_S4_S1_1) : (⟨S4, .i32⟩ : BufTy).Contents (Elt F) → (⟨S1, .i32⟩ : BufTy).Contents (Elt F))
  :: StableHlo.reshape main_v500 main_v501 rfl shapeCasts_S1_S_
  :: StableHlo.unary main_v13 main_v502 ((extractStridedSlice S1 ![2] · slices_S4_S1_2) : (⟨S4, .i32⟩ : BufTy).Contents (Elt F) → (⟨S1, .i32⟩ : BufTy).Contents (Elt F))
  :: StableHlo.reshape main_v502 main_v503 rfl shapeCasts_S1_S_
  :: StableHlo.nullary main_c_250 (constantI S_ 32 0#32)
  :: StableHlo.binary main_v499 main_c_250 main_v504 (cmpi .slt : (⟨S_, .i32⟩ : BufTy).Contents (Elt F) → (⟨S_, .i32⟩ : BufTy).Contents (Elt F) → (⟨S_, .i1⟩ : BufTy).Contents (Elt F))
  :: StableHlo.nullary main_c_251 (constantI S_ 32 10#32)
  :: StableHlo.binary main_v499 main_c_251 main_v505 (addi : (⟨S_, .i32⟩ : BufTy).Contents (Elt F) → (⟨S_, .i32⟩ : BufTy).Contents (Elt F) → (⟨S_, .i32⟩ : BufTy).Contents (Elt F))
  :: StableHlo.ternary main_v504 main_v505 main_v499 main_v506 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_252 (constantI S_ 32 0#32)
  :: StableHlo.binary main_v501 main_c_252 main_v507 (cmpi .slt : (⟨S_, .i32⟩ : BufTy).Contents (Elt F) → (⟨S_, .i32⟩ : BufTy).Contents (Elt F) → (⟨S_, .i1⟩ : BufTy).Contents (Elt F))
  :: StableHlo.nullary main_c_253 (constantI S_ 32 10#32)
  :: StableHlo.binary main_v501 main_c_253 main_v508 (addi : (⟨S_, .i32⟩ : BufTy).Contents (Elt F) → (⟨S_, .i32⟩ : BufTy).Contents (Elt F) → (⟨S_, .i32⟩ : BufTy).Contents (Elt F))
  :: StableHlo.ternary main_v507 main_v508 main_v501 main_v509 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_254 (constantI S_ 32 0#32)
  :: StableHlo.binary main_v503 main_c_254 main_v510 (cmpi .slt : (⟨S_, .i32⟩ : BufTy).Contents (Elt F) → (⟨S_, .i32⟩ : BufTy).Contents (Elt F) → (⟨S_, .i1⟩ : BufTy).Contents (Elt F))
  :: StableHlo.nullary main_c_255 (constantI S_ 32 10#32)
  :: StableHlo.binary main_v503 main_c_255 main_v511 (addi : (⟨S_, .i32⟩ : BufTy).Contents (Elt F) → (⟨S_, .i32⟩ : BufTy).Contents (Elt F) → (⟨S_, .i32⟩ : BufTy).Contents (Elt F))
  :: StableHlo.ternary main_v510 main_v511 main_v503 main_v512 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_256 (constantI S_ 32 3#32)
  :: StableHlo.nullary main_c_257 (constantI S_ 32 0#32)
  :: StableHlo.binary main_c_256 main_c_257 main_v513 (cmpi .slt : (⟨S_, .i32⟩ : BufTy).Contents (Elt F) → (⟨S_, .i32⟩ : BufTy).Contents (Elt F) → (⟨S_, .i1⟩ : BufTy).Contents (Elt F))
  :: StableHlo.nullary main_c_258 (constantI S_ 32 3#32)
  :: StableHlo.nullary main_c_259 (constantI S_ 32 4#32)
  :: StableHlo.binary main_c_258 main_c_259 main_v514 (addi : (⟨S_, .i32⟩ : BufTy).Contents (Elt F) → (⟨S_, .i32⟩ : BufTy).Contents (Elt F) → (⟨S_, .i32⟩ : BufTy).Contents (Elt F))
  :: StableHlo.nullary main_c_260 (constantI S_ 32 3#32)
  :: StableHlo.ternary main_v513 main_v514 main_c_260 main_v515 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v506, main_v509, main_v512, main_v515] ⟨S_, .i32⟩ main_v516 ((fun x i => Host.dynamicSlice S1x1x1x1 x (fun k => (i k (Shape.Idx.first h_S_)).toInt) sliceFits_S10x10x10x4_S1x1x1x1) : (⟨S10x10x10x4, .f32⟩ : BufTy).Contents (Elt F) → (Fin 4 → (⟨S_, .i32⟩ : BufTy).Contents (Elt F)) → (⟨S1x1x1x1, .f32⟩ : BufTy).Contents (Elt F))
  :: [] )
theorem main_part12_chain (c : Dev nD) : main_part12 (F := F) c = (Pipeline.chainK
  [  ]
  (StableHlo.seq w12_i0) : Prog (TpuEff nD τ sig (Elt F) (Pipeline.Sig Λ₀ (Fin 0) fun p => (pcfgs (F := F) p).Adm) .tc) PUnit) := by
  chain_rfl

noncomputable abbrev w13_i0 : List (HloOp τ sig (Elt F)) :=
  ( StableHlo.reshape main_v516 main_v517 rfl shapeCasts_S1x1x1x1_S_
  :: StableHlo.unary main_v517 main_v518 (Host.negf : (⟨S_, .f32⟩ : BufTy).Contents (Elt F) → (⟨S_, .f32⟩ : BufTy).Contents (Elt F))
  :: StableHlo.binary main_v442 main_v468 main_v519 (addf : (⟨S_, .f32⟩ : BufTy).Contents (Elt F) → (⟨S_, .f32⟩ : BufTy).Contents (Elt F) → (⟨S_, .f32⟩ : BufTy).Contents (Elt F))
  :: StableHlo.binary main_v519 main_v495 main_v520 (addf : (⟨S_, .f32⟩ : BufTy).Contents (Elt F) → (⟨S_, .f32⟩ : BufTy).Contents (Elt F) → (⟨S_, .f32⟩ : BufTy).Contents (Elt F))
  :: StableHlo.binary main_v520 main_v518 main_v521 (addf : (⟨S_, .f32⟩ : BufTy).Contents (Elt F) → (⟨S_, .f32⟩ : BufTy).Contents (Elt F) → (⟨S_, .f32⟩ : BufTy).Contents (Elt F))
  :: StableHlo.unary main_v521 main_v522 (Host.exp : (⟨S_, .f32⟩ : BufTy).Contents (Elt F) → (⟨S_, .f32⟩ : BufTy).Contents (Elt F))
  :: StableHlo.unary main_v522 main_v523 (broadcastInDim S1 ![] bcast_S_S1 : (⟨S_, .f32⟩ : BufTy).Contents (Elt F) → (⟨S1, .f32⟩ : BufTy).Contents (Elt F))
  :: StableHlo.binary main_v422 main_v523 main_v524 (mulf : (⟨S1, .f32⟩ : BufTy).Contents (Elt F) → (⟨S1, .f32⟩ : BufTy).Contents (Elt F) → (⟨S1, .f32⟩ : BufTy).Contents (Elt F))
  :: StableHlo.unary main_v13 main_v525 ((extractStridedSlice S1 ![0] · slices_S4_S1_0) : (⟨S4, .i32⟩ : BufTy).Contents (Elt F) → (⟨S1, .i32⟩ : BufTy).Contents (Elt F))
  :: StableHlo.reshape main_v525 main_v526 rfl shapeCasts_S1_S_
  :: StableHlo.unary main_v13 main_v527 ((extractStridedSlice S1 ![1] · slices_S4_S1_1) : (⟨S4, .i32⟩ : BufTy).Contents (Elt F) → (⟨S1, .i32⟩ : BufTy).Contents (Elt F))
  :: StableHlo.reshape main_v527 main_v528 rfl shapeCasts_S1_S_
  :: StableHlo.unary main_v13 main_v529 ((extractStridedSlice S1 ![2] · slices_S4_S1_2) : (⟨S4, .i32⟩ : BufTy).Contents (Elt F) → (⟨S1, .i32⟩ : BufTy).Contents (Elt F))
  :: StableHlo.reshape main_v529 main_v530 rfl shapeCasts_S1_S_
  :: StableHlo.nullary main_c_261 (constantI S_ 32 0#32)
  :: StableHlo.binary main_v526 main_c_261 main_v531 (cmpi .slt : (⟨S_, .i32⟩ : BufTy).Contents (Elt F) → (⟨S_, .i32⟩ : BufTy).Contents (Elt F) → (⟨S_, .i1⟩ : BufTy).Contents (Elt F))
  :: StableHlo.nullary main_c_262 (constantI S_ 32 10#32)
  :: StableHlo.binary main_v526 main_c_262 main_v532 (addi : (⟨S_, .i32⟩ : BufTy).Contents (Elt F) → (⟨S_, .i32⟩ : BufTy).Contents (Elt F) → (⟨S_, .i32⟩ : BufTy).Contents (Elt F))
  :: StableHlo.ternary main_v531 main_v532 main_v526 main_v533 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_263 (constantI S_ 32 0#32)
  :: StableHlo.binary main_v528 main_c_263 main_v534 (cmpi .slt : (⟨S_, .i32⟩ : BufTy).Contents (Elt F) → (⟨S_, .i32⟩ : BufTy).Contents (Elt F) → (⟨S_, .i1⟩ : BufTy).Contents (Elt F))
  :: StableHlo.nullary main_c_264 (constantI S_ 32 10#32)
  :: StableHlo.binary main_v528 main_c_264 main_v535 (addi : (⟨S_, .i32⟩ : BufTy).Contents (Elt F) → (⟨S_, .i32⟩ : BufTy).Contents (Elt F) → (⟨S_, .i32⟩ : BufTy).Contents (Elt F))
  :: StableHlo.ternary main_v534 main_v535 main_v528 main_v536 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_265 (constantI S_ 32 0#32)
  :: StableHlo.binary main_v530 main_c_265 main_v537 (cmpi .slt : (⟨S_, .i32⟩ : BufTy).Contents (Elt F) → (⟨S_, .i32⟩ : BufTy).Contents (Elt F) → (⟨S_, .i1⟩ : BufTy).Contents (Elt F))
  :: StableHlo.nullary main_c_266 (constantI S_ 32 10#32)
  :: StableHlo.binary main_v530 main_c_266 main_v538 (addi : (⟨S_, .i32⟩ : BufTy).Contents (Elt F) → (⟨S_, .i32⟩ : BufTy).Contents (Elt F) → (⟨S_, .i32⟩ : BufTy).Contents (Elt F))
  :: StableHlo.ternary main_v537 main_v538 main_v530 main_v539 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_267 (constantI S_ 32 2#32)
  :: StableHlo.nullary main_c_268 (constantI S_ 32 0#32)
  :: StableHlo.binary main_c_267 main_c_268 main_v540 (cmpi .slt : (⟨S_, .i32⟩ : BufTy).Contents (Elt F) → (⟨S_, .i32⟩ : BufTy).Contents (Elt F) → (⟨S_, .i1⟩ : BufTy).Contents (Elt F))
  :: StableHlo.nullary main_c_269 (constantI S_ 32 2#32)
  :: StableHlo.nullary main_c_270 (constantI S_ 32 4#32)
  :: StableHlo.binary main_c_269 main_c_270 main_v541 (addi : (⟨S_, .i32⟩ : BufTy).Contents (Elt F) → (⟨S_, .i32⟩ : BufTy).Contents (Elt F) → (⟨S_, .i32⟩ : BufTy).Contents (Elt F))
  :: StableHlo.nullary main_c_271 (constantI S_ 32 2#32)
  :: StableHlo.ternary main_v540 main_v541 main_c_271 main_v542 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v533, main_v536, main_v539, main_v542] ⟨S_, .i32⟩ main_v543 ((fun x i => Host.dynamicSlice S1x1x1x1 x (fun k => (i k (Shape.Idx.first h_S_)).toInt) sliceFits_S10x10x10x4_S1x1x1x1) : (⟨S10x10x10x4, .f32⟩ : BufTy).Contents (Elt F) → (Fin 4 → (⟨S_, .i32⟩ : BufTy).Contents (Elt F)) → (⟨S1x1x1x1, .f32⟩ : BufTy).Contents (Elt F))
  :: StableHlo.reshape main_v543 main_v544 rfl shapeCasts_S1x1x1x1_S_
  :: StableHlo.unary main_v13 main_v545 ((extractStridedSlice S1 ![2] · slices_S4_S1_2) : (⟨S4, .i32⟩ : BufTy).Contents (Elt F) → (⟨S1, .i32⟩ : BufTy).Contents (Elt F))
  :: StableHlo.reshape main_v545 main_v546 rfl shapeCasts_S1_S_
  :: StableHlo.nullary main_c_272 (constantI S_ 32 1#32)
  :: StableHlo.binary main_v546 main_c_272 main_v547 (addi : (⟨S_, .i32⟩ : BufTy).Contents (Elt F) → (⟨S_, .i32⟩ : BufTy).Contents (Elt F) → (⟨S_, .i32⟩ : BufTy).Contents (Elt F))
  :: StableHlo.nullary main_c_273 (constantI S_ 32 10#32)
  :: [] )
noncomputable abbrev w13_i1 : List (HloOp τ sig (Elt F)) := remainder0Ops (.of main_v547) (.of main_c_273) main_call11
noncomputable abbrev w13_i2 : List (HloOp τ sig (Elt F)) :=
  ( StableHlo.nullary main_c_274 (constantI S_ 32 2#32)
  :: StableHlo.unary main_c_274 main_v549 (broadcastInDim S1 ![] bcast_S_S1 : (⟨S_, .i32⟩ : BufTy).Contents (Elt F) → (⟨S1, .i32⟩ : BufTy).Contents (Elt F))
  :: StableHlo.ternary main_v13 main_v549 main_v548 main_v550 ((fun x i u => Host.scatter scatter_S4_S1_S__n_0_0_0 (fun _ b => b) x i u) : (⟨S4, .i32⟩ : BufTy).Contents (Elt F) → (⟨S1, .i32⟩ : BufTy).Contents (Elt F) → (⟨S_, .i32⟩ : BufTy).Contents (Elt F) → (⟨S4, .i32⟩ : BufTy).Contents (Elt F))
  :: StableHlo.unary main_v550 main_v551 ((extractStridedSlice S1 ![0] · slices_S4_S1_0) : (⟨S4, .i32⟩ : BufTy).Contents (Elt F) → (⟨S1, .i32⟩ : BufTy).Contents (Elt F))
  :: StableHlo.reshape main_v551 main_v552 rfl shapeCasts_S1_S_
  :: StableHlo.unary main_v550 main_v553 ((extractStridedSlice S1 ![1] · slices_S4_S1_1) : (⟨S4, .i32⟩ : BufTy).Contents (Elt F) → (⟨S1, .i32⟩ : BufTy).Contents (Elt F))
  :: StableHlo.reshape main_v553 main_v554 rfl shapeCasts_S1_S_
  :: StableHlo.unary main_v550 main_v555 ((extractStridedSlice S1 ![2] · slices_S4_S1_2) : (⟨S4, .i32⟩ : BufTy).Contents (Elt F) → (⟨S1, .i32⟩ : BufTy).Contents (Elt F))
  :: StableHlo.reshape main_v555 main_v556 rfl shapeCasts_S1_S_
  :: StableHlo.nullary main_c_275 (constantI S_ 32 0#32)
  :: StableHlo.binary main_v552 main_c_275 main_v557 (cmpi .slt : (⟨S_, .i32⟩ : BufTy).Contents (Elt F) → (⟨S_, .i32⟩ : BufTy).Contents (Elt F) → (⟨S_, .i1⟩ : BufTy).Contents (Elt F))
  :: StableHlo.nullary main_c_276 (constantI S_ 32 10#32)
  :: StableHlo.binary main_v552 main_c_276 main_v558 (addi : (⟨S_, .i32⟩ : BufTy).Contents (Elt F) → (⟨S_, .i32⟩ : BufTy).Contents (Elt F) → (⟨S_, .i32⟩ : BufTy).Contents (Elt F))
  :: StableHlo.ternary main_v557 main_v558 main_v552 main_v559 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_277 (constantI S_ 32 0#32)
  :: [] )
theorem main_part13_chain (c : Dev nD) : main_part13 (F := F) c = (Pipeline.chainK
  [ StableHlo.seq w13_i0,
    StableHlo.seq w13_i1 ]
  (StableHlo.seq w13_i2) : Prog (TpuEff nD τ sig (Elt F) (Pipeline.Sig Λ₀ (Fin 0) fun p => (pcfgs (F := F) p).Adm) .tc) PUnit) := by
  chain_rfl

noncomputable abbrev w14_i0 : List (HloOp τ sig (Elt F)) :=
  ( StableHlo.binary main_v554 main_c_277 main_v560 (cmpi .slt : (⟨S_, .i32⟩ : BufTy).Contents (Elt F) → (⟨S_, .i32⟩ : BufTy).Contents (Elt F) → (⟨S_, .i1⟩ : BufTy).Contents (Elt F))
  :: StableHlo.nullary main_c_278 (constantI S_ 32 10#32)
  :: StableHlo.binary main_v554 main_c_278 main_v561 (addi : (⟨S_, .i32⟩ : BufTy).Contents (Elt F) → (⟨S_, .i32⟩ : BufTy).Contents (Elt F) → (⟨S_, .i32⟩ : BufTy).Contents (Elt F))
  :: StableHlo.ternary main_v560 main_v561 main_v554 main_v562 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_279 (constantI S_ 32 0#32)
  :: StableHlo.binary main_v556 main_c_279 main_v563 (cmpi .slt : (⟨S_, .i32⟩ : BufTy).Contents (Elt F) → (⟨S_, .i32⟩ : BufTy).Contents (Elt F) → (⟨S_, .i1⟩ : BufTy).Contents (Elt F))
  :: StableHlo.nullary main_c_280 (constantI S_ 32 10#32)
  :: StableHlo.binary main_v556 main_c_280 main_v564 (addi : (⟨S_, .i32⟩ : BufTy).Contents (Elt F) → (⟨S_, .i32⟩ : BufTy).Contents (Elt F) → (⟨S_, .i32⟩ : BufTy).Contents (Elt F))
  :: StableHlo.ternary main_v563 main_v564 main_v556 main_v565 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_281 (constantI S_ 32 3#32)
  :: StableHlo.nullary main_c_282 (constantI S_ 32 0#32)
  :: StableHlo.binary main_c_281 main_c_282 main_v566 (cmpi .slt : (⟨S_, .i32⟩ : BufTy).Contents (Elt F) → (⟨S_, .i32⟩ : BufTy).Contents (Elt F) → (⟨S_, .i1⟩ : BufTy).Contents (Elt F))
  :: StableHlo.nullary main_c_283 (constantI S_ 32 3#32)
  :: StableHlo.nullary main_c_284 (constantI S_ 32 4#32)
  :: StableHlo.binary main_c_283 main_c_284 main_v567 (addi : (⟨S_, .i32⟩ : BufTy).Contents (Elt F) → (⟨S_, .i32⟩ : BufTy).Contents (Elt F) → (⟨S_, .i32⟩ : BufTy).Contents (Elt F))
  :: StableHlo.nullary main_c_285 (constantI S_ 32 3#32)
  :: StableHlo.ternary main_v566 main_v567 main_c_285 main_v568 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v559, main_v562, main_v565, main_v568] ⟨S_, .i32⟩ main_v569 ((fun x i => Host.dynamicSlice S1x1x1x1 x (fun k => (i k (Shape.Idx.first h_S_)).toInt) sliceFits_S10x10x10x4_S1x1x1x1) : (⟨S10x10x10x4, .f32⟩ : BufTy).Contents (Elt F) → (Fin 4 → (⟨S_, .i32⟩ : BufTy).Contents (Elt F)) → (⟨S1x1x1x1, .f32⟩ : BufTy).Contents (Elt F))
  :: StableHlo.reshape main_v569 main_v570 rfl shapeCasts_S1x1x1x1_S_
  :: StableHlo.unary main_v550 main_v571 ((extractStridedSlice S1 ![3] · slices_S4_S1_3) : (⟨S4, .i32⟩ : BufTy).Contents (Elt F) → (⟨S1, .i32⟩ : BufTy).Contents (Elt F))
  :: StableHlo.reshape main_v571 main_v572 rfl shapeCasts_S1_S_
  :: StableHlo.nullary main_c_286 (constantI S_ 32 1#32)
  :: StableHlo.binary main_v572 main_c_286 main_v573 (addi : (⟨S_, .i32⟩ : BufTy).Contents (Elt F) → (⟨S_, .i32⟩ : BufTy).Contents (Elt F) → (⟨S_, .i32⟩ : BufTy).Contents (Elt F))
  :: StableHlo.nullary main_c_287 (constantI S_ 32 10#32)
  :: [] )
noncomputable abbrev w14_i1 : List (HloOp τ sig (Elt F)) := remainder0Ops (.of main_v573) (.of main_c_287) main_call12
noncomputable abbrev w14_i2 : List (HloOp τ sig (Elt F)) :=
  ( StableHlo.nullary main_c_288 (constantI S_ 32 3#32)
  :: StableHlo.unary main_c_288 main_v575 (broadcastInDim S1 ![] bcast_S_S1 : (⟨S_, .i32⟩ : BufTy).Contents (Elt F) → (⟨S1, .i32⟩ : BufTy).Contents (Elt F))
  :: StableHlo.ternary main_v550 main_v575 main_v574 main_v576 ((fun x i u => Host.scatter scatter_S4_S1_S__n_0_0_0 (fun _ b => b) x i u) : (⟨S4, .i32⟩ : BufTy).Contents (Elt F) → (⟨S1, .i32⟩ : BufTy).Contents (Elt F) → (⟨S_, .i32⟩ : BufTy).Contents (Elt F) → (⟨S4, .i32⟩ : BufTy).Contents (Elt F))
  :: StableHlo.unary main_v576 main_v577 ((extractStridedSlice S1 ![0] · slices_S4_S1_0) : (⟨S4, .i32⟩ : BufTy).Contents (Elt F) → (⟨S1, .i32⟩ : BufTy).Contents (Elt F))
  :: StableHlo.reshape main_v577 main_v578 rfl shapeCasts_S1_S_
  :: StableHlo.unary main_v576 main_v579 ((extractStridedSlice S1 ![1] · slices_S4_S1_1) : (⟨S4, .i32⟩ : BufTy).Contents (Elt F) → (⟨S1, .i32⟩ : BufTy).Contents (Elt F))
  :: StableHlo.reshape main_v579 main_v580 rfl shapeCasts_S1_S_
  :: StableHlo.unary main_v576 main_v581 ((extractStridedSlice S1 ![2] · slices_S4_S1_2) : (⟨S4, .i32⟩ : BufTy).Contents (Elt F) → (⟨S1, .i32⟩ : BufTy).Contents (Elt F))
  :: StableHlo.reshape main_v581 main_v582 rfl shapeCasts_S1_S_
  :: StableHlo.nullary main_c_289 (constantI S_ 32 0#32)
  :: StableHlo.binary main_v578 main_c_289 main_v583 (cmpi .slt : (⟨S_, .i32⟩ : BufTy).Contents (Elt F) → (⟨S_, .i32⟩ : BufTy).Contents (Elt F) → (⟨S_, .i1⟩ : BufTy).Contents (Elt F))
  :: StableHlo.nullary main_c_290 (constantI S_ 32 10#32)
  :: StableHlo.binary main_v578 main_c_290 main_v584 (addi : (⟨S_, .i32⟩ : BufTy).Contents (Elt F) → (⟨S_, .i32⟩ : BufTy).Contents (Elt F) → (⟨S_, .i32⟩ : BufTy).Contents (Elt F))
  :: StableHlo.ternary main_v583 main_v584 main_v578 main_v585 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_291 (constantI S_ 32 0#32)
  :: StableHlo.binary main_v580 main_c_291 main_v586 (cmpi .slt : (⟨S_, .i32⟩ : BufTy).Contents (Elt F) → (⟨S_, .i32⟩ : BufTy).Contents (Elt F) → (⟨S_, .i1⟩ : BufTy).Contents (Elt F))
  :: StableHlo.nullary main_c_292 (constantI S_ 32 10#32)
  :: StableHlo.binary main_v580 main_c_292 main_v587 (addi : (⟨S_, .i32⟩ : BufTy).Contents (Elt F) → (⟨S_, .i32⟩ : BufTy).Contents (Elt F) → (⟨S_, .i32⟩ : BufTy).Contents (Elt F))
  :: StableHlo.ternary main_v586 main_v587 main_v580 main_v588 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_293 (constantI S_ 32 0#32)
  :: StableHlo.binary main_v582 main_c_293 main_v589 (cmpi .slt : (⟨S_, .i32⟩ : BufTy).Contents (Elt F) → (⟨S_, .i32⟩ : BufTy).Contents (Elt F) → (⟨S_, .i1⟩ : BufTy).Contents (Elt F))
  :: StableHlo.nullary main_c_294 (constantI S_ 32 10#32)
  :: StableHlo.binary main_v582 main_c_294 main_v590 (addi : (⟨S_, .i32⟩ : BufTy).Contents (Elt F) → (⟨S_, .i32⟩ : BufTy).Contents (Elt F) → (⟨S_, .i32⟩ : BufTy).Contents (Elt F))
  :: StableHlo.ternary main_v589 main_v590 main_v582 main_v591 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_295 (constantI S_ 32 2#32)
  :: StableHlo.nullary main_c_296 (constantI S_ 32 0#32)
  :: StableHlo.binary main_c_295 main_c_296 main_v592 (cmpi .slt : (⟨S_, .i32⟩ : BufTy).Contents (Elt F) → (⟨S_, .i32⟩ : BufTy).Contents (Elt F) → (⟨S_, .i1⟩ : BufTy).Contents (Elt F))
  :: StableHlo.nullary main_c_297 (constantI S_ 32 2#32)
  :: StableHlo.nullary main_c_298 (constantI S_ 32 4#32)
  :: StableHlo.binary main_c_297 main_c_298 main_v593 (addi : (⟨S_, .i32⟩ : BufTy).Contents (Elt F) → (⟨S_, .i32⟩ : BufTy).Contents (Elt F) → (⟨S_, .i32⟩ : BufTy).Contents (Elt F))
  :: StableHlo.nullary main_c_299 (constantI S_ 32 2#32)
  :: StableHlo.ternary main_v592 main_v593 main_c_299 main_v594 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v585, main_v588, main_v591, main_v594] ⟨S_, .i32⟩ main_v595 ((fun x i => Host.dynamicSlice S1x1x1x1 x (fun k => (i k (Shape.Idx.first h_S_)).toInt) sliceFits_S10x10x10x4_S1x1x1x1) : (⟨S10x10x10x4, .f32⟩ : BufTy).Contents (Elt F) → (Fin 4 → (⟨S_, .i32⟩ : BufTy).Contents (Elt F)) → (⟨S1x1x1x1, .f32⟩ : BufTy).Contents (Elt F))
  :: StableHlo.reshape main_v595 main_v596 rfl shapeCasts_S1x1x1x1_S_
  :: StableHlo.unary main_v596 main_v597 (Host.negf : (⟨S_, .f32⟩ : BufTy).Contents (Elt F) → (⟨S_, .f32⟩ : BufTy).Contents (Elt F))
  :: [] )
theorem main_part14_chain (c : Dev nD) : main_part14 (F := F) c = (Pipeline.chainK
  [ StableHlo.seq w14_i0,
    StableHlo.seq w14_i1 ]
  (StableHlo.seq w14_i2) : Prog (TpuEff nD τ sig (Elt F) (Pipeline.Sig Λ₀ (Fin 0) fun p => (pcfgs (F := F) p).Adm) .tc) PUnit) := by
  chain_rfl

noncomputable abbrev w15_i0 : List (HloOp τ sig (Elt F)) :=
  ( StableHlo.nullary main_c_300 (constantI S_ 32 2#32)
  :: StableHlo.unary main_c_300 main_v598 (broadcastInDim S1 ![] bcast_S_S1 : (⟨S_, .i32⟩ : BufTy).Contents (Elt F) → (⟨S1, .i32⟩ : BufTy).Contents (Elt F))
  :: StableHlo.nullary main_c_301 (constantI S_ 32 4294967295#32)
  :: StableHlo.ternary main_v576 main_v598 main_c_301 main_v599 ((fun x i u => Host.scatter scatter_S4_S1_S__n_0_0_0 IntOp.addi x i u) : (⟨S4, .i32⟩ : BufTy).Contents (Elt F) → (⟨S1, .i32⟩ : BufTy).Contents (Elt F) → (⟨S_, .i32⟩ : BufTy).Contents (Elt F) → (⟨S4, .i32⟩ : BufTy).Contents (Elt F))
  :: StableHlo.unary main_v13 main_v600 ((extractStridedSlice S1 ![0] · slices_S4_S1_0) : (⟨S4, .i32⟩ : BufTy).Contents (Elt F) → (⟨S1, .i32⟩ : BufTy).Contents (Elt F))
  :: StableHlo.reshape main_v600 main_v601 rfl shapeCasts_S1_S_
  :: StableHlo.unary main_v13 main_v602 ((extractStridedSlice S1 ![1] · slices_S4_S1_1) : (⟨S4, .i32⟩ : BufTy).Contents (Elt F) → (⟨S1, .i32⟩ : BufTy).Contents (Elt F))
  :: StableHlo.reshape main_v602 main_v603 rfl shapeCasts_S1_S_
  :: StableHlo.unary main_v13 main_v604 ((extractStridedSlice S1 ![2] · slices_S4_S1_2) : (⟨S4, .i32⟩ : BufTy).Contents (Elt F) → (⟨S1, .i32⟩ : BufTy).Contents (Elt F))
  :: StableHlo.reshape main_v604 main_v605 rfl shapeCasts_S1_S_
  :: StableHlo.nullary main_c_302 (constantI S_ 32 0#32)
  :: StableHlo.binary main_v601 main_c_302 main_v606 (cmpi .slt : (⟨S_, .i32⟩ : BufTy).Contents (Elt F) → (⟨S_, .i32⟩ : BufTy).Contents (Elt F) → (⟨S_, .i1⟩ : BufTy).Contents (Elt F))
  :: StableHlo.nullary main_c_303 (constantI S_ 32 10#32)
  :: StableHlo.binary main_v601 main_c_303 main_v607 (addi : (⟨S_, .i32⟩ : BufTy).Contents (Elt F) → (⟨S_, .i32⟩ : BufTy).Contents (Elt F) → (⟨S_, .i32⟩ : BufTy).Contents (Elt F))
  :: StableHlo.ternary main_v606 main_v607 main_v601 main_v608 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_304 (constantI S_ 32 0#32)
  :: StableHlo.binary main_v603 main_c_304 main_v609 (cmpi .slt : (⟨S_, .i32⟩ : BufTy).Contents (Elt F) → (⟨S_, .i32⟩ : BufTy).Contents (Elt F) → (⟨S_, .i1⟩ : BufTy).Contents (Elt F))
  :: StableHlo.nullary main_c_305 (constantI S_ 32 10#32)
  :: StableHlo.binary main_v603 main_c_305 main_v610 (addi : (⟨S_, .i32⟩ : BufTy).Contents (Elt F) → (⟨S_, .i32⟩ : BufTy).Contents (Elt F) → (⟨S_, .i32⟩ : BufTy).Contents (Elt F))
  :: StableHlo.ternary main_v609 main_v610 main_v603 main_v611 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_306 (constantI S_ 32 0#32)
  :: StableHlo.binary main_v605 main_c_306 main_v612 (cmpi .slt : (⟨S_, .i32⟩ : BufTy).Contents (Elt F) → (⟨S_, .i32⟩ : BufTy).Contents (Elt F) → (⟨S_, .i1⟩ : BufTy).Contents (Elt F))
  :: StableHlo.nullary main_c_307 (constantI S_ 32 10#32)
  :: StableHlo.binary main_v605 main_c_307 main_v613 (addi : (⟨S_, .i32⟩ : BufTy).Contents (Elt F) → (⟨S_, .i32⟩ : BufTy).Contents (Elt F) → (⟨S_, .i32⟩ : BufTy).Contents (Elt F))
  :: StableHlo.ternary main_v612 main_v613 main_v605 main_v614 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.nullary main_c_308 (constantI S_ 32 3#32)
  :: StableHlo.nullary main_c_309 (constantI S_ 32 0#32)
  :: StableHlo.binary main_c_308 main_c_309 main_v615 (cmpi .slt : (⟨S_, .i32⟩ : BufTy).Contents (Elt F) → (⟨S_, .i32⟩ : BufTy).Contents (Elt F) → (⟨S_, .i1⟩ : BufTy).Contents (Elt F))
  :: StableHlo.nullary main_c_310 (constantI S_ 32 3#32)
  :: StableHlo.nullary main_c_311 (constantI S_ 32 4#32)
  :: StableHlo.binary main_c_310 main_c_311 main_v616 (addi : (⟨S_, .i32⟩ : BufTy).Contents (Elt F) → (⟨S_, .i32⟩ : BufTy).Contents (Elt F) → (⟨S_, .i32⟩ : BufTy).Contents (Elt F))
  :: StableHlo.nullary main_c_312 (constantI S_ 32 3#32)
  :: StableHlo.ternary main_v615 main_v616 main_c_312 main_v617 (select : (⟨S_, .i1⟩ : BufTy).Contents (Elt F) → (⟨S_, .i32⟩ : BufTy).Contents (Elt F) → (⟨S_, .i32⟩ : BufTy).Contents (Elt F) → (⟨S_, .i32⟩ : BufTy).Contents (Elt F))
  :: StableHlo.unaryIndexed main_arg1 ![main_v608, main_v611, main_v614, main_v617] ⟨S_, .i32⟩ main_v618 ((fun x i => Host.dynamicSlice S1x1x1x1 x (fun k => (i k (Shape.Idx.first h_S_)).toInt) sliceFits_S10x10x10x4_S1x1x1x1) : (⟨S10x10x10x4, .f32⟩ : BufTy).Contents (Elt F) → (Fin 4 → (⟨S_, .i32⟩ : BufTy).Contents (Elt F)) → (⟨S1x1x1x1, .f32⟩ : BufTy).Contents (Elt F))
  :: StableHlo.reshape main_v618 main_v619 rfl shapeCasts_S1x1x1x1_S_
  :: StableHlo.unary main_v619 main_v620 (Host.negf : (⟨S_, .f32⟩ : BufTy).Contents (Elt F) → (⟨S_, .f32⟩ : BufTy).Contents (Elt F))
  :: StableHlo.binary main_v544 main_v570 main_v621 (addf : (⟨S_, .f32⟩ : BufTy).Contents (Elt F) → (⟨S_, .f32⟩ : BufTy).Contents (Elt F) → (⟨S_, .f32⟩ : BufTy).Contents (Elt F))
  :: StableHlo.binary main_v621 main_v597 main_v622 (addf : (⟨S_, .f32⟩ : BufTy).Contents (Elt F) → (⟨S_, .f32⟩ : BufTy).Contents (Elt F) → (⟨S_, .f32⟩ : BufTy).Contents (Elt F))
  :: StableHlo.binary main_v622 main_v620 main_v623 (addf : (⟨S_, .f32⟩ : BufTy).Contents (Elt F) → (⟨S_, .f32⟩ : BufTy).Contents (Elt F) → (⟨S_, .f32⟩ : BufTy).Contents (Elt F))
  :: StableHlo.unary main_v623 main_v624 (Host.exp : (⟨S_, .f32⟩ : BufTy).Contents (Elt F) → (⟨S_, .f32⟩ : BufTy).Contents (Elt F))
  :: StableHlo.unary main_v624 main_v625 (broadcastInDim S1 ![] bcast_S_S1 : (⟨S_, .f32⟩ : BufTy).Contents (Elt F) → (⟨S1, .f32⟩ : BufTy).Contents (Elt F))
  :: StableHlo.binary main_v524 main_v625 main_v626 (mulf : (⟨S1, .f32⟩ : BufTy).Contents (Elt F) → (⟨S1, .f32⟩ : BufTy).Contents (Elt F) → (⟨S1, .f32⟩ : BufTy).Contents (Elt F))
  :: StableHlo.binary main_v9 main_arg6 main_v627 ((fun l r => Host.dotGeneral dot_S16384x4096_S4096x2048_S16384x2048_1_0_0_1_n_n none l r) : (⟨S16384x4096, .f32⟩ : BufTy).Contents (Elt F) → (⟨S4096x2048, .f32⟩ : BufTy).Contents (Elt F) → (⟨S16384x2048, .f32⟩ : BufTy).Contents (Elt F))
  :: StableHlo.unary main_arg7 main_v628 (broadcastInDim S1x2048 ![1] bcast_S2048_S1x2048_1 : (⟨S2048, .f32⟩ : BufTy).Contents (Elt F) → (⟨S1x2048, .f32⟩ : BufTy).Contents (Elt F))
  :: StableHlo.unary main_v628 main_v629 (broadcastInDim S16384x2048 ![0, 1] bcast_S1x2048_S16384x2048_0_1 : (⟨S1x2048, .f32⟩ : BufTy).Contents (Elt F) → (⟨S16384x2048, .f32⟩ : BufTy).Contents (Elt F))
  :: StableHlo.binary main_v627 main_v629 main_v630 (addf : (⟨S16384x2048, .f32⟩ : BufTy).Contents (Elt F) → (⟨S16384x2048, .f32⟩ : BufTy).Contents (Elt F) → (⟨S16384x2048, .f32⟩ : BufTy).Contents (Elt F))
  :: StableHlo.nullary main_cst_313 (constant S_ .f32 0x00000000#32)
  :: StableHlo.unary main_cst_313 main_v631 (broadcastInDim S16384x2048 ![] bcast_S_S16384x2048 : (⟨S_, .f32⟩ : BufTy).Contents (Elt F) → (⟨S16384x2048, .f32⟩ : BufTy).Contents (Elt F))
  :: StableHlo.binary main_v630 main_v631 main_v632 (maximumf : (⟨S16384x2048, .f32⟩ : BufTy).Contents (Elt F) → (⟨S16384x2048, .f32⟩ : BufTy).Contents (Elt F) → (⟨S16384x2048, .f32⟩ : BufTy).Contents (Elt F))
  :: StableHlo.binary main_v632 main_arg8 main_v633 ((fun l r => Host.dotGeneral dot_S16384x2048_S2048x1024_S16384x1024_1_0_0_1_n_n none l r) : (⟨S16384x2048, .f32⟩ : BufTy).Contents (Elt F) → (⟨S2048x1024, .f32⟩ : BufTy).Contents (Elt F) → (⟨S16384x1024, .f32⟩ : BufTy).Contents (Elt F))
  :: StableHlo.unary main_arg9 main_v634 (broadcastInDim S1x1024 ![1] bcast_S1024_S1x1024_1 : (⟨S1024, .f32⟩ : BufTy).Contents (Elt F) → (⟨S1x1024, .f32⟩ : BufTy).Contents (Elt F))
  :: StableHlo.unary main_v634 main_v635 (broadcastInDim S16384x1024 ![0, 1] bcast_S1x1024_S16384x1024_0_1 : (⟨S1x1024, .f32⟩ : BufTy).Contents (Elt F) → (⟨S16384x1024, .f32⟩ : BufTy).Contents (Elt F))
  :: StableHlo.binary main_v633 main_v635 main_v636 (addf : (⟨S16384x1024, .f32⟩ : BufTy).Contents (Elt F) → (⟨S16384x1024, .f32⟩ : BufTy).Contents (Elt F) → (⟨S16384x1024, .f32⟩ : BufTy).Contents (Elt F))
  :: StableHlo.nullary main_cst_314 (constant S_ .f32 0x00000000#32)
  :: StableHlo.unary main_cst_314 main_v637 (broadcastInDim S16384x1024 ![] bcast_S_S16384x1024 : (⟨S_, .f32⟩ : BufTy).Contents (Elt F) → (⟨S16384x1024, .f32⟩ : BufTy).Contents (Elt F))
  :: StableHlo.binary main_v636 main_v637 main_v638 (maximumf : (⟨S16384x1024, .f32⟩ : BufTy).Contents (Elt F) → (⟨S16384x1024, .f32⟩ : BufTy).Contents (Elt F) → (⟨S16384x1024, .f32⟩ : BufTy).Contents (Elt F))
  :: StableHlo.binary main_v638 main_arg10 main_v639 ((fun l r => Host.dotGeneral dot_S16384x1024_S1024x1_S16384x1_1_0_0_1_n_n none l r) : (⟨S16384x1024, .f32⟩ : BufTy).Contents (Elt F) → (⟨S1024x1, .f32⟩ : BufTy).Contents (Elt F) → (⟨S16384x1, .f32⟩ : BufTy).Contents (Elt F))
  :: StableHlo.unary main_arg11 main_v640 (broadcastInDim S1x1 ![1] bcast_S1_S1x1_1 : (⟨S1, .f32⟩ : BufTy).Contents (Elt F) → (⟨S1x1, .f32⟩ : BufTy).Contents (Elt F))
  :: StableHlo.unary main_v640 main_v641 (broadcastInDim S16384x1 ![0, 1] bcast_S1x1_S16384x1_0_1 : (⟨S1x1, .f32⟩ : BufTy).Contents (Elt F) → (⟨S16384x1, .f32⟩ : BufTy).Contents (Elt F))
  :: StableHlo.binary main_v639 main_v641 main_v642 (addf : (⟨S16384x1, .f32⟩ : BufTy).Contents (Elt F) → (⟨S16384x1, .f32⟩ : BufTy).Contents (Elt F) → (⟨S16384x1, .f32⟩ : BufTy).Contents (Elt F))
  :: [] )
theorem main_part15_chain (c : Dev nD) : main_part15 (F := F) c = (Pipeline.chainK
  [  ]
  (StableHlo.seq w15_i0) : Prog (TpuEff nD τ sig (Elt F) (Pipeline.Sig Λ₀ (Fin 0) fun p => (pcfgs (F := F) p).Adm) .tc) PUnit) := by
  chain_rfl

noncomputable abbrev w16_i0 : List (HloOp τ sig (Elt F)) :=
  ( StableHlo.binary main_v9 main_arg12 main_v643 ((fun l r => Host.dotGeneral dot_S16384x4096_S4096x2048_S16384x2048_1_0_0_1_n_n none l r) : (⟨S16384x4096, .f32⟩ : BufTy).Contents (Elt F) → (⟨S4096x2048, .f32⟩ : BufTy).Contents (Elt F) → (⟨S16384x2048, .f32⟩ : BufTy).Contents (Elt F))
  :: StableHlo.unary main_arg13 main_v644 (broadcastInDim S1x2048 ![1] bcast_S2048_S1x2048_1 : (⟨S2048, .f32⟩ : BufTy).Contents (Elt F) → (⟨S1x2048, .f32⟩ : BufTy).Contents (Elt F))
  :: StableHlo.unary main_v644 main_v645 (broadcastInDim S16384x2048 ![0, 1] bcast_S1x2048_S16384x2048_0_1 : (⟨S1x2048, .f32⟩ : BufTy).Contents (Elt F) → (⟨S16384x2048, .f32⟩ : BufTy).Contents (Elt F))
  :: StableHlo.binary main_v643 main_v645 main_v646 (addf : (⟨S16384x2048, .f32⟩ : BufTy).Contents (Elt F) → (⟨S16384x2048, .f32⟩ : BufTy).Contents (Elt F) → (⟨S16384x2048, .f32⟩ : BufTy).Contents (Elt F))
  :: StableHlo.nullary main_cst_315 (constant S_ .f32 0x00000000#32)
  :: StableHlo.unary main_cst_315 main_v647 (broadcastInDim S16384x2048 ![] bcast_S_S16384x2048 : (⟨S_, .f32⟩ : BufTy).Contents (Elt F) → (⟨S16384x2048, .f32⟩ : BufTy).Contents (Elt F))
  :: StableHlo.binary main_v646 main_v647 main_v648 (maximumf : (⟨S16384x2048, .f32⟩ : BufTy).Contents (Elt F) → (⟨S16384x2048, .f32⟩ : BufTy).Contents (Elt F) → (⟨S16384x2048, .f32⟩ : BufTy).Contents (Elt F))
  :: StableHlo.binary main_v648 main_arg14 main_v649 ((fun l r => Host.dotGeneral dot_S16384x2048_S2048x1_S16384x1_1_0_0_1_n_n none l r) : (⟨S16384x2048, .f32⟩ : BufTy).Contents (Elt F) → (⟨S2048x1, .f32⟩ : BufTy).Contents (Elt F) → (⟨S16384x1, .f32⟩ : BufTy).Contents (Elt F))
  :: StableHlo.unary main_arg15 main_v650 (broadcastInDim S1x1 ![1] bcast_S1_S1x1_1 : (⟨S1, .f32⟩ : BufTy).Contents (Elt F) → (⟨S1x1, .f32⟩ : BufTy).Contents (Elt F))
  :: StableHlo.unary main_v650 main_v651 (broadcastInDim S16384x1 ![0, 1] bcast_S1x1_S16384x1_0_1 : (⟨S1x1, .f32⟩ : BufTy).Contents (Elt F) → (⟨S16384x1, .f32⟩ : BufTy).Contents (Elt F))
  :: StableHlo.binary main_v649 main_v651 main_v652 (addf : (⟨S16384x1, .f32⟩ : BufTy).Contents (Elt F) → (⟨S16384x1, .f32⟩ : BufTy).Contents (Elt F) → (⟨S16384x1, .f32⟩ : BufTy).Contents (Elt F))
  :: [] )
theorem main_part16_chain (c : Dev nD) : main_part16 (F := F) c = (Pipeline.chain
  [ StableHlo.seq w16_i0 ] : Prog (TpuEff nD τ sig (Elt F) (Pipeline.Sig Λ₀ (Fin 0) fun p => (pcfgs (F := F) p).Adm) .tc) PUnit) := by
  chain_rfl

noncomputable abbrev items : List (List (HloOp τ sig (Elt F))) :=
  [ w0_i0,
    w0_i1,
    w0_i2,
    w0_i3,
    w0_i4,
    w1_i0,
    w1_i1,
    w1_i2,
    w2_i0,
    w3_i0,
    w3_i1,
    w3_i2,
    w4_i0,
    w4_i1,
    w4_i2,
    w5_i0,
    w6_i0,
    w6_i1,
    w6_i2,
    w6_i3,
    w6_i4,
    w7_i0,
    w8_i0,
    w8_i1,
    w8_i2,
    w9_i0,
    w9_i1,
    w9_i2,
    w10_i0,
    w11_i0,
    w11_i1,
    w11_i2,
    w11_i3,
    w11_i4,
    w12_i0,
    w13_i0,
    w13_i1,
    w13_i2,
    w14_i0,
    w14_i1,
    w14_i2,
    w15_i0,
    w16_i0 ]

end Cert.ReferenceIdeal.Run

end
-- ==== Proof.Reference.Run.lean ====
import proofs.«143799_j35253091566215_1_alg».proof.Proof.Reference.Ops

noncomputable section

namespace Cert.ReferenceIdeal.Run

open Cert.ReferenceIdeal Cert.ReferenceIdeal.Gen
open Idealize.ShloMosaic Idealize.ShloMosaic.TcCoe Idealize.SL.Sem

variable {F : FTy → Type} [FloatOps F]

theorem chain_map_seq {Val : EltTy → Type} {Λ : Labels} (L : List (List (HloOp τ sig Val))) :
    Pipeline.chain (L.map fun l => (StableHlo.seq l : Prog (TpuEff nD τ sig Val Λ .tc) PUnit))
      = StableHlo.seq L.flatten := by
  induction L with
  | nil => rfl
  | cons l L ih => rw [List.map_cons, Pipeline.chain_cons, ih, List.flatten_cons, StableHlo.seq_append]

theorem main_eq (d : Dev nD) : main (F := F) d = StableHlo.seq (items (F := F)).flatten := by
  unfold main
  rewrite [main_part0_chain, main_part1_chain, main_part2_chain, main_part3_chain, main_part4_chain, main_part5_chain,
    main_part6_chain, main_part7_chain, main_part8_chain, main_part9_chain, main_part10_chain, main_part11_chain,
    main_part12_chain, main_part13_chain, main_part14_chain, main_part15_chain, main_part16_chain]
  repeat rewrite [Pipeline.chainK_bind_chain]
  exact chain_map_seq items

def Tame {Val : EltTy → Type} (op : HloOp τ sig Val) : Prop :=
  op.bufs ⊆ StableHlo.tcRefs τ sig ∧ op.fresh = ∅

section Builders

variable {Val : EltTy → Type} (x a b c y : Ref sig .tc)

theorem tame_nullary (v : y.ty.Contents Val) (hy) : Tame (StableHlo.nullary (τ := τ) y v hy) :=
  ⟨StableHlo.nullary_bufs_sub .., rfl⟩
theorem tame_unary (f : x.ty.Contents Val → y.ty.Contents Val) (hx hy) :
    Tame (StableHlo.unary (τ := τ) x y f hx hy) := ⟨StableHlo.unary_bufs_sub .., rfl⟩
theorem tame_binary (f : a.ty.Contents Val → b.ty.Contents Val → y.ty.Contents Val) (ha hb hy) :
    Tame (StableHlo.binary (τ := τ) a b y f ha hb hy) := ⟨StableHlo.binary_bufs_sub .., rfl⟩
theorem tame_ternary (f : c.ty.Contents Val → a.ty.Contents Val → b.ty.Contents Val → y.ty.Contents Val) (hc ha hb hy) :
    Tame (StableHlo.ternary (τ := τ) c a b y f hc ha hb hy) := ⟨StableHlo.ternary_bufs_sub .., rfl⟩
theorem tame_reshape (he hn hx hy) : Tame (StableHlo.reshape (τ := τ) (Val := Val) x y he hn hx hy) :=
  ⟨StableHlo.reshape_bufs_sub .., rfl⟩
theorem tame_unaryIndexed {n : Nat} (ix : Fin n → Ref sig .tc) (T : BufTy)
    (f : a.ty.Contents Val → (Fin n → T.Contents Val) → y.ty.Contents Val) (hT ha hix hy) :
    Tame (StableHlo.unaryIndexed (τ := τ) a ix T y f hT ha hix hy) := ⟨StableHlo.unaryIndexed_bufs_sub .., rfl⟩

end Builders

macro "tame_list" : tactic =>
  `(tactic| simp only [List.forall_cons, List.Forall, tame_nullary, tame_unary, tame_binary, tame_ternary,
      tame_reshape, tame_unaryIndexed, and_self])

theorem w0_i0_tame : (w0_i0 (F := F)).Forall Tame := by tame_list
theorem w0_i1_tame : (w0_i1 (F := F)).Forall Tame := by tame_list
theorem w0_i2_tame : (w0_i2 (F := F)).Forall Tame := by tame_list
theorem w0_i3_tame : (w0_i3 (F := F)).Forall Tame := by tame_list
theorem w0_i4_tame : (w0_i4 (F := F)).Forall Tame := by tame_list
theorem w1_i0_tame : (w1_i0 (F := F)).Forall Tame := by tame_list
theorem w1_i1_tame : (w1_i1 (F := F)).Forall Tame := by tame_list
theorem w1_i2_tame : (w1_i2 (F := F)).Forall Tame := by tame_list
theorem w2_i0_tame : (w2_i0 (F := F)).Forall Tame := by tame_list
theorem w3_i0_tame : (w3_i0 (F := F)).Forall Tame := by tame_list
theorem w3_i1_tame : (w3_i1 (F := F)).Forall Tame := by tame_list
theorem w3_i2_tame : (w3_i2 (F := F)).Forall Tame := by tame_list
theorem w4_i0_tame : (w4_i0 (F := F)).Forall Tame := by tame_list
theorem w4_i1_tame : (w4_i1 (F := F)).Forall Tame := by tame_list
theorem w4_i2_tame : (w4_i2 (F := F)).Forall Tame := by tame_list
theorem w5_i0_tame : (w5_i0 (F := F)).Forall Tame := by tame_list
theorem w6_i0_tame : (w6_i0 (F := F)).Forall Tame := by tame_list
theorem w6_i1_tame : (w6_i1 (F := F)).Forall Tame := by tame_list
theorem w6_i2_tame : (w6_i2 (F := F)).Forall Tame := by tame_list
theorem w6_i3_tame : (w6_i3 (F := F)).Forall Tame := by tame_list
theorem w6_i4_tame : (w6_i4 (F := F)).Forall Tame := by tame_list
theorem w7_i0_tame : (w7_i0 (F := F)).Forall Tame := by tame_list
theorem w8_i0_tame : (w8_i0 (F := F)).Forall Tame := by tame_list
theorem w8_i1_tame : (w8_i1 (F := F)).Forall Tame := by tame_list
theorem w8_i2_tame : (w8_i2 (F := F)).Forall Tame := by tame_list
theorem w9_i0_tame : (w9_i0 (F := F)).Forall Tame := by tame_list
theorem w9_i1_tame : (w9_i1 (F := F)).Forall Tame := by tame_list
theorem w9_i2_tame : (w9_i2 (F := F)).Forall Tame := by tame_list
theorem w10_i0_tame : (w10_i0 (F := F)).Forall Tame := by tame_list
theorem w11_i0_tame : (w11_i0 (F := F)).Forall Tame := by tame_list
theorem w11_i1_tame : (w11_i1 (F := F)).Forall Tame := by tame_list
theorem w11_i2_tame : (w11_i2 (F := F)).Forall Tame := by tame_list
theorem w11_i3_tame : (w11_i3 (F := F)).Forall Tame := by tame_list
theorem w11_i4_tame : (w11_i4 (F := F)).Forall Tame := by tame_list
theorem w12_i0_tame : (w12_i0 (F := F)).Forall Tame := by tame_list
theorem w13_i0_tame : (w13_i0 (F := F)).Forall Tame := by tame_list
theorem w13_i1_tame : (w13_i1 (F := F)).Forall Tame := by tame_list
theorem w13_i2_tame : (w13_i2 (F := F)).Forall Tame := by tame_list
theorem w14_i0_tame : (w14_i0 (F := F)).Forall Tame := by tame_list
theorem w14_i1_tame : (w14_i1 (F := F)).Forall Tame := by tame_list
theorem w14_i2_tame : (w14_i2 (F := F)).Forall Tame := by tame_list
theorem w15_i0_tame : (w15_i0 (F := F)).Forall Tame := by tame_list
theorem w16_i0_tame : (w16_i0 (F := F)).Forall Tame := by tame_list

theorem forall_flatten {α : Type} {p : α → Prop} {L : List (List α)} (h : L.Forall fun l => l.Forall p) :
    L.flatten.Forall p :=
  List.forall_iff_forall_mem.mpr fun a ha => by
    obtain ⟨l, hl, hal⟩ := List.mem_flatten.mp ha
    exact List.forall_iff_forall_mem.mp (List.forall_iff_forall_mem.mp h l hl) a hal

theorem items_tame : (items (F := F)).flatten.Forall Tame :=
  forall_flatten
    ⟨w0_i0_tame, w0_i1_tame, w0_i2_tame, w0_i3_tame, w0_i4_tame, w1_i0_tame, w1_i1_tame, w1_i2_tame, w2_i0_tame,
      w3_i0_tame, w3_i1_tame, w3_i2_tame, w4_i0_tame, w4_i1_tame, w4_i2_tame, w5_i0_tame, w6_i0_tame, w6_i1_tame,
      w6_i2_tame, w6_i3_tame, w6_i4_tame, w7_i0_tame, w8_i0_tame, w8_i1_tame, w8_i2_tame, w9_i0_tame, w9_i1_tame,
      w9_i2_tame, w10_i0_tame, w11_i0_tame, w11_i1_tame, w11_i2_tame, w11_i3_tame, w11_i4_tame, w12_i0_tame,
      w13_i0_tame, w13_i1_tame, w13_i2_tame, w14_i0_tame, w14_i1_tame, w14_i2_tame, w15_i0_tame, w16_i0_tame⟩

theorem items_sub : (items (F := F)).flatten.Forall fun op => op.bufs ⊆ StableHlo.tcRefs τ sig :=
  items_tame.imp fun _ h => h.1

theorem items_fresh : ∀ op ∈ (items (F := F)).flatten, op.fresh = ∅ :=
  fun op hop => (List.forall_iff_forall_mem.mp items_tame op hop).2

theorem scopedRefs_eq : (Finset.univ.filter fun b : Ref sig .tc => b.isScoped) = ∅ := by decide

theorem scopedSems_eq : (Finset.univ.filter fun sm : SemLoc sig => sm.isScoped .tc) = ∅ := by decide

theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b)
        = StableHlo.after (items (F := F)).flatten (StableHlo.launchContents m d) (Proc.devRef .tc b) :=
  StableHlo.run_seq scopedRefs_eq scopedSems_eq defs main (fun _ => (items (F := F)).flatten) main_eq
    (fun _ => items_sub) m ρ (fun _ => items_fresh)

end Cert.ReferenceIdeal.Run

end
-- ==== Proof.Reference.Kept.lean ====
import proofs.«143799_j35253091566215_1_alg».proof.Proof.Reference.Run
import Idealize.ShloMosaic.Lib.Pipeline.Frame

noncomputable section

namespace Cert.ReferenceIdeal.Run

open Cert.ReferenceIdeal Cert.ReferenceIdeal.Gen
open Idealize.ShloMosaic Idealize.ShloMosaic.TcCoe Idealize.SL.Sem

variable {F : FTy → Type} [FloatOps F]

abbrev argRefs : List (Ref sig .tc) :=
  [main_arg0, main_arg1, main_arg2, main_arg3, main_arg4, main_arg5, main_arg6, main_arg7, main_arg8, main_arg9,
   main_arg10, main_arg11, main_arg12, main_arg13, main_arg14, main_arg15]

abbrev keep1 : List (Ref sig .tc) := main_v9 :: argRefs

noncomputable abbrev mid : List (List (HloOp τ sig (Elt F))) :=
  [w0_i1, w0_i2, w0_i3, w0_i4, w1_i0, w1_i1, w1_i2, w2_i0, w3_i0, w3_i1, w3_i2, w4_i0, w4_i1, w4_i2, w5_i0, w6_i0,
   w6_i1, w6_i2, w6_i3, w6_i4, w7_i0, w8_i0, w8_i1, w8_i2, w9_i0, w9_i1, w9_i2, w10_i0, w11_i0, w11_i1, w11_i2,
   w11_i3, w11_i4, w12_i0, w13_i0, w13_i1, w13_i2, w14_i0, w14_i1, w14_i2]

theorem items_flatten :
    (items (F := F)).flatten = w0_i0 ++ ((mid (F := F)).flatten ++ (w15_i0 ++ w16_i0)) := by
  simp only [items, mid, List.flatten_cons, List.flatten_nil, List.append_nil, List.append_assoc]

def WritesOff (K : List (Ref sig .tc)) (op : HloOp τ sig (Elt F)) : Prop :=
  ∃ y : Ref sig .tc, op.writes = {Proc.devRef .tc y} ∧ y.idx.val ∉ K.map (·.idx.val)

/-- No operation of the list writes a reference of `K`, so the fold leaves it as it was. -/
theorem after_kept {K : List (Ref sig .tc)} {ops : List (HloOp τ sig (Elt F))} (h : ops.Forall (WritesOff K))
    (V : Valuation τ sig (Elt F)) {r : Ref sig .tc} (hr : r ∈ K) :
    StableHlo.after ops V (Proc.devRef .tc r) = V (Proc.devRef .tc r) :=
  StableHlo.after_of_forall_not_mem ops V fun op hop hb => by
    obtain ⟨y, hy, hK⟩ := List.forall_iff_forall_mem.mp h op hop
    rw [hy, Finset.mem_singleton] at hb
    exact hK (Proc.devRef_injective _ hb ▸ List.mem_map_of_mem hr)

/-- Each operation writes the one reference it names, whose index is not an index of the keep-list. -/
theorem off : (w0_i0 (F := F)).Forall (WritesOff argRefs) ∧ ((mid (F := F)).Forall fun l => l.Forall (WritesOff keep1)) ∧
    (w15_i0 (F := F)).Forall (WritesOff keep1) ∧ (w16_i0 (F := F)).Forall (WritesOff keep1) ∧
    (w16_i0 (F := F)).Forall (WritesOff [main_v642]) := by
  simp only [List.Forall]; repeat' apply And.intro
  all_goals exact ⟨_, rfl, by decide⟩

theorem rest_off : ((mid (F := F)).flatten ++ (w15_i0 ++ w16_i0)).Forall (WritesOff keep1) :=
  List.forall_append.mpr ⟨forall_flatten off.2.1, List.forall_append.mpr ⟨off.2.2.1, off.2.2.2.1⟩⟩

theorem kept_arg (m : (ℓ : Loc nD τ sig) → Buf (Elt F) ℓ) (d : Dev nD) {r : Ref sig .tc} (hr : r ∈ argRefs) :
    StableHlo.after (items (F := F)).flatten (StableHlo.launchContents m d) (Proc.devRef .tc r)
      = m ((d.tc : Thread nD τ).loc r) := by
  rw [items_flatten, StableHlo.after_append, after_kept rest_off _ (List.mem_cons_of_mem _ hr), after_kept off.1 _ hr]

end Cert.ReferenceIdeal.Run

end
-- ==== Proof.Frames.lean ====
import proofs.«143799_j35253091566215_1_alg».proof.Defs
import proofs.«143799_j35253091566215_1_alg».proof.Proof.Gen.Kernel
import proofs.«143799_j35253091566215_1_alg».proof.Proof.Gen.KernelIdeal
import proofs.«143799_j35253091566215_1_alg».proof.Proof.Gen.ReferenceIdeal
import proofs.«143799_j35253091566215_1_alg».proof.Proof.Gen.Pre_finite_inputs
import proofs.«143799_j35253091566215_1_alg».proof.Proof.Ideal.Run
import proofs.«143799_j35253091566215_1_alg».proof.Proof.Ideal.ArgsKept
import proofs.«143799_j35253091566215_1_alg».proof.Proof.Bits.Run
import proofs.«143799_j35253091566215_1_alg».proof.Proof.Bits.ArgsKept
import proofs.«143799_j35253091566215_1_alg».proof.Proof.Reference.Kept

noncomputable section

namespace Cert.Proof.Frames

open Idealize.ShloMosaic Idealize.ShloMosaic.TcCoe Idealize.SL.Sem

-- A kernel program's run ends with every unscoped buffer at the last boundary's contents, and an argument read there is the launch memory's.
theorem frame_kernel : Cert.frame_Kernel := fun m ρ _ => by
  refine (θ_run Cert.Kernel.defs _ _).mono (fun r h c => ?_) (Cert.Kernel.Run.run_main (F := Bits) m ρ)
  have k := fun (a : Ref Cert.Kernel.sig .tc) (ha : a ∈ Cert.Kernel.Run.argRefs) =>
    (h c _ (Cert.Kernel.Run.mem_uc a ((by decide : ∀ a ∈ Cert.Kernel.Run.argRefs, ¬ (Proc.devRef .tc a : DevRef Cert.Kernel.τ Cert.Kernel.sig).isScoped) a ha))).trans
      (Cert.Kernel.Run.W32_arg m ρ c ha)
  exact ⟨k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide)⟩

theorem frame_kernelIdeal : Cert.frame_KernelIdeal := fun m ρ _ => by
  refine (θ_run Cert.KernelIdeal.defs _ _).mono (fun r h c => ?_) (Cert.KernelIdeal.Run.run_main (F := Ideal) m ρ)
  have k := fun (a : Ref Cert.KernelIdeal.sig .tc) (ha : a ∈ Cert.KernelIdeal.Run.argRefs) =>
    (h c _ (Cert.KernelIdeal.Run.mem_uc a ((by decide : ∀ a ∈ Cert.KernelIdeal.Run.argRefs, ¬ (Proc.devRef .tc a : DevRef Cert.KernelIdeal.τ Cert.KernelIdeal.sig).isScoped) a ha))).trans
      (Cert.KernelIdeal.Run.W32_arg m ρ c ha)
  exact ⟨k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide)⟩

-- The reference is a straight line of host operations, none of which writes an argument.
theorem frame_referenceIdeal : Cert.frame_ReferenceIdeal := fun m ρ _ => by
  refine (θ_run Cert.ReferenceIdeal.defs _ _).mono (fun r h c => ?_) (Cert.ReferenceIdeal.Run.run (F := Ideal) m ρ)
  have k := fun (a : Ref Cert.ReferenceIdeal.sig .tc) (ha : a ∈ Cert.ReferenceIdeal.Run.argRefs) =>
    (h c a).trans (Cert.ReferenceIdeal.Run.kept_arg (F := Ideal) m c ha)
  exact ⟨k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide)⟩

end Cert.Proof.Frames

end
-- ==== Proof.Spec.lean ====
import Mathlib.Data.EReal.Basic
import Mathlib.Algebra.BigOperators.Fin
import Mathlib.Data.Fintype.BigOperators

noncomputable section

namespace Cert.Spec

open scoped BigOperators

-- Entry (i, j) of x · w + b over the extended reals.
def dense {M K N : ℕ} (x : Fin M → Fin K → EReal) (w : Fin K → Fin N → EReal) (b : Fin N → EReal) (i : Fin M) (j : Fin N) : EReal :=
  (∑ k : Fin K, x i k * w k j) + b j

def relu (v : EReal) : EReal := max v 0

def hidden {M K N : ℕ} (x : Fin M → Fin K → EReal) (w : Fin K → Fin N → EReal) (b : Fin N → EReal) (i : Fin M) (j : Fin N) : EReal :=
  relu (dense x w b i j)

-- relu (x · w1 + b1) · w2 + b2
def field {M K H N : ℕ} (x : Fin M → Fin K → EReal) (w1 : Fin K → Fin H → EReal) (b1 : Fin H → EReal)
    (w2 : Fin H → Fin N → EReal) (b2 : Fin N → EReal) : Fin M → Fin N → EReal :=
  dense (hidden x w1 b1) w2 b2

-- Two rectified layers, then a dense one.
def wilson {M K H1 H2 N : ℕ} (f : Fin M → Fin K → EReal) (w1 : Fin K → Fin H1 → EReal) (b1 : Fin H1 → EReal)
    (w2 : Fin H1 → Fin H2 → EReal) (b2 : Fin H2 → EReal) (w3 : Fin H2 → Fin N → EReal) (b3 : Fin N → EReal) : Fin M → Fin N → EReal :=
  dense (hidden (hidden f w1 b1) w2 b2) w3 b3

-- One rectified layer, then a dense one.
def topology {M K H N : ℕ} (f : Fin M → Fin K → EReal) (w1 : Fin K → Fin H → EReal) (b1 : Fin H → EReal)
    (w2 : Fin H → Fin N → EReal) (b2 : Fin N → EReal) : Fin M → Fin N → EReal :=
  dense (hidden f w1 b1) w2 b2

end Cert.Spec

end
-- ==== Proof.Value.Dense.lean ====
import proofs.«143799_j35253091566215_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Dense

open Idealize.ShloMosaic Idealize.ShloMosaic.ValueIdx
open scoped BigOperators

variable {M K N : ℕ} {φ₁ φ₂ : FTy}

-- A rows-by-columns product into the zero accumulator, at (p, q), sums row p against column q over the contracted axis.
theorem product_apply (D : DotDims ⟨2, ![M, K]⟩ ⟨2, ![K, N]⟩ ⟨2, ![M, N]⟩) (hD : D = DotDims.plain M K N)
    (x : FVec Ideal ⟨2, ![M, K]⟩ φ₁) (w : FVec Ideal ⟨2, ![K, N]⟩ φ₂) (p : Fin M) (q : Fin N) :
    matmul D none x w (constant (F := Ideal) ⟨2, ![M, N]⟩ .f32 0x00000000#32) (ix2 p q)
      = ∑ k : Fin K, x (ix2 p k) * w (ix2 k q) := by
  subst hD
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  congr 2 <;> funext a <;> apply Fin.ext <;> match a with
    | ⟨0, _⟩ => first | rfl | exact hk
    | ⟨1, _⟩ => first | rfl | exact hk

-- One dense layer of a payload (product, bias row spread over the rows, sum), at (p, q), is the specification's dense layer.
theorem layer_apply (D : DotDims ⟨2, ![M, K]⟩ ⟨2, ![K, N]⟩ ⟨2, ![M, N]⟩) (hD : D = DotDims.plain M K N)
    (x : FVec Ideal ⟨2, ![M, K]⟩ φ₁) (w : FVec Ideal ⟨2, ![K, N]⟩ φ₂) (b : FVec Ideal ⟨1, ![N]⟩ .f32)
    (h1 : (⟨1, ![N]⟩ : Shape).ShapeCasts ⟨2, ![1, N]⟩) (h2 : (⟨2, ![1, N]⟩ : Shape).Broadcasts ⟨2, ![M, N]⟩)
    (p : Fin M) (q : Fin N) :
    addf (matmul D none x w (constant (F := Ideal) ⟨2, ![M, N]⟩ .f32 0x00000000#32))
        (broadcastTo ⟨2, ![M, N]⟩ (shapeCast ⟨2, ![1, N]⟩ b h1) h2) (ix2 p q)
      = Cert.Spec.dense (fun i l => x (ix2 i l)) (fun l k => w (ix2 l k)) (fun k => b (ix1 k)) p q := by
  rw [addf_apply, product_apply D hD, broadcastTo_1b_ab_apply, shapeCast_a_1a_apply]
  rfl

-- The same layer cut off below at the zero splat and narrowed (the identity on the extended reals) is the hidden layer.
theorem relu_layer_apply {ψ : FTy} (D : DotDims ⟨2, ![M, K]⟩ ⟨2, ![K, N]⟩ ⟨2, ![M, N]⟩) (hD : D = DotDims.plain M K N)
    (x : FVec Ideal ⟨2, ![M, K]⟩ φ₁) (w : FVec Ideal ⟨2, ![K, N]⟩ φ₂) (b : FVec Ideal ⟨1, ![N]⟩ .f32)
    (h1 : (⟨1, ![N]⟩ : Shape).ShapeCasts ⟨2, ![1, N]⟩) (h2 : (⟨2, ![1, N]⟩ : Shape).Broadcasts ⟨2, ![M, N]⟩)
    (hψ : ψ.bits < FTy.bits .f32) (p : Fin M) (q : Fin N) :
    (truncf ψ (maximumf (addf (matmul D none x w (constant (F := Ideal) ⟨2, ![M, N]⟩ .f32 0x00000000#32))
        (broadcastTo ⟨2, ![M, N]⟩ (shapeCast ⟨2, ![1, N]⟩ b h1) h2))
        (broadcast ⟨2, ![M, N]⟩ (Scalar.ofBits (F := Ideal) .f32 0x00000000#32))) hψ : FVec Ideal ⟨2, ![M, N]⟩ ψ) (ix2 p q)
      = Cert.Spec.hidden (fun i l => x (ix2 i l)) (fun l k => w (ix2 l k)) (fun k => b (ix1 k)) p q := by
  rw [truncf_apply, maximumf_apply, layer_apply D hD, broadcast_apply]
  show max _ (Ideal.ofBits .f32 0x00000000#32) = _
  rw [Ideal.ofBits_zero_f32]
  rfl

-- An array read through an index map that fixes every coordinate is the array.
theorem read_fixed {S : Shape} {α : Type} (X : S.Idx → α) (e : S.Idx → S.Idx) (h : ∀ y a, (e y a).val = (y a).val) :
    (fun y => X (e y)) = X :=
  funext fun y => congrArg X (funext fun a => Fin.ext (h y a))

variable {M' N' : ℕ} {x : Fin M → Fin K → EReal} {x' : Fin M' → Fin K → EReal} {w : Fin K → Fin N → EReal}
  {w' : Fin K → Fin N' → EReal} {b : Fin N → EReal} {b' : Fin N' → EReal} {p : Fin M} {p' : Fin M'} {q : Fin N} {q' : Fin N'}

-- A dense layer's entry reads only one row of the input and one column of the weights and bias.
theorem dense_congr (hx : ∀ l, x p l = x' p' l) (hw : ∀ l, w l q = w' l q') (hb : b q = b' q') :
    Cert.Spec.dense x w b p q = Cert.Spec.dense x' w' b' p' q' := by
  unfold Cert.Spec.dense
  rw [hb]
  exact congrArg (· + _) (Finset.sum_congr rfl fun l _ => by rw [hx l, hw l])

theorem hidden_congr (hx : ∀ l, x p l = x' p' l) (hw : ∀ l, w l q = w' l q') (hb : b q = b' q') :
    Cert.Spec.hidden x w b p q = Cert.Spec.hidden x' w' b' p' q' :=
  congrArg Cert.Spec.relu (dense_congr hx hw hb)

end Cert.Dense

end
-- ==== Proof.Value.FieldPayload.lean ====
import proofs.«143799_j35253091566215_1_alg».proof.Proof.Gen.KernelIdeal.Skeleton
import proofs.«143799_j35253091566215_1_alg».proof.Proof.Value.Dense

noncomputable section

namespace Cert.KernelIdeal.FieldValue

open Cert.KernelIdeal Cert.KernelIdeal.Gen Idealize.ShloMosaic Idealize.ShloMosaic.ValueIdx Cert.Dense

-- The stored block at (p, q): a hidden layer of the rows, then a dense layer against the panel.
theorem stored_apply (x0 : Vec Ideal S1024x4 .bf16) (x1 : Vec Ideal S4x2048 .bf16) (x2 : Vec Ideal S2048 .f32)
    (x3 : Vec Ideal S2048x1024 .bf16) (x4 : Vec Ideal S1024 .f32) (p q : Fin 1024) :
    (k0_pay1 (F := Ideal) x0 x1 x2 x3 x4) (ix2 p q)
      = Cert.Spec.field (fun i l => x0 (ix2 i l)) (fun l k => x1 (ix2 l k)) (fun k => x2 (ix1 k))
          (fun k j => x3 (ix2 k j)) (fun j => x4 (ix1 j)) p q := by
  unfold k0_pay1
  simp only [shapeCast_self]
  exact (layer_apply _ rfl _ _ _ _ _ p q).trans
    (dense_congr (fun k => relu_layer_apply _ rfl _ _ _ _ _ _ p k) (fun _ => rfl) rfl)

end Cert.KernelIdeal.FieldValue

end
-- ==== Proof.Value.Field.lean ====
import proofs.«143799_j35253091566215_1_alg».proof.Proof.Ideal.FieldRegion
import proofs.«143799_j35253091566215_1_alg».proof.Proof.Value.FieldPayload
import proofs.«143799_j35253091566215_1_alg».proof.Proof.Value.Dense

set_option maxRecDepth 16384

noncomputable section

namespace Cert.KernelIdeal.FieldValue

open Cert.KernelIdeal Cert.KernelIdeal.Gen Idealize.ShloMosaic Idealize.ShloMosaic.TcCoe Idealize.SL.Sem
open Idealize.ShloMosaic.ValueIdx Cert.Dense
open Idealize.ShloMosaic.Pipeline (Dat)

variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets1 : (![0] : Fin 1 → Nat) = fun _ => 0 := funext fun a => by fin_cases a <;> rfl

-- What the output array ends holding: at (i, j), the field branch of the five entry arrays.
abbrev whole (c : Dev nD) : S16384x4096.Idx → EReal := fun i =>
  Cert.Spec.field (fun i k => (V c main_v617 : Vec Ideal S16384x4 .bf16) (ix2 i k)) (fun k j => (V c main_v618 : Vec Ideal S4x2048 .bf16) (ix2 k j))
    (fun j => (V c main_arg3 : Vec Ideal S2048 .f32) (ix1 j)) (fun k j => (V c main_v619 : Vec Ideal S2048x4096 .bf16) (ix2 k j))
    (fun j => (V c main_arg5 : Vec Ideal S4096 .f32) (ix1 j)) (i 0) (i 1)

theorem block_indices : ∀ t : Fin cfg0.N, win0_0.index t (0 : Fin 2) = win0_5.index t (0 : Fin 2)
    ∧ win0_0.index t (1 : Fin 2) = 0
    ∧ (∀ a, win0_1.index t a = 0)
    ∧ (∀ a, win0_2.index t a = 0)
    ∧ win0_3.index t (0 : Fin 2) = 0
    ∧ win0_3.index t (1 : Fin 2) = win0_5.index t (1 : Fin 2)
    ∧ win0_4.index t (0 : Fin 1) = win0_5.index t (1 : Fin 2) :=
  (by decide +kernel : ∀ t : Fin grid0.N, _)

theorem block_onto : ∀ (q0 : Fin 16) (q1 : Fin 4), ∃ t : Fin cfg0.N, win0_5.index t = ![q0.val, q1.val] :=
  (by decide +kernel : ∀ (q0 : Fin 16) (q1 : Fin 4), ∃ t : Fin grid0.N, win0_5.index t = ![q0.val, q1.val])

theorem rows_at (c : Dev nD) (t : Fin cfg0.N) (p : Fin 1024) (l : Fin 4) (P : Fin 16384)
    (hP : P.val = win0_5.index t (0 : Fin 2) * 1024 + p.val) :
    (Field.iblk V c 0 t : Vec Ideal S1024x4 .bf16) (ix2 p l) = (V c main_v617 : Vec Ideal S16384x4 .bf16) (ix2 P l) := by
  obtain ⟨e00, e01, -⟩ := block_indices t
  show (V c main_v617 : Vec Ideal S16384x4 .bf16) (((cfg0.win 0).blk t).view.emb (ix2 p l)) = _
  congr 1
  funext a
  apply Fin.ext
  match a with
  | ⟨0, _⟩ => show win0_0.index t (0 : Fin 2) * 1024 + 1 * p.val = P.val; omega
  | ⟨1, _⟩ => show win0_0.index t (1 : Fin 2) * 4 + 1 * l.val = l.val; omega

theorem first_weights_at (c : Dev nD) (t : Fin cfg0.N) (l : Fin 4) (k : Fin 2048) :
    (Field.iblk V c 1 t : Vec Ideal S4x2048 .bf16) (ix2 l k) = (V c main_v618 : Vec Ideal S4x2048 .bf16) (ix2 l k) :=
  congrFun (read_fixed _ ((cfg0.win 1).blk t).view.emb fun y a => by
    show win0_1.index t a * _ + 1 * (y a).val = (y a).val
    rw [(block_indices t).2.2.1 a]; omega) _

theorem first_bias_at (c : Dev nD) (t : Fin cfg0.N) (k : Fin 2048) :
    (Field.iblk V c 2 t : Vec Ideal S2048 .f32) (ix1 k) = (V c main_arg3 : Vec Ideal S2048 .f32) (ix1 k) :=
  congrFun (read_fixed _ ((cfg0.win 2).blk t).view.emb fun y a => by
    show win0_2.index t a * _ + 1 * (y a).val = (y a).val
    rw [(block_indices t).2.2.2.1 a]; omega) _

theorem panel_at (c : Dev nD) (t : Fin cfg0.N) (k : Fin 2048) (q : Fin 1024) (Q : Fin 4096)
    (hQ : Q.val = win0_5.index t (1 : Fin 2) * 1024 + q.val) :
    (Field.iblk V c 3 t : Vec Ideal S2048x1024 .bf16) (ix2 k q) = (V c main_v619 : Vec Ideal S2048x4096 .bf16) (ix2 k Q) := by
  obtain ⟨-, -, -, -, e30, e31, -⟩ := block_indices t
  show (V c main_v619 : Vec Ideal S2048x4096 .bf16) (((cfg0.win 3).blk t).view.emb (ix2 k q)) = _
  congr 1
  funext a
  apply Fin.ext
  match a with
  | ⟨0, _⟩ => show win0_3.index t (0 : Fin 2) * 2048 + 1 * k.val = k.val; omega
  | ⟨1, _⟩ => show win0_3.index t (1 : Fin 2) * 1024 + 1 * q.val = Q.val; omega

theorem second_bias_at (c : Dev nD) (t : Fin cfg0.N) (q : Fin 1024) (Q : Fin 4096)
    (hQ : Q.val = win0_5.index t (1 : Fin 2) * 1024 + q.val) :
    (Field.iblk V c 4 t : Vec Ideal S1024 .f32) (ix1 q) = (V c main_arg5 : Vec Ideal S4096 .f32) (ix1 Q) := by
  obtain ⟨-, -, -, -, -, -, e40⟩ := block_indices t
  show (V c main_arg5 : Vec Ideal S4096 .f32) (((cfg0.win 4).blk t).view.emb (ix1 q)) = _
  congr 1
  funext a
  apply Fin.ext
  match a with
  | ⟨0, _⟩ => show win0_4.index t (0 : Fin 1) * 1024 + 1 * q.val = Q.val; omega

theorem flushed_eq (c : Dev nD) (t : Fin cfg0.N) :
    (Field.dat (F := Ideal) V c).flushed 5 t = ((cfg0.win 5).blk t).view.read (Elt Ideal) (whole V c) := by
  show (cfg0.win 5).cut (grid0.coords t) ((Field.dat (F := Ideal) V c).after 5 t) = _
  rw [Field.after_out]
  unfold Field.out
  rw [View.canon_unit_zero zero_offsets2]
  simp only [View.ld_unit_zero (S := S1024x4) zero_offsets2, View.ld_unit_zero (S := S4x2048) zero_offsets2,
    View.ld_unit_zero (S := S2048) zero_offsets1, View.ld_unit_zero (S := S2048x1024) zero_offsets2,
    View.ld_unit_zero (S := S1024) zero_offsets1]
  funext j
  obtain ⟨p, q, rfl⟩ : ∃ (p : Fin 1024) (q : Fin 1024), j = ix2 p q := ⟨j 0, j 1, eq_ix2 j⟩
  refine (stored_apply (Field.iblk V c 0 t) (Field.iblk V c 1 t) (Field.iblk V c 2 t) (Field.iblk V c 3 t) (Field.iblk V c 4 t) p q).trans ?_
  show _ = whole V c (((cfg0.win 5).blk t).view.emb (ix2 p q))
  have h0 : ((((cfg0.win 5).blk t).view.emb (ix2 p q)) 0).val = win0_5.index t (0 : Fin 2) * 1024 + p.val := by
    show win0_5.index t (0 : Fin 2) * 1024 + 1 * p.val = _; omega
  have h1 : ((((cfg0.win 5).blk t).view.emb (ix2 p q)) 1).val = win0_5.index t (1 : Fin 2) * 1024 + q.val := by
    show win0_5.index t (1 : Fin 2) * 1024 + 1 * q.val = _; omega
  exact dense_congr (fun k => hidden_congr (fun l => rows_at V c t p l _ h0) (fun l => first_weights_at V c t l k)
    (first_bias_at V c t k)) (fun k => panel_at V c t k q _ h1) (second_bias_at V c t q _ h1)

theorem covered (i : S16384x4096.Idx) :
    ∃ t : Fin cfg0.N, (cfg0.win 5).flush t = true ∧ i ∈ ((cfg0.win 5).blk t).view.set := by
  have hi0 : (i 0).val < 16384 := (i 0).isLt
  have hi1 : (i 1).val < 4096 := (i 1).isLt
  obtain ⟨t, ht⟩ := block_onto ⟨(i 0).val / 1024, by omega⟩ ⟨(i 1).val / 1024, by omega⟩
  have q0 : win0_5.index t (0 : Fin 2) = (i 0).val / 1024 := congrFun ht 0
  have q1 : win0_5.index t (1 : Fin 2) = (i 1).val / 1024 := congrFun ht 1
  refine ⟨t, flush0_5 t, ?_⟩
  show i ∈ ((View.whole main_v620).slice (win0_5.rect t)).set
  rw [View.set_slice_whole, Rect.mem_set_unit]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1024 ≤ (i 1).val ∧ (i 1).val < win0_5.index t (1 : Fin 2) * 1024 + 1024; omega

theorem final (c : Dev nD) (p : Fin 16384) (q : Fin 4096) :
    (Field.dat (F := Ideal) V c).arrAt 5 cfg0.N (ix2 p q)
      = Cert.Spec.field (fun i k => (V c main_v617 : Vec Ideal S16384x4 .bf16) (ix2 i k)) (fun k j => (V c main_v618 : Vec Ideal S4x2048 .bf16) (ix2 k j))
          (fun j => (V c main_arg3 : Vec Ideal S2048 .f32) (ix1 j)) (fun k j => (V c main_v619 : Vec Ideal S2048x4096 .bf16) (ix2 k j))
          (fun j => (V c main_arg5 : Vec Ideal S4096 .f32) (ix1 j)) p q :=
  congrFun ((Field.dat (F := Ideal) V c).arrAt_eq_of_cover 5 (whole V c) (fun t _ => flushed_eq V c t) covered) (ix2 p q)

end Cert.KernelIdeal.FieldValue

end
-- ==== Proof.Value.WilsonPayload.lean ====
import proofs.«143799_j35253091566215_1_alg».proof.Proof.Gen.KernelIdeal.Skeleton
import proofs.«143799_j35253091566215_1_alg».proof.Proof.Value.Dense

noncomputable section

namespace Cert.KernelIdeal.WilsonValue

open Cert.KernelIdeal Cert.KernelIdeal.Gen Idealize.ShloMosaic Idealize.ShloMosaic.ValueIdx Cert.Dense

-- The stored block at (a, b): two hidden layers of the rows, then a dense layer.
theorem pay_at (x0 : Vec Ideal S512x4096 .bf16) (x1 : Vec Ideal S4096x2048 .bf16) (x2 : Vec Ideal S2048 .f32)
    (x3 : Vec Ideal S2048x1024 .bf16) (x4 : Vec Ideal S1024 .f32) (x5 : Vec Ideal S1024x1 .bf16) (x6 : Vec Ideal S1 .f32)
    (a : Fin 512) (b : Fin 1) :
    k1_pay1 (F := Ideal) x0 x1 x2 x3 x4 x5 x6 (ix2 a b)
      = Cert.Spec.wilson (fun i k => x0 (ix2 i k)) (fun k j => x1 (ix2 k j)) (fun j => x2 (ix1 j))
          (fun k j => x3 (ix2 k j)) (fun j => x4 (ix1 j)) (fun k j => x5 (ix2 k j)) (fun j => x6 (ix1 j)) a b := by
  unfold k1_pay1
  simp only [shapeCast_self]
  exact (layer_apply _ rfl _ _ _ _ _ a b).trans
    (dense_congr (fun k => (relu_layer_apply _ rfl _ _ _ _ _ _ a k).trans
      (hidden_congr (fun l => relu_layer_apply _ rfl _ _ _ _ _ _ a l) (fun _ => rfl) rfl)) (fun _ => rfl) rfl)

end Cert.KernelIdeal.WilsonValue

end
-- ==== Proof.Value.Wilson.lean ====
import proofs.«143799_j35253091566215_1_alg».proof.Proof.Ideal.WilsonRegion
import proofs.«143799_j35253091566215_1_alg».proof.Proof.Value.WilsonPayload
import proofs.«143799_j35253091566215_1_alg».proof.Proof.Value.Dense

noncomputable section

namespace Cert.KernelIdeal.WilsonValue

open Cert.KernelIdeal Cert.KernelIdeal.Gen Idealize.ShloMosaic Idealize.ShloMosaic.TcCoe Idealize.SL.Sem
open Idealize.ShloMosaic.ValueIdx Cert.Dense
open Idealize.ShloMosaic.Pipeline (Dat)

variable (V : (c : Dev nD) → (b : Ref sig .tc) → Buf (Elt Ideal) ((c : Thread nD τ).loc b))

-- The whole output array as one function of the region's entry arrays.
def G (c : Dev nD) : S16384x1.Idx → EReal := fun i =>
  Cert.Spec.wilson (fun i k => (V c main_v621 : Vec Ideal S16384x4096 .bf16) (ix2 i k)) (fun k j => (V c main_v622 : Vec Ideal S4096x2048 .bf16) (ix2 k j))
      (fun j => (V c main_arg7 : Vec Ideal S2048 .f32) (ix1 j)) (fun k j => (V c main_v623 : Vec Ideal S2048x1024 .bf16) (ix2 k j))
      (fun j => (V c main_arg9 : Vec Ideal S1024 .f32) (ix1 j)) (fun k j => (V c main_v624 : Vec Ideal S1024x1 .bf16) (ix2 k j))
      (fun j => (V c main_arg11 : Vec Ideal S1 .f32) (ix1 j)) (i 0) (i 1)

theorem hz2 : (![0, 0] : Fin 2 → Nat) = fun _ => 0 := funext fun a => by fin_cases a <;> rfl
theorem hz1 : (![0] : Fin 1 → Nat) = fun _ => 0 := funext fun a => by fin_cases a; rfl

theorem idx_facts : ∀ t : Fin cfg1.N,
    win1_0.index t (0 : Fin 2) = t.val ∧ win1_0.index t (1 : Fin 2) = 0
    ∧ (∀ a, win1_1.index t a = 0) ∧ (∀ a, win1_2.index t a = 0) ∧ (∀ a, win1_3.index t a = 0)
    ∧ (∀ a, win1_4.index t a = 0) ∧ (∀ a, win1_5.index t a = 0) ∧ (∀ a, win1_6.index t a = 0)
    ∧ win1_7.index t (0 : Fin 2) = t.val ∧ win1_7.index t (1 : Fin 2) = 0 :=
  (by decide +kernel : ∀ t : Fin grid1.N, _)

theorem blk0 (c : Dev nD) (t : Fin cfg1.N) (i : Fin 512) (k : Fin 4096) (r : Fin 16384) (hr : r.val = t.val * 512 + i.val) :
    (Wilson.iblk V c 0 t : Vec Ideal S512x4096 .bf16) (ix2 i k) = (V c main_v621 : Vec Ideal S16384x4096 .bf16) (ix2 r k) := by
  obtain ⟨e0, e1, -⟩ := idx_facts t
  show V c main_v621 (((cfg1.win 0).blk t).view.emb (ix2 i k)) = V c main_v621 (ix2 r k)
  refine congrArg _ (funext fun a => Fin.ext ?_)
  match a with
  | ⟨0, _⟩ => show win1_0.index t (0 : Fin 2) * 512 + 1 * i.val = r.val; omega
  | ⟨1, _⟩ => show win1_0.index t (1 : Fin 2) * 4096 + 1 * k.val = k.val; omega

theorem blk1 (c : Dev nD) (t : Fin cfg1.N) :
    (Wilson.iblk V c 1 t : Vec Ideal S4096x2048 .bf16) = (V c main_v622 : Vec Ideal S4096x2048 .bf16) :=
  read_fixed _ ((cfg1.win 1).blk t).view.emb fun y a => by
    show win1_1.index t a * _ + 1 * (y a).val = (y a).val
    rw [(idx_facts t).2.2.1 a]; omega

theorem blk2 (c : Dev nD) (t : Fin cfg1.N) :
    (Wilson.iblk V c 2 t : Vec Ideal S2048 .f32) = (V c main_arg7 : Vec Ideal S2048 .f32) :=
  read_fixed _ ((cfg1.win 2).blk t).view.emb fun y a => by
    show win1_2.index t a * _ + 1 * (y a).val = (y a).val
    rw [(idx_facts t).2.2.2.1 a]; omega

theorem blk3 (c : Dev nD) (t : Fin cfg1.N) :
    (Wilson.iblk V c 3 t : Vec Ideal S2048x1024 .bf16) = (V c main_v623 : Vec Ideal S2048x1024 .bf16) :=
  read_fixed _ ((cfg1.win 3).blk t).view.emb fun y a => by
    show win1_3.index t a * _ + 1 * (y a).val = (y a).val
    rw [(idx_facts t).2.2.2.2.1 a]; omega

theorem blk4 (c : Dev nD) (t : Fin cfg1.N) :
    (Wilson.iblk V c 4 t : Vec Ideal S1024 .f32) = (V c main_arg9 : Vec Ideal S1024 .f32) :=
  read_fixed _ ((cfg1.win 4).blk t).view.emb fun y a => by
    show win1_4.index t a * _ + 1 * (y a).val = (y a).val
    rw [(idx_facts t).2.2.2.2.2.1 a]; omega

theorem blk5 (c : Dev nD) (t : Fin cfg1.N) :
    (Wilson.iblk V c 5 t : Vec Ideal S1024x1 .bf16) = (V c main_v624 : Vec Ideal S1024x1 .bf16) :=
  read_fixed _ ((cfg1.win 5).blk t).view.emb fun y a => by
    show win1_5.index t a * _ + 1 * (y a).val = (y a).val
    rw [(idx_facts t).2.2.2.2.2.2.1 a]; omega

theorem blk6 (c : Dev nD) (t : Fin cfg1.N) :
    (Wilson.iblk V c 6 t : Vec Ideal S1 .f32) = (V c main_arg11 : Vec Ideal S1 .f32) :=
  read_fixed _ ((cfg1.win 6).blk t).view.emb fun y a => by
    show win1_6.index t a * _ + 1 * (y a).val = (y a).val
    rw [(idx_facts t).2.2.2.2.2.2.2.1 a]; omega

theorem flushed_eq (c : Dev nD) (t : Fin cfg1.N) :
    (Wilson.dat (F := Ideal) V c).flushed 7 t = ((cfg1.win 7).blk t).view.read (Elt Ideal) (G V c) := by
  show (cfg1.win 7).cut (grid1.coords t) ((Wilson.dat (F := Ideal) V c).after 7 t) = _
  rw [Wilson.after_out]
  unfold Wilson.out
  rw [View.canon_unit_zero hz2]
  simp only [View.ld_unit_zero (S := S512x4096) hz2, View.ld_unit_zero (S := S4096x2048) hz2, View.ld_unit_zero (S := S2048) hz1,
    View.ld_unit_zero (S := S2048x1024) hz2, View.ld_unit_zero (S := S1024) hz1, View.ld_unit_zero (S := S1024x1) hz2,
    View.ld_unit_zero (S := S1) hz1]
  obtain ⟨-, -, -, -, -, -, -, -, e0, e1⟩ := idx_facts t
  funext j
  obtain ⟨a, b, rfl⟩ : ∃ (a : Fin 512) (b : Fin 1), j = ix2 a b := ⟨j 0, j 1, eq_ix2 j⟩
  show k1_pay1 (F := Ideal) (Wilson.iblk V c 0 t) (Wilson.iblk V c 1 t) (Wilson.iblk V c 2 t) (Wilson.iblk V c 3 t)
      (Wilson.iblk V c 4 t) (Wilson.iblk V c 5 t) (Wilson.iblk V c 6 t) (ix2 a b)
    = G V c (((cfg1.win 7).blk t).view.emb (ix2 a b))
  refine (pay_at _ _ _ _ _ _ _ a b).trans ?_
  rw [blk1 V c t, blk2 V c t, blk3 V c t, blk4 V c t, blk5 V c t, blk6 V c t]
  have hrow : ((((cfg1.win 7).blk t).view.emb (ix2 a b)) 0).val = t.val * 512 + a.val := by
    show win1_7.index t (0 : Fin 2) * 512 + 1 * a.val = t.val * 512 + a.val
    omega
  have hcol : b = (((cfg1.win 7).blk t).view.emb (ix2 a b)) 1 := Fin.ext (by
    show b.val = win1_7.index t (1 : Fin 2) * 1 + 1 * b.val
    omega)
  unfold G
  exact dense_congr (fun _ => hidden_congr (fun _ => hidden_congr (fun k => blk0 V c t a k _ hrow) (fun _ => rfl) rfl)
    (fun _ => rfl) rfl) (fun l => congrArg (fun j => V c main_v624 (ix2 l j)) hcol) (congrArg (fun j => V c main_arg11 (ix1 j)) hcol)

theorem covered (i : S16384x1.Idx) :
    ∃ t : Fin cfg1.N, (cfg1.win 7).flush t = true ∧ i ∈ ((cfg1.win 7).blk t).view.set := by
  have hi0 : (i 0).val < 16384 := idx2_lt0 i
  have hi1 : (i 1).val < 1 := idx2_lt1 i
  have hN : cfg1.N = 32 := N_1
  obtain ⟨t, ht⟩ : ∃ t : Fin cfg1.N, t.val = (i 0).val / 512 := ⟨⟨(i 0).val / 512, by rw [hN]; omega⟩, rfl⟩
  obtain ⟨-, -, -, -, -, -, -, -, e0, e1⟩ := idx_facts t
  refine ⟨t, flush1_7 t, ?_⟩
  show i ∈ ((View.whole main_v625).slice (win1_7.rect t)).set
  rw [View.set_slice_whole, Rect.mem_set_unit]
  intro a
  match a with
  | ⟨0, _⟩ => show win1_7.index t (0 : Fin 2) * 512 ≤ (i 0).val ∧ (i 0).val < win1_7.index t (0 : Fin 2) * 512 + 512; omega
  | ⟨1, _⟩ => show win1_7.index t (1 : Fin 2) * 1 ≤ (i 1).val ∧ (i 1).val < win1_7.index t (1 : Fin 2) * 1 + 1; omega

theorem final (c : Dev nD) (p : Fin 16384) (q : Fin 1) :
    (Wilson.dat (F := Ideal) V c).arrAt 7 cfg1.N (ix2 p q)
      = Cert.Spec.wilson (fun i k => (V c main_v621 : Vec Ideal S16384x4096 .bf16) (ix2 i k)) (fun k j => (V c main_v622 : Vec Ideal S4096x2048 .bf16) (ix2 k j))
      (fun j => (V c main_arg7 : Vec Ideal S2048 .f32) (ix1 j)) (fun k j => (V c main_v623 : Vec Ideal S2048x1024 .bf16) (ix2 k j))
      (fun j => (V c main_arg9 : Vec Ideal S1024 .f32) (ix1 j)) (fun k j => (V c main_v624 : Vec Ideal S1024x1 .bf16) (ix2 k j))
      (fun j => (V c main_arg11 : Vec Ideal S1 .f32) (ix1 j)) p q :=
  congrFun ((Wilson.dat (F := Ideal) V c).arrAt_eq_of_cover 7 (G V c) (fun t _ => flushed_eq V c t) (covered)) (ix2 p q)

end Cert.KernelIdeal.WilsonValue

end
-- ==== Proof.Value.Topology.lean ====
import proofs.«143799_j35253091566215_1_alg».proof.Proof.Ideal.TopologyRegion
import proofs.«143799_j35253091566215_1_alg».proof.Proof.Value.Dense

noncomputable section

namespace Cert.KernelIdeal.TopologyValue

open Cert.KernelIdeal Cert.KernelIdeal.Gen
open Idealize.ShloMosaic Idealize.ShloMosaic.TcCoe Idealize.SL.Sem Idealize.ShloMosaic.ValueIdx Cert.Dense
open Idealize.ShloMosaic.Pipeline (Dat)

-- The stored block at (p, q): a hidden layer of the rows, then a dense layer.
theorem payload_apply (x0 : FVec Ideal S512x4096 .bf16) (x1 : FVec Ideal S4096x2048 .bf16) (x2 : FVec Ideal S2048 .f32)
    (x3 : FVec Ideal S2048x1 .bf16) (x4 : FVec Ideal S1 .f32) (p : Fin 512) (q : Fin 1) :
    (k2_pay1 (F := Ideal) x0 x1 x2 x3 x4) (ix2 p q)
      = Cert.Spec.topology (fun i l => x0 (ix2 i l)) (fun l j => x1 (ix2 l j)) (fun j => x2 (ix1 j))
          (fun k j => x3 (ix2 k j)) (fun j => x4 (ix1 j)) p q := by
  unfold k2_pay1
  simp only [shapeCast_self]
  exact (layer_apply _ rfl _ _ _ _ _ p q).trans
    (dense_congr (fun k => relu_layer_apply _ rfl _ _ _ _ _ _ p k) (fun _ => rfl) rfl)

theorem zeros2 : (![0, 0] : Fin 2 → Nat) = fun _ => 0 := funext fun a => by fin_cases a <;> rfl
theorem zeros1 : (![0] : Fin 1 → Nat) = fun _ => 0 := funext fun a => by fin_cases a <;> rfl

-- The output block at an index is the topology branch of the input blocks at its coordinates.
theorem out_apply_idx (x0 : FVec Ideal S512x4096 .bf16) (x1 : FVec Ideal S4096x2048 .bf16) (x2 : FVec Ideal S2048 .f32)
    (x3 : FVec Ideal S2048x1 .bf16) (x4 : FVec Ideal S1 .f32) (y : S512x1.Idx) :
    Topology.out (F := Ideal) x0 x1 x2 x3 x4 y
      = Cert.Spec.topology (fun i l => x0 (ix2 i l)) (fun l j => x1 (ix2 l j)) (fun j => x2 (ix1 j))
          (fun k j => x3 (ix2 k j)) (fun j => x4 (ix1 j)) ⟨(y 0).val, idx2_lt0 y⟩ ⟨(y 1).val, idx2_lt1 y⟩ := by
  obtain ⟨p, q, rfl⟩ : ∃ (p : Fin 512) (q : Fin 1), y = ix2 p q := ⟨y 0, y 1, eq_ix2 y⟩
  unfold Topology.out
  rw [View.canon_unit_zero zeros2]
  simp only [View.ld_unit_zero (S := S512x4096) zeros2, View.ld_unit_zero (S := S4096x2048) zeros2,
    View.ld_unit_zero (S := S2048) zeros1, View.ld_unit_zero (S := S2048x1) zeros2, View.ld_unit_zero (S := S1) zeros1]
  exact payload_apply x0 x1 x2 x3 x4 p q

variable (V : (c : Dev nD) → (b : Ref sig .tc) → Buf (Elt Ideal) ((c : Thread nD τ).loc b))

theorem idx_facts : ∀ t : Fin cfg2.N,
    win2_0.index t (0 : Fin 2) = t.val ∧ win2_0.index t (1 : Fin 2) = 0
    ∧ (∀ a, win2_1.index t a = 0) ∧ (∀ a, win2_2.index t a = 0) ∧ (∀ a, win2_3.index t a = 0) ∧ (∀ a, win2_4.index t a = 0)
    ∧ win2_5.index t (0 : Fin 2) = t.val ∧ win2_5.index t (1 : Fin 2) = 0 :=
  (by decide +kernel : ∀ t : Fin grid2.N, _)

theorem acts_block (c : Dev nD) (t : Fin cfg2.N) (p : Fin 512) (l : Fin 4096) (r : Fin 16384)
    (hr : r.val = t.val * 512 + p.val) :
    (Topology.iblk V c 0 t : Vec Ideal S512x4096 .bf16) (ix2 p l) = (V c main_v621 : Vec Ideal S16384x4096 .bf16) (ix2 r l) := by
  obtain ⟨e0, e1, -⟩ := idx_facts t
  show V c main_v621 (((cfg2.win 0).blk t).view.emb (ix2 p l)) = V c main_v621 (ix2 r l)
  refine congrArg _ (funext fun a => Fin.ext ?_)
  match a with
  | ⟨0, _⟩ => show win2_0.index t (0 : Fin 2) * 512 + 1 * p.val = r.val; omega
  | ⟨1, _⟩ => show win2_0.index t (1 : Fin 2) * 4096 + 1 * l.val = l.val; omega

theorem w1_block (c : Dev nD) (t : Fin cfg2.N) (l : Fin 4096) (k : Fin 2048) :
    (Topology.iblk V c 1 t : Vec Ideal S4096x2048 .bf16) (ix2 l k) = (V c main_v626 : Vec Ideal S4096x2048 .bf16) (ix2 l k) :=
  congrFun (read_fixed _ ((cfg2.win 1).blk t).view.emb fun y a => by
    show win2_1.index t a * _ + 1 * (y a).val = (y a).val
    rw [(idx_facts t).2.2.1 a]; omega) _

theorem b1_block (c : Dev nD) (t : Fin cfg2.N) (k : Fin 2048) :
    (Topology.iblk V c 2 t : Vec Ideal S2048 .f32) (ix1 k) = (V c main_arg13 : Vec Ideal S2048 .f32) (ix1 k) :=
  congrFun (read_fixed _ ((cfg2.win 2).blk t).view.emb fun y a => by
    show win2_2.index t a * _ + 1 * (y a).val = (y a).val
    rw [(idx_facts t).2.2.2.1 a]; omega) _

theorem w2_block (c : Dev nD) (t : Fin cfg2.N) (k : Fin 2048) (q q' : Fin 1) :
    (Topology.iblk V c 3 t : Vec Ideal S2048x1 .bf16) (ix2 k q) = (V c main_v627 : Vec Ideal S2048x1 .bf16) (ix2 k q') := by
  obtain rfl : q = q' := Subsingleton.elim _ _
  exact congrFun (read_fixed _ ((cfg2.win 3).blk t).view.emb fun y a => by
    show win2_3.index t a * _ + 1 * (y a).val = (y a).val
    rw [(idx_facts t).2.2.2.2.1 a]; omega) _

theorem b2_block (c : Dev nD) (t : Fin cfg2.N) (q q' : Fin 1) :
    (Topology.iblk V c 4 t : Vec Ideal S1 .f32) (ix1 q) = (V c main_arg15 : Vec Ideal S1 .f32) (ix1 q') := by
  obtain rfl : q = q' := Subsingleton.elim _ _
  exact congrFun (read_fixed _ ((cfg2.win 4).blk t).view.emb fun y a => by
    show win2_4.index t a * _ + 1 * (y a).val = (y a).val
    rw [(idx_facts t).2.2.2.2.2.1 a]; omega) _

-- What the output array ends holding: the topology branch of the region's entry arrays, entry by entry.
def whole (c : Dev nD) : Vec Ideal S16384x1 .f32 := fun i =>
  Cert.Spec.topology (fun r l => (V c main_v621 : Vec Ideal S16384x4096 .bf16) (ix2 r l))
    (fun l k => (V c main_v626 : Vec Ideal S4096x2048 .bf16) (ix2 l k)) (fun k => (V c main_arg13 : Vec Ideal S2048 .f32) (ix1 k))
    (fun k j => (V c main_v627 : Vec Ideal S2048x1 .bf16) (ix2 k j)) (fun j => (V c main_arg15 : Vec Ideal S1 .f32) (ix1 j))
    ⟨(i 0).val, idx2_lt0 i⟩ ⟨(i 1).val, idx2_lt1 i⟩

theorem flushed_eq (c : Dev nD) (t : Fin cfg2.N) :
    (Topology.dat V c).flushed 5 t = ((cfg2.win 5).blk t).view.read (Elt Ideal) (whole V c) := by
  show (cfg2.win 5).cut (grid2.coords t) ((Topology.dat V c).after 5 t) = _
  rw [Topology.after_out]
  obtain ⟨-, -, -, -, -, -, e0, e1⟩ := idx_facts t
  funext j
  have hj0 : (j 0).val < 512 := (j 0).isLt
  have hj1 : (j 1).val < 1 := (j 1).isLt
  rw [View.read_apply]
  refine (out_apply_idx _ _ _ _ _ _).trans ?_
  show _ = whole V c (((cfg2.win 5).blk t).view.emb j)
  unfold whole
  refine dense_congr (fun k => hidden_congr (fun l => acts_block V c t _ l _ ?_) (fun l => w1_block V c t l k) (b1_block V c t k))
    (fun k => w2_block V c t k _ _) (b2_block V c t _ _)
  show win2_5.index t (0 : Fin 2) * 512 + 1 * (j 0).val = t.val * 512 + (j 0).val
  rw [e0]; omega

theorem covered (i : S16384x1.Idx) :
    ∃ t : Fin cfg2.N, (cfg2.win 5).flush t = true ∧ i ∈ ((cfg2.win 5).blk t).view.set := by
  have hi0 : (i 0).val < 16384 := idx2_lt0 i
  have hi1 : (i 1).val < 1 := idx2_lt1 i
  have hN : cfg2.N = 32 := N_2
  obtain ⟨t, ht⟩ : ∃ t : Fin cfg2.N, t.val = (i 0).val / 512 := ⟨⟨(i 0).val / 512, by rw [hN]; omega⟩, rfl⟩
  obtain ⟨-, -, -, -, -, -, e0, e1⟩ := idx_facts t
  refine ⟨t, flush2_5 t, ?_⟩
  show i ∈ ((View.whole main_v628).slice (win2_5.rect t)).set
  rw [View.set_slice_whole, Rect.mem_set_unit]
  intro a
  match a with
  | ⟨0, _⟩ => show win2_5.index t (0 : Fin 2) * 512 ≤ (i 0).val ∧ (i 0).val < win2_5.index t (0 : Fin 2) * 512 + 512; rw [e0, ht]; omega
  | ⟨1, _⟩ => show win2_5.index t (1 : Fin 2) * 1 ≤ (i 1).val ∧ (i 1).val < win2_5.index t (1 : Fin 2) * 1 + 1; rw [e1]; omega

theorem final (c : Dev nD) (p : Fin 16384) (q : Fin 1) :
    (Topology.dat (F := Ideal) V c).arrAt 5 cfg2.N (ix2 p q)
      = Cert.Spec.topology (fun i k => (V c main_v621 : Vec Ideal S16384x4096 .bf16) (ix2 i k))
          (fun k j => (V c main_v626 : Vec Ideal S4096x2048 .bf16) (ix2 k j)) (fun j => (V c main_arg13 : Vec Ideal S2048 .f32) (ix1 j))
          (fun k j => (V c main_v627 : Vec Ideal S2048x1 .bf16) (ix2 k j)) (fun j => (V c main_arg15 : Vec Ideal S1 .f32) (ix1 j)) p q := by
  rw [(Topology.dat V c).arrAt_eq_of_cover 5 (whole V c) (fun t _ => flushed_eq V c t) covered]
  rfl

end Cert.KernelIdeal.TopologyValue

end
-- ==== Proof.Reference.Value.lean ====
import proofs.«143799_j35253091566215_1_alg».proof.Proof.Reference.Kept
import proofs.«143799_j35253091566215_1_alg».proof.Proof.Spec
import Idealize.ShloMosaic.Lib.StackMember
import Idealize.ShloMosaic.Lib.IdealHost

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Run
open scoped BigOperators

section Layers
variable {M K N : ℕ}

theorem oneRow_apply {α : Type} (h1 : (⟨1, ![N]⟩ : Shape).BroadcastsInDim ⟨2, ![1, N]⟩ ![1])
    (b : (⟨1, ![N]⟩ : Shape).Idx → α) (t : Fin N) :
    broadcastInDim ⟨2, ![1, N]⟩ ![1] h1 b (ix2 (0 : Fin 1) t) = b (ix1 t) := by
  refine broadcastInDim_apply ![1] h1 b (ix2 (0 : Fin 1) t) (ix1 t) ?_
  intro a
  fin_cases a
  show t.val = if N = 1 then 0 else t.val
  split_ifs with hn
  · have := t.isLt; omega
  · rfl

theorem dense_apply (d : DotDims ⟨2, ![M, K]⟩ ⟨2, ![K, N]⟩ ⟨2, ![M, N]⟩) (hd : d = DotDims.plain M K N)
    (r : (⟨1, ![N]⟩ : Shape).BroadcastsInDim ⟨2, ![1, N]⟩ ![1])
    (s : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨1, ![N]⟩ .f32)
    (p : Fin M) (q : Fin N) :
    addf (Host.dotGeneral d none X W)
        (broadcastInDim ⟨2, ![M, N]⟩ ![0, 1] s (broadcastInDim ⟨2, ![1, N]⟩ ![1] r B)) (ix2 p q)
      = Cert.Spec.dense (fun i c => X (ix2 i c)) (fun c j => W (ix2 c j)) (fun j => B (ix1 j)) p q := by
  subst hd
  rw [addf_apply, StackMember.dotGeneral_plain_apply, broadcastInDim_oneRow_apply, oneRow_apply]
  rfl

theorem hidden_apply (d : DotDims ⟨2, ![M, K]⟩ ⟨2, ![K, N]⟩ ⟨2, ![M, N]⟩) (hd : d = DotDims.plain M K N)
    (r : (⟨1, ![N]⟩ : Shape).BroadcastsInDim ⟨2, ![1, N]⟩ ![1])
    (s : (⟨2, ![1, N]⟩ : Shape).BroadcastsInDim ⟨2, ![M, N]⟩ ![0, 1])
    (z : (⟨0, ![]⟩ : Shape).BroadcastsInDim ⟨2, ![M, N]⟩ ![])
    (X : FVec Ideal ⟨2, ![M, K]⟩ .f32) (W : FVec Ideal ⟨2, ![K, N]⟩ .f32) (B : FVec Ideal ⟨1, ![N]⟩ .f32)
    (p : Fin M) (q : Fin N) :
    maximumf (addf (Host.dotGeneral d none X W)
        (broadcastInDim ⟨2, ![M, N]⟩ ![0, 1] s (broadcastInDim ⟨2, ![1, N]⟩ ![1] r B)))
        (broadcastInDim ⟨2, ![M, N]⟩ ![] z (constant (F := Ideal) ⟨0, ![]⟩ .f32 0x00000000#32)) (ix2 p q)
      = Cert.Spec.hidden (fun i c => X (ix2 i c)) (fun c j => W (ix2 c j)) (fun j => B (ix1 j)) p q := by
  rw [maximumf_apply, dense_apply d hd r s X W B p q, broadcastInDim_scalar_apply, constant_apply, Ideal.ofBits_zero_f32]
  rfl

end Layers

section Run
variable {F : FTy → Type} [FloatOps F]

theorem after_take_drop (n : ℕ) (l : List (HloOp τ sig (Elt F))) (V : Valuation τ sig (Elt F)) :
    StableHlo.after l V = StableHlo.after (l.drop n) (StableHlo.after (l.take n) V) := by
  rw [← StableHlo.after_append, List.take_append_drop]

theorem off_take {K : List (Ref sig .tc)} {l : List (HloOp τ sig (Elt F))} (n : ℕ) (h : l.Forall (WritesOff K)) :
    (l.take n).Forall (WritesOff K) :=
  List.forall_iff_forall_mem.mpr fun op hop => List.forall_iff_forall_mem.mp h op (List.mem_of_mem_take hop)

end Run

section Branches

theorem field_ops (V : Valuation τ sig (Elt Ideal)) (p : Fin 16384) (q : Fin 4096) :
    (StableHlo.after (w0_i0 (F := Ideal)) V (Proc.devRef .tc main_v9) : Vec Ideal S16384x4096 .f32) (ix2 p q)
      = Cert.Spec.field (fun c j => (V (Proc.devRef .tc main_arg0) : Vec Ideal S16384x4 .f32) (ix2 c j))
          (fun c j => (V (Proc.devRef .tc main_arg2) : Vec Ideal S4x2048 .f32) (ix2 c j)) (fun j => (V (Proc.devRef .tc main_arg3) : Vec Ideal S2048 .f32) (ix1 j))
          (fun c j => (V (Proc.devRef .tc main_arg4) : Vec Ideal S2048x4096 .f32) (ix2 c j)) (fun j => (V (Proc.devRef .tc main_arg5) : Vec Ideal S4096 .f32) (ix1 j)) p q := by
  unfold w0_i0
  after_results
  refine (dense_apply _ rfl _ _ _ _ _ p q).trans ?_
  exact congrArg (fun f => Cert.Spec.dense f _ _ p q)
    (funext fun i => funext fun c => hidden_apply _ rfl _ _ _ _ _ _ i c)

theorem wilson_ops (V : Valuation τ sig (Elt Ideal)) (p : Fin 16384) (q : Fin 1) :
    (StableHlo.after ((w15_i0 (F := Ideal)).drop 42) V (Proc.devRef .tc main_v642) : Vec Ideal S16384x1 .f32) (ix2 p q)
      = Cert.Spec.wilson (fun c j => (V (Proc.devRef .tc main_v9) : Vec Ideal S16384x4096 .f32) (ix2 c j))
          (fun c j => (V (Proc.devRef .tc main_arg6) : Vec Ideal S4096x2048 .f32) (ix2 c j)) (fun j => (V (Proc.devRef .tc main_arg7) : Vec Ideal S2048 .f32) (ix1 j))
          (fun c j => (V (Proc.devRef .tc main_arg8) : Vec Ideal S2048x1024 .f32) (ix2 c j)) (fun j => (V (Proc.devRef .tc main_arg9) : Vec Ideal S1024 .f32) (ix1 j))
          (fun c j => (V (Proc.devRef .tc main_arg10) : Vec Ideal S1024x1 .f32) (ix2 c j)) (fun j => (V (Proc.devRef .tc main_arg11) : Vec Ideal S1 .f32) (ix1 j)) p q := by
  unfold w15_i0
  simp only [List.drop_succ_cons, List.drop_zero]
  after_results
  refine (dense_apply _ rfl _ _ _ _ _ p q).trans ?_
  refine congrArg (fun f => Cert.Spec.dense f _ _ p q) (funext fun i => funext fun c => ?_)
  refine (hidden_apply _ rfl _ _ _ _ _ _ i c).trans ?_
  exact congrArg (fun f => Cert.Spec.hidden f _ _ i c)
    (funext fun i' => funext fun c' => hidden_apply _ rfl _ _ _ _ _ _ i' c')

theorem topology_ops (V : Valuation τ sig (Elt Ideal)) (p : Fin 16384) (q : Fin 1) :
    (StableHlo.after (w16_i0 (F := Ideal)) V (Proc.devRef .tc main_v652) : Vec Ideal S16384x1 .f32) (ix2 p q)
      = Cert.Spec.topology (fun c j => (V (Proc.devRef .tc main_v9) : Vec Ideal S16384x4096 .f32) (ix2 c j))
          (fun c j => (V (Proc.devRef .tc main_arg12) : Vec Ideal S4096x2048 .f32) (ix2 c j)) (fun j => (V (Proc.devRef .tc main_arg13) : Vec Ideal S2048 .f32) (ix1 j))
          (fun c j => (V (Proc.devRef .tc main_arg14) : Vec Ideal S2048x1 .f32) (ix2 c j)) (fun j => (V (Proc.devRef .tc main_arg15) : Vec Ideal S1 .f32) (ix1 j)) p q := by
  unfold w16_i0
  after_results
  refine (dense_apply _ rfl _ _ _ _ _ p q).trans ?_
  exact congrArg (fun f => Cert.Spec.dense f _ _ p q)
    (funext fun i => funext fun c => hidden_apply _ rfl _ _ _ _ _ _ i c)

end Branches

section Results
variable (m : (ℓ : Loc nD τ sig) → Buf (Elt Ideal) ℓ) (d : Dev nD)

abbrev afterFirst : Valuation τ sig (Elt Ideal) :=
  StableHlo.after (w0_i0 (F := Ideal)) (StableHlo.launchContents m d)

abbrev afterChain : Valuation τ sig (Elt Ideal) :=
  StableHlo.after (mid (F := Ideal)).flatten (afterFirst m d)

theorem run_eq (b : DevRef τ sig) :
    StableHlo.after (items (F := Ideal)).flatten (StableHlo.launchContents m d) b
      = StableHlo.after w16_i0 (StableHlo.after w15_i0 (afterChain m d)) b := by
  rw [items_flatten, StableHlo.after_append, StableHlo.after_append, StableHlo.after_append]

theorem run_v9 :
    StableHlo.after (items (F := Ideal)).flatten (StableHlo.launchContents m d) (Proc.devRef .tc main_v9)
      = afterFirst m d (Proc.devRef .tc main_v9) := by
  rw [items_flatten, StableHlo.after_append]
  exact after_kept rest_off _ List.mem_cons_self

/-- Operations that write off `keep1`, run after the chain, still find what the first list left. -/
theorem pre_keep {pre : List (HloOp τ sig (Elt Ideal))} (hp : pre.Forall (WritesOff keep1)) {r : Ref sig .tc}
    (hr : r ∈ keep1) :
    StableHlo.after pre (afterChain m d) (Proc.devRef .tc r) = afterFirst m d (Proc.devRef .tc r) :=
  (after_kept hp _ hr).trans (after_kept (forall_flatten off.2.1) _ hr)

theorem pre_v9 {pre : List (HloOp τ sig (Elt Ideal))} (hp : pre.Forall (WritesOff keep1)) :
    StableHlo.after pre (afterChain m d) (Proc.devRef .tc main_v9)
      = StableHlo.after (items (F := Ideal)).flatten (StableHlo.launchContents m d) (Proc.devRef .tc main_v9) :=
  (pre_keep m d hp List.mem_cons_self).trans (run_v9 m d).symm

theorem pre_arg {pre : List (HloOp τ sig (Elt Ideal))} (hp : pre.Forall (WritesOff keep1)) {r : Ref sig .tc}
    (hr : r ∈ argRefs) :
    StableHlo.after pre (afterChain m d) (Proc.devRef .tc r) = StableHlo.launchContents m d (Proc.devRef .tc r) :=
  (pre_keep m d hp (List.mem_cons_of_mem _ hr)).trans (after_kept off.1 _ hr)

theorem field_at (p : Fin 16384) (q : Fin 4096) :
    (StableHlo.after (items (F := Ideal)).flatten (StableHlo.launchContents m d) (Proc.devRef .tc main_v9) : Vec Ideal S16384x4096 .f32) (ix2 p q)
      = Cert.Spec.field (fun c j => (m ((d.tc : Thread nD τ).loc main_arg0) : Vec Ideal S16384x4 .f32) (ix2 c j))
          (fun c j => (m ((d.tc : Thread nD τ).loc main_arg2) : Vec Ideal S4x2048 .f32) (ix2 c j)) (fun j => (m ((d.tc : Thread nD τ).loc main_arg3) : Vec Ideal S2048 .f32) (ix1 j))
          (fun c j => (m ((d.tc : Thread nD τ).loc main_arg4) : Vec Ideal S2048x4096 .f32) (ix2 c j)) (fun j => (m ((d.tc : Thread nD τ).loc main_arg5) : Vec Ideal S4096 .f32) (ix1 j)) p q := by
  rw [run_v9 m d]
  exact field_ops (StableHlo.launchContents m d) p q

theorem wilson_at (p : Fin 16384) (q : Fin 1) :
    (StableHlo.after (items (F := Ideal)).flatten (StableHlo.launchContents m d) (Proc.devRef .tc main_v642) : Vec Ideal S16384x1 .f32) (ix2 p q)
      = Cert.Spec.wilson (fun c j => (StableHlo.after (items (F := Ideal)).flatten (StableHlo.launchContents m d) (Proc.devRef .tc main_v9) : Vec Ideal S16384x4096 .f32) (ix2 c j))
          (fun c j => (m ((d.tc : Thread nD τ).loc main_arg6) : Vec Ideal S4096x2048 .f32) (ix2 c j)) (fun j => (m ((d.tc : Thread nD τ).loc main_arg7) : Vec Ideal S2048 .f32) (ix1 j))
          (fun c j => (m ((d.tc : Thread nD τ).loc main_arg8) : Vec Ideal S2048x1024 .f32) (ix2 c j)) (fun j => (m ((d.tc : Thread nD τ).loc main_arg9) : Vec Ideal S1024 .f32) (ix1 j))
          (fun c j => (m ((d.tc : Thread nD τ).loc main_arg10) : Vec Ideal S1024x1 .f32) (ix2 c j)) (fun j => (m ((d.tc : Thread nD τ).loc main_arg11) : Vec Ideal S1 .f32) (ix1 j)) p q := by
  have hp := off_take 42 (off (F := Ideal)).2.2.1
  rw [run_eq m d (Proc.devRef .tc main_v642), after_kept off.2.2.2.2 _ List.mem_cons_self, after_take_drop 42 w15_i0]
  refine (wilson_ops _ p q).trans ?_
  rw [pre_v9 m d hp, pre_arg m d hp (r := main_arg6) (by decide), pre_arg m d hp (r := main_arg7) (by decide),
    pre_arg m d hp (r := main_arg8) (by decide), pre_arg m d hp (r := main_arg9) (by decide),
    pre_arg m d hp (r := main_arg10) (by decide), pre_arg m d hp (r := main_arg11) (by decide)]

theorem topology_at (p : Fin 16384) (q : Fin 1) :
    (StableHlo.after (items (F := Ideal)).flatten (StableHlo.launchContents m d) (Proc.devRef .tc main_v652) : Vec Ideal S16384x1 .f32) (ix2 p q)
      = Cert.Spec.topology (fun c j => (StableHlo.after (items (F := Ideal)).flatten (StableHlo.launchContents m d) (Proc.devRef .tc main_v9) : Vec Ideal S16384x4096 .f32) (ix2 c j))
          (fun c j => (m ((d.tc : Thread nD τ).loc main_arg12) : Vec Ideal S4096x2048 .f32) (ix2 c j)) (fun j => (m ((d.tc : Thread nD τ).loc main_arg13) : Vec Ideal S2048 .f32) (ix1 j))
          (fun c j => (m ((d.tc : Thread nD τ).loc main_arg14) : Vec Ideal S2048x1 .f32) (ix2 c j)) (fun j => (m ((d.tc : Thread nD τ).loc main_arg15) : Vec Ideal S1 .f32) (ix1 j)) p q := by
  have hp := (off (F := Ideal)).2.2.1
  rw [run_eq m d (Proc.devRef .tc main_v652)]
  refine (topology_ops _ p q).trans ?_
  rw [pre_v9 m d hp, pre_arg m d hp (r := main_arg12) (by decide), pre_arg m d hp (r := main_arg13) (by decide),
    pre_arg m d hp (r := main_arg14) (by decide), pre_arg m d hp (r := main_arg15) (by decide)]

end Results

end Cert.ReferenceIdeal.RefValue

end
-- ==== Proof.Plaquette.Sim.lean ====
import Idealize.ShloMosaic.Lib.StableHlo.Run
import Lean.Elab.Tactic

namespace Cert.Plaquette.Fwd

open Idealize.ShloMosaic Idealize.ShloMosaic.StableHlo Idealize.ShloMosaic.TcCoe

variable {τ₁ τ₂ : Topo} {S₁ S₂ : RefSig} {Val : EltTy → Type}

structure Pair (S₁ S₂ : RefSig) where
  r₁ : Ref S₁ .tc
  r₂ : Ref S₂ .tc
deriving DecidableEq

-- The two sides' contents agree, up to the equality of their types, at every pair of `P`.
def Rel (P : List (Pair S₁ S₂)) (F₁ : Valuation τ₁ S₁ Val) (F₂ : Valuation τ₂ S₂ Val) : Prop :=
  ∀ p ∈ P, HEq (F₁ (Proc.devRef .tc p.r₁)) (F₂ (Proc.devRef .tc p.r₂))

theorem heq_app1 {A A' B B' : Type} (hA : A = A') (hB : B = B') {f : A → B} {f' : A' → B'} (hf : HEq f f')
    {a : A} {a' : A'} (ha : HEq a a') : HEq (f a) (f' a') := by
  subst hA; subst hB; obtain rfl := eq_of_heq hf; obtain rfl := eq_of_heq ha; exact HEq.rfl
theorem heq_app2 {A A' B B' C C' : Type} (hA : A = A') (hB : B = B') (hC : C = C') {f : A → B → C} {f' : A' → B' → C'}
    (hf : HEq f f') {a : A} {a' : A'} (ha : HEq a a') {b : B} {b' : B'} (hb : HEq b b') : HEq (f a b) (f' a' b') := by
  subst hA; subst hB; subst hC; obtain rfl := eq_of_heq hf; obtain rfl := eq_of_heq ha; obtain rfl := eq_of_heq hb; exact HEq.rfl
theorem heq_app3 {A A' B B' C C' D D' : Type} (hA : A = A') (hB : B = B') (hC : C = C') (hD : D = D')
    {f : A → B → C → D} {f' : A' → B' → C' → D'} (hf : HEq f f') {a : A} {a' : A'} (ha : HEq a a') {b : B} {b' : B'} (hb : HEq b b')
    {c : C} {c' : C'} (hc : HEq c c') : HEq (f a b c) (f' a' b' c') := by
  subst hA; subst hB; subst hC; subst hD
  obtain rfl := eq_of_heq hf; obtain rfl := eq_of_heq ha; obtain rfl := eq_of_heq hb; obtain rfl := eq_of_heq hc; exact HEq.rfl

theorem heq_reshape {T T' U U' : BufTy} (hT : T = T') (hU : U = U') (he : T.elt = U.elt) (he' : T'.elt = U'.elt)
    (hn : T.shape.ShapeCasts U.shape) (hn' : T'.shape.ShapeCasts U'.shape) {v : T.Contents Val} {v' : T'.Contents Val} (hv : HEq v v') :
    HEq (fun i => he ▸ shapeCast U.shape v hn i : U.Contents Val) (fun i => he' ▸ shapeCast U'.shape v' hn' i : U'.Contents Val) := by
  subst hT; subst hU; obtain rfl := eq_of_heq hv; exact HEq.rfl

theorem heq_indices {n : Nat} {T T' : BufTy} (hT : T = T') {A : Fin n → Type} {A' : Fin n → Type}
    (hA : ∀ k, A k = T.Contents Val) (hA' : ∀ k, A' k = T'.Contents Val) {u : (k : Fin n) → A k} {u' : (k : Fin n) → A' k}
    (hu : ∀ k, HEq (u k) (u' k)) :
    HEq (fun k => cast (hA k) (u k)) (fun k => cast (hA' k) (u' k)) := by
  subst hT
  exact heq_of_eq (funext fun k => eq_of_heq ((cast_heq _ _).trans ((hu k).trans (cast_heq _ _).symm)))

-- One operation on each side, each writing one reference no pair mentions, with equal results: the pair of the written references joins the relation.
theorem Rel.step {P : List (Pair S₁ S₂)} {F₁ : Valuation τ₁ S₁ Val} {F₂ : Valuation τ₂ S₂ Val}
    {op₁ : HloOp τ₁ S₁ Val} {op₂ : HloOp τ₂ S₂ Val} {y₁ : Ref S₁ .tc} {y₂ : Ref S₂ .tc} (h : Rel P F₁ F₂)
    (hw₁ : op₁.writes = {Proc.devRef .tc y₁}) (hw₂ : op₂.writes = {Proc.devRef .tc y₂})
    (hfresh : ∀ p ∈ P, p.r₁ ≠ y₁ ∧ p.r₂ ≠ y₂)
    (hnew : HEq (op₁.result F₁ (Proc.devRef .tc y₁)) (op₂.result F₂ (Proc.devRef .tc y₂))) :
    Rel (⟨y₁, y₂⟩ :: P) (op₁.result F₁) (op₂.result F₂) := by
  intro p hp
  rcases List.mem_cons.mp hp with rfl | hp
  · exact hnew
  · have hne := hfresh p hp
    rw [op₁.result_of_not_mem F₁ (by rw [hw₁, Finset.mem_singleton]; exact devRef_ne_of_ne hne.1),
      op₂.result_of_not_mem F₂ (by rw [hw₂, Finset.mem_singleton]; exact devRef_ne_of_ne hne.2)]
    exact h p hp

theorem Rel.skip {P : List (Pair S₁ S₂)} {F₁ : Valuation τ₁ S₁ Val} {F₂ : Valuation τ₂ S₂ Val}
    {op₂ : HloOp τ₂ S₂ Val} {y₂ : Ref S₂ .tc} (h : Rel P F₁ F₂) (hw₂ : op₂.writes = {Proc.devRef .tc y₂})
    (hfresh : ∀ p ∈ P, p.r₂ ≠ y₂) : Rel P F₁ (op₂.result F₂) := by
  intro p hp
  rw [op₂.result_of_not_mem F₂ (by rw [hw₂, Finset.mem_singleton]; exact devRef_ne_of_ne (hfresh p hp))]
  exact h p hp

theorem Rel.skipL {P : List (Pair S₁ S₂)} {F₁ : Valuation τ₁ S₁ Val} {F₂ : Valuation τ₂ S₂ Val}
    {op₁ : HloOp τ₁ S₁ Val} {y₁ : Ref S₁ .tc} (h : Rel P F₁ F₂) (hw₁ : op₁.writes = {Proc.devRef .tc y₁})
    (hfresh : ∀ p ∈ P, p.r₁ ≠ y₁) : Rel P (op₁.result F₁) F₂ := by
  intro p hp
  rw [op₁.result_of_not_mem F₁ (by rw [hw₁, Finset.mem_singleton]; exact devRef_ne_of_ne (hfresh p hp))]
  exact h p hp

-- Related contents stay related through the line `A` on one side and the lines `B` on the other.
def Sim (P : List (Pair S₁ S₂)) (A : List (HloOp τ₁ S₁ Val)) (B : List (List (HloOp τ₂ S₂ Val))) (P' : List (Pair S₁ S₂)) : Prop :=
  ∀ (F₁ : Valuation τ₁ S₁ Val) (F₂ : Valuation τ₂ S₂ Val), Rel P F₁ F₂ → Rel P' (after A F₁) (after B.flatten F₂)

namespace Sim

variable {P P' : List (Pair S₁ S₂)} {A : List (HloOp τ₁ S₁ Val)} {L : List (HloOp τ₂ S₂ Val)} {B : List (List (HloOp τ₂ S₂ Val))}

theorem done (hsub : ∀ p ∈ P', p ∈ P) : Sim (τ₁ := τ₁) (τ₂ := τ₂) (Val := Val) P [] [] P' :=
  fun _ _ h p hp => h p (hsub p hp)

theorem next (h : Sim P A B P') : Sim P A ([] :: B) P' := h

theorem skip {op₂ : HloOp τ₂ S₂ Val} {y₂ : Ref S₂ .tc} (hw₂ : op₂.writes = {Proc.devRef .tc y₂})
    (hfresh : ∀ p ∈ P, p.r₂ ≠ y₂) (h : Sim P A (L :: B) P') : Sim P A ((op₂ :: L) :: B) P' := fun F₁ F₂ hR => by
  have := h F₁ (op₂.result F₂) (hR.skip hw₂ hfresh)
  simpa only [List.flatten_cons, List.cons_append, after_cons] using this

theorem skipL {op₁ : HloOp τ₁ S₁ Val} {y₁ : Ref S₁ .tc} (hw₁ : op₁.writes = {Proc.devRef .tc y₁})
    (hfresh : ∀ p ∈ P, p.r₁ ≠ y₁) (h : Sim P A B P') : Sim P (op₁ :: A) B P' := fun F₁ F₂ hR => by
  have := h (op₁.result F₁) F₂ (hR.skipL hw₁ hfresh)
  simpa only [after_cons] using this

theorem cons {op₁ : HloOp τ₁ S₁ Val} {op₂ : HloOp τ₂ S₂ Val} {y₁ : Ref S₁ .tc} {y₂ : Ref S₂ .tc}
    (hw₁ : op₁.writes = {Proc.devRef .tc y₁}) (hw₂ : op₂.writes = {Proc.devRef .tc y₂})
    (hfresh : ∀ p ∈ P, p.r₁ ≠ y₁ ∧ p.r₂ ≠ y₂)
    (hnew : ∀ (F₁ : Valuation τ₁ S₁ Val) (F₂ : Valuation τ₂ S₂ Val), Rel P F₁ F₂ →
      HEq (op₁.result F₁ (Proc.devRef .tc y₁)) (op₂.result F₂ (Proc.devRef .tc y₂)))
    (h : Sim (⟨y₁, y₂⟩ :: P) A (L :: B) P') : Sim P (op₁ :: A) ((op₂ :: L) :: B) P' := fun F₁ F₂ hR => by
  have := h (op₁.result F₁) (op₂.result F₂) (hR.step hw₁ hw₂ hfresh (hnew F₁ F₂ hR))
  simpa only [List.flatten_cons, List.cons_append, after_cons] using this

theorem nullary {y₁ : Ref S₁ .tc} {y₂ : Ref S₂ .tc} {v₁ : y₁.ty.Contents Val} {v₂ : y₂.ty.Contents Val} {hy₁ hy₂}
    (hfresh : ∀ p ∈ P, p.r₁ ≠ y₁ ∧ p.r₂ ≠ y₂) (hv : HEq v₁ v₂) (h : Sim (⟨y₁, y₂⟩ :: P) A (L :: B) P') :
    Sim P (StableHlo.nullary (τ := τ₁) y₁ v₁ hy₁ :: A) ((StableHlo.nullary (τ := τ₂) y₂ v₂ hy₂ :: L) :: B) P' :=
  cons (nullary_writes ..) (nullary_writes ..) hfresh (fun F₁ F₂ _ => by rw [nullary_result, nullary_result]; exact hv) h

theorem unary {x₁ y₁ : Ref S₁ .tc} {x₂ y₂ : Ref S₂ .tc} {f₁ : x₁.ty.Contents Val → y₁.ty.Contents Val}
    {f₂ : x₂.ty.Contents Val → y₂.ty.Contents Val} {hx₁ hy₁ hx₂ hy₂}
    (hx : ⟨x₁, x₂⟩ ∈ P) (hfresh : ∀ p ∈ P, p.r₁ ≠ y₁ ∧ p.r₂ ≠ y₂) (hxt : x₁.ty = x₂.ty) (hyt : y₁.ty = y₂.ty) (hf : HEq f₁ f₂)
    (h : Sim (⟨y₁, y₂⟩ :: P) A (L :: B) P') :
    Sim P (StableHlo.unary (τ := τ₁) x₁ y₁ f₁ hx₁ hy₁ :: A) ((StableHlo.unary (τ := τ₂) x₂ y₂ f₂ hx₂ hy₂ :: L) :: B) P' :=
  cons (unary_writes ..) (unary_writes ..) hfresh (fun F₁ F₂ hR => by
    rw [unary_result, unary_result]
    exact heq_app1 (congrArg (BufTy.Contents Val) hxt) (congrArg (BufTy.Contents Val) hyt) hf (hR _ hx)) h

theorem binary {a₁ b₁ y₁ : Ref S₁ .tc} {a₂ b₂ y₂ : Ref S₂ .tc} {f₁ : a₁.ty.Contents Val → b₁.ty.Contents Val → y₁.ty.Contents Val}
    {f₂ : a₂.ty.Contents Val → b₂.ty.Contents Val → y₂.ty.Contents Val} {ha₁ hb₁ hy₁ ha₂ hb₂ hy₂}
    (ha : ⟨a₁, a₂⟩ ∈ P) (hb : ⟨b₁, b₂⟩ ∈ P) (hfresh : ∀ p ∈ P, p.r₁ ≠ y₁ ∧ p.r₂ ≠ y₂)
    (hat : a₁.ty = a₂.ty) (hbt : b₁.ty = b₂.ty) (hyt : y₁.ty = y₂.ty) (hf : HEq f₁ f₂)
    (h : Sim (⟨y₁, y₂⟩ :: P) A (L :: B) P') :
    Sim P (StableHlo.binary (τ := τ₁) a₁ b₁ y₁ f₁ ha₁ hb₁ hy₁ :: A) ((StableHlo.binary (τ := τ₂) a₂ b₂ y₂ f₂ ha₂ hb₂ hy₂ :: L) :: B) P' :=
  cons (binary_writes ..) (binary_writes ..) hfresh (fun F₁ F₂ hR => by
    rw [binary_result, binary_result]
    exact heq_app2 (congrArg (BufTy.Contents Val) hat) (congrArg (BufTy.Contents Val) hbt) (congrArg (BufTy.Contents Val) hyt) hf
      (hR _ ha) (hR _ hb)) h

theorem ternary {c₁ a₁ b₁ y₁ : Ref S₁ .tc} {c₂ a₂ b₂ y₂ : Ref S₂ .tc}
    {f₁ : c₁.ty.Contents Val → a₁.ty.Contents Val → b₁.ty.Contents Val → y₁.ty.Contents Val}
    {f₂ : c₂.ty.Contents Val → a₂.ty.Contents Val → b₂.ty.Contents Val → y₂.ty.Contents Val} {hc₁ ha₁ hb₁ hy₁ hc₂ ha₂ hb₂ hy₂}
    (hc : ⟨c₁, c₂⟩ ∈ P) (ha : ⟨a₁, a₂⟩ ∈ P) (hb : ⟨b₁, b₂⟩ ∈ P) (hfresh : ∀ p ∈ P, p.r₁ ≠ y₁ ∧ p.r₂ ≠ y₂)
    (hct : c₁.ty = c₂.ty) (hat : a₁.ty = a₂.ty) (hbt : b₁.ty = b₂.ty) (hyt : y₁.ty = y₂.ty) (hf : HEq f₁ f₂)
    (h : Sim (⟨y₁, y₂⟩ :: P) A (L :: B) P') :
    Sim P (StableHlo.ternary (τ := τ₁) c₁ a₁ b₁ y₁ f₁ hc₁ ha₁ hb₁ hy₁ :: A)
      ((StableHlo.ternary (τ := τ₂) c₂ a₂ b₂ y₂ f₂ hc₂ ha₂ hb₂ hy₂ :: L) :: B) P' :=
  cons (ternary_writes ..) (ternary_writes ..) hfresh (fun F₁ F₂ hR => by
    rw [ternary_result, ternary_result]
    exact heq_app3 (congrArg (BufTy.Contents Val) hct) (congrArg (BufTy.Contents Val) hat) (congrArg (BufTy.Contents Val) hbt)
      (congrArg (BufTy.Contents Val) hyt) hf (hR _ hc) (hR _ ha) (hR _ hb)) h

theorem reshape {x₁ y₁ : Ref S₁ .tc} {x₂ y₂ : Ref S₂ .tc} {he₁ hn₁ hx₁ hy₁ he₂ hn₂ hx₂ hy₂}
    (hx : ⟨x₁, x₂⟩ ∈ P) (hfresh : ∀ p ∈ P, p.r₁ ≠ y₁ ∧ p.r₂ ≠ y₂) (hxt : x₁.ty = x₂.ty) (hyt : y₁.ty = y₂.ty)
    (h : Sim (⟨y₁, y₂⟩ :: P) A (L :: B) P') :
    Sim P (StableHlo.reshape (τ := τ₁) (Val := Val) x₁ y₁ he₁ hn₁ hx₁ hy₁ :: A)
      ((StableHlo.reshape (τ := τ₂) (Val := Val) x₂ y₂ he₂ hn₂ hx₂ hy₂ :: L) :: B) P' :=
  cons (reshape_writes ..) (reshape_writes ..) hfresh (fun F₁ F₂ hR => by
    rw [reshape_result, reshape_result]
    exact heq_reshape hxt hyt he₁ he₂ hn₁ hn₂ (hR _ hx)) h

theorem unaryIndexed {a₁ y₁ : Ref S₁ .tc} {a₂ y₂ : Ref S₂ .tc} {n : Nat} {ix₁ : Fin n → Ref S₁ .tc} {ix₂ : Fin n → Ref S₂ .tc}
    {T₁ T₂ : BufTy} {f₁ : a₁.ty.Contents Val → (Fin n → T₁.Contents Val) → y₁.ty.Contents Val}
    {f₂ : a₂.ty.Contents Val → (Fin n → T₂.Contents Val) → y₂.ty.Contents Val} {hT₁ ha₁ hix₁ hy₁ hT₂ ha₂ hix₂ hy₂}
    (ha : ⟨a₁, a₂⟩ ∈ P) (hix : ∀ k, ⟨ix₁ k, ix₂ k⟩ ∈ P) (hfresh : ∀ p ∈ P, p.r₁ ≠ y₁ ∧ p.r₂ ≠ y₂)
    (hat : a₁.ty = a₂.ty) (hT : T₁ = T₂) (hyt : y₁.ty = y₂.ty) (hf : HEq f₁ f₂)
    (h : Sim (⟨y₁, y₂⟩ :: P) A (L :: B) P') :
    Sim P (StableHlo.unaryIndexed (τ := τ₁) a₁ ix₁ T₁ y₁ f₁ hT₁ ha₁ hix₁ hy₁ :: A)
      ((StableHlo.unaryIndexed (τ := τ₂) a₂ ix₂ T₂ y₂ f₂ hT₂ ha₂ hix₂ hy₂ :: L) :: B) P' :=
  cons (unaryIndexed_writes ..) (unaryIndexed_writes ..) hfresh (fun F₁ F₂ hR => by
    rw [unaryIndexed_result, unaryIndexed_result]
    exact heq_app2 (congrArg (BufTy.Contents Val) hat) (by rw [hT]) (congrArg (BufTy.Contents Val) hyt) hf (hR _ ha)
      (heq_indices hT _ _ fun k => hR _ (hix k))) h

end Sim

open Lean Elab Tactic Meta in

-- The builder that made the first operation of a literal list.
private def headBuilder? (l : Expr) : MetaM (Option (Option String)) := do
  let l ← whnfR l
  match l.getAppFnArgs with
  | (``List.nil, _) => return some none
  | (``List.cons, #[_, op, _]) =>
    match op.getAppFn.constName? with
    | some (.str _ s) => return some (some s)
    | _ => return none
  | _ => return none

open Lean Elab Tactic Meta in
-- One step of a simulation goal: pair two operations made by the same builder from paired operands, else skip an operation that has no partner.
elab "sim_step" : tactic => withMainContext do
  let g ← getMainGoal
  let ty ← instantiateMVars (← g.getType)
  unless ty.isAppOfArity ``Cert.Plaquette.Fwd.Sim 9 do throwError "sim_step: the goal is not a simulation"
  let args := ty.getAppArgs
  let some hA ← headBuilder? args[6]! | throwError "sim_step: the first side is not a literal list"
  let B ← whnfR args[7]!
  match B.getAppFnArgs with
  | (``List.nil, _) =>
    match hA with
    | none => evalTactic (← `(tactic| exact Sim.done (by decide)))
    | some _ => evalTactic (← `(tactic| refine Sim.skipL rfl (by decide) ?_))
  | (``List.cons, #[_, L, _]) =>
    let some hL ← headBuilder? L | throwError "sim_step: the second side is not a literal list"
    match hA, hL with
    | _, none => evalTactic (← `(tactic| refine Sim.next ?_))
    | none, some _ => evalTactic (← `(tactic| refine Sim.skip rfl (by decide) ?_))
    | some a, some b =>
      if a != b then
        evalTactic (← `(tactic| first | refine Sim.skip rfl (by decide) ?_ | refine Sim.skipL rfl (by decide) ?_))
      else match a with
      | "nullary" => evalTactic (← `(tactic| first
          | refine Sim.nullary (by decide) HEq.rfl ?_
          | refine Sim.skip rfl (by decide) ?_ | refine Sim.skipL rfl (by decide) ?_))
      | "unary" => evalTactic (← `(tactic| first
          | refine Sim.unary (by decide) (by decide) rfl rfl HEq.rfl ?_
          | refine Sim.skip rfl (by decide) ?_ | refine Sim.skipL rfl (by decide) ?_))
      | "binary" => evalTactic (← `(tactic| first
          | refine Sim.binary (by decide) (by decide) (by decide) rfl rfl rfl HEq.rfl ?_
          | refine Sim.skip rfl (by decide) ?_ | refine Sim.skipL rfl (by decide) ?_))
      | "ternary" => evalTactic (← `(tactic| first
          | refine Sim.ternary (by decide) (by decide) (by decide) (by decide) rfl rfl rfl rfl HEq.rfl ?_
          | refine Sim.skip rfl (by decide) ?_ | refine Sim.skipL rfl (by decide) ?_))
      | "reshape" => evalTactic (← `(tactic| first
          | refine Sim.reshape (by decide) (by decide) rfl rfl ?_
          | refine Sim.skip rfl (by decide) ?_ | refine Sim.skipL rfl (by decide) ?_))
      | "unaryIndexed" => evalTactic (← `(tactic| first
          | refine Sim.unaryIndexed (by decide) (by decide) (by decide) rfl rfl rfl HEq.rfl ?_
          | refine Sim.skip rfl (by decide) ?_ | refine Sim.skipL rfl (by decide) ?_))
      | _ => throwError "sim_step: no step lemma for the builder {a}"
  | _ => throwError "sim_step: the second side is not a literal list of lists"

macro "sim_run" : tactic => `(tactic| repeat sim_step)

end Cert.Plaquette.Fwd
-- ==== Proof.Plaquette.FwdLive.lean ====
/- script-made: scratch/make_fwd.js <unit dir> 143799_j35253091566215_1_alg — the pairs of buffers (the kernel program's, the reference's) related at each of the 28 cuts of the plaquette chain -/
import proofs.«143799_j35253091566215_1_alg».proof.KernelIdeal
import proofs.«143799_j35253091566215_1_alg».proof.ReferenceIdeal
import proofs.«143799_j35253091566215_1_alg».proof.Proof.Plaquette.Sim

namespace Cert.Plaquette.Fwd

open Idealize.ShloMosaic

/-- The pairs alive at launch. -/
abbrev P0 : List (Pair Cert.KernelIdeal.sig Cert.ReferenceIdeal.sig) :=
  [⟨Cert.KernelIdeal.main_arg0, Cert.ReferenceIdeal.main_arg0⟩, ⟨Cert.KernelIdeal.main_arg1, Cert.ReferenceIdeal.main_arg1⟩]

/-- The pairs alive before stretch 1. -/
abbrev P1 : List (Pair Cert.KernelIdeal.sig Cert.ReferenceIdeal.sig) :=
  [⟨Cert.KernelIdeal.main_arg1, Cert.ReferenceIdeal.main_arg1⟩, ⟨Cert.KernelIdeal.main_v2, Cert.ReferenceIdeal.main_v12⟩, ⟨Cert.KernelIdeal.main_c, Cert.ReferenceIdeal.main_c⟩]

/-- The pairs alive before stretch 2. -/
abbrev P2 : List (Pair Cert.KernelIdeal.sig Cert.ReferenceIdeal.sig) :=
  [⟨Cert.KernelIdeal.main_arg1, Cert.ReferenceIdeal.main_arg1⟩, ⟨Cert.KernelIdeal.main_v3, Cert.ReferenceIdeal.main_v13⟩]

/-- The pairs alive before stretch 3. -/
abbrev P3 : List (Pair Cert.KernelIdeal.sig Cert.ReferenceIdeal.sig) :=
  [⟨Cert.KernelIdeal.main_arg1, Cert.ReferenceIdeal.main_arg1⟩, ⟨Cert.KernelIdeal.main_v3, Cert.ReferenceIdeal.main_v13⟩, ⟨Cert.KernelIdeal.main_v4, Cert.ReferenceIdeal.main_v14⟩, ⟨Cert.KernelIdeal.main_v24, Cert.ReferenceIdeal.main_v34⟩, ⟨Cert.KernelIdeal.main_v27, Cert.ReferenceIdeal.main_v37⟩, ⟨Cert.KernelIdeal.main_c_12, Cert.ReferenceIdeal.main_c_13⟩]

/-- The pairs alive before stretch 4. -/
abbrev P4 : List (Pair Cert.KernelIdeal.sig Cert.ReferenceIdeal.sig) :=
  [⟨Cert.KernelIdeal.main_arg1, Cert.ReferenceIdeal.main_arg1⟩, ⟨Cert.KernelIdeal.main_v3, Cert.ReferenceIdeal.main_v13⟩, ⟨Cert.KernelIdeal.main_v4, Cert.ReferenceIdeal.main_v14⟩, ⟨Cert.KernelIdeal.main_v24, Cert.ReferenceIdeal.main_v34⟩, ⟨Cert.KernelIdeal.main_v28, Cert.ReferenceIdeal.main_v38⟩]

/-- The pairs alive before stretch 5. -/
abbrev P5 : List (Pair Cert.KernelIdeal.sig Cert.ReferenceIdeal.sig) :=
  [⟨Cert.KernelIdeal.main_arg1, Cert.ReferenceIdeal.main_arg1⟩, ⟨Cert.KernelIdeal.main_v3, Cert.ReferenceIdeal.main_v13⟩, ⟨Cert.KernelIdeal.main_v4, Cert.ReferenceIdeal.main_v14⟩, ⟨Cert.KernelIdeal.main_v24, Cert.ReferenceIdeal.main_v34⟩, ⟨Cert.KernelIdeal.main_v30, Cert.ReferenceIdeal.main_v40⟩, ⟨Cert.KernelIdeal.main_v50, Cert.ReferenceIdeal.main_v60⟩, ⟨Cert.KernelIdeal.main_v53, Cert.ReferenceIdeal.main_v63⟩, ⟨Cert.KernelIdeal.main_c_26, Cert.ReferenceIdeal.main_c_27⟩]

/-- The pairs alive before stretch 6. -/
abbrev P6 : List (Pair Cert.KernelIdeal.sig Cert.ReferenceIdeal.sig) :=
  [⟨Cert.KernelIdeal.main_arg1, Cert.ReferenceIdeal.main_arg1⟩, ⟨Cert.KernelIdeal.main_v3, Cert.ReferenceIdeal.main_v13⟩, ⟨Cert.KernelIdeal.main_v4, Cert.ReferenceIdeal.main_v14⟩, ⟨Cert.KernelIdeal.main_v24, Cert.ReferenceIdeal.main_v34⟩, ⟨Cert.KernelIdeal.main_v30, Cert.ReferenceIdeal.main_v40⟩, ⟨Cert.KernelIdeal.main_v50, Cert.ReferenceIdeal.main_v60⟩, ⟨Cert.KernelIdeal.main_v54, Cert.ReferenceIdeal.main_v64⟩]

/-- The pairs alive before stretch 7. -/
abbrev P7 : List (Pair Cert.KernelIdeal.sig Cert.ReferenceIdeal.sig) :=
  [⟨Cert.KernelIdeal.main_arg1, Cert.ReferenceIdeal.main_arg1⟩, ⟨Cert.KernelIdeal.main_v3, Cert.ReferenceIdeal.main_v13⟩, ⟨Cert.KernelIdeal.main_v106, Cert.ReferenceIdeal.main_v116⟩, ⟨Cert.KernelIdeal.main_v126, Cert.ReferenceIdeal.main_v136⟩, ⟨Cert.KernelIdeal.main_v129, Cert.ReferenceIdeal.main_v139⟩, ⟨Cert.KernelIdeal.main_c_64, Cert.ReferenceIdeal.main_c_65⟩]

/-- The pairs alive before stretch 8. -/
abbrev P8 : List (Pair Cert.KernelIdeal.sig Cert.ReferenceIdeal.sig) :=
  [⟨Cert.KernelIdeal.main_arg1, Cert.ReferenceIdeal.main_arg1⟩, ⟨Cert.KernelIdeal.main_v3, Cert.ReferenceIdeal.main_v13⟩, ⟨Cert.KernelIdeal.main_v106, Cert.ReferenceIdeal.main_v116⟩, ⟨Cert.KernelIdeal.main_v126, Cert.ReferenceIdeal.main_v136⟩, ⟨Cert.KernelIdeal.main_v130, Cert.ReferenceIdeal.main_v140⟩]

/-- The pairs alive before stretch 9. -/
abbrev P9 : List (Pair Cert.KernelIdeal.sig Cert.ReferenceIdeal.sig) :=
  [⟨Cert.KernelIdeal.main_arg1, Cert.ReferenceIdeal.main_arg1⟩, ⟨Cert.KernelIdeal.main_v3, Cert.ReferenceIdeal.main_v13⟩, ⟨Cert.KernelIdeal.main_v106, Cert.ReferenceIdeal.main_v116⟩, ⟨Cert.KernelIdeal.main_v126, Cert.ReferenceIdeal.main_v136⟩, ⟨Cert.KernelIdeal.main_v132, Cert.ReferenceIdeal.main_v142⟩, ⟨Cert.KernelIdeal.main_v152, Cert.ReferenceIdeal.main_v162⟩, ⟨Cert.KernelIdeal.main_v155, Cert.ReferenceIdeal.main_v165⟩, ⟨Cert.KernelIdeal.main_c_78, Cert.ReferenceIdeal.main_c_79⟩]

/-- The pairs alive before stretch 10. -/
abbrev P10 : List (Pair Cert.KernelIdeal.sig Cert.ReferenceIdeal.sig) :=
  [⟨Cert.KernelIdeal.main_arg1, Cert.ReferenceIdeal.main_arg1⟩, ⟨Cert.KernelIdeal.main_v3, Cert.ReferenceIdeal.main_v13⟩, ⟨Cert.KernelIdeal.main_v106, Cert.ReferenceIdeal.main_v116⟩, ⟨Cert.KernelIdeal.main_v126, Cert.ReferenceIdeal.main_v136⟩, ⟨Cert.KernelIdeal.main_v132, Cert.ReferenceIdeal.main_v142⟩, ⟨Cert.KernelIdeal.main_v152, Cert.ReferenceIdeal.main_v162⟩, ⟨Cert.KernelIdeal.main_v156, Cert.ReferenceIdeal.main_v166⟩]

/-- The pairs alive before stretch 11. -/
abbrev P11 : List (Pair Cert.KernelIdeal.sig Cert.ReferenceIdeal.sig) :=
  [⟨Cert.KernelIdeal.main_arg1, Cert.ReferenceIdeal.main_arg1⟩, ⟨Cert.KernelIdeal.main_v3, Cert.ReferenceIdeal.main_v13⟩, ⟨Cert.KernelIdeal.main_v208, Cert.ReferenceIdeal.main_v218⟩, ⟨Cert.KernelIdeal.main_v228, Cert.ReferenceIdeal.main_v238⟩, ⟨Cert.KernelIdeal.main_v231, Cert.ReferenceIdeal.main_v241⟩, ⟨Cert.KernelIdeal.main_c_116, Cert.ReferenceIdeal.main_c_117⟩]

/-- The pairs alive before stretch 12. -/
abbrev P12 : List (Pair Cert.KernelIdeal.sig Cert.ReferenceIdeal.sig) :=
  [⟨Cert.KernelIdeal.main_arg1, Cert.ReferenceIdeal.main_arg1⟩, ⟨Cert.KernelIdeal.main_v3, Cert.ReferenceIdeal.main_v13⟩, ⟨Cert.KernelIdeal.main_v208, Cert.ReferenceIdeal.main_v218⟩, ⟨Cert.KernelIdeal.main_v228, Cert.ReferenceIdeal.main_v238⟩, ⟨Cert.KernelIdeal.main_v232, Cert.ReferenceIdeal.main_v242⟩]

/-- The pairs alive before stretch 13. -/
abbrev P13 : List (Pair Cert.KernelIdeal.sig Cert.ReferenceIdeal.sig) :=
  [⟨Cert.KernelIdeal.main_arg1, Cert.ReferenceIdeal.main_arg1⟩, ⟨Cert.KernelIdeal.main_v3, Cert.ReferenceIdeal.main_v13⟩, ⟨Cert.KernelIdeal.main_v208, Cert.ReferenceIdeal.main_v218⟩, ⟨Cert.KernelIdeal.main_v228, Cert.ReferenceIdeal.main_v238⟩, ⟨Cert.KernelIdeal.main_v234, Cert.ReferenceIdeal.main_v244⟩, ⟨Cert.KernelIdeal.main_v254, Cert.ReferenceIdeal.main_v264⟩, ⟨Cert.KernelIdeal.main_v257, Cert.ReferenceIdeal.main_v267⟩, ⟨Cert.KernelIdeal.main_c_130, Cert.ReferenceIdeal.main_c_131⟩]

/-- The pairs alive before stretch 14. -/
abbrev P14 : List (Pair Cert.KernelIdeal.sig Cert.ReferenceIdeal.sig) :=
  [⟨Cert.KernelIdeal.main_arg1, Cert.ReferenceIdeal.main_arg1⟩, ⟨Cert.KernelIdeal.main_v3, Cert.ReferenceIdeal.main_v13⟩, ⟨Cert.KernelIdeal.main_v208, Cert.ReferenceIdeal.main_v218⟩, ⟨Cert.KernelIdeal.main_v228, Cert.ReferenceIdeal.main_v238⟩, ⟨Cert.KernelIdeal.main_v234, Cert.ReferenceIdeal.main_v244⟩, ⟨Cert.KernelIdeal.main_v254, Cert.ReferenceIdeal.main_v264⟩, ⟨Cert.KernelIdeal.main_v258, Cert.ReferenceIdeal.main_v268⟩]

/-- The pairs alive before stretch 15. -/
abbrev P15 : List (Pair Cert.KernelIdeal.sig Cert.ReferenceIdeal.sig) :=
  [⟨Cert.KernelIdeal.main_arg1, Cert.ReferenceIdeal.main_arg1⟩, ⟨Cert.KernelIdeal.main_v3, Cert.ReferenceIdeal.main_v13⟩, ⟨Cert.KernelIdeal.main_v310, Cert.ReferenceIdeal.main_v320⟩, ⟨Cert.KernelIdeal.main_v330, Cert.ReferenceIdeal.main_v340⟩, ⟨Cert.KernelIdeal.main_v333, Cert.ReferenceIdeal.main_v343⟩, ⟨Cert.KernelIdeal.main_c_168, Cert.ReferenceIdeal.main_c_169⟩]

/-- The pairs alive before stretch 16. -/
abbrev P16 : List (Pair Cert.KernelIdeal.sig Cert.ReferenceIdeal.sig) :=
  [⟨Cert.KernelIdeal.main_arg1, Cert.ReferenceIdeal.main_arg1⟩, ⟨Cert.KernelIdeal.main_v3, Cert.ReferenceIdeal.main_v13⟩, ⟨Cert.KernelIdeal.main_v310, Cert.ReferenceIdeal.main_v320⟩, ⟨Cert.KernelIdeal.main_v330, Cert.ReferenceIdeal.main_v340⟩, ⟨Cert.KernelIdeal.main_v334, Cert.ReferenceIdeal.main_v344⟩]

/-- The pairs alive before stretch 17. -/
abbrev P17 : List (Pair Cert.KernelIdeal.sig Cert.ReferenceIdeal.sig) :=
  [⟨Cert.KernelIdeal.main_arg1, Cert.ReferenceIdeal.main_arg1⟩, ⟨Cert.KernelIdeal.main_v3, Cert.ReferenceIdeal.main_v13⟩, ⟨Cert.KernelIdeal.main_v310, Cert.ReferenceIdeal.main_v320⟩, ⟨Cert.KernelIdeal.main_v330, Cert.ReferenceIdeal.main_v340⟩, ⟨Cert.KernelIdeal.main_v336, Cert.ReferenceIdeal.main_v346⟩, ⟨Cert.KernelIdeal.main_v356, Cert.ReferenceIdeal.main_v366⟩, ⟨Cert.KernelIdeal.main_v359, Cert.ReferenceIdeal.main_v369⟩, ⟨Cert.KernelIdeal.main_c_182, Cert.ReferenceIdeal.main_c_183⟩]

/-- The pairs alive before stretch 18. -/
abbrev P18 : List (Pair Cert.KernelIdeal.sig Cert.ReferenceIdeal.sig) :=
  [⟨Cert.KernelIdeal.main_arg1, Cert.ReferenceIdeal.main_arg1⟩, ⟨Cert.KernelIdeal.main_v3, Cert.ReferenceIdeal.main_v13⟩, ⟨Cert.KernelIdeal.main_v310, Cert.ReferenceIdeal.main_v320⟩, ⟨Cert.KernelIdeal.main_v330, Cert.ReferenceIdeal.main_v340⟩, ⟨Cert.KernelIdeal.main_v336, Cert.ReferenceIdeal.main_v346⟩, ⟨Cert.KernelIdeal.main_v356, Cert.ReferenceIdeal.main_v366⟩, ⟨Cert.KernelIdeal.main_v360, Cert.ReferenceIdeal.main_v370⟩]

/-- The pairs alive before stretch 19. -/
abbrev P19 : List (Pair Cert.KernelIdeal.sig Cert.ReferenceIdeal.sig) :=
  [⟨Cert.KernelIdeal.main_arg1, Cert.ReferenceIdeal.main_arg1⟩, ⟨Cert.KernelIdeal.main_v3, Cert.ReferenceIdeal.main_v13⟩, ⟨Cert.KernelIdeal.main_v412, Cert.ReferenceIdeal.main_v422⟩, ⟨Cert.KernelIdeal.main_v432, Cert.ReferenceIdeal.main_v442⟩, ⟨Cert.KernelIdeal.main_v435, Cert.ReferenceIdeal.main_v445⟩, ⟨Cert.KernelIdeal.main_c_220, Cert.ReferenceIdeal.main_c_221⟩]

/-- The pairs alive before stretch 20. -/
abbrev P20 : List (Pair Cert.KernelIdeal.sig Cert.ReferenceIdeal.sig) :=
  [⟨Cert.KernelIdeal.main_arg1, Cert.ReferenceIdeal.main_arg1⟩, ⟨Cert.KernelIdeal.main_v3, Cert.ReferenceIdeal.main_v13⟩, ⟨Cert.KernelIdeal.main_v412, Cert.ReferenceIdeal.main_v422⟩, ⟨Cert.KernelIdeal.main_v432, Cert.ReferenceIdeal.main_v442⟩, ⟨Cert.KernelIdeal.main_v436, Cert.ReferenceIdeal.main_v446⟩]

/-- The pairs alive before stretch 21. -/
abbrev P21 : List (Pair Cert.KernelIdeal.sig Cert.ReferenceIdeal.sig) :=
  [⟨Cert.KernelIdeal.main_arg1, Cert.ReferenceIdeal.main_arg1⟩, ⟨Cert.KernelIdeal.main_v3, Cert.ReferenceIdeal.main_v13⟩, ⟨Cert.KernelIdeal.main_v412, Cert.ReferenceIdeal.main_v422⟩, ⟨Cert.KernelIdeal.main_v432, Cert.ReferenceIdeal.main_v442⟩, ⟨Cert.KernelIdeal.main_v438, Cert.ReferenceIdeal.main_v448⟩, ⟨Cert.KernelIdeal.main_v458, Cert.ReferenceIdeal.main_v468⟩, ⟨Cert.KernelIdeal.main_v461, Cert.ReferenceIdeal.main_v471⟩, ⟨Cert.KernelIdeal.main_c_234, Cert.ReferenceIdeal.main_c_235⟩]

/-- The pairs alive before stretch 22. -/
abbrev P22 : List (Pair Cert.KernelIdeal.sig Cert.ReferenceIdeal.sig) :=
  [⟨Cert.KernelIdeal.main_arg1, Cert.ReferenceIdeal.main_arg1⟩, ⟨Cert.KernelIdeal.main_v3, Cert.ReferenceIdeal.main_v13⟩, ⟨Cert.KernelIdeal.main_v412, Cert.ReferenceIdeal.main_v422⟩, ⟨Cert.KernelIdeal.main_v432, Cert.ReferenceIdeal.main_v442⟩, ⟨Cert.KernelIdeal.main_v438, Cert.ReferenceIdeal.main_v448⟩, ⟨Cert.KernelIdeal.main_v458, Cert.ReferenceIdeal.main_v468⟩, ⟨Cert.KernelIdeal.main_v462, Cert.ReferenceIdeal.main_v472⟩]

/-- The pairs alive before stretch 23. -/
abbrev P23 : List (Pair Cert.KernelIdeal.sig Cert.ReferenceIdeal.sig) :=
  [⟨Cert.KernelIdeal.main_arg1, Cert.ReferenceIdeal.main_arg1⟩, ⟨Cert.KernelIdeal.main_v3, Cert.ReferenceIdeal.main_v13⟩, ⟨Cert.KernelIdeal.main_v514, Cert.ReferenceIdeal.main_v524⟩, ⟨Cert.KernelIdeal.main_v534, Cert.ReferenceIdeal.main_v544⟩, ⟨Cert.KernelIdeal.main_v537, Cert.ReferenceIdeal.main_v547⟩, ⟨Cert.KernelIdeal.main_c_272, Cert.ReferenceIdeal.main_c_273⟩]

/-- The pairs alive before stretch 24. -/
abbrev P24 : List (Pair Cert.KernelIdeal.sig Cert.ReferenceIdeal.sig) :=
  [⟨Cert.KernelIdeal.main_arg1, Cert.ReferenceIdeal.main_arg1⟩, ⟨Cert.KernelIdeal.main_v3, Cert.ReferenceIdeal.main_v13⟩, ⟨Cert.KernelIdeal.main_v514, Cert.ReferenceIdeal.main_v524⟩, ⟨Cert.KernelIdeal.main_v534, Cert.ReferenceIdeal.main_v544⟩, ⟨Cert.KernelIdeal.main_v538, Cert.ReferenceIdeal.main_v548⟩]

/-- The pairs alive before stretch 25. -/
abbrev P25 : List (Pair Cert.KernelIdeal.sig Cert.ReferenceIdeal.sig) :=
  [⟨Cert.KernelIdeal.main_arg1, Cert.ReferenceIdeal.main_arg1⟩, ⟨Cert.KernelIdeal.main_v3, Cert.ReferenceIdeal.main_v13⟩, ⟨Cert.KernelIdeal.main_v514, Cert.ReferenceIdeal.main_v524⟩, ⟨Cert.KernelIdeal.main_v534, Cert.ReferenceIdeal.main_v544⟩, ⟨Cert.KernelIdeal.main_v540, Cert.ReferenceIdeal.main_v550⟩, ⟨Cert.KernelIdeal.main_v560, Cert.ReferenceIdeal.main_v570⟩, ⟨Cert.KernelIdeal.main_v563, Cert.ReferenceIdeal.main_v573⟩, ⟨Cert.KernelIdeal.main_c_286, Cert.ReferenceIdeal.main_c_287⟩]

/-- The pairs alive before stretch 26. -/
abbrev P26 : List (Pair Cert.KernelIdeal.sig Cert.ReferenceIdeal.sig) :=
  [⟨Cert.KernelIdeal.main_arg1, Cert.ReferenceIdeal.main_arg1⟩, ⟨Cert.KernelIdeal.main_v3, Cert.ReferenceIdeal.main_v13⟩, ⟨Cert.KernelIdeal.main_v514, Cert.ReferenceIdeal.main_v524⟩, ⟨Cert.KernelIdeal.main_v534, Cert.ReferenceIdeal.main_v544⟩, ⟨Cert.KernelIdeal.main_v540, Cert.ReferenceIdeal.main_v550⟩, ⟨Cert.KernelIdeal.main_v560, Cert.ReferenceIdeal.main_v570⟩, ⟨Cert.KernelIdeal.main_v564, Cert.ReferenceIdeal.main_v574⟩]

/-- The pairs alive when the first region is entered: the plaquette's result. -/
abbrev P27 : List (Pair Cert.KernelIdeal.sig Cert.ReferenceIdeal.sig) :=
  [⟨Cert.KernelIdeal.main_v616, Cert.ReferenceIdeal.main_v626⟩]

end Cert.Plaquette.Fwd
-- ==== Proof.Plaquette.FwdA.lean ====
/- script-made: scratch/make_fwd.js <unit dir> 143799_j35253091566215_1_alg — the forward simulation of stretches 0 to 5 of the plaquette chain against the reference's lists -/
import proofs.«143799_j35253091566215_1_alg».proof.Proof.Gen.KernelIdeal.Launch
import proofs.«143799_j35253091566215_1_alg».proof.Proof.Reference.Ops
import proofs.«143799_j35253091566215_1_alg».proof.Proof.Plaquette.FwdLive

set_option maxRecDepth 16384

noncomputable section

namespace Cert.Plaquette.Fwd

open Idealize.ShloMosaic Idealize.ShloMosaic.TcCoe Idealize.SL.Sem

variable {F : FTy → Type} [FloatOps F]

/-- Stretch 0 (4 operations) against w0_i0. -/
theorem sim_0 :
    Sim (Val := Elt F) P0 (Cert.KernelIdeal.Gen.hostOps0 (F := F)) [Cert.ReferenceIdeal.Run.w0_i0 (F := F)] P1 := by
  sim_run

/-- Stretch 1 (21 operations) against w0_i1. -/
theorem sim_1 :
    Sim (Val := Elt F) P1 (Cert.KernelIdeal.Gen.hostOps0_1 (F := F)) [Cert.ReferenceIdeal.Run.w0_i1 (F := F)] P2 := by
  sim_run

/-- Stretch 2 (38 operations) against w0_i2. -/
theorem sim_2 :
    Sim (Val := Elt F) P2 (Cert.KernelIdeal.Gen.hostOps0_2 (F := F)) [Cert.ReferenceIdeal.Run.w0_i2 (F := F)] P3 := by
  sim_run

/-- Stretch 3 (16 operations) against w0_i3. -/
theorem sim_3 :
    Sim (Val := Elt F) P3 (Cert.KernelIdeal.Gen.hostOps0_3 (F := F)) [Cert.ReferenceIdeal.Run.w0_i3 (F := F)] P4 := by
  sim_run

/-- Stretch 4 (39 operations) against w0_i4, w1_i0. -/
theorem sim_4 :
    Sim (Val := Elt F) P4 (Cert.KernelIdeal.Gen.hostOps0_4 (F := F)) [Cert.ReferenceIdeal.Run.w0_i4 (F := F), Cert.ReferenceIdeal.Run.w1_i0 (F := F)] P5 := by
  sim_run

/-- Stretch 5 (16 operations) against w1_i1. -/
theorem sim_5 :
    Sim (Val := Elt F) P5 (Cert.KernelIdeal.Gen.hostOps0_5 (F := F)) [Cert.ReferenceIdeal.Run.w1_i1 (F := F)] P6 := by
  sim_run

end Cert.Plaquette.Fwd

end
-- ==== Proof.Plaquette.FwdB.lean ====
/- script-made: scratch/make_fwd.js <unit dir> 143799_j35253091566215_1_alg — the forward simulation of stretch 6 of the plaquette chain against the reference's lists -/
import proofs.«143799_j35253091566215_1_alg».proof.Proof.Gen.KernelIdeal.Launch
import proofs.«143799_j35253091566215_1_alg».proof.Proof.Reference.Ops
import proofs.«143799_j35253091566215_1_alg».proof.Proof.Plaquette.FwdLive

set_option maxRecDepth 16384

noncomputable section

namespace Cert.Plaquette.Fwd

open Idealize.ShloMosaic Idealize.ShloMosaic.TcCoe Idealize.SL.Sem

variable {F : FTy → Type} [FloatOps F]

/-- Stretch 6 (113 operations) against w1_i2, w2_i0, w3_i0. -/
theorem sim_6 :
    Sim (Val := Elt F) P6 (Cert.KernelIdeal.Gen.hostOps0_6 (F := F)) [Cert.ReferenceIdeal.Run.w1_i2 (F := F), Cert.ReferenceIdeal.Run.w2_i0 (F := F), Cert.ReferenceIdeal.Run.w3_i0 (F := F)] P7 := by
  sim_run

end Cert.Plaquette.Fwd

end
-- ==== Proof.Plaquette.FwdC.lean ====
/- script-made: scratch/make_fwd.js <unit dir> 143799_j35253091566215_1_alg — the forward simulation of stretches 7 to 9 of the plaquette chain against the reference's lists -/
import proofs.«143799_j35253091566215_1_alg».proof.Proof.Gen.KernelIdeal.Launch
import proofs.«143799_j35253091566215_1_alg».proof.Proof.Reference.Ops
import proofs.«143799_j35253091566215_1_alg».proof.Proof.Plaquette.FwdLive

set_option maxRecDepth 16384

noncomputable section

namespace Cert.Plaquette.Fwd

open Idealize.ShloMosaic Idealize.ShloMosaic.TcCoe Idealize.SL.Sem

variable {F : FTy → Type} [FloatOps F]

/-- Stretch 7 (16 operations) against w3_i1. -/
theorem sim_7 :
    Sim (Val := Elt F) P7 (Cert.KernelIdeal.Gen.hostOps0_7 (F := F)) [Cert.ReferenceIdeal.Run.w3_i1 (F := F)] P8 := by
  sim_run

/-- Stretch 8 (39 operations) against w3_i2, w4_i0. -/
theorem sim_8 :
    Sim (Val := Elt F) P8 (Cert.KernelIdeal.Gen.hostOps0_8 (F := F)) [Cert.ReferenceIdeal.Run.w3_i2 (F := F), Cert.ReferenceIdeal.Run.w4_i0 (F := F)] P9 := by
  sim_run

/-- Stretch 9 (16 operations) against w4_i1. -/
theorem sim_9 :
    Sim (Val := Elt F) P9 (Cert.KernelIdeal.Gen.hostOps0_9 (F := F)) [Cert.ReferenceIdeal.Run.w4_i1 (F := F)] P10 := by
  sim_run

end Cert.Plaquette.Fwd

end
-- ==== Proof.Plaquette.FwdD.lean ====
/- script-made: scratch/make_fwd.js <unit dir> 143799_j35253091566215_1_alg — the forward simulation of stretch 10 of the plaquette chain against the reference's lists -/
import proofs.«143799_j35253091566215_1_alg».proof.Proof.Gen.KernelIdeal.Launch
import proofs.«143799_j35253091566215_1_alg».proof.Proof.Reference.Ops
import proofs.«143799_j35253091566215_1_alg».proof.Proof.Plaquette.FwdLive

set_option maxRecDepth 16384

noncomputable section

namespace Cert.Plaquette.Fwd

open Idealize.ShloMosaic Idealize.ShloMosaic.TcCoe Idealize.SL.Sem

variable {F : FTy → Type} [FloatOps F]

/-- Stretch 10 (113 operations) against w4_i2, w5_i0, w6_i0. -/
theorem sim_10 :
    Sim (Val := Elt F) P10 (Cert.KernelIdeal.Gen.hostOps0_10 (F := F)) [Cert.ReferenceIdeal.Run.w4_i2 (F := F), Cert.ReferenceIdeal.Run.w5_i0 (F := F), Cert.ReferenceIdeal.Run.w6_i0 (F := F)] P11 := by
  sim_run

end Cert.Plaquette.Fwd

end
-- ==== Proof.Plaquette.FwdE.lean ====
/- script-made: scratch/make_fwd.js <unit dir> 143799_j35253091566215_1_alg — the forward simulation of stretches 11 to 13 of the plaquette chain against the reference's lists -/
import proofs.«143799_j35253091566215_1_alg».proof.Proof.Gen.KernelIdeal.Launch
import proofs.«143799_j35253091566215_1_alg».proof.Proof.Reference.Ops
import proofs.«143799_j35253091566215_1_alg».proof.Proof.Plaquette.FwdLive

set_option maxRecDepth 16384

noncomputable section

namespace Cert.Plaquette.Fwd

open Idealize.ShloMosaic Idealize.ShloMosaic.TcCoe Idealize.SL.Sem

variable {F : FTy → Type} [FloatOps F]

/-- Stretch 11 (16 operations) against w6_i1. -/
theorem sim_11 :
    Sim (Val := Elt F) P11 (Cert.KernelIdeal.Gen.hostOps0_11 (F := F)) [Cert.ReferenceIdeal.Run.w6_i1 (F := F)] P12 := by
  sim_run

/-- Stretch 12 (39 operations) against w6_i2. -/
theorem sim_12 :
    Sim (Val := Elt F) P12 (Cert.KernelIdeal.Gen.hostOps0_12 (F := F)) [Cert.ReferenceIdeal.Run.w6_i2 (F := F)] P13 := by
  sim_run

/-- Stretch 13 (16 operations) against w6_i3. -/
theorem sim_13 :
    Sim (Val := Elt F) P13 (Cert.KernelIdeal.Gen.hostOps0_13 (F := F)) [Cert.ReferenceIdeal.Run.w6_i3 (F := F)] P14 := by
  sim_run

end Cert.Plaquette.Fwd

end
-- ==== Proof.Plaquette.FwdF.lean ====
/- script-made: scratch/make_fwd.js <unit dir> 143799_j35253091566215_1_alg — the forward simulation of stretch 14 of the plaquette chain against the reference's lists -/
import proofs.«143799_j35253091566215_1_alg».proof.Proof.Gen.KernelIdeal.Launch
import proofs.«143799_j35253091566215_1_alg».proof.Proof.Reference.Ops
import proofs.«143799_j35253091566215_1_alg».proof.Proof.Plaquette.FwdLive

set_option maxRecDepth 16384

noncomputable section

namespace Cert.Plaquette.Fwd

open Idealize.ShloMosaic Idealize.ShloMosaic.TcCoe Idealize.SL.Sem

variable {F : FTy → Type} [FloatOps F]

/-- Stretch 14 (113 operations) against w6_i4, w7_i0, w8_i0. -/
theorem sim_14 :
    Sim (Val := Elt F) P14 (Cert.KernelIdeal.Gen.hostOps0_14 (F := F)) [Cert.ReferenceIdeal.Run.w6_i4 (F := F), Cert.ReferenceIdeal.Run.w7_i0 (F := F), Cert.ReferenceIdeal.Run.w8_i0 (F := F)] P15 := by
  sim_run

end Cert.Plaquette.Fwd

end
-- ==== Proof.Plaquette.FwdG.lean ====
/- script-made: scratch/make_fwd.js <unit dir> 143799_j35253091566215_1_alg — the forward simulation of stretches 15 to 17 of the plaquette chain against the reference's lists -/
import proofs.«143799_j35253091566215_1_alg».proof.Proof.Gen.KernelIdeal.Launch
import proofs.«143799_j35253091566215_1_alg».proof.Proof.Reference.Ops
import proofs.«143799_j35253091566215_1_alg».proof.Proof.Plaquette.FwdLive

set_option maxRecDepth 16384

noncomputable section

namespace Cert.Plaquette.Fwd

open Idealize.ShloMosaic Idealize.ShloMosaic.TcCoe Idealize.SL.Sem

variable {F : FTy → Type} [FloatOps F]

/-- Stretch 15 (16 operations) against w8_i1. -/
theorem sim_15 :
    Sim (Val := Elt F) P15 (Cert.KernelIdeal.Gen.hostOps0_15 (F := F)) [Cert.ReferenceIdeal.Run.w8_i1 (F := F)] P16 := by
  sim_run

/-- Stretch 16 (39 operations) against w8_i2, w9_i0. -/
theorem sim_16 :
    Sim (Val := Elt F) P16 (Cert.KernelIdeal.Gen.hostOps0_16 (F := F)) [Cert.ReferenceIdeal.Run.w8_i2 (F := F), Cert.ReferenceIdeal.Run.w9_i0 (F := F)] P17 := by
  sim_run

/-- Stretch 17 (16 operations) against w9_i1. -/
theorem sim_17 :
    Sim (Val := Elt F) P17 (Cert.KernelIdeal.Gen.hostOps0_17 (F := F)) [Cert.ReferenceIdeal.Run.w9_i1 (F := F)] P18 := by
  sim_run

end Cert.Plaquette.Fwd

end
-- ==== Proof.Plaquette.FwdH.lean ====
/- script-made: scratch/make_fwd.js <unit dir> 143799_j35253091566215_1_alg — the forward simulation of stretch 18 of the plaquette chain against the reference's lists -/
import proofs.«143799_j35253091566215_1_alg».proof.Proof.Gen.KernelIdeal.Launch
import proofs.«143799_j35253091566215_1_alg».proof.Proof.Reference.Ops
import proofs.«143799_j35253091566215_1_alg».proof.Proof.Plaquette.FwdLive

set_option maxRecDepth 16384

noncomputable section

namespace Cert.Plaquette.Fwd

open Idealize.ShloMosaic Idealize.ShloMosaic.TcCoe Idealize.SL.Sem

variable {F : FTy → Type} [FloatOps F]

/-- Stretch 18 (113 operations) against w9_i2, w10_i0, w11_i0. -/
theorem sim_18 :
    Sim (Val := Elt F) P18 (Cert.KernelIdeal.Gen.hostOps0_18 (F := F)) [Cert.ReferenceIdeal.Run.w9_i2 (F := F), Cert.ReferenceIdeal.Run.w10_i0 (F := F), Cert.ReferenceIdeal.Run.w11_i0 (F := F)] P19 := by
  sim_run

end Cert.Plaquette.Fwd

end
-- ==== Proof.Plaquette.FwdI.lean ====
/- script-made: scratch/make_fwd.js <unit dir> 143799_j35253091566215_1_alg — the forward simulation of stretches 19 to 21 of the plaquette chain against the reference's lists -/
import proofs.«143799_j35253091566215_1_alg».proof.Proof.Gen.KernelIdeal.Launch
import proofs.«143799_j35253091566215_1_alg».proof.Proof.Reference.Ops
import proofs.«143799_j35253091566215_1_alg».proof.Proof.Plaquette.FwdLive

set_option maxRecDepth 16384

noncomputable section

namespace Cert.Plaquette.Fwd

open Idealize.ShloMosaic Idealize.ShloMosaic.TcCoe Idealize.SL.Sem

variable {F : FTy → Type} [FloatOps F]

/-- Stretch 19 (16 operations) against w11_i1. -/
theorem sim_19 :
    Sim (Val := Elt F) P19 (Cert.KernelIdeal.Gen.hostOps0_19 (F := F)) [Cert.ReferenceIdeal.Run.w11_i1 (F := F)] P20 := by
  sim_run

/-- Stretch 20 (39 operations) against w11_i2. -/
theorem sim_20 :
    Sim (Val := Elt F) P20 (Cert.KernelIdeal.Gen.hostOps0_20 (F := F)) [Cert.ReferenceIdeal.Run.w11_i2 (F := F)] P21 := by
  sim_run

/-- Stretch 21 (16 operations) against w11_i3. -/
theorem sim_21 :
    Sim (Val := Elt F) P21 (Cert.KernelIdeal.Gen.hostOps0_21 (F := F)) [Cert.ReferenceIdeal.Run.w11_i3 (F := F)] P22 := by
  sim_run

end Cert.Plaquette.Fwd

end
-- ==== Proof.Plaquette.FwdJ.lean ====
/- script-made: scratch/make_fwd.js <unit dir> 143799_j35253091566215_1_alg — the forward simulation of stretch 22 of the plaquette chain against the reference's lists -/
import proofs.«143799_j35253091566215_1_alg».proof.Proof.Gen.KernelIdeal.Launch
import proofs.«143799_j35253091566215_1_alg».proof.Proof.Reference.Ops
import proofs.«143799_j35253091566215_1_alg».proof.Proof.Plaquette.FwdLive

set_option maxRecDepth 16384

noncomputable section

namespace Cert.Plaquette.Fwd

open Idealize.ShloMosaic Idealize.ShloMosaic.TcCoe Idealize.SL.Sem

variable {F : FTy → Type} [FloatOps F]

/-- Stretch 22 (113 operations) against w11_i4, w12_i0, w13_i0. -/
theorem sim_22 :
    Sim (Val := Elt F) P22 (Cert.KernelIdeal.Gen.hostOps0_22 (F := F)) [Cert.ReferenceIdeal.Run.w11_i4 (F := F), Cert.ReferenceIdeal.Run.w12_i0 (F := F), Cert.ReferenceIdeal.Run.w13_i0 (F := F)] P23 := by
  sim_run

end Cert.Plaquette.Fwd

end
-- ==== Proof.Plaquette.FwdK.lean ====
/- script-made: scratch/make_fwd.js <unit dir> 143799_j35253091566215_1_alg — the forward simulation of stretches 23 to 25 of the plaquette chain against the reference's lists -/
import proofs.«143799_j35253091566215_1_alg».proof.Proof.Gen.KernelIdeal.Launch
import proofs.«143799_j35253091566215_1_alg».proof.Proof.Reference.Ops
import proofs.«143799_j35253091566215_1_alg».proof.Proof.Plaquette.FwdLive

set_option maxRecDepth 16384

noncomputable section

namespace Cert.Plaquette.Fwd

open Idealize.ShloMosaic Idealize.ShloMosaic.TcCoe Idealize.SL.Sem

variable {F : FTy → Type} [FloatOps F]

/-- Stretch 23 (16 operations) against w13_i1. -/
theorem sim_23 :
    Sim (Val := Elt F) P23 (Cert.KernelIdeal.Gen.hostOps0_23 (F := F)) [Cert.ReferenceIdeal.Run.w13_i1 (F := F)] P24 := by
  sim_run

/-- Stretch 24 (39 operations) against w13_i2, w14_i0. -/
theorem sim_24 :
    Sim (Val := Elt F) P24 (Cert.KernelIdeal.Gen.hostOps0_24 (F := F)) [Cert.ReferenceIdeal.Run.w13_i2 (F := F), Cert.ReferenceIdeal.Run.w14_i0 (F := F)] P25 := by
  sim_run

/-- Stretch 25 (16 operations) against w14_i1. -/
theorem sim_25 :
    Sim (Val := Elt F) P25 (Cert.KernelIdeal.Gen.hostOps0_25 (F := F)) [Cert.ReferenceIdeal.Run.w14_i1 (F := F)] P26 := by
  sim_run

end Cert.Plaquette.Fwd

end
-- ==== Proof.Plaquette.FwdL.lean ====
/- script-made: scratch/make_fwd.js <unit dir> 143799_j35253091566215_1_alg — the forward simulation of stretch 26 of the plaquette chain against the reference's lists -/
import proofs.«143799_j35253091566215_1_alg».proof.Proof.Gen.KernelIdeal.Launch
import proofs.«143799_j35253091566215_1_alg».proof.Proof.Reference.Ops
import proofs.«143799_j35253091566215_1_alg».proof.Proof.Plaquette.FwdLive

set_option maxRecDepth 16384

noncomputable section

namespace Cert.Plaquette.Fwd

open Idealize.ShloMosaic Idealize.ShloMosaic.TcCoe Idealize.SL.Sem

variable {F : FTy → Type} [FloatOps F]

/-- Stretch 26 (80 operations) against w14_i2, w15_i0, w16_i0. -/
theorem sim_26 :
    Sim (Val := Elt F) P26 (Cert.KernelIdeal.Gen.hostOps0_26 (F := F)) [Cert.ReferenceIdeal.Run.w14_i2 (F := F), Cert.ReferenceIdeal.Run.w15_i0 (F := F), Cert.ReferenceIdeal.Run.w16_i0 (F := F)] P27 := by
  sim_run

end Cert.Plaquette.Fwd

end
-- ==== Proof.Plaquette.FwdChain.lean ====
/- script-made: scratch/make_fwd.js <unit dir> 143799_j35253091566215_1_alg — the 27 stretch simulations composed, the reference's fold written list by list, and the plaquette equality -/
import proofs.«143799_j35253091566215_1_alg».proof.Proof.Plaquette.FwdA
import proofs.«143799_j35253091566215_1_alg».proof.Proof.Plaquette.FwdB
import proofs.«143799_j35253091566215_1_alg».proof.Proof.Plaquette.FwdC
import proofs.«143799_j35253091566215_1_alg».proof.Proof.Plaquette.FwdD
import proofs.«143799_j35253091566215_1_alg».proof.Proof.Plaquette.FwdE
import proofs.«143799_j35253091566215_1_alg».proof.Proof.Plaquette.FwdF
import proofs.«143799_j35253091566215_1_alg».proof.Proof.Plaquette.FwdG
import proofs.«143799_j35253091566215_1_alg».proof.Proof.Plaquette.FwdH
import proofs.«143799_j35253091566215_1_alg».proof.Proof.Plaquette.FwdI
import proofs.«143799_j35253091566215_1_alg».proof.Proof.Plaquette.FwdJ
import proofs.«143799_j35253091566215_1_alg».proof.Proof.Plaquette.FwdK
import proofs.«143799_j35253091566215_1_alg».proof.Proof.Plaquette.FwdL
import proofs.«143799_j35253091566215_1_alg».proof.Proof.Ideal.Fold
import Idealize.ShloMosaic.Lib.Pipeline.Frame

set_option maxRecDepth 16384

noncomputable section

namespace Cert.Plaquette.Fwd

open Idealize.ShloMosaic Idealize.ShloMosaic.TcCoe Idealize.SL.Sem

variable {F : FTy → Type} [FloatOps F]

/-- The 27 stretches one after the other: contents related at launch end related at the plaquette's result. -/
theorem rel_all (F₁ : Valuation Cert.KernelIdeal.τ Cert.KernelIdeal.sig (Elt F)) (F₂ : Valuation Cert.ReferenceIdeal.τ Cert.ReferenceIdeal.sig (Elt F)) (h : Rel P0 F₁ F₂) :
    Rel P27
      (StableHlo.after Cert.KernelIdeal.Gen.hostOps0_26
      (StableHlo.after Cert.KernelIdeal.Gen.hostOps0_25
      (StableHlo.after Cert.KernelIdeal.Gen.hostOps0_24
      (StableHlo.after Cert.KernelIdeal.Gen.hostOps0_23
      (StableHlo.after Cert.KernelIdeal.Gen.hostOps0_22
      (StableHlo.after Cert.KernelIdeal.Gen.hostOps0_21
      (StableHlo.after Cert.KernelIdeal.Gen.hostOps0_20
      (StableHlo.after Cert.KernelIdeal.Gen.hostOps0_19
      (StableHlo.after Cert.KernelIdeal.Gen.hostOps0_18
      (StableHlo.after Cert.KernelIdeal.Gen.hostOps0_17
      (StableHlo.after Cert.KernelIdeal.Gen.hostOps0_16
      (StableHlo.after Cert.KernelIdeal.Gen.hostOps0_15
      (StableHlo.after Cert.KernelIdeal.Gen.hostOps0_14
      (StableHlo.after Cert.KernelIdeal.Gen.hostOps0_13
      (StableHlo.after Cert.KernelIdeal.Gen.hostOps0_12
      (StableHlo.after Cert.KernelIdeal.Gen.hostOps0_11
      (StableHlo.after Cert.KernelIdeal.Gen.hostOps0_10
      (StableHlo.after Cert.KernelIdeal.Gen.hostOps0_9
      (StableHlo.after Cert.KernelIdeal.Gen.hostOps0_8
      (StableHlo.after Cert.KernelIdeal.Gen.hostOps0_7
      (StableHlo.after Cert.KernelIdeal.Gen.hostOps0_6
      (StableHlo.after Cert.KernelIdeal.Gen.hostOps0_5
      (StableHlo.after Cert.KernelIdeal.Gen.hostOps0_4
      (StableHlo.after Cert.KernelIdeal.Gen.hostOps0_3
      (StableHlo.after Cert.KernelIdeal.Gen.hostOps0_2
      (StableHlo.after Cert.KernelIdeal.Gen.hostOps0_1
      (StableHlo.after Cert.KernelIdeal.Gen.hostOps0
      F₁)))))))))))))))))))))))))))
      (StableHlo.after [Cert.ReferenceIdeal.Run.w14_i2 (F := F), Cert.ReferenceIdeal.Run.w15_i0 (F := F), Cert.ReferenceIdeal.Run.w16_i0 (F := F)].flatten
      (StableHlo.after [Cert.ReferenceIdeal.Run.w14_i1 (F := F)].flatten
      (StableHlo.after [Cert.ReferenceIdeal.Run.w13_i2 (F := F), Cert.ReferenceIdeal.Run.w14_i0 (F := F)].flatten
      (StableHlo.after [Cert.ReferenceIdeal.Run.w13_i1 (F := F)].flatten
      (StableHlo.after [Cert.ReferenceIdeal.Run.w11_i4 (F := F), Cert.ReferenceIdeal.Run.w12_i0 (F := F), Cert.ReferenceIdeal.Run.w13_i0 (F := F)].flatten
      (StableHlo.after [Cert.ReferenceIdeal.Run.w11_i3 (F := F)].flatten
      (StableHlo.after [Cert.ReferenceIdeal.Run.w11_i2 (F := F)].flatten
      (StableHlo.after [Cert.ReferenceIdeal.Run.w11_i1 (F := F)].flatten
      (StableHlo.after [Cert.ReferenceIdeal.Run.w9_i2 (F := F), Cert.ReferenceIdeal.Run.w10_i0 (F := F), Cert.ReferenceIdeal.Run.w11_i0 (F := F)].flatten
      (StableHlo.after [Cert.ReferenceIdeal.Run.w9_i1 (F := F)].flatten
      (StableHlo.after [Cert.ReferenceIdeal.Run.w8_i2 (F := F), Cert.ReferenceIdeal.Run.w9_i0 (F := F)].flatten
      (StableHlo.after [Cert.ReferenceIdeal.Run.w8_i1 (F := F)].flatten
      (StableHlo.after [Cert.ReferenceIdeal.Run.w6_i4 (F := F), Cert.ReferenceIdeal.Run.w7_i0 (F := F), Cert.ReferenceIdeal.Run.w8_i0 (F := F)].flatten
      (StableHlo.after [Cert.ReferenceIdeal.Run.w6_i3 (F := F)].flatten
      (StableHlo.after [Cert.ReferenceIdeal.Run.w6_i2 (F := F)].flatten
      (StableHlo.after [Cert.ReferenceIdeal.Run.w6_i1 (F := F)].flatten
      (StableHlo.after [Cert.ReferenceIdeal.Run.w4_i2 (F := F), Cert.ReferenceIdeal.Run.w5_i0 (F := F), Cert.ReferenceIdeal.Run.w6_i0 (F := F)].flatten
      (StableHlo.after [Cert.ReferenceIdeal.Run.w4_i1 (F := F)].flatten
      (StableHlo.after [Cert.ReferenceIdeal.Run.w3_i2 (F := F), Cert.ReferenceIdeal.Run.w4_i0 (F := F)].flatten
      (StableHlo.after [Cert.ReferenceIdeal.Run.w3_i1 (F := F)].flatten
      (StableHlo.after [Cert.ReferenceIdeal.Run.w1_i2 (F := F), Cert.ReferenceIdeal.Run.w2_i0 (F := F), Cert.ReferenceIdeal.Run.w3_i0 (F := F)].flatten
      (StableHlo.after [Cert.ReferenceIdeal.Run.w1_i1 (F := F)].flatten
      (StableHlo.after [Cert.ReferenceIdeal.Run.w0_i4 (F := F), Cert.ReferenceIdeal.Run.w1_i0 (F := F)].flatten
      (StableHlo.after [Cert.ReferenceIdeal.Run.w0_i3 (F := F)].flatten
      (StableHlo.after [Cert.ReferenceIdeal.Run.w0_i2 (F := F)].flatten
      (StableHlo.after [Cert.ReferenceIdeal.Run.w0_i1 (F := F)].flatten
      (StableHlo.after [Cert.ReferenceIdeal.Run.w0_i0 (F := F)].flatten
      F₂))))))))))))))))))))))))))) :=
  (sim_26 _ _ (sim_25 _ _ (sim_24 _ _ (sim_23 _ _ (sim_22 _ _ (sim_21 _ _ (sim_20 _ _ (sim_19 _ _ (sim_18 _ _ (sim_17 _ _ (sim_16 _ _ (sim_15 _ _ (sim_14 _ _ (sim_13 _ _ (sim_12 _ _ (sim_11 _ _ (sim_10 _ _ (sim_9 _ _ (sim_8 _ _ (sim_7 _ _ (sim_6 _ _ (sim_5 _ _ (sim_4 _ _ (sim_3 _ _ (sim_2 _ _ (sim_1 _ _ (sim_0 _ _ h)))))))))))))))))))))))))))

/-- The reference's fold over the stretches' lists, cut by cut, is its fold over all its lists. -/
theorem ref_fold (V : Valuation Cert.ReferenceIdeal.τ Cert.ReferenceIdeal.sig (Elt F)) :
    (StableHlo.after [Cert.ReferenceIdeal.Run.w14_i2 (F := F), Cert.ReferenceIdeal.Run.w15_i0 (F := F), Cert.ReferenceIdeal.Run.w16_i0 (F := F)].flatten
      (StableHlo.after [Cert.ReferenceIdeal.Run.w14_i1 (F := F)].flatten
      (StableHlo.after [Cert.ReferenceIdeal.Run.w13_i2 (F := F), Cert.ReferenceIdeal.Run.w14_i0 (F := F)].flatten
      (StableHlo.after [Cert.ReferenceIdeal.Run.w13_i1 (F := F)].flatten
      (StableHlo.after [Cert.ReferenceIdeal.Run.w11_i4 (F := F), Cert.ReferenceIdeal.Run.w12_i0 (F := F), Cert.ReferenceIdeal.Run.w13_i0 (F := F)].flatten
      (StableHlo.after [Cert.ReferenceIdeal.Run.w11_i3 (F := F)].flatten
      (StableHlo.after [Cert.ReferenceIdeal.Run.w11_i2 (F := F)].flatten
      (StableHlo.after [Cert.ReferenceIdeal.Run.w11_i1 (F := F)].flatten
      (StableHlo.after [Cert.ReferenceIdeal.Run.w9_i2 (F := F), Cert.ReferenceIdeal.Run.w10_i0 (F := F), Cert.ReferenceIdeal.Run.w11_i0 (F := F)].flatten
      (StableHlo.after [Cert.ReferenceIdeal.Run.w9_i1 (F := F)].flatten
      (StableHlo.after [Cert.ReferenceIdeal.Run.w8_i2 (F := F), Cert.ReferenceIdeal.Run.w9_i0 (F := F)].flatten
      (StableHlo.after [Cert.ReferenceIdeal.Run.w8_i1 (F := F)].flatten
      (StableHlo.after [Cert.ReferenceIdeal.Run.w6_i4 (F := F), Cert.ReferenceIdeal.Run.w7_i0 (F := F), Cert.ReferenceIdeal.Run.w8_i0 (F := F)].flatten
      (StableHlo.after [Cert.ReferenceIdeal.Run.w6_i3 (F := F)].flatten
      (StableHlo.after [Cert.ReferenceIdeal.Run.w6_i2 (F := F)].flatten
      (StableHlo.after [Cert.ReferenceIdeal.Run.w6_i1 (F := F)].flatten
      (StableHlo.after [Cert.ReferenceIdeal.Run.w4_i2 (F := F), Cert.ReferenceIdeal.Run.w5_i0 (F := F), Cert.ReferenceIdeal.Run.w6_i0 (F := F)].flatten
      (StableHlo.after [Cert.ReferenceIdeal.Run.w4_i1 (F := F)].flatten
      (StableHlo.after [Cert.ReferenceIdeal.Run.w3_i2 (F := F), Cert.ReferenceIdeal.Run.w4_i0 (F := F)].flatten
      (StableHlo.after [Cert.ReferenceIdeal.Run.w3_i1 (F := F)].flatten
      (StableHlo.after [Cert.ReferenceIdeal.Run.w1_i2 (F := F), Cert.ReferenceIdeal.Run.w2_i0 (F := F), Cert.ReferenceIdeal.Run.w3_i0 (F := F)].flatten
      (StableHlo.after [Cert.ReferenceIdeal.Run.w1_i1 (F := F)].flatten
      (StableHlo.after [Cert.ReferenceIdeal.Run.w0_i4 (F := F), Cert.ReferenceIdeal.Run.w1_i0 (F := F)].flatten
      (StableHlo.after [Cert.ReferenceIdeal.Run.w0_i3 (F := F)].flatten
      (StableHlo.after [Cert.ReferenceIdeal.Run.w0_i2 (F := F)].flatten
      (StableHlo.after [Cert.ReferenceIdeal.Run.w0_i1 (F := F)].flatten
      (StableHlo.after [Cert.ReferenceIdeal.Run.w0_i0 (F := F)].flatten
      V)))))))))))))))))))))))))))
      = StableHlo.after (Cert.ReferenceIdeal.Run.items (F := F)).flatten V := by
  simp only [Cert.ReferenceIdeal.Run.items, List.flatten_cons, List.flatten_nil, List.append_nil, StableHlo.after_append]

/-- THE PLAQUETTE EQUALITY: from launch memories that agree on the two arguments the chain reads, the kernel program's
    plaquette buffer when its first region is entered holds what the reference's holds at its end. -/
theorem plaq_eq (mK : (ℓ : Loc Cert.KernelIdeal.nD Cert.KernelIdeal.τ Cert.KernelIdeal.sig) → Buf (Elt F) ℓ) (mR : (ℓ : Loc Cert.ReferenceIdeal.nD Cert.ReferenceIdeal.τ Cert.ReferenceIdeal.sig) → Buf (Elt F) ℓ)
    (ρ : Dev Cert.KernelIdeal.nD → PrngReg) (c : Dev Cert.KernelIdeal.nD)
    (h0 : mR ((c : Thread Cert.ReferenceIdeal.nD Cert.ReferenceIdeal.τ).loc Cert.ReferenceIdeal.main_arg0) = mK ((c : Thread Cert.KernelIdeal.nD Cert.KernelIdeal.τ).loc Cert.KernelIdeal.main_arg0))
    (h1 : mR ((c : Thread Cert.ReferenceIdeal.nD Cert.ReferenceIdeal.τ).loc Cert.ReferenceIdeal.main_arg1) = mK ((c : Thread Cert.KernelIdeal.nD Cert.KernelIdeal.τ).loc Cert.KernelIdeal.main_arg1)) :
    Cert.KernelIdeal.Run.W27 mK ρ c (Proc.devRef .tc Cert.KernelIdeal.main_v616)
      = StableHlo.after (Cert.ReferenceIdeal.Run.items (F := F)).flatten (StableHlo.launchContents mR c) (Proc.devRef .tc Cert.ReferenceIdeal.main_v626) := by
  have h : Rel P0 (Cert.KernelIdeal.Run.W0 mK ρ c) (StableHlo.launchContents mR c) := by
    intro p hp
    rcases List.mem_cons.mp hp with rfl | hp
    · exact heq_of_eq h0.symm
    rcases List.mem_cons.mp hp with rfl | hp
    · exact heq_of_eq h1.symm
    · cases hp
  have h' := rel_all _ _ h
  rw [ref_fold] at h'
  exact eq_of_heq (h' ⟨Cert.KernelIdeal.main_v616, Cert.ReferenceIdeal.main_v626⟩ (List.mem_singleton_self _))

end Cert.Plaquette.Fwd

end
-- ==== Proof.Algebraic.lean ====
import proofs.«143799_j35253091566215_1_alg».proof.Defs
import proofs.«143799_j35253091566215_1_alg».proof.Proof.Gen.KernelIdeal
import proofs.«143799_j35253091566215_1_alg».proof.Proof.Gen.ReferenceIdeal
import proofs.«143799_j35253091566215_1_alg».proof.Proof.Gen.Pre_finite_inputs
import proofs.«143799_j35253091566215_1_alg».proof.Proof.Ideal.Run
import proofs.«143799_j35253091566215_1_alg».proof.Proof.Ideal.ArgsKept
import proofs.«143799_j35253091566215_1_alg».proof.Proof.Value.Field
import proofs.«143799_j35253091566215_1_alg».proof.Proof.Value.Wilson
import proofs.«143799_j35253091566215_1_alg».proof.Proof.Value.Topology
import proofs.«143799_j35253091566215_1_alg».proof.Proof.Reference.Kept
import proofs.«143799_j35253091566215_1_alg».proof.Proof.Reference.Value
import proofs.«143799_j35253091566215_1_alg».proof.Proof.Plaquette.FwdChain
import proofs.«143799_j35253091566215_1_alg».proof.Proof.Spec
import Idealize.ShloMosaic.Lib.ValueIdx
import Idealize.ShloMosaic.PureOps.Ideal

set_option maxRecDepth 16384

noncomputable section

namespace Cert.Proof.Algebraic

open Idealize.ShloMosaic Idealize.ShloMosaic.TcCoe Idealize.SL.Sem Idealize.ShloMosaic.ValueIdx
open Cert.KernelIdeal.Run (W27 W28 W32 V27 V29 V31)

-- Entry by entry each dense result is one function of its operands on both sides: the reference's of its launch
-- arguments, the kernel's of its region's entry arrays, which are the arguments (and its own field result) narrowed,
-- the identity on the extended reals. The plaquette scalar is the same chain of operations on arguments that agree.
theorem algebraic : Cert.algebraic_KernelIdeal_ReferenceIdeal := by
  intro m ρ m' ρ' _ hagree
  refine ⟨fun c => W32 m ρ c (Proc.devRef .tc Cert.KernelIdeal.main_v620), fun c => W32 m ρ c (Proc.devRef .tc Cert.KernelIdeal.main_v625),
    fun c => W32 m ρ c (Proc.devRef .tc Cert.KernelIdeal.main_v628), fun c => W32 m ρ c (Proc.devRef .tc Cert.KernelIdeal.main_v616), ?_, ?_⟩
  · refine (θ_run _ _ _).mono (fun r h c => ?_) (Cert.KernelIdeal.Run.run_main (F := Ideal) m ρ)
    have k := fun (a : Ref Cert.KernelIdeal.sig .tc) (ha : a ∈ Cert.KernelIdeal.Run.argRefs) =>
      (h c _ (Cert.KernelIdeal.Run.mem_uc a ((by decide : ∀ a ∈ Cert.KernelIdeal.Run.argRefs, ¬ (Proc.devRef .tc a : DevRef Cert.KernelIdeal.τ Cert.KernelIdeal.sig).isScoped) a ha))).trans
        (Cert.KernelIdeal.Run.W32_arg m ρ c ha)
    exact ⟨h c _ (Cert.KernelIdeal.Run.mem_uc Cert.KernelIdeal.main_v620 (by decide)), h c _ (Cert.KernelIdeal.Run.mem_uc Cert.KernelIdeal.main_v625 (by decide)),
      h c _ (Cert.KernelIdeal.Run.mem_uc Cert.KernelIdeal.main_v628 (by decide)), h c _ (Cert.KernelIdeal.Run.mem_uc Cert.KernelIdeal.main_v616 (by decide)), k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide)⟩
  · refine (θ_run _ _ _).mono (fun r h c => ?_) (Cert.ReferenceIdeal.Run.run (F := Ideal) m' ρ')
    obtain ⟨a0, a1, a2, a3, a4, a5, a6, a7, a8, a9, a10, a11, a12, a13, a14, a15⟩ := hagree c
    have hf : StableHlo.after (Cert.ReferenceIdeal.Run.items (F := Ideal)).flatten (StableHlo.launchContents m' c) (Proc.devRef .tc Cert.ReferenceIdeal.main_v9)
        = W32 m ρ c (Proc.devRef .tc Cert.KernelIdeal.main_v620) := by
      funext j
      obtain ⟨p, q, rfl⟩ : ∃ (p : Fin 16384) (q : Fin 4096), j = ix2 p q := ⟨j 0, j 1, eq_ix2 j⟩
      refine (Cert.ReferenceIdeal.RefValue.field_at m' c p q).trans ?_
      rw [Cert.KernelIdeal.Run.W32_v620 m ρ c]
      refine Eq.trans ?_ (Cert.KernelIdeal.FieldValue.final (V27 m ρ) c p q).symm
      rw [Cert.KernelIdeal.Run.V27_v617 m ρ c, Cert.KernelIdeal.Run.V27_v618 m ρ c, Cert.KernelIdeal.Run.V27_v619 m ρ c,
        Cert.KernelIdeal.Run.V27_arg m ρ c (r := Cert.KernelIdeal.main_arg3) (by decide), Cert.KernelIdeal.Run.V27_arg m ρ c (r := Cert.KernelIdeal.main_arg5) (by decide), a0, a2, a3, a4, a5]
      rfl
    have hx : W28 m ρ c (Proc.devRef .tc Cert.KernelIdeal.main_v620) = W32 m ρ c (Proc.devRef .tc Cert.KernelIdeal.main_v620) :=
      (Cert.KernelIdeal.Run.W28_v620 m ρ c).trans (Cert.KernelIdeal.Run.W32_v620 m ρ c).symm
    have hw : StableHlo.after (Cert.ReferenceIdeal.Run.items (F := Ideal)).flatten (StableHlo.launchContents m' c) (Proc.devRef .tc Cert.ReferenceIdeal.main_v642)
        = W32 m ρ c (Proc.devRef .tc Cert.KernelIdeal.main_v625) := by
      funext j
      obtain ⟨p, q, rfl⟩ : ∃ (p : Fin 16384) (q : Fin 1), j = ix2 p q := ⟨j 0, j 1, eq_ix2 j⟩
      refine (Cert.ReferenceIdeal.RefValue.wilson_at m' c p q).trans ?_
      rw [Cert.KernelIdeal.Run.W32_v625 m ρ c]
      refine Eq.trans ?_ (Cert.KernelIdeal.WilsonValue.final (V29 m ρ) c p q).symm
      rw [Cert.KernelIdeal.Run.V29_v621 m ρ c, Cert.KernelIdeal.Run.V29_v622 m ρ c, Cert.KernelIdeal.Run.V29_v623 m ρ c, Cert.KernelIdeal.Run.V29_v624 m ρ c,
        Cert.KernelIdeal.Run.V29_arg m ρ c (r := Cert.KernelIdeal.main_arg7) (by decide), Cert.KernelIdeal.Run.V29_arg m ρ c (r := Cert.KernelIdeal.main_arg9) (by decide),
        Cert.KernelIdeal.Run.V29_arg m ρ c (r := Cert.KernelIdeal.main_arg11) (by decide), hx, ← hf, a6, a7, a8, a9, a10, a11]
      rfl
    have ht : StableHlo.after (Cert.ReferenceIdeal.Run.items (F := Ideal)).flatten (StableHlo.launchContents m' c) (Proc.devRef .tc Cert.ReferenceIdeal.main_v652)
        = W32 m ρ c (Proc.devRef .tc Cert.KernelIdeal.main_v628) := by
      funext j
      obtain ⟨p, q, rfl⟩ : ∃ (p : Fin 16384) (q : Fin 1), j = ix2 p q := ⟨j 0, j 1, eq_ix2 j⟩
      refine (Cert.ReferenceIdeal.RefValue.topology_at m' c p q).trans ?_
      rw [Cert.KernelIdeal.Run.W32_v628 m ρ c]
      refine Eq.trans ?_ (Cert.KernelIdeal.TopologyValue.final (V31 m ρ) c p q).symm
      rw [Cert.KernelIdeal.Run.V31_v621 m ρ c, Cert.KernelIdeal.Run.V29_v621 m ρ c, Cert.KernelIdeal.Run.V31_v626 m ρ c, Cert.KernelIdeal.Run.V31_v627 m ρ c,
        Cert.KernelIdeal.Run.V31_arg m ρ c (r := Cert.KernelIdeal.main_arg13) (by decide), Cert.KernelIdeal.Run.V31_arg m ρ c (r := Cert.KernelIdeal.main_arg15) (by decide),
        hx, ← hf, a12, a13, a14, a15]
      rfl
    have k := fun (a : Ref Cert.ReferenceIdeal.sig .tc) (ha : a ∈ Cert.ReferenceIdeal.Run.argRefs) => (h c a).trans (Cert.ReferenceIdeal.Run.kept_arg m' c ha)
    exact ⟨(h c Cert.ReferenceIdeal.main_v9).trans hf, (h c Cert.ReferenceIdeal.main_v642).trans hw, (h c Cert.ReferenceIdeal.main_v652).trans ht,
      (h c Cert.ReferenceIdeal.main_v626).trans ((Cert.KernelIdeal.Run.W32_v616 m ρ c).trans (Cert.Plaquette.Fwd.plaq_eq (F := Ideal) m m' ρ c a0 a1)).symm, k _ (by decide), k _ (by decide), k _ (by decide), k _ (by decide), k _ (by decide), k _ (by decide), k _ (by decide), k _ (by decide), k _ (by decide), k _ (by decide), k _ (by decide), k _ (by decide), k _ (by decide), k _ (by decide), k _ (by decide), k _ (by decide)⟩

end Cert.Proof.Algebraic

end
-- ==== Proof.lean ====
import proofs.«143799_j35253091566215_1_alg».proof.Defs
import proofs.«143799_j35253091566215_1_alg».proof.Proof.Gen.Kernel
import proofs.«143799_j35253091566215_1_alg».proof.Proof.Gen.KernelIdeal
import proofs.«143799_j35253091566215_1_alg».proof.Proof.Gen.ReferenceIdeal
import proofs.«143799_j35253091566215_1_alg».proof.Proof.Gen.Pre_finite_inputs
import proofs.«143799_j35253091566215_1_alg».proof.Proof.Frames
import proofs.«143799_j35253091566215_1_alg».proof.Proof.Algebraic
import Idealize.ShloMosaic.Adequacy
import Idealize.ShloMosaic.Init

noncomputable section

namespace Cert.Proof

open Idealize.ShloMosaic Idealize.SL.Sem

-- Three dense branches computed block by block and one scalar chain against the same four results on the host; no operation was rewritten for the ideal reading.
theorem claim : Cert.Claim :=
  ⟨Cert.Kernel.Gen.facts, Cert.KernelIdeal.Gen.facts, Cert.ReferenceIdeal.Gen.facts, Cert.Pre_finite_inputs.Gen.facts,
    Frames.frame_kernel, Frames.frame_kernelIdeal, Frames.frame_referenceIdeal, trivial, Algebraic.algebraic⟩

end Cert.Proof

end
